-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S1024x32768 : Shape := ⟨2, ![1024, 32768]⟩
abbrev S_ : Shape := ⟨0, ![]⟩

class Facts : Prop where
  bcast_S_S1024x32768 : S_.BroadcastsInDim S1024x32768 (![] : Fin 0 → Fin S1024x32768.rank)
  reducesTo_S1024x32768_S_d0_1 : S1024x32768.ReducesTo [0, 1] S_
  h_S_ : 0 < S_.numel

variable [Facts]

def fn {F : FTy → Type} [FloatOps F] (main_arg0 : FVec F S1024x32768 .f32) : IVec S_ 1 :=
  let main_v0 : FVec F S1024x32768 .f32 := Host.absf main_arg0
  let main_cst : FVec F S_ .f32 := constant S_ .f32 0x7F800000#32
  let main_v1 : FVec F S1024x32768 .f32 := broadcastInDim S1024x32768 ![] bcast_S_S1024x32768 main_cst
  let main_v2 : IVec S1024x32768 1 := cmpf .olt main_v0 main_v1
  let main_c : IVec S_ 1 := constantI S_ 1 1#1
  let main_v3 : IVec S_ 1 := (fun x v => Host.reduce IntOp.andi x v reducesTo_S1024x32768_S_d0_1 h_S_) main_v2 main_c
  main_v3
-- ==== Kernel.lean ====
abbrev S1024x1024 : Shape := ⟨2, ![1024, 1024]⟩
abbrev S8x2x2x512 : Shape := ⟨4, ![8, 2, 2, 512]⟩
abbrev S4x2x2x512 : Shape := ⟨4, ![4, 2, 2, 512]⟩
abbrev S2x8 : Shape := ⟨2, ![2, 8]⟩
abbrev S2x4 : Shape := ⟨2, ![2, 4]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1x1x1x512 : Shape := ⟨4, ![1, 1, 1, 512]⟩
abbrev S1x1 : Shape := ⟨2, ![1, 1]⟩
abbrev S1x1x2x512 : Shape := ⟨4, ![1, 1, 2, 512]⟩
abbrev S2x512 : Shape := ⟨2, ![2, 512]⟩
abbrev S8x1x1x512 : Shape := ⟨4, ![8, 1, 1, 512]⟩
abbrev S8x512 : Shape := ⟨2, ![8, 512]⟩
abbrev S1x512 : Shape := ⟨2, ![1, 512]⟩
abbrev S4x1x1x512 : Shape := ⟨4, ![4, 1, 1, 512]⟩
abbrev S4x512 : Shape := ⟨2, ![4, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .local _ .vmem, ⟨0, _⟩ => ⟨S1024x1024, .f32⟩
  | .local _ .vmem, ⟨1, _⟩ => ⟨S1024x1024, .bf16⟩
  | .local _ .vmem, ⟨2, _⟩ => ⟨S8x2x2x512, .f32⟩
  | .local _ .vmem, ⟨3, _⟩ => ⟨S4x2x2x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_0 : BitVec 32 := 1#32
  let v6 : BitVec 32 := Scalar.addi v3 c1_i32_0
  let c8_i32_1 : BitVec 32 := 8#32
  let v7 : BitVec 32 := Scalar.remsi v6 c8_i32_1
  let v8 : BitVec 32 := Scalar.addi v4 v7
  let c1_i32_3 : BitVec 32 := 1#32
  let v9 : BitVec 32 := Scalar.muli v8 c1_i32_3
  let v10 : BitVec 32 := Scalar.addi c0_i32 v9
  v10.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c2_i32 : BitVec 32 := 2#32
  let v11 : BitVec 32 := Scalar.addi v3 c2_i32
  let c8_i32_4 : BitVec 32 := 8#32
  let v12 : BitVec 32 := Scalar.remsi v11 c8_i32_4
  let v13 : BitVec 32 := Scalar.addi v4 v12
  let c1_i32_6 : BitVec 32 := 1#32
  let v14 : BitVec 32 := Scalar.muli v13 c1_i32_6
  let v15 : BitVec 32 := Scalar.addi c0_i32_7 v14
  v15.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c3_i32 : BitVec 32 := 3#32
  let v16 : BitVec 32 := Scalar.addi v3 c3_i32
  let c8_i32_8 : BitVec 32 := 8#32
  let v17 : BitVec 32 := Scalar.remsi v16 c8_i32_8
  let v18 : BitVec 32 := Scalar.addi v4 v17
  let c1_i32_10 : BitVec 32 := 1#32
  let v19 : BitVec 32 := Scalar.muli v18 c1_i32_10
  let v20 : BitVec 32 := Scalar.addi c0_i32_11 v19
  v20.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c4_i32 : BitVec 32 := 4#32
  let v21 : BitVec 32 := Scalar.addi v3 c4_i32
  let c8_i32_12 : BitVec 32 := 8#32
  let v22 : BitVec 32 := Scalar.remsi v21 c8_i32_12
  let v23 : BitVec 32 := Scalar.addi v4 v22
  let c1_i32_14 : BitVec 32 := 1#32
  let v24 : BitVec 32 := Scalar.muli v23 c1_i32_14
  let v25 : BitVec 32 := Scalar.addi c0_i32_15 v24
  v25.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c5_i32 : BitVec 32 := 5#32
  let v26 : BitVec 32 := Scalar.addi v3 c5_i32
  let c8_i32_16 : BitVec 32 := 8#32
  let v27 : BitVec 32 := Scalar.remsi v26 c8_i32_16
  let v28 : BitVec 32 := Scalar.addi v4 v27
  let c1_i32_18 : BitVec 32 := 1#32
  let v29 : BitVec 32 := Scalar.muli v28 c1_i32_18
  let v30 : BitVec 32 := Scalar.addi c0_i32_19 v29
  v30.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c6_i32 : BitVec 32 := 6#32
  let v31 : BitVec 32 := Scalar.addi v3 c6_i32
  let c8_i32_20 : BitVec 32 := 8#32
  let v32 : BitVec 32 := Scalar.remsi v31 c8_i32_20
  let v33 : BitVec 32 := Scalar.addi v4 v32
  let c1_i32_22 : BitVec 32 := 1#32
  let v34 : BitVec 32 := Scalar.muli v33 c1_i32_22
  let v35 : BitVec 32 := Scalar.addi c0_i32_23 v34
  v35.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c7_i32 : BitVec 32 := 7#32
  let v36 : BitVec 32 := Scalar.addi v3 c7_i32
  let c8_i32_24 : BitVec 32 := 8#32
  let v37 : BitVec 32 := Scalar.remsi v36 c8_i32_24
  let v38 : BitVec 32 := Scalar.addi v4 v37
  let c1_i32_26 : BitVec 32 := 1#32
  let v39 : BitVec 32 := Scalar.muli v38 c1_i32_26
  let v40 : BitVec 32 := Scalar.addi c0_i32_27 v39
  v40.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_28 : BitVec 32 := 8#32
  let v41 : BitVec 32 := Scalar.addi v2 c8_i32_28
  let c32_i32_29 : BitVec 32 := 32#32
  let v42 : BitVec 32 := Scalar.remsi v41 c32_i32_29
  let c1_i32_31 : BitVec 32 := 1#32
  let v43 : BitVec 32 := Scalar.muli v42 c1_i32_31
  let v44 : BitVec 32 := Scalar.addi c0_i32_32 v43
  v44.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v45 : BitVec 32 := Scalar.addi v2 c16_i32
  let c32_i32_33 : BitVec 32 := 32#32
  let v46 : BitVec 32 := Scalar.remsi v45 c32_i32_33
  let c1_i32_35 : BitVec 32 := 1#32
  let v47 : BitVec 32 := Scalar.muli v46 c1_i32_35
  let v48 : BitVec 32 := Scalar.addi c0_i32_36 v47
  v48.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v49 : BitVec 32 := Scalar.addi v2 c24_i32
  let c32_i32_37 : BitVec 32 := 32#32
  let v50 : BitVec 32 := Scalar.remsi v49 c32_i32_37
  let c1_i32_39 : BitVec 32 := 1#32
  let v51 : BitVec 32 := Scalar.muli v50 c1_i32_39
  let v52 : BitVec 32 := Scalar.addi c0_i32_40 v51
  v52.toNat
def k0_dev11 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_50 : BitVec 32 := 1#32
  let v73 : BitVec 32 := Scalar.addi v3 c1_i32_50
  let c8_i32_51 : BitVec 32 := 8#32
  let v74 : BitVec 32 := Scalar.remsi v73 c8_i32_51
  let v75 : BitVec 32 := Scalar.addi v4 v74
  let c1_i32_60 : BitVec 32 := 1#32
  let v76 : BitVec 32 := Scalar.muli v75 c1_i32_60
  let v77 : BitVec 32 := Scalar.addi c0_i32_61 v76
  v77.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c2_i32_66 : BitVec 32 := 2#32
  let v86 : BitVec 32 := Scalar.addi v3 c2_i32_66
  let c8_i32_67 : BitVec 32 := 8#32
  let v87 : BitVec 32 := Scalar.remsi v86 c8_i32_67
  let v88 : BitVec 32 := Scalar.addi v4 v87
  let c1_i32_76 : BitVec 32 := 1#32
  let v89 : BitVec 32 := Scalar.muli v88 c1_i32_76
  let v90 : BitVec 32 := Scalar.addi c0_i32_77 v89
  v90.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c3_i32_82 : BitVec 32 := 3#32
  let v99 : BitVec 32 := Scalar.addi v3 c3_i32_82
  let c8_i32_83 : BitVec 32 := 8#32
  let v100 : BitVec 32 := Scalar.remsi v99 c8_i32_83
  let v101 : BitVec 32 := Scalar.addi v4 v100
  let c1_i32_92 : BitVec 32 := 1#32
  let v102 : BitVec 32 := Scalar.muli v101 c1_i32_92
  let v103 : BitVec 32 := Scalar.addi c0_i32_93 v102
  v103.toNat
def k0_dev14 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c4_i32_98 : BitVec 32 := 4#32
  let v112 : BitVec 32 := Scalar.addi v3 c4_i32_98
  let c8_i32_99 : BitVec 32 := 8#32
  let v113 : BitVec 32 := Scalar.remsi v112 c8_i32_99
  let v114 : BitVec 32 := Scalar.addi v4 v113
  let c1_i32_108 : BitVec 32 := 1#32
  let v115 : BitVec 32 := Scalar.muli v114 c1_i32_108
  let v116 : BitVec 32 := Scalar.addi c0_i32_109 v115
  v116.toNat
def k0_dev15 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c5_i32_114 : BitVec 32 := 5#32
  let v125 : BitVec 32 := Scalar.addi v3 c5_i32_114
  let c8_i32_115 : BitVec 32 := 8#32
  let v126 : BitVec 32 := Scalar.remsi v125 c8_i32_115
  let v127 : BitVec 32 := Scalar.addi v4 v126
  let c1_i32_124 : BitVec 32 := 1#32
  let v128 : BitVec 32 := Scalar.muli v127 c1_i32_124
  let v129 : BitVec 32 := Scalar.addi c0_i32_125 v128
  v129.toNat
def k0_dev16 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c6_i32_130 : BitVec 32 := 6#32
  let v138 : BitVec 32 := Scalar.addi v3 c6_i32_130
  let c8_i32_131 : BitVec 32 := 8#32
  let v139 : BitVec 32 := Scalar.remsi v138 c8_i32_131
  let v140 : BitVec 32 := Scalar.addi v4 v139
  let c1_i32_140 : BitVec 32 := 1#32
  let v141 : BitVec 32 := Scalar.muli v140 c1_i32_140
  let v142 : BitVec 32 := Scalar.addi c0_i32_141 v141
  v142.toNat
def k0_dev17 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c7_i32_146 : BitVec 32 := 7#32
  let v151 : BitVec 32 := Scalar.addi v3 c7_i32_146
  let c8_i32_147 : BitVec 32 := 8#32
  let v152 : BitVec 32 := Scalar.remsi v151 c8_i32_147
  let v153 : BitVec 32 := Scalar.addi v4 v152
  let c1_i32_156 : BitVec 32 := 1#32
  let v154 : BitVec 32 := Scalar.muli v153 c1_i32_156
  let v155 : BitVec 32 := Scalar.addi c0_i32_157 v154
  v155.toNat
def k0_dev18 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_173 : BitVec 32 := 1#32
  let v184 : BitVec 32 := Scalar.addi v3 c1_i32_173
  let c8_i32_174 : BitVec 32 := 8#32
  let v185 : BitVec 32 := Scalar.remsi v184 c8_i32_174
  let v186 : BitVec 32 := Scalar.addi v4 v185
  let c1_i32_183 : BitVec 32 := 1#32
  let v187 : BitVec 32 := Scalar.muli v186 c1_i32_183
  let v188 : BitVec 32 := Scalar.addi c0_i32_184 v187
  v188.toNat
def k0_dev19 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c2_i32_189 : BitVec 32 := 2#32
  let v197 : BitVec 32 := Scalar.addi v3 c2_i32_189
  let c8_i32_190 : BitVec 32 := 8#32
  let v198 : BitVec 32 := Scalar.remsi v197 c8_i32_190
  let v199 : BitVec 32 := Scalar.addi v4 v198
  let c1_i32_199 : BitVec 32 := 1#32
  let v200 : BitVec 32 := Scalar.muli v199 c1_i32_199
  let v201 : BitVec 32 := Scalar.addi c0_i32_200 v200
  v201.toNat
def k0_dev20 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c3_i32_205 : BitVec 32 := 3#32
  let v210 : BitVec 32 := Scalar.addi v3 c3_i32_205
  let c8_i32_206 : BitVec 32 := 8#32
  let v211 : BitVec 32 := Scalar.remsi v210 c8_i32_206
  let v212 : BitVec 32 := Scalar.addi v4 v211
  let c1_i32_215 : BitVec 32 := 1#32
  let v213 : BitVec 32 := Scalar.muli v212 c1_i32_215
  let v214 : BitVec 32 := Scalar.addi c0_i32_216 v213
  v214.toNat
def k0_dev21 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c4_i32_221 : BitVec 32 := 4#32
  let v223 : BitVec 32 := Scalar.addi v3 c4_i32_221
  let c8_i32_222 : BitVec 32 := 8#32
  let v224 : BitVec 32 := Scalar.remsi v223 c8_i32_222
  let v225 : BitVec 32 := Scalar.addi v4 v224
  let c1_i32_231 : BitVec 32 := 1#32
  let v226 : BitVec 32 := Scalar.muli v225 c1_i32_231
  let v227 : BitVec 32 := Scalar.addi c0_i32_232 v226
  v227.toNat
def k0_dev22 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c5_i32_237 : BitVec 32 := 5#32
  let v236 : BitVec 32 := Scalar.addi v3 c5_i32_237
  let c8_i32_238 : BitVec 32 := 8#32
  let v237 : BitVec 32 := Scalar.remsi v236 c8_i32_238
  let v238 : BitVec 32 := Scalar.addi v4 v237
  let c1_i32_247 : BitVec 32 := 1#32
  let v239 : BitVec 32 := Scalar.muli v238 c1_i32_247
  let v240 : BitVec 32 := Scalar.addi c0_i32_248 v239
  v240.toNat
def k0_dev23 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c6_i32_253 : BitVec 32 := 6#32
  let v249 : BitVec 32 := Scalar.addi v3 c6_i32_253
  let c8_i32_254 : BitVec 32 := 8#32
  let v250 : BitVec 32 := Scalar.remsi v249 c8_i32_254
  let v251 : BitVec 32 := Scalar.addi v4 v250
  let c1_i32_263 : BitVec 32 := 1#32
  let v252 : BitVec 32 := Scalar.muli v251 c1_i32_263
  let v253 : BitVec 32 := Scalar.addi c0_i32_264 v252
  v253.toNat
def k0_dev24 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c7_i32_269 : BitVec 32 := 7#32
  let v262 : BitVec 32 := Scalar.addi v3 c7_i32_269
  let c8_i32_270 : BitVec 32 := 8#32
  let v263 : BitVec 32 := Scalar.remsi v262 c8_i32_270
  let v264 : BitVec 32 := Scalar.addi v4 v263
  let c1_i32_279 : BitVec 32 := 1#32
  let v265 : BitVec 32 := Scalar.muli v264 c1_i32_279
  let v266 : BitVec 32 := Scalar.addi c0_i32_280 v265
  v266.toNat
def k0_dev25 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_401 : BitVec 32 := 8#32
  let v348 : BitVec 32 := Scalar.addi v2 c8_i32_401
  let c32_i32_402 : BitVec 32 := 32#32
  let v349 : BitVec 32 := Scalar.remsi v348 c32_i32_402
  let c1_i32_411 : BitVec 32 := 1#32
  let v350 : BitVec 32 := Scalar.muli v349 c1_i32_411
  let v351 : BitVec 32 := Scalar.addi c0_i32_412 v350
  v351.toNat
def k0_dev26 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_417 : BitVec 32 := 16#32
  let v360 : BitVec 32 := Scalar.addi v2 c16_i32_417
  let c32_i32_418 : BitVec 32 := 32#32
  let v361 : BitVec 32 := Scalar.remsi v360 c32_i32_418
  let c1_i32_427 : BitVec 32 := 1#32
  let v362 : BitVec 32 := Scalar.muli v361 c1_i32_427
  let v363 : BitVec 32 := Scalar.addi c0_i32_428 v362
  v363.toNat
def k0_dev27 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_433 : BitVec 32 := 24#32
  let v372 : BitVec 32 := Scalar.addi v2 c24_i32_433
  let c32_i32_434 : BitVec 32 := 32#32
  let v373 : BitVec 32 := Scalar.remsi v372 c32_i32_434
  let c1_i32_443 : BitVec 32 := 1#32
  let v374 : BitVec 32 := Scalar.muli v373 c1_i32_443
  let v375 : BitVec 32 := Scalar.addi c0_i32_444 v374
  v375.toNat
def k0_dev28 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_565 : BitVec 32 := 8#32
  let v457 : BitVec 32 := Scalar.addi v2 c8_i32_565
  let c32_i32_566 : BitVec 32 := 32#32
  let v458 : BitVec 32 := Scalar.remsi v457 c32_i32_566
  let c1_i32_575 : BitVec 32 := 1#32
  let v459 : BitVec 32 := Scalar.muli v458 c1_i32_575
  let v460 : BitVec 32 := Scalar.addi c0_i32_576 v459
  v460.toNat
def k0_dev29 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_581 : BitVec 32 := 16#32
  let v469 : BitVec 32 := Scalar.addi v2 c16_i32_581
  let c32_i32_582 : BitVec 32 := 32#32
  let v470 : BitVec 32 := Scalar.remsi v469 c32_i32_582
  let c1_i32_591 : BitVec 32 := 1#32
  let v471 : BitVec 32 := Scalar.muli v470 c1_i32_591
  let v472 : BitVec 32 := Scalar.addi c0_i32_592 v471
  v472.toNat
def k0_dev30 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_597 : BitVec 32 := 24#32
  let v481 : BitVec 32 := Scalar.addi v2 c24_i32_597
  let c32_i32_598 : BitVec 32 := 32#32
  let v482 : BitVec 32 := Scalar.remsi v481 c32_i32_598
  let c1_i32_607 : BitVec 32 := 1#32
  let v483 : BitVec 32 := Scalar.muli v482 c1_i32_607
  let v484 : BitVec 32 := Scalar.addi c0_i32_608 v483
  v484.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  bitsLt_bf16_f32 : FTy.bits .bf16 < FTy.bits .f32
  reduces_S512x1024_S512 : S512x1024.Reduces [1] S512
  shapeCasts_S512_S512x1 : S512.ShapeCasts S512x1
  broadcasts_S512x1_S512x1024 : S512x1.Broadcasts S512x1024
  shapeCasts_S512x1_S512 : S512x1.ShapeCasts S512
  inb_S8x2x2x512_S1x1x1x512_0_0_0_0 : ∀ a, (![0, 0, 0, 0] : Fin 4 → Nat) a + S1x1x1x512.size a ≤ S8x2x2x512.size a
  h_S1x1x1x512 : 0 < S1x1x1x512.numel
  shapeCasts_S1x1x1x512_S512 : S1x1x1x512.ShapeCasts S512
  shapeCasts_S512_S1x1x1x512 : S512.ShapeCasts S1x1x1x512
  inb_S8x2x2x512_S1x1x1x512_0_0_1_0 : ∀ a, (![0, 0, 1, 0] : Fin 4 → Nat) a + S1x1x1x512.size a ≤ S8x2x2x512.size a
  hamt_10 : (10#32 : BitVec 32).msb = false
  inb_S2x8_S1x1_0_1 : ∀ a, (![0, 1] : Fin 2 → Nat) a + S1x1.size a ≤ S2x8.size a
  squeezes_S1x1_S_ : S1x1.Squeezes S_
  inb_S8x2x2x512_S1x1x2x512_1_0_0_0 : ∀ a, (![1, 0, 0, 0] : Fin 4 → Nat) a + S1x1x2x512.size a ≤ S8x2x2x512.size a
  squeezes_S1x1x2x512_S2x512 : S1x1x2x512.Squeezes S2x512
  inb_S8x2x2x512_S1x1x2x512_0_0_0_0 : ∀ a, (![0, 0, 0, 0] : Fin 4 → Nat) a + S1x1x2x512.size a ≤ S8x2x2x512.size a
  inb_S2x8_S1x1_0_2 : ∀ a, (![0, 2] : Fin 2 → Nat) a + S1x1.size a ≤ S2x8.size a
  inb_S8x2x2x512_S1x1x2x512_2_0_0_0 : ∀ a, (![2, 0, 0, 0] : Fin 4 → Nat) a + S1x1x2x512.size a ≤ S8x2x2x512.size a
  inb_S2x8_S1x1_0_3 : ∀ a, (![0, 3] : Fin 2 → Nat) a + S1x1.size a ≤ S2x8.size a
  inb_S8x2x2x512_S1x1x2x512_3_0_0_0 : ∀ a, (![3, 0, 0, 0] : Fin 4 → Nat) a + S1x1x2x512.size a ≤ S8x2x2x512.size a
  inb_S2x8_S1x1_0_4 : ∀ a, (![0, 4] : Fin 2 → Nat) a + S1x1.size a ≤ S2x8.size a
  inb_S8x2x2x512_S1x1x2x512_4_0_0_0 : ∀ a, (![4, 0, 0, 0] : Fin 4 → Nat) a + S1x1x2x512.size a ≤ S8x2x2x512.size a
  inb_S2x8_S1x1_0_5 : ∀ a, (![0, 5] : Fin 2 → Nat) a + S1x1.size a ≤ S2x8.size a
  inb_S8x2x2x512_S1x1x2x512_5_0_0_0 : ∀ a, (![5, 0, 0, 0] : Fin 4 → Nat) a + S1x1x2x512.size a ≤ S8x2x2x512.size a
  inb_S2x8_S1x1_0_6 : ∀ a, (![0, 6] : Fin 2 → Nat) a + S1x1.size a ≤ S2x8.size a
  inb_S8x2x2x512_S1x1x2x512_6_0_0_0 : ∀ a, (![6, 0, 0, 0] : Fin 4 → Nat) a + S1x1x2x512.size a ≤ S8x2x2x512.size a
  inb_S2x8_S1x1_0_7 : ∀ a, (![0, 7] : Fin 2 → Nat) a + S1x1.size a ≤ S2x8.size a
  inb_S8x2x2x512_S1x1x2x512_7_0_0_0 : ∀ a, (![7, 0, 0, 0] : Fin 4 → Nat) a + S1x1x2x512.size a ≤ S8x2x2x512.size a
  inb_S1024x1024_S512x1024_512_0 : ∀ a, (![512, 0] : Fin 2 → Nat) a + S512x1024.size a ≤ S1024x1024.size a
  inb_S8x2x2x512_S1x1x1x512_0_1_0_0 : ∀ a, (![0, 1, 0, 0] : Fin 4 → Nat) a + S1x1x1x512.size a ≤ S8x2x2x512.size a
  inb_S8x2x2x512_S1x1x1x512_0_1_1_0 : ∀ a, (![0, 1, 1, 0] : Fin 4 → Nat) a + S1x1x1x512.size a ≤ S8x2x2x512.size a
  inb_S2x8_S1x1_1_1 : ∀ a, (![1, 1] : Fin 2 → Nat) a + S1x1.size a ≤ S2x8.size a
  inb_S8x2x2x512_S1x1x2x512_1_1_0_0 : ∀ a, (![1, 1, 0, 0] : Fin 4 → Nat) a + S1x1x2x512.size a ≤ S8x2x2x512.size a
  inb_S8x2x2x512_S1x1x2x512_0_1_0_0 : ∀ a, (![0, 1, 0, 0] : Fin 4 → Nat) a + S1x1x2x512.size a ≤ S8x2x2x512.size a
  inb_S2x8_S1x1_1_2 : ∀ a, (![1, 2] : Fin 2 → Nat) a + S1x1.size a ≤ S2x8.size a
  inb_S8x2x2x512_S1x1x2x512_2_1_0_0 : ∀ a, (![2, 1, 0, 0] : Fin 4 → Nat) a + S1x1x2x512.size a ≤ S8x2x2x512.size a
  inb_S2x8_S1x1_1_3 : ∀ a, (![1, 3] : Fin 2 → Nat) a + S1x1.size a ≤ S2x8.size a
  inb_S8x2x2x512_S1x1x2x512_3_1_0_0 : ∀ a, (![3, 1, 0, 0] : Fin 4 → Nat) a + S1x1x2x512.size a ≤ S8x2x2x512.size a
  inb_S2x8_S1x1_1_4 : ∀ a, (![1, 4] : Fin 2 → Nat) a + S1x1.size a ≤ S2x8.size a
  inb_S8x2x2x512_S1x1x2x512_4_1_0_0 : ∀ a, (![4, 1, 0, 0] : Fin 4 → Nat) a + S1x1x2x512.size a ≤ S8x2x2x512.size a
  inb_S2x8_S1x1_1_5 : ∀ a, (![1, 5] : Fin 2 → Nat) a + S1x1.size a ≤ S2x8.size a
  inb_S8x2x2x512_S1x1x2x512_5_1_0_0 : ∀ a, (![5, 1, 0, 0] : Fin 4 → Nat) a + S1x1x2x512.size a ≤ S8x2x2x512.size a
  inb_S2x8_S1x1_1_6 : ∀ a, (![1, 6] : Fin 2 → Nat) a + S1x1.size a ≤ S2x8.size a
  inb_S8x2x2x512_S1x1x2x512_6_1_0_0 : ∀ a, (![6, 1, 0, 0] : Fin 4 → Nat) a + S1x1x2x512.size a ≤ S8x2x2x512.size a
  inb_S2x8_S1x1_1_7 : ∀ a, (![1, 7] : Fin 2 → Nat) a + S1x1.size a ≤ S2x8.size a
  inb_S8x2x2x512_S1x1x2x512_7_1_0_0 : ∀ a, (![7, 1, 0, 0] : Fin 4 → Nat) a + S1x1x2x512.size a ≤ S8x2x2x512.size a
  inb_S8x2x2x512_S8x1x1x512_0_0_0_0 : ∀ a, (![0, 0, 0, 0] : Fin 4 → Nat) a + S8x1x1x512.size a ≤ S8x2x2x512.size a
  h_S8x1x1x512 : 0 < S8x1x1x512.numel
  shapeCasts_S8x1x1x512_S8x512 : S8x1x1x512.ShapeCasts S8x512
  inb_S8x2x2x512_S8x1x1x512_0_0_1_0 : ∀ a, (![0, 0, 1, 0] : Fin 4 → Nat) a + S8x1x1x512.size a ≤ S8x2x2x512.size a
  reduces_S8x512_S512 : S8x512.Reduces [0] S512
  shapeCasts_S512_S1x512 : S512.ShapeCasts S1x512
  broadcasts_S1x512_S8x512 : S1x512.Broadcasts S8x512
  inb_S4x2x2x512_S1x1x1x512_0_0_0_0 : ∀ a, (![0, 0, 0, 0] : Fin 4 → Nat) a + S1x1x1x512.size a ≤ S4x2x2x512.size a
  inb_S4x2x2x512_S1x1x1x512_0_0_1_0 : ∀ a, (![0, 0, 1, 0] : Fin 4 → Nat) a + S1x1x1x512.size a ≤ S4x2x2x512.size a
  inb_S2x4_S1x1_0_1 : ∀ a, (![0, 1] : Fin 2 → Nat) a + S1x1.size a ≤ S2x4.size a
  inb_S4x2x2x512_S1x1x2x512_1_0_0_0 : ∀ a, (![1, 0, 0, 0] : Fin 4 → Nat) a + S1x1x2x512.size a ≤ S4x2x2x512.size a
  inb_S4x2x2x512_S1x1x2x512_0_0_0_0 : ∀ a, (![0, 0, 0, 0] : Fin 4 → Nat) a + S1x1x2x512.size a ≤ S4x2x2x512.size a
  inb_S2x4_S1x1_0_2 : ∀ a, (![0, 2] : Fin 2 → Nat) a + S1x1.size a ≤ S2x4.size a
  inb_S4x2x2x512_S1x1x2x512_2_0_0_0 : ∀ a, (![2, 0, 0, 0] : Fin 4 → Nat) a + S1x1x2x512.size a ≤ S4x2x2x512.size a
  inb_S2x4_S1x1_0_3 : ∀ a, (![0, 3] : Fin 2 → Nat) a + S1x1.size a ≤ S2x4.size a
  inb_S4x2x2x512_S1x1x2x512_3_0_0_0 : ∀ a, (![3, 0, 0, 0] : Fin 4 → Nat) a + S1x1x2x512.size a ≤ S4x2x2x512.size a
  inb_S8x2x2x512_S8x1x1x512_0_1_0_0 : ∀ a, (![0, 1, 0, 0] : Fin 4 → Nat) a + S8x1x1x512.size a ≤ S8x2x2x512.size a
  inb_S8x2x2x512_S8x1x1x512_0_1_1_0 : ∀ a, (![0, 1, 1, 0] : Fin 4 → Nat) a + S8x1x1x512.size a ≤ S8x2x2x512.size a
  inb_S4x2x2x512_S1x1x1x512_0_1_0_0 : ∀ a, (![0, 1, 0, 0] : Fin 4 → Nat) a + S1x1x1x512.size a ≤ S4x2x2x512.size a
  inb_S4x2x2x512_S1x1x1x512_0_1_1_0 : ∀ a, (![0, 1, 1, 0] : Fin 4 → Nat) a + S1x1x1x512.size a ≤ S4x2x2x512.size a
  inb_S2x4_S1x1_1_1 : ∀ a, (![1, 1] : Fin 2 → Nat) a + S1x1.size a ≤ S2x4.size a
  inb_S4x2x2x512_S1x1x2x512_1_1_0_0 : ∀ a, (![1, 1, 0, 0] : Fin 4 → Nat) a + S1x1x2x512.size a ≤ S4x2x2x512.size a
  inb_S4x2x2x512_S1x1x2x512_0_1_0_0 : ∀ a, (![0, 1, 0, 0] : Fin 4 → Nat) a + S1x1x2x512.size a ≤ S4x2x2x512.size a
  inb_S2x4_S1x1_1_2 : ∀ a, (![1, 2] : Fin 2 → Nat) a + S1x1.size a ≤ S2x4.size a
  inb_S4x2x2x512_S1x1x2x512_2_1_0_0 : ∀ a, (![2, 1, 0, 0] : Fin 4 → Nat) a + S1x1x2x512.size a ≤ S4x2x2x512.size a
  inb_S2x4_S1x1_1_3 : ∀ a, (![1, 3] : Fin 2 → Nat) a + S1x1.size a ≤ S2x4.size a
  inb_S4x2x2x512_S1x1x2x512_3_1_0_0 : ∀ a, (![3, 1, 0, 0] : Fin 4 → Nat) a + S1x1x2x512.size a ≤ S4x2x2x512.size a
  inb_S4x2x2x512_S4x1x1x512_0_0_0_0 : ∀ a, (![0, 0, 0, 0] : Fin 4 → Nat) a + S4x1x1x512.size a ≤ S4x2x2x512.size a
  h_S4x1x1x512 : 0 < S4x1x1x512.numel
  shapeCasts_S4x1x1x512_S4x512 : S4x1x1x512.ShapeCasts S4x512
  inb_S4x2x2x512_S4x1x1x512_0_0_1_0 : ∀ a, (![0, 0, 1, 0] : Fin 4 → Nat) a + S4x1x1x512.size a ≤ S4x2x2x512.size a
  reduces_S4x512_S512 : S4x512.Reduces [0] S512
  broadcasts_S1x512_S4x512 : S1x512.Broadcasts S4x512
  packedbf16_S1024x1024_S512x1024_0_0 : (Rect.unit (s := S1024x1024) ![0, 0] S512x1024.size inb_S1024x1024_S512x1024_0_0).PackedRows (EltTy.packing .bf16)
  inb_S4x2x2x512_S4x1x1x512_0_1_0_0 : ∀ a, (![0, 1, 0, 0] : Fin 4 → Nat) a + S4x1x1x512.size a ≤ S4x2x2x512.size a
  inb_S4x2x2x512_S4x1x1x512_0_1_1_0 : ∀ a, (![0, 1, 1, 0] : Fin 4 → Nat) a + S4x1x1x512.size a ≤ S4x2x2x512.size a
  packedbf16_S1024x1024_S512x1024_512_0 : (Rect.unit (s := S1024x1024) ![512, 0] S512x1024.size inb_S1024x1024_S512x1024_512_0).PackedRows (EltTy.packing .bf16)
  hcc0_scratch2 : 2 + S2x8.numel ≤ 50
  hcc0_scratch3 : 18 + S2x8.numel ≤ 50
  hcc0_scratch4 : 34 + S2x4.numel ≤ 50
  hcc0_scratch5 : 42 + S2x4.numel ≤ 50
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch2 : DmaSems sig S2x8 := SemArray.consecutive 2 S2x8 hcc0_scratch2
abbrev cc0_scratch3 : DmaSems sig S2x8 := SemArray.consecutive 18 S2x8 hcc0_scratch3
abbrev cc0_scratch4 : DmaSems sig S2x4 := SemArray.consecutive 34 S2x4 hcc0_scratch4
abbrev cc0_scratch5 : DmaSems sig S2x4 := SemArray.consecutive 42 S2x4 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x32768, .f32⟩
  | .hbm, ⟨5, _⟩ => ⟨S1024x32768, .f32⟩
  | .hbm, ⟨6, _⟩ => ⟨S1024x32768, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x32768, .f32⟩
  | .hbm, ⟨11, _⟩ => ⟨S1024x32768, .f32⟩
  | .hbm, ⟨12, _⟩ => ⟨S1024x32768, .bf16⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S1024x32768_S1024_d1 : S1024x32768.ReducesTo [1] S1024
  h_S_ : 0 < S_.numel
  bcast_S1024_S1024x1_0 : S1024.BroadcastsInDim S1024x1 (![0] : Fin 1 → Fin S1024x1.rank)
  bcast_S1024x1_S1024x32768_0_1 : S1024x1.BroadcastsInDim S1024x32768 (![0, 1] : Fin 2 → Fin S1024x32768.rank)
  bitsLt_bf16_f32 : FTy.bits .bf16 < FTy.bits .f32

variable [Facts₀]

class Facts : Prop extends Facts₀ where

variable [Facts]
-- ==== Proof.Topo.lean ====
import proofs.«901052_g7700000000001053_dist_softmax_colshard_i_m1024_n1024_v7x_i32_bf16_1_alg».proof.Proof.Gen.KernelIdeal

namespace Cert.KernelIdeal.Topo

open Idealize.ShloMosaic Cert.KernelIdeal

-- The mesh is four planes of eight devices: the plane peer of `c` at offset `d` is `d` places on in its plane, its column peer `d` planes on.
def pp (d : Fin 8) (c : Dev nD) : Dev nD := ⟨c.val - c.val % 8 + (c.val % 8 + d.val) % 8, by have := c.isLt; have : nD = 32 := rfl; omega⟩
def zp (d : Fin 4) (c : Dev nD) : Dev nD := ⟨(c.val + 8 * d.val) % 32, Nat.mod_lt _ (by decide)⟩

theorem pp_neg (d : Fin 8) (c : Dev nD) : pp (-d) (pp d c) = c := by revert d c; decide +kernel
theorem pp_neg' (d : Fin 8) (c : Dev nD) : pp d (pp (-d) c) = c := by revert d c; decide +kernel
theorem zp_neg (d : Fin 4) (c : Dev nD) : zp (-d) (zp d c) = c := by revert d c; decide +kernel
theorem zp_neg' (d : Fin 4) (c : Dev nD) : zp d (zp (-d) c) = c := by revert d c; decide +kernel
theorem pp_zero (c : Dev nD) : pp 0 c = c := by revert c; decide +kernel
theorem zp_zero (c : Dev nD) : zp 0 c = c := by revert c; decide +kernel

def ppE (d : Fin 8) : Dev nD ≃ Dev nD := ⟨pp d, pp (-d), pp_neg d, pp_neg' d⟩
def zpE (d : Fin 4) : Dev nD ≃ Dev nD := ⟨zp d, zp (-d), zp_neg d, zp_neg' d⟩

end Cert.KernelIdeal.Topo
-- ==== Proof.TopoDev.lean ====
import proofs.«901052_g7700000000001053_dist_softmax_colshard_i_m1024_n1024_v7x_i32_bf16_1_alg».proof.Proof.Topo

namespace Cert.KernelIdeal.Topo

open Idealize.ShloMosaic Cert.KernelIdeal Cert.KernelIdeal.Gen

/-- entry signal to the plane peer at offset 1. -/
theorem dev1_eq (c : Dev nD) : (⟨k0_dev1 c, k0_dev1_lt c⟩ : Dev nD) = pp 1 c := by revert c; decide +kernel
/-- entry signal to the plane peer at offset 2. -/
theorem dev2_eq (c : Dev nD) : (⟨k0_dev2 c, k0_dev2_lt c⟩ : Dev nD) = pp 2 c := by revert c; decide +kernel
/-- entry signal to the plane peer at offset 3. -/
theorem dev3_eq (c : Dev nD) : (⟨k0_dev3 c, k0_dev3_lt c⟩ : Dev nD) = pp 3 c := by revert c; decide +kernel
/-- entry signal to the plane peer at offset 4. -/
theorem dev4_eq (c : Dev nD) : (⟨k0_dev4 c, k0_dev4_lt c⟩ : Dev nD) = pp 4 c := by revert c; decide +kernel
/-- entry signal to the plane peer at offset 5. -/
theorem dev5_eq (c : Dev nD) : (⟨k0_dev5 c, k0_dev5_lt c⟩ : Dev nD) = pp 5 c := by revert c; decide +kernel
/-- entry signal to the plane peer at offset 6. -/
theorem dev6_eq (c : Dev nD) : (⟨k0_dev6 c, k0_dev6_lt c⟩ : Dev nD) = pp 6 c := by revert c; decide +kernel
/-- entry signal to the plane peer at offset 7. -/
theorem dev7_eq (c : Dev nD) : (⟨k0_dev7 c, k0_dev7_lt c⟩ : Dev nD) = pp 7 c := by revert c; decide +kernel
/-- entry signal to the column peer at offset 1. -/
theorem dev8_eq (c : Dev nD) : (⟨k0_dev8 c, k0_dev8_lt c⟩ : Dev nD) = zp 1 c := by revert c; decide +kernel
/-- entry signal to the column peer at offset 2. -/
theorem dev9_eq (c : Dev nD) : (⟨k0_dev9 c, k0_dev9_lt c⟩ : Dev nD) = zp 2 c := by revert c; decide +kernel
/-- entry signal to the column peer at offset 3. -/
theorem dev10_eq (c : Dev nD) : (⟨k0_dev10 c, k0_dev10_lt c⟩ : Dev nD) = zp 3 c := by revert c; decide +kernel
/-- first half's copy to the plane peer at offset 1. -/
theorem dev11_eq (c : Dev nD) : (⟨k0_dev11 c, k0_dev11_lt c⟩ : Dev nD) = pp 1 c := by revert c; decide +kernel
/-- first half's copy to the plane peer at offset 2. -/
theorem dev12_eq (c : Dev nD) : (⟨k0_dev12 c, k0_dev12_lt c⟩ : Dev nD) = pp 2 c := by revert c; decide +kernel
/-- first half's copy to the plane peer at offset 3. -/
theorem dev13_eq (c : Dev nD) : (⟨k0_dev13 c, k0_dev13_lt c⟩ : Dev nD) = pp 3 c := by revert c; decide +kernel
/-- first half's copy to the plane peer at offset 4. -/
theorem dev14_eq (c : Dev nD) : (⟨k0_dev14 c, k0_dev14_lt c⟩ : Dev nD) = pp 4 c := by revert c; decide +kernel
/-- first half's copy to the plane peer at offset 5. -/
theorem dev15_eq (c : Dev nD) : (⟨k0_dev15 c, k0_dev15_lt c⟩ : Dev nD) = pp 5 c := by revert c; decide +kernel
/-- first half's copy to the plane peer at offset 6. -/
theorem dev16_eq (c : Dev nD) : (⟨k0_dev16 c, k0_dev16_lt c⟩ : Dev nD) = pp 6 c := by revert c; decide +kernel
/-- first half's copy to the plane peer at offset 7. -/
theorem dev17_eq (c : Dev nD) : (⟨k0_dev17 c, k0_dev17_lt c⟩ : Dev nD) = pp 7 c := by revert c; decide +kernel
/-- second half's copy to the plane peer at offset 1. -/
theorem dev18_eq (c : Dev nD) : (⟨k0_dev18 c, k0_dev18_lt c⟩ : Dev nD) = pp 1 c := by revert c; decide +kernel
/-- second half's copy to the plane peer at offset 2. -/
theorem dev19_eq (c : Dev nD) : (⟨k0_dev19 c, k0_dev19_lt c⟩ : Dev nD) = pp 2 c := by revert c; decide +kernel
/-- second half's copy to the plane peer at offset 3. -/
theorem dev20_eq (c : Dev nD) : (⟨k0_dev20 c, k0_dev20_lt c⟩ : Dev nD) = pp 3 c := by revert c; decide +kernel
/-- second half's copy to the plane peer at offset 4. -/
theorem dev21_eq (c : Dev nD) : (⟨k0_dev21 c, k0_dev21_lt c⟩ : Dev nD) = pp 4 c := by revert c; decide +kernel
/-- second half's copy to the plane peer at offset 5. -/
theorem dev22_eq (c : Dev nD) : (⟨k0_dev22 c, k0_dev22_lt c⟩ : Dev nD) = pp 5 c := by revert c; decide +kernel
/-- second half's copy to the plane peer at offset 6. -/
theorem dev23_eq (c : Dev nD) : (⟨k0_dev23 c, k0_dev23_lt c⟩ : Dev nD) = pp 6 c := by revert c; decide +kernel
/-- second half's copy to the plane peer at offset 7. -/
theorem dev24_eq (c : Dev nD) : (⟨k0_dev24 c, k0_dev24_lt c⟩ : Dev nD) = pp 7 c := by revert c; decide +kernel
/-- first half's copy to the column peer at offset 1. -/
theorem dev25_eq (c : Dev nD) : (⟨k0_dev25 c, k0_dev25_lt c⟩ : Dev nD) = zp 1 c := by revert c; decide +kernel
/-- first half's copy to the column peer at offset 2. -/
theorem dev26_eq (c : Dev nD) : (⟨k0_dev26 c, k0_dev26_lt c⟩ : Dev nD) = zp 2 c := by revert c; decide +kernel
/-- first half's copy to the column peer at offset 3. -/
theorem dev27_eq (c : Dev nD) : (⟨k0_dev27 c, k0_dev27_lt c⟩ : Dev nD) = zp 3 c := by revert c; decide +kernel
/-- second half's copy to the column peer at offset 1. -/
theorem dev28_eq (c : Dev nD) : (⟨k0_dev28 c, k0_dev28_lt c⟩ : Dev nD) = zp 1 c := by revert c; decide +kernel
/-- second half's copy to the column peer at offset 2. -/
theorem dev29_eq (c : Dev nD) : (⟨k0_dev29 c, k0_dev29_lt c⟩ : Dev nD) = zp 2 c := by revert c; decide +kernel
/-- second half's copy to the column peer at offset 3. -/
theorem dev30_eq (c : Dev nD) : (⟨k0_dev30 c, k0_dev30_lt c⟩ : Dev nD) = zp 3 c := by revert c; decide +kernel

end Cert.KernelIdeal.Topo
-- ==== Proof.Proto.lean ====
import proofs.«901052_g7700000000001053_dist_softmax_colshard_i_m1024_n1024_v7x_i32_bf16_1_alg».proof.Proof.TopoDev
import proofs.«901052_g7700000000001053_dist_softmax_colshard_i_m1024_n1024_v7x_i32_bf16_1_alg».proof.Proof.Gen.KernelIdeal.Skeleton
import proofs.«901052_g7700000000001053_dist_softmax_colshard_i_m1024_n1024_v7x_i32_bf16_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen Cert.KernelIdeal.Topo
open Idealize.ShloMosaic Idealize.ShloMosaic.TcCoe Idealize.ShloMosaic.Rounds
open Idealize.SL Idealize.SL.RA Idealize.SL.BI Idealize.SL.BI.BIBase Idealize.SL.ProofMode
open scoped Idealize.SL.BI

variable {F : FTy → Type} [FloatOps F]

abbrev D : Type := Fin 10
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev pB : Memref sig .tc .vmem S8x2x2x512 .f32 := Memref.whole cc0_scratch0
abbrev zB : Memref sig .tc .vmem S4x2x2x512 .f32 := Memref.whole cc0_scratch1

theorem inbP (d : Fin 8) (ch : Fin 2) : ∀ a, (![d.val, ch.val, 0, 0] : Fin 4 → Nat) a + S1x1x2x512.size a ≤ S8x2x2x512.size a := by
  revert d ch; decide
theorem inbZ (d : Fin 4) (ch : Fin 2) : ∀ a, (![d.val, ch.val, 0, 0] : Fin 4 → Nat) a + S1x1x2x512.size a ≤ S4x2x2x512.size a := by
  revert d ch; decide

abbrev pslot (d : Fin 8) (ch : Fin 2) : Memref sig .tc .vmem S2x512 .f32 :=
  (pB.slice (Rect.unit (s := S8x2x2x512) ![d.val, ch.val, 0, 0] S1x1x2x512.size (inbP d ch)) (fun _ => rfl)).squeeze S2x512 squeezes_S1x1x2x512_S2x512

abbrev zslot (d : Fin 4) (ch : Fin 2) : Memref sig .tc .vmem S2x512 .f32 :=
  (zB.slice (Rect.unit (s := S4x2x2x512) ![d.val, ch.val, 0, 0] S1x1x2x512.size (inbZ d ch)) (fun _ => rfl)).squeeze S2x512 squeezes_S1x1x2x512_S2x512

abbrev barS : Sem sig := barrier0
abbrev s1 (ch : Fin 2) (d : Fin 8) : DmaSem sig := (⟨2 + 8 * ch.val + d.val, by have := ch.isLt; have := d.isLt; omega⟩ : Fin 50)
abbrev r1 (ch : Fin 2) (d : Fin 8) : DmaSem sig := (⟨18 + 8 * ch.val + d.val, by have := ch.isLt; have := d.isLt; omega⟩ : Fin 50)
abbrev s2 (ch : Fin 2) (d : Fin 4) : DmaSem sig := (⟨34 + 4 * ch.val + d.val, by have := ch.isLt; have := d.isLt; omega⟩ : Fin 50)
abbrev r2 (ch : Fin 2) (d : Fin 4) : DmaSem sig := (⟨42 + 4 * ch.val + d.val, by have := ch.isLt; have := d.isLt; omega⟩ : Fin 50)

abbrev barCell (c : Dev nD) : GSem nD τ sig := ((c : Thread nD τ), .reg barS)
abbrev s1Cell (c : Dev nD) (ch : Fin 2) (d : Fin 8) : GSem nD τ sig := ((c : Thread nD τ), .dma (s1 ch d))
abbrev r1Cell (c : Dev nD) (ch : Fin 2) (d : Fin 8) : GSem nD τ sig := ((c : Thread nD τ), .dma (r1 ch d))
abbrev s2Cell (c : Dev nD) (ch : Fin 2) (d : Fin 4) : GSem nD τ sig := ((c : Thread nD τ), .dma (s2 ch d))
abbrev r2Cell (c : Dev nD) (ch : Fin 2) (d : Fin 4) : GSem nD τ sig := ((c : Thread nD τ), .dma (r2 ch d))

inductive Kind where
  | bar | s1 (ch : Fin 2) (d : Fin 8) | r1 (ch : Fin 2) (d : Fin 8) | s2 (ch : Fin 2) (d : Fin 4) | r2 (ch : Fin 2) (d : Fin 4) | other
  deriving DecidableEq

def kindOf : SemLoc sig → Kind
  | .reg s => if s = barS then .bar else .other
  | .dma q =>
    let n := q.val
    if h1 : 2 ≤ n ∧ n < 18 then (if (n - 2) % 8 = 0 then .other else .s1 ⟨(n - 2) / 8, by omega⟩ ⟨(n - 2) % 8, Nat.mod_lt _ (by decide)⟩)
    else if h2 : 18 ≤ n ∧ n < 34 then (if (n - 18) % 8 = 0 then .other else .r1 ⟨(n - 18) / 8, by omega⟩ ⟨(n - 18) % 8, Nat.mod_lt _ (by decide)⟩)
    else if h3 : 34 ≤ n ∧ n < 42 then (if (n - 34) % 4 = 0 then .other else .s2 ⟨(n - 34) / 4, by omega⟩ ⟨(n - 34) % 4, Nat.mod_lt _ (by decide)⟩)
    else if h4 : 42 ≤ n ∧ n < 50 then (if (n - 42) % 4 = 0 then .other else .r2 ⟨(n - 42) / 4, by omega⟩ ⟨(n - 42) % 4, Nat.mod_lt _ (by decide)⟩)
    else .other

theorem kindOf_bar : kindOf (.reg barS) = .bar := by decide
theorem kindOf_s1 (ch : Fin 2) (d : Fin 8) (hd : d ≠ 0) : kindOf (.dma (s1 ch d)) = .s1 ch d := by revert ch d; decide
theorem kindOf_r1 (ch : Fin 2) (d : Fin 8) (hd : d ≠ 0) : kindOf (.dma (r1 ch d)) = .r1 ch d := by revert ch d; decide
theorem kindOf_s2 (ch : Fin 2) (d : Fin 4) (hd : d ≠ 0) : kindOf (.dma (s2 ch d)) = .s2 ch d := by revert ch d; decide
theorem kindOf_r2 (ch : Fin 2) (d : Fin 4) (hd : d ≠ 0) : kindOf (.dma (r2 ch d)) = .r2 ch d := by revert ch d; decide

abbrev NP : ℕ := (pslot 1 0).view.dmaCredit
theorem NP_pos : 0 < NP := View.dmaCredit_pos _ (by decide)

section Contents

variable (m : (ℓ : Loc nD τ sig) → Buf (Elt F) ℓ)

def xblk (c : Dev nD) : (cc0_stg0_0 : Ref sig .tc).ty.Contents (Elt F) :=
  (win0_0.blk (0 : Fin 1)).view.read (Elt F) (m ((c : Thread nD τ).loc main_arg0))

def xhalf (c : Dev nD) : Fin 2 → Vec F S512x1024 .f32
  | 0 => (Memref.whole cc0_stg0_0 : Memref sig .tc .vmem S1024x1024 .f32).view.readAt (Elt F)
      (Rect.unit (s := S1024x1024) ![0, 0] S512x1024.size inb_S1024x1024_S512x1024_0_0).toLoadRect (xblk m c)
  | 1 => (Memref.whole cc0_stg0_0 : Memref sig .tc .vmem S1024x1024 .f32).view.readAt (Elt F)
      (Rect.unit (s := S1024x1024) ![512, 0] S512x1024.size inb_S1024x1024_S512x1024_512_0).toLoadRect (xblk m c)

def mrow (c : Dev nD) : Fin 2 → FVec F S1x1x1x512 .f32
  | 0 => k0_pay4 (xhalf m c 0)
  | 1 => k0_pay9 (xhalf m c 1)
def srow (c : Dev nD) : Fin 2 → FVec F S1x1x1x512 .f32
  | 0 => k0_pay5 (xhalf m c 0)
  | 1 => k0_pay10 (xhalf m c 1)

end Contents

section Schedule

variable (m : (ℓ : Loc nD τ sig) → Buf (Elt F) ℓ)

def SlotHolds (g : (S2x512 : Shape).Idx → Elt F .f32) (a b : FVec F S1x1x1x512 .f32) : Prop :=
  ∀ r : Fin 512, g (ValueIdx.ix2 (0 : Fin 2) r) = (a (ValueIdx.ix4 (0 : Fin 1) (0 : Fin 1) (0 : Fin 1) r) : Elt F .f32)
    ∧ g (ValueIdx.ix2 (1 : Fin 2) r) = (b (ValueIdx.ix4 (0 : Fin 1) (0 : Fin 1) (0 : Fin 1) r) : Elt F .f32)

def pslotAny (p : Dev nD) (d : Fin 8) (ch : Fin 2) : sProp 𝕄 :=
  iprop(∃ f, (pslot d ch).view.loc (p : Thread nD τ) ↦[(pslot d ch).view.set]{fullShare} f)
def zslotAny (p : Dev nD) (d : Fin 4) (ch : Fin 2) : sProp 𝕄 :=
  iprop(∃ f, (zslot d ch).view.loc (p : Thread nD τ) ↦[(zslot d ch).view.set]{fullShare} f)

def barPay (t : Dev nD) (k : D) : sProp 𝕄 :=
  if h : k.val < 7 then
    iprop(pslotAny (pp (-(⟨k.val + 1, by omega⟩ : Fin 8)) t) (-(⟨k.val + 1, by omega⟩ : Fin 8)) 0
      ∗ pslotAny (pp (-(⟨k.val + 1, by omega⟩ : Fin 8)) t) (-(⟨k.val + 1, by omega⟩ : Fin 8)) 1
      ∗ reached ER (r1Cell (pp (-(⟨k.val + 1, by omega⟩ : Fin 8)) t) 0 (-(⟨k.val + 1, by omega⟩ : Fin 8))) 0
      ∗ reached ER (r1Cell (pp (-(⟨k.val + 1, by omega⟩ : Fin 8)) t) 1 (-(⟨k.val + 1, by omega⟩ : Fin 8))) 0)
  else
    iprop(zslotAny (zp (-(⟨k.val - 6, by have := k.isLt; omega⟩ : Fin 4)) t) (-(⟨k.val - 6, by have := k.isLt; omega⟩ : Fin 4)) 0
      ∗ zslotAny (zp (-(⟨k.val - 6, by have := k.isLt; omega⟩ : Fin 4)) t) (-(⟨k.val - 6, by have := k.isLt; omega⟩ : Fin 4)) 1
      ∗ reached ER (r2Cell (zp (-(⟨k.val - 6, by have := k.isLt; omega⟩ : Fin 4)) t) 0 (-(⟨k.val - 6, by have := k.isLt; omega⟩ : Fin 4))) 0
      ∗ reached ER (r2Cell (zp (-(⟨k.val - 6, by have := k.isLt; omega⟩ : Fin 4)) t) 1 (-(⟨k.val - 6, by have := k.isLt; omega⟩ : Fin 4))) 0)

def recv1Pay (c : Dev nD) (ch : Fin 2) (d : Fin 8) : sProp 𝕄 :=
  iprop(∃ f, ⌜SlotHolds ((pslot d ch).view.read (Elt F) f) (mrow m (pp (-d) c) ch) (srow m (pp (-d) c) ch)⌝
    ∗ ((pslot d ch).view.loc (c : Thread nD τ) ↦[(pslot d ch).view.set]{fullShare} f))

def sh8 : Fin 8 → PosShare TreeShare
  | 0 => fullShare.left.left.left | 1 => fullShare.left.left.right | 2 => fullShare.left.right.left | 3 => fullShare.left.right.right
  | 4 => fullShare.right.left.left | 5 => fullShare.right.left.right | 6 => fullShare.right.right.left | 7 => fullShare.right.right.right
def sh4 : Fin 4 → PosShare TreeShare
  | 0 => fullShare.left.left | 1 => fullShare.left.right | 2 => fullShare.right.left | 3 => fullShare.right.right

def send1Pay (c : Dev nD) (ch : Fin 2) (d : Fin 8) : sProp 𝕄 :=
  iprop(∃ f, (pslot 0 ch).view.loc (c : Thread nD τ) ↦[(pslot 0 ch).view.set]{sh8 d} f)
def send2Pay (c : Dev nD) (ch : Fin 2) (d : Fin 4) : sProp 𝕄 :=
  iprop(∃ f, (zslot 0 ch).view.loc (c : Thread nD τ) ↦[(zslot 0 ch).view.set]{sh4 d} f)

end Schedule

section Schedule2

variable (m : (ℓ : Loc nD τ sig) → Buf (Elt F) ℓ)

def PMvec (c : Dev nD) (ch : Fin 2) : Vec F S8x1x1x512 .f32 :=
  fun i => (mrow m (pp (-(⟨(i 0).val, (i 0).isLt⟩ : Fin 8)) c) ch (ValueIdx.ix4 (0 : Fin 1) (0 : Fin 1) (0 : Fin 1) (⟨(i 3).val, (i 3).isLt⟩ : Fin 512)) : Elt F .f32)
def PSvec (c : Dev nD) (ch : Fin 2) : Vec F S8x1x1x512 .f32 :=
  fun i => (srow m (pp (-(⟨(i 0).val, (i 0).isLt⟩ : Fin 8)) c) ch (ValueIdx.ix4 (0 : Fin 1) (0 : Fin 1) (0 : Fin 1) (⟨(i 3).val, (i 3).isLt⟩ : Fin 512)) : Elt F .f32)
def mprow (c : Dev nD) : Fin 2 → FVec F S1x1x1x512 .f32
  | 0 => k0_pay13 (k0_pay11 (PMvec m c 0))
  | 1 => k0_pay18 (k0_pay16 (PMvec m c 1))
def sprow (c : Dev nD) : Fin 2 → FVec F S1x1x1x512 .f32
  | 0 => k0_pay14 (k0_pay11 (PMvec m c 0)) (PSvec m c 0)
  | 1 => k0_pay19 (k0_pay17 (PMvec m c 1) (PSvec m c 1))

def recv2Pay (c : Dev nD) (ch : Fin 2) (d : Fin 4) : sProp 𝕄 :=
  iprop(∃ f, ⌜SlotHolds ((zslot d ch).view.read (Elt F) f) (mprow m (zp (-d) c) ch) (sprow m (zp (-d) c) ch)⌝
    ∗ ((zslot d ch).view.loc (c : Thread nD τ) ↦[(zslot d ch).view.set]{fullShare} f))

def Rd : Rounds.Schedule (GSem nD τ sig) D 𝕄 where
  duties g r := if r = 0 ∧ g.1.2 = .tc then (match kindOf g.2 with | .bar => Finset.univ | .other => ∅ | _ => {0}) else ∅
  unitless _ := False
  amount g _ _ := if kindOf g.2 = .bar then 1 else NP
  payload g _ d := match kindOf g.2 with
    | .bar => barPay g.1.1 d
    | .s1 ch o => send1Pay g.1.1 ch o
    | .r1 ch o => recv1Pay m g.1.1 ch o
    | .s2 ch o => send2Pay g.1.1 ch o
    | .r2 ch o => recv2Pay m g.1.1 ch o
    | .other => iprop(emp)
  amount_pos g _ _ _ := by
    by_cases h : kindOf g.2 = .bar
    · rw [if_pos h]; exact Nat.one_pos
    · rw [if_neg h]; exact NP_pos

instance Rd_payload_storable (g : GSem nD τ sig) (r : ℕ) (d : D) : BI.Storable (upEmb : UEmb _ 𝕄) ((Rd (F := F) m).payload g r d) := by
  unfold Rd; dsimp only
  unfold barPay send1Pay recv1Pay send2Pay recv2Pay pslotAny zslotAny
  (repeat' split) <;> infer_instance

def L (g : GSem nD τ sig) : Finset Unit := if g.1.2 = .tc then {()} else ∅

def lv (g : GSem nD τ sig) (_ : Unit) : ℕ := match kindOf g.2 with
  | .bar => 1 | .r1 ch _ => 2 + ch.val | .r2 ch _ => 4 + ch.val | _ => 0

def O₀ (c : Dev nD) : CellTallies nD τ sig Unit :=
  (∑ k : Fin 7, tallyAt (barCell (pp k.succ c)) () 1) + (∑ k : Fin 3, tallyAt (barCell (zp k.succ c)) () 1)
  + (∑ ch : Fin 2, ∑ k : Fin 7, tallyAt (r1Cell (pp k.succ c) ch k.succ) () NP)
  + (∑ ch : Fin 2, ∑ k : Fin 3, tallyAt (r2Cell (zp k.succ c) ch k.succ) () NP)

end Schedule2

end Cert.KernelIdeal.Proto

end
-- ==== Proof.Inv.lean ====
import proofs.«901052_g7700000000001053_dist_softmax_colshard_i_m1024_n1024_v7x_i32_bf16_1_alg».proof.Proof.Proto

noncomputable section

namespace Cert.KernelIdeal.Proto

open Cert.KernelIdeal Cert.KernelIdeal.Gen Cert.KernelIdeal.Topo
open Idealize.ShloMosaic Idealize.ShloMosaic.TcCoe Idealize.ShloMosaic.Rounds
open Idealize.SL Idealize.SL.RA Idealize.SL.BI Idealize.SL.BI.BIBase Idealize.SL.ProofMode
open scoped Idealize.SL.BI
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

def st0 : MemSt nD τ sig (Elt F) := ⟨m, fun _ => 0, ρ⟩

def ZMvec (c : Dev nD) (ch : Fin 2) : Vec F S4x1x1x512 .f32 :=
  fun i => (mprow m (zp (-(⟨(i 0).val, (i 0).isLt⟩ : Fin 4)) c) ch (ValueIdx.ix4 (0 : Fin 1) (0 : Fin 1) (0 : Fin 1) (⟨(i 3).val, (i 3).isLt⟩ : Fin 512)) : Elt F .f32)
def ZSvec (c : Dev nD) (ch : Fin 2) : Vec F S4x1x1x512 .f32 :=
  fun i => (sprow m (zp (-(⟨(i 0).val, (i 0).isLt⟩ : Fin 4)) c) ch (ValueIdx.ix4 (0 : Fin 1) (0 : Fin 1) (0 : Fin 1) (⟨(i 3).val, (i 3).isLt⟩ : Fin 512)) : Elt F .f32)

def outHalf (c : Dev nD) : Fin 2 → FVec F S512x1024 .bf16
  | 0 => k0_pay22 (k0_pay3 (xhalf m c 0)) (k0_pay20 (ZMvec m c 0)) (k0_pay21 (ZSvec m c 0)) (mrow m c 0)
  | 1 => k0_pay26 (k0_pay8 (xhalf m c 1)) (k0_pay24 (ZMvec m c 1)) (k0_pay25 (ZMvec m c 1) (ZSvec m c 1)) (mrow m c 1)

def outAt (c : Dev nD) : (cc0_stg1_0 : Ref sig .tc).ty.Contents (Elt F) :=
  fun i => if h : (i 0).val < 512 then (outHalf m c 0 (ValueIdx.ix2 (⟨(i 0).val, h⟩ : Fin 512) (⟨(i 1).val, (i 1).isLt⟩ : Fin 1024)) : Elt F .bf16)
    else outHalf m c 1 (ValueIdx.ix2 (⟨(i 0).val - 512, by have h1 := (i 0).isLt; have h2 : (cc0_stg1_0 : Ref sig .tc).ty.shape.size 0 = 1024 := rfl; omega⟩ : Fin 512) (⟨(i 1).val, (i 1).isLt⟩ : Fin 1024))

section Ghost

variable (K : GSem nD τ sig → ℕ)

abbrev inv (g : GSem nD τ sig) : sProp 𝕄 := cellInv ER (Rd m) (K g) g

def invs (c : Dev nD) : sProp 𝕄 :=
  iprop(inv m K (barCell c)
    ∗ (bigSep (Finset.univ : Finset (Fin 2 × Fin 7)) fun x => iprop(inv m K (s1Cell c x.1 x.2.succ) ∗ inv m K (r1Cell c x.1 x.2.succ) ∗ inv m K (r1Cell (pp x.2.succ c) x.1 x.2.succ)))
    ∗ (bigSep (Finset.univ : Finset (Fin 2 × Fin 3)) fun x => iprop(inv m K (s2Cell c x.1 x.2.succ) ∗ inv m K (r2Cell c x.1 x.2.succ) ∗ inv m K (r2Cell (zp x.2.succ c) x.1 x.2.succ)))
    ∗ (bigSep (Finset.univ : Finset (Fin 7)) fun k => inv m K (barCell (pp k.succ c)))
    ∗ (bigSep (Finset.univ : Finset (Fin 3)) fun k => inv m K (barCell (zp k.succ c))))

instance invs_persistent (c : Dev nD) : BI.Persistent (invs m K c) := by unfold invs; infer_instance

abbrev dP (k : Fin 7) : D := ⟨k.val, by omega⟩
abbrev dZ (k : Fin 3) : D := ⟨7 + k.val, by omega⟩

def positions (c : Dev nD) : sProp 𝕄 :=
  iprop(atPos ER (barCell c) 0 ∅ 0
    ∗ (bigSep (Finset.univ : Finset (Fin 2 × Fin 7)) fun x => iprop(atPos ER (s1Cell c x.1 x.2.succ) 0 ∅ 0 ∗ atPos ER (r1Cell c x.1 x.2.succ) 0 ∅ 0))
    ∗ (bigSep (Finset.univ : Finset (Fin 2 × Fin 3)) fun x => iprop(atPos ER (s2Cell c x.1 x.2.succ) 0 ∅ 0 ∗ atPos ER (r2Cell c x.1 x.2.succ) 0 ∅ 0)))

def reacheds (c : Dev nD) : sProp 𝕄 :=
  iprop((bigSep (Finset.univ : Finset (Fin 7)) fun k => reached ER (barCell (pp k.succ c)) 0)
    ∗ (bigSep (Finset.univ : Finset (Fin 3)) fun k => reached ER (barCell (zp k.succ c)) 0)
    ∗ (bigSep (Finset.univ : Finset (Fin 2 × Fin 7)) fun x => iprop(reached ER (s1Cell c x.1 x.2.succ) 0 ∗ reached ER (r1Cell c x.1 x.2.succ) 0 ∗ reached ER (r1Cell (pp x.2.succ c) x.1 x.2.succ) 0))
    ∗ (bigSep (Finset.univ : Finset (Fin 2 × Fin 3)) fun x => iprop(reached ER (s2Cell c x.1 x.2.succ) 0 ∗ reached ER (r2Cell c x.1 x.2.succ) 0 ∗ reached ER (r2Cell (zp x.2.succ c) x.1 x.2.succ) 0)))

def payToks (c : Dev nD) : sProp 𝕄 :=
  iprop((bigSep (Finset.univ : Finset (Fin 7)) fun k => dutyTok ER (barCell (pp k.succ c)) 0 (dP k))
    ∗ (bigSep (Finset.univ : Finset (Fin 3)) fun k => dutyTok ER (barCell (zp k.succ c)) 0 (dZ k))
    ∗ (bigSep (Finset.univ : Finset (Fin 2 × Fin 7)) fun x => iprop(dutyTok ER (s1Cell c x.1 x.2.succ) 0 (0 : D) ∗ dutyTok ER (r1Cell (pp x.2.succ c) x.1 x.2.succ) 0 (0 : D)))
    ∗ (bigSep (Finset.univ : Finset (Fin 2 × Fin 3)) fun x => iprop(dutyTok ER (s2Cell c x.1 x.2.succ) 0 (0 : D) ∗ dutyTok ER (r2Cell (zp x.2.succ c) x.1 x.2.succ) 0 (0 : D))))

def idleSems (c : Dev nD) : sProp 𝕄 :=
  bigSep (Finset.univ : Finset (Fin 2)) fun ch => iprop(semVal (s1Cell c ch 0) 0 ∗ semVal (r1Cell c ch 0) 0 ∗ semVal (s2Cell c ch 0) 0 ∗ semVal (r2Cell c ch 0) 0)

def ghost (c : Dev nD) : sProp 𝕄 :=
  iprop(invs m K c ∗ positions c ∗ reacheds c ∗ payToks c ∗ idleSems c)

end Ghost

def creds (c : Dev nD) : sProp 𝕄 :=
  iprop(cred (tallyAt (barCell c) () 10)
    ∗ (bigSep (Finset.univ : Finset (Fin 2 × Fin 7)) fun x => cred (tallyAt (r1Cell c x.1 x.2.succ) () NP))
    ∗ (bigSep (Finset.univ : Finset (Fin 2 × Fin 3)) fun x => cred (tallyAt (r2Cell c x.1 x.2.succ) () NP)))

def start (c : Dev nD) : sProp 𝕄 :=
  iprop((∃ K, ghost m K c) ∗ creds c ∗ levAts L lv)

def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ bufs c)

def ownZero (c : Dev nD) : sProp 𝕄 :=
  iprop((bigSep (Finset.univ : Finset (Fin 2 × Fin 8)) fun x => iprop(semVal (s1Cell c x.1 x.2) 0 ∗ semVal (r1Cell c x.1 x.2) 0))
    ∗ (bigSep (Finset.univ : Finset (Fin 2 × Fin 4)) fun x => iprop(semVal (s2Cell c x.1 x.2) 0 ∗ semVal (r2Cell c x.1 x.2) 0)))

def Φ₁ (c : Dev nD) : sProp 𝕄 := iprop(bufs c ∗ ownZero c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m c) ∗ stg c cc0_stg1_0 (outAt m c))

end Cert.KernelIdeal.Proto

end
-- ==== Proof.SurgDefs.lean ====
import proofs.«901052_g7700000000001053_dist_softmax_colshard_i_m1024_n1024_v7x_i32_bf16_1_alg».proof.Proof.Inv

noncomputable section

namespace Cert.KernelIdeal.Proto

open Cert.KernelIdeal Cert.KernelIdeal.Gen
open Idealize.ShloMosaic

abbrev S8x1x2x512 : Shape := ⟨4, ![8, 1, 2, 512]⟩
abbrev S4x1x2x512 : Shape := ⟨4, ![4, 1, 2, 512]⟩

theorem inbPS (ch : Fin 2) : ∀ a, (![0, ch.val, 0, 0] : Fin 4 → Nat) a + S8x1x2x512.size a ≤ S8x2x2x512.size a := by
  revert ch; decide
theorem inbZS (ch : Fin 2) : ∀ a, (![0, ch.val, 0, 0] : Fin 4 → Nat) a + S4x1x2x512.size a ≤ S4x2x2x512.size a := by
  revert ch; decide

/-- All slots of one half of a buffer form one slice of it: the half's slab. -/
abbrev pslab (ch : Fin 2) : Memref sig .tc .vmem S8x1x2x512 .f32 :=
  pB.slice (Rect.unit (s := S8x2x2x512) ![0, ch.val, 0, 0] S8x1x2x512.size (inbPS ch)) (fun _ => rfl)
abbrev zslab (ch : Fin 2) : Memref sig .tc .vmem S4x1x2x512 .f32 :=
  zB.slice (Rect.unit (s := S4x2x2x512) ![0, ch.val, 0, 0] S4x1x2x512.size (inbZS ch)) (fun _ => rfl)

end Cert.KernelIdeal.Proto

end
-- ==== Proof.LibRegions.lean ====
import Idealize.ShloMosaic.Lib.Pipeline.Kit
import Idealize.ShloMosaic.Lib.ValueLayout

noncomputable section

namespace Cert.LibRegions

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.ValueIdx

section Grid

variable {I : Type} {n : ℕ} {a b : I → ℕ} {K : Fin n → Fin 2 → Finset I}
  (hK : ∀ d ch i, i ∈ K d ch ↔ a i = d.val ∧ b i = ch.val)
include hK

/-- Sets cut out by the values of two coordinates are disjoint when the values differ, -/
theorem grid_pairwise : ∀ x ∈ (Finset.univ : Finset (Fin n × Fin 2)), ∀ y ∈ (Finset.univ : Finset (Fin n × Fin 2)), x ≠ y →
    Disjoint (K x.1 x.2) (K y.1 y.2) := fun x _ y _ hne =>
  Finset.disjoint_left.mpr fun i hx hy => hne (Prod.ext (Fin.ext (((hK _ _ i).mp hx).1.symm.trans ((hK _ _ i).mp hy).1))
    (Fin.ext (((hK _ _ i).mp hx).2.symm.trans ((hK _ _ i).mp hy).2)))

/-- in particular those of one value of the second coordinate; -/
theorem grid_row_pairwise (ch : Fin 2) : ∀ x ∈ (Finset.univ : Finset (Fin n)), ∀ y ∈ (Finset.univ : Finset (Fin n)), x ≠ y →
    Disjoint (K x ch) (K y ch) := fun x _ y _ hne =>
  grid_pairwise hK (x, ch) (Finset.mem_univ _) (y, ch) (Finset.mem_univ _) fun e => hne (congrArg Prod.fst e)

/-- all of them together are everything, -/
theorem grid_cover [Fintype I] [DecidableEq I] (ha : ∀ i, a i < n) (hb : ∀ i, b i < 2) :
    (Finset.univ : Finset (Fin n × Fin 2)).biUnion (fun x => K x.1 x.2) = Finset.univ :=
  Finset.eq_univ_iff_forall.mpr fun i =>
    Finset.mem_biUnion.mpr ⟨(⟨a i, ha i⟩, ⟨b i, hb i⟩), Finset.mem_univ _, (hK _ _ i).mpr ⟨rfl, rfl⟩⟩

/-- and those of one value of the second coordinate are the set that value cuts out. -/
theorem grid_row_cover [DecidableEq I] (ha : ∀ i, a i < n) {ch : Fin 2} {S : Finset I} (hS : ∀ i, i ∈ S ↔ b i = ch.val) :
    (Finset.univ : Finset (Fin n)).biUnion (fun d => K d ch) = S := by
  ext i
  rw [Finset.mem_biUnion, hS]
  exact ⟨fun ⟨_, _, hd⟩ => ((hK _ _ i).mp hd).2, fun h => ⟨⟨a i, ha i⟩, Finset.mem_univ _, (hK _ _ i).mpr ⟨rfl, h⟩⟩⟩

end Grid

/-- An index lies in a rectangle of unit strides of rank four when each coordinate lies in the rectangle's span on its axis. -/
theorem mem_unit4 {sz : Fin 4 → ℕ} {o0 o1 o2 o3 z0 z1 z2 z3 : ℕ} {inb} {i : (⟨4, sz⟩ : Shape).Idx} :
    i ∈ (Rect.unit (s := ⟨4, sz⟩) ![o0, o1, o2, o3] ![z0, z1, z2, z3] inb).set
      ↔ (o0 ≤ (i 0).val ∧ (i 0).val < o0 + z0) ∧ (o1 ≤ (i 1).val ∧ (i 1).val < o1 + z1)
        ∧ (o2 ≤ (i 2).val ∧ (i 2).val < o2 + z2) ∧ (o3 ≤ (i 3).val ∧ (i 3).val < o3 + z3) := by
  rw [Rect.mem_set_unit]
  constructor
  · intro h; exact ⟨h 0, h 1, h 2, h 3⟩
  · rintro ⟨h0, h1, h2, h3⟩
    change ∀ a : Fin 4, _
    intro a
    fin_cases a
    · exact h0
    · exact h1
    · exact h2
    · exact h3

/-- In a buffer of `n` slots by two halves of two rows of 512, the slot at `(d, ch)` is the indices with those first two coordinates, -/
theorem mem_slotRect {n d ch : ℕ} {inb} (i : (⟨4, ![n, 2, 2, 512]⟩ : Shape).Idx) :
    i ∈ (Rect.unit (s := ⟨4, ![n, 2, 2, 512]⟩) ![d, ch, 0, 0] ![1, 1, 2, 512] inb).set ↔ (i 0).val = d ∧ (i 1).val = ch := by
  have h2 : (i 2).val < 2 := (i 2).isLt
  have h3 : (i 3).val < 512 := (i 3).isLt
  refine (mem_unit4 (sz := ![n, 2, 2, 512]) (z0 := 1) (z1 := 1) (z2 := 2) (z3 := 512)).trans ?_
  omega

/-- and the slab of half `ch` the indices with that second coordinate. -/
theorem mem_slabRect {n ch : ℕ} {inb} (i : (⟨4, ![n, 2, 2, 512]⟩ : Shape).Idx) :
    i ∈ (Rect.unit (s := ⟨4, ![n, 2, 2, 512]⟩) ![0, ch, 0, 0] ![n, 1, 2, 512] inb).set ↔ (i 1).val = ch := by
  have h0 : (i 0).val < n := (i 0).isLt
  have h2 : (i 2).val < 2 := (i 2).isLt
  have h3 : (i 3).val < 512 := (i 3).isLt
  refine (mem_unit4 (sz := ![n, 2, 2, 512]) (z0 := n) (z1 := 1) (z2 := 2) (z3 := 512)).trans ?_
  omega

/-- An index of a rectangle of unit strides names the element at offset plus index on every axis. -/
theorem unit_emb4 {n0 n1 n2 n3 : ℕ} (off size : Fin 4 → ℕ)
    (inb : ∀ ax, off ax + size ax ≤ (⟨4, ![n0, n1, n2, n3]⟩ : Shape).size ax) (i : (⟨4, size⟩ : Shape).Idx)
    (k0 : Fin n0) (k1 : Fin n1) (k2 : Fin n2) (k3 : Fin n3)
    (h0 : k0.val = off 0 + (i 0).val) (h1 : k1.val = off 1 + (i 1).val) (h2 : k2.val = off 2 + (i 2).val) (h3 : k3.val = off 3 + (i 3).val) :
    (Rect.unit (s := ⟨4, ![n0, n1, n2, n3]⟩) off size inb).emb i = ix4 k0 k1 k2 k3 := by
  funext ax; apply Fin.ext
  rw [Rect.emb_apply]
  match ax with
  | ⟨0, _⟩ => show off 0 + 1 * (i 0).val = k0.val; omega
  | ⟨1, _⟩ => show off 1 + 1 * (i 1).val = k1.val; omega
  | ⟨2, _⟩ => show off 2 + 1 * (i 2).val = k2.val; omega
  | ⟨3, _⟩ => show off 3 + 1 * (i 3).val = k3.val; omega

/-- So does an index of a two-axis block seen through two leading axes of extent one. -/
theorem slot_emb {n0 n1 n2 n3 a b : ℕ} (off : Fin 4 → ℕ)
    (inb : ∀ ax, off ax + (![1, 1, a, b] : Fin 4 → ℕ) ax ≤ (⟨4, ![n0, n1, n2, n3]⟩ : Shape).size ax)
    (h : (⟨2, ![a, b]⟩ : Shape).numel = (⟨4, ![1, 1, a, b]⟩ : Shape).numel)
    (x : Fin a) (y : Fin b) (k0 : Fin n0) (k1 : Fin n1) (k2 : Fin n2) (k3 : Fin n3)
    (h0 : k0.val = off 0) (h1 : k1.val = off 1) (h2 : k2.val = off 2 + x.val) (h3 : k3.val = off 3 + y.val) :
    (Rect.unit (s := ⟨4, ![n0, n1, n2, n3]⟩) off ![1, 1, a, b] inb).emb (Shape.reshapeEquiv h (ix2 x y)) = ix4 k0 k1 k2 k3 := by
  rw [reshapeEquiv_ix2_11ab]; exact unit_emb4 off _ inb _ k0 k1 k2 k3 h0 h1 h2 h3

section Lists
universe u
variable {M : Type u} [URA M]

/-- An iterated conjunction over eight slots by two halves, written out from the last slot down to the first. -/
theorem bigSep_fin8x2 (Φ : Fin 8 × Fin 2 → sProp M) :
    bigSep Finset.univ Φ = bigSepL [(7, 0), (7, 1), (6, 0), (6, 1), (5, 0), (5, 1), (4, 0), (4, 1),
      (3, 0), (3, 1), (2, 0), (2, 1), (1, 0), (1, 1), (0, 0), (0, 1)] Φ :=
  bigSep_univ_eq_bigSepL _ (by decide) (by decide) Φ

/-- The same over four slots by two halves. -/
theorem bigSep_fin4x2 (Φ : Fin 4 × Fin 2 → sProp M) :
    bigSep Finset.univ Φ = bigSepL [(3, 0), (3, 1), (2, 0), (2, 1), (1, 0), (1, 1), (0, 0), (0, 1)] Φ :=
  bigSep_univ_eq_bigSepL _ (by decide) (by decide) Φ

/-- An iterated conjunction over eight slots, written out in order. -/
theorem bigSep_fin8 (Φ : Fin 8 → sProp M) : bigSep Finset.univ Φ = bigSepL [0, 1, 2, 3, 4, 5, 6, 7] Φ :=
  bigSep_univ_eq_bigSepL _ (by decide) (by decide) Φ

/-- The same over four slots. -/
theorem bigSep_fin4 (Φ : Fin 4 → sProp M) : bigSep Finset.univ Φ = bigSepL [0, 1, 2, 3] Φ :=
  bigSep_univ_eq_bigSepL _ (by decide) (by decide) Φ

end Lists

section Own

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- Owning each of pairwise disjoint regions of a buffer, whatever it contains, is owning their union, whatever it contains. -/
theorem pointsTo_biUnion_join_any {T : Type} (ℓ : Loc nD τ sig) (q : PosShare TreeShare) (s : Finset T) (K : T → Finset (Idx ℓ))
    (f₀ : Buf Val ℓ) (h : ∀ t ∈ s, ∀ t' ∈ s, t ≠ t' → Disjoint (K t) (K t')) :
    bigSep s (fun t => (iprop(∃ f, ℓ ↦[K t]{q} f) : sProp 𝕄)) ⊢ (iprop(∃ g, ℓ ↦[s.biUnion K]{q} g) : sProp 𝕄) := by
  classical
  haveI : Nonempty (Buf Val ℓ) := ⟨f₀⟩
  iintro H
  ihave H := (bigSep_exists_pi s fun t f => ((ℓ ↦[K t]{q} f) : sProp 𝕄)) $$ H
  icases H with ⟨%fs, H⟩
  ihave H := (pointsTo_biUnion_join s K fs f₀ h) $$ H
  icases H with ⟨%g, -, H⟩
  iexists g
  iexact H

variable {ℓ : Loc nD τ sig} (S : Finset (Idx ℓ))

/-- Ownership at a share splits into ownership at its two halves; -/
theorem share_split2 (q : PosShare TreeShare) (f : Buf Val ℓ) :
    ((ℓ ↦[S]{q} f) : sProp 𝕄) ⊢ iprop((ℓ ↦[S]{q.left} f) ∗ (ℓ ↦[S]{q.right} f)) :=
  (pointsTo_share (PosShare.mem_left_op_right q)).1

/-- two holders of the halves see the same contents, so they rejoin into the share at the first one's contents. -/
theorem share_join2 (q : PosShare TreeShare) (f g : Buf Val ℓ) :
    (iprop((ℓ ↦[S]{q.left} f) ∗ (ℓ ↦[S]{q.right} g)) : sProp 𝕄) ⊢ (ℓ ↦[S]{q} f) := by
  iintro ⟨H1, H2⟩
  icombine H1 H2 gives %h
  have e : ((ℓ ↦[S]{q.right} g) : sProp 𝕄) = (ℓ ↦[S]{q.right} f) :=
    pointsTo_congr fun i hi => ((h i (Finset.mem_inter.mpr ⟨hi, hi⟩)).1).symm
  ihave H2' := (Entails.of_eq e) $$ H2
  iapply (pointsTo_share (PosShare.mem_left_op_right q)).2
  isplitl [H1] <;> iassumption

/-- The same by quarters: splitting, -/
theorem share_split4 (q : PosShare TreeShare) (f : Buf Val ℓ) :
    ((ℓ ↦[S]{q} f) : sProp 𝕄) ⊢ iprop((ℓ ↦[S]{q.left.left} f) ∗ (ℓ ↦[S]{q.left.right} f)
      ∗ (ℓ ↦[S]{q.right.left} f) ∗ (ℓ ↦[S]{q.right.right} f)) := by
  iintro H
  ihave H := (share_split2 S q f) $$ H
  icases H with ⟨HL, HR⟩
  ihave HL := (share_split2 S q.left f) $$ HL
  ihave HR := (share_split2 S q.right f) $$ HR
  icases HL with ⟨H0, H1⟩
  iframe

/-- and rejoining. -/
theorem share_join4 (q : PosShare TreeShare) (f0 f1 f2 f3 : Buf Val ℓ) :
    (iprop((ℓ ↦[S]{q.left.left} f0) ∗ (ℓ ↦[S]{q.left.right} f1) ∗ (ℓ ↦[S]{q.right.left} f2) ∗ (ℓ ↦[S]{q.right.right} f3)) : sProp 𝕄)
      ⊢ (ℓ ↦[S]{q} f0) := by
  iintro ⟨H0, H1, H2, H3⟩
  iapply (share_join2 S q f0 f2)
  isplitl [H0 H1]
  · iapply (share_join2 S q.left f0 f1); isplitl [H0] <;> iassumption
  · iapply (share_join2 S q.right f2 f3); isplitl [H2] <;> iassumption

/-- The same by eighths: splitting, -/
theorem share_split8 (q : PosShare TreeShare) (f : Buf Val ℓ) :
    ((ℓ ↦[S]{q} f) : sProp 𝕄) ⊢ iprop((ℓ ↦[S]{q.left.left.left} f) ∗ (ℓ ↦[S]{q.left.left.right} f)
      ∗ (ℓ ↦[S]{q.left.right.left} f) ∗ (ℓ ↦[S]{q.left.right.right} f) ∗ (ℓ ↦[S]{q.right.left.left} f)
      ∗ (ℓ ↦[S]{q.right.left.right} f) ∗ (ℓ ↦[S]{q.right.right.left} f) ∗ (ℓ ↦[S]{q.right.right.right} f)) := by
  iintro H
  ihave H := (share_split2 S q f) $$ H
  icases H with ⟨HL, HR⟩
  ihave HL := (share_split4 S q.left f) $$ HL
  ihave HR := (share_split4 S q.right f) $$ HR
  icases HL with ⟨H0, H1, H2, H3⟩
  iframe

/-- and rejoining. -/
theorem share_join8 (q : PosShare TreeShare) (f0 f1 f2 f3 f4 f5 f6 f7 : Buf Val ℓ) :
    (iprop((ℓ ↦[S]{q.left.left.left} f0) ∗ (ℓ ↦[S]{q.left.left.right} f1) ∗ (ℓ ↦[S]{q.left.right.left} f2)
        ∗ (ℓ ↦[S]{q.left.right.right} f3) ∗ (ℓ ↦[S]{q.right.left.left} f4) ∗ (ℓ ↦[S]{q.right.left.right} f5)
        ∗ (ℓ ↦[S]{q.right.right.left} f6) ∗ (ℓ ↦[S]{q.right.right.right} f7)) : sProp 𝕄)
      ⊢ (ℓ ↦[S]{q} f0) := by
  iintro ⟨H0, H1, H2, H3, H4, H5, H6, H7⟩
  iapply (share_join2 S q f0 f4)
  isplitl [H0 H1 H2 H3]
  · iapply (share_join4 S q.left f0 f1 f2 f3); iframe
  · iapply (share_join4 S q.right f4 f5 f6 f7); iframe

end Own

end Cert.LibRegions

end
-- ==== Proof.SurgRegions.lean ====
import proofs.«901052_g7700000000001053_dist_softmax_colshard_i_m1024_n1024_v7x_i32_bf16_1_alg».proof.Proof.SurgDefs
import proofs.«901052_g7700000000001053_dist_softmax_colshard_i_m1024_n1024_v7x_i32_bf16_1_alg».proof.Proof.LibRegions

noncomputable section

namespace Cert.KernelIdeal.Proto

open Cert.KernelIdeal Cert.KernelIdeal.Gen Cert.KernelIdeal.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.LibRegions

variable {F : FTy → Type} [FloatOps F]

local notation "𝕄" => MT nD τ sig Unit (Elt F) ℕ UU ℕ

set_option quotPrecheck false in
local notation "pS(" p ", " d ", " ch ", " q ", " f ")" =>
  ((pslot d ch).view.loc (p : Thread nD τ) ↦[(pslot d ch).view.set]{q} f)
set_option quotPrecheck false in
local notation "zS(" p ", " d ", " ch ", " q ", " f ")" =>
  ((zslot d ch).view.loc (p : Thread nD τ) ↦[(zslot d ch).view.set]{q} f)

/-- A slot is the elements whose first coordinate is its number and whose second is its half; a slab those of its half. -/
theorem mem_pslot (d : Fin 8) (ch : Fin 2) (i : S8x2x2x512.Idx) :
    i ∈ (pslot d ch).view.set ↔ (i 0).val = d.val ∧ (i 1).val = ch.val :=
  (Finset.ext_iff.mp ((View.set_reshape _ _).trans (View.set_slice_whole _ _)) i).trans (mem_slotRect i)

theorem mem_pslab (ch : Fin 2) (i : S8x2x2x512.Idx) : i ∈ (pslab ch).view.set ↔ (i 1).val = ch.val :=
  (Finset.ext_iff.mp (View.set_slice_whole _ _) i).trans (mem_slabRect i)

theorem mem_zslot (d : Fin 4) (ch : Fin 2) (i : S4x2x2x512.Idx) :
    i ∈ (zslot d ch).view.set ↔ (i 0).val = d.val ∧ (i 1).val = ch.val :=
  (Finset.ext_iff.mp ((View.set_reshape _ _).trans (View.set_slice_whole _ _)) i).trans (mem_slotRect i)

theorem mem_zslab (ch : Fin 2) (i : S4x2x2x512.Idx) : i ∈ (zslab ch).view.set ↔ (i 1).val = ch.val :=
  (Finset.ext_iff.mp (View.set_slice_whole _ _) i).trans (mem_slabRect i)

theorem pB_split (c : Dev nD) (f : Buf (Elt F) ((c : Thread nD τ).loc cc0_scratch0)) :
    ((((c : Thread nD τ).loc cc0_scratch0) ↦{fullShare} f) : sProp 𝕄)
      ⊢ iprop(pS(c, 7, 0, fullShare, f) ∗ pS(c, 7, 1, fullShare, f) ∗ pS(c, 6, 0, fullShare, f) ∗ pS(c, 6, 1, fullShare, f)
        ∗ pS(c, 5, 0, fullShare, f) ∗ pS(c, 5, 1, fullShare, f) ∗ pS(c, 4, 0, fullShare, f) ∗ pS(c, 4, 1, fullShare, f)
        ∗ pS(c, 3, 0, fullShare, f) ∗ pS(c, 3, 1, fullShare, f) ∗ pS(c, 2, 0, fullShare, f) ∗ pS(c, 2, 1, fullShare, f)
        ∗ pS(c, 1, 0, fullShare, f) ∗ pS(c, 1, 1, fullShare, f) ∗ pS(c, 0, 0, fullShare, f) ∗ pS(c, 0, 1, fullShare, f)) := by
  rw [← grid_cover mem_pslot (fun i => (i 0).isLt) (fun i => (i 1).isLt), pointsTo_biUnion (ℓ := (c : Thread nD τ).loc cc0_scratch0) Finset.univ
    (fun x : Fin 8 × Fin 2 => (pslot x.1 x.2).view.set) (grid_pairwise mem_pslot), bigSep_fin8x2]
  exact .rfl

theorem pB_join (c : Dev nD) :
    (iprop(pslotAny c 7 0 ∗ pslotAny c 7 1 ∗ pslotAny c 6 0 ∗ pslotAny c 6 1 ∗ pslotAny c 5 0 ∗ pslotAny c 5 1
        ∗ pslotAny c 4 0 ∗ pslotAny c 4 1 ∗ pslotAny c 3 0 ∗ pslotAny c 3 1 ∗ pslotAny c 2 0 ∗ pslotAny c 2 1
        ∗ pslotAny c 1 0 ∗ pslotAny c 1 1 ∗ pslotAny c 0 0 ∗ pslotAny c 0 1) : sProp 𝕄)
      ⊢ iprop(∃ f : Buf (Elt F) ((c : Thread nD τ).loc cc0_scratch0), ((c : Thread nD τ).loc cc0_scratch0) ↦{fullShare} f) := by
  have h := pointsTo_biUnion_join_any (Ix := Unit) (Val := Elt F) (Name := ℕ) (U := UU) (Lvl := ℕ)
    ((c : Thread nD τ).loc cc0_scratch0) fullShare Finset.univ
    (fun x : Fin 8 × Fin 2 => (pslot x.1 x.2).view.set) (fun _ => default) (grid_pairwise mem_pslot)
  rw [grid_cover mem_pslot (fun i => (i 0).isLt) (fun i => (i 1).isLt), bigSep_fin8x2] at h
  exact h

theorem zB_split (c : Dev nD) (f : Buf (Elt F) ((c : Thread nD τ).loc cc0_scratch1)) :
    ((((c : Thread nD τ).loc cc0_scratch1) ↦{fullShare} f) : sProp 𝕄)
      ⊢ iprop(zS(c, 3, 0, fullShare, f) ∗ zS(c, 3, 1, fullShare, f) ∗ zS(c, 2, 0, fullShare, f) ∗ zS(c, 2, 1, fullShare, f)
        ∗ zS(c, 1, 0, fullShare, f) ∗ zS(c, 1, 1, fullShare, f) ∗ zS(c, 0, 0, fullShare, f) ∗ zS(c, 0, 1, fullShare, f)) := by
  rw [← grid_cover mem_zslot (fun i => (i 0).isLt) (fun i => (i 1).isLt), pointsTo_biUnion (ℓ := (c : Thread nD τ).loc cc0_scratch1) Finset.univ
    (fun x : Fin 4 × Fin 2 => (zslot x.1 x.2).view.set) (grid_pairwise mem_zslot), bigSep_fin4x2]
  exact .rfl

theorem zB_join (c : Dev nD) :
    (iprop(zslotAny c 3 0 ∗ zslotAny c 3 1 ∗ zslotAny c 2 0 ∗ zslotAny c 2 1 ∗ zslotAny c 1 0 ∗ zslotAny c 1 1
        ∗ zslotAny c 0 0 ∗ zslotAny c 0 1) : sProp 𝕄)
      ⊢ iprop(∃ f : Buf (Elt F) ((c : Thread nD τ).loc cc0_scratch1), ((c : Thread nD τ).loc cc0_scratch1) ↦{fullShare} f) := by
  have h := pointsTo_biUnion_join_any (Ix := Unit) (Val := Elt F) (Name := ℕ) (U := UU) (Lvl := ℕ)
    ((c : Thread nD τ).loc cc0_scratch1) fullShare Finset.univ
    (fun x : Fin 4 × Fin 2 => (zslot x.1 x.2).view.set) (fun _ => default) (grid_pairwise mem_zslot)
  rw [grid_cover mem_zslot (fun i => (i 0).isLt) (fun i => (i 1).isLt), bigSep_fin4x2] at h
  exact h

theorem pslab_join (c : Dev nD) (ch : Fin 2) (q : PosShare TreeShare)
    (f0 f1 f2 f3 f4 f5 f6 f7 : Buf (Elt F) ((c : Thread nD τ).loc cc0_scratch0)) :
    (iprop(pS(c, 0, ch, q, f0) ∗ pS(c, 1, ch, q, f1) ∗ pS(c, 2, ch, q, f2) ∗ pS(c, 3, ch, q, f3)
        ∗ pS(c, 4, ch, q, f4) ∗ pS(c, 5, ch, q, f5) ∗ pS(c, 6, ch, q, f6) ∗ pS(c, 7, ch, q, f7)) : sProp 𝕄)
      ⊢ iprop(∃ g : Buf (Elt F) ((c : Thread nD τ).loc cc0_scratch0),
          ⌜(pslot 0 ch).view.read (Elt F) g = (pslot 0 ch).view.read (Elt F) f0
            ∧ (pslot 1 ch).view.read (Elt F) g = (pslot 1 ch).view.read (Elt F) f1
            ∧ (pslot 2 ch).view.read (Elt F) g = (pslot 2 ch).view.read (Elt F) f2
            ∧ (pslot 3 ch).view.read (Elt F) g = (pslot 3 ch).view.read (Elt F) f3
            ∧ (pslot 4 ch).view.read (Elt F) g = (pslot 4 ch).view.read (Elt F) f4
            ∧ (pslot 5 ch).view.read (Elt F) g = (pslot 5 ch).view.read (Elt F) f5
            ∧ (pslot 6 ch).view.read (Elt F) g = (pslot 6 ch).view.read (Elt F) f6
            ∧ (pslot 7 ch).view.read (Elt F) g = (pslot 7 ch).view.read (Elt F) f7⌝
          ∗ ((pslab ch).view.loc (c : Thread nD τ) ↦[(pslab ch).view.set]{q} g)) := by
  have h := pointsTo_biUnion_join (Ix := Unit) (Name := ℕ) (U := UU) (Lvl := ℕ)
    (ℓ := (c : Thread nD τ).loc cc0_scratch0) (q := q) (Finset.univ : Finset (Fin 8))
    (fun d : Fin 8 => (pslot d ch).view.set) ![f0, f1, f2, f3, f4, f5, f6, f7] f0 (grid_row_pairwise mem_pslot ch)
  rw [bigSep_fin8, grid_row_cover mem_pslot (fun i => (i 0).isLt) (mem_pslab ch)] at h
  refine h.trans ?_
  iintro ⟨%g, %hg, H⟩
  have rc := fun d : Fin 8 => View.read_congr (v := (pslot d ch).view) fun i hi => hg d (Finset.mem_univ _) i hi
  iexists g
  isplitr
  · ipureintro; exact ⟨rc 0, rc 1, rc 2, rc 3, rc 4, rc 5, rc 6, rc 7⟩
  · iexact H

theorem pslab_split (c : Dev nD) (ch : Fin 2) (q : PosShare TreeShare) (g : Buf (Elt F) ((c : Thread nD τ).loc cc0_scratch0)) :
    (((pslab ch).view.loc (c : Thread nD τ) ↦[(pslab ch).view.set]{q} g) : sProp 𝕄)
      ⊢ iprop(pS(c, 0, ch, q, g) ∗ pS(c, 1, ch, q, g) ∗ pS(c, 2, ch, q, g) ∗ pS(c, 3, ch, q, g)
        ∗ pS(c, 4, ch, q, g) ∗ pS(c, 5, ch, q, g) ∗ pS(c, 6, ch, q, g) ∗ pS(c, 7, ch, q, g)) := by
  rw [← grid_row_cover mem_pslot (fun i => (i 0).isLt) (mem_pslab ch), pointsTo_biUnion (ℓ := (c : Thread nD τ).loc cc0_scratch0) Finset.univ
    (fun d : Fin 8 => (pslot d ch).view.set) (grid_row_pairwise mem_pslot ch), bigSep_fin8]
  exact .rfl

theorem zslab_join (c : Dev nD) (ch : Fin 2) (q : PosShare TreeShare)
    (f0 f1 f2 f3 : Buf (Elt F) ((c : Thread nD τ).loc cc0_scratch1)) :
    (iprop(zS(c, 0, ch, q, f0) ∗ zS(c, 1, ch, q, f1) ∗ zS(c, 2, ch, q, f2) ∗ zS(c, 3, ch, q, f3)) : sProp 𝕄)
      ⊢ iprop(∃ g : Buf (Elt F) ((c : Thread nD τ).loc cc0_scratch1),
          ⌜(zslot 0 ch).view.read (Elt F) g = (zslot 0 ch).view.read (Elt F) f0
            ∧ (zslot 1 ch).view.read (Elt F) g = (zslot 1 ch).view.read (Elt F) f1
            ∧ (zslot 2 ch).view.read (Elt F) g = (zslot 2 ch).view.read (Elt F) f2
            ∧ (zslot 3 ch).view.read (Elt F) g = (zslot 3 ch).view.read (Elt F) f3⌝
          ∗ ((zslab ch).view.loc (c : Thread nD τ) ↦[(zslab ch).view.set]{q} g)) := by
  have h := pointsTo_biUnion_join (Ix := Unit) (Name := ℕ) (U := UU) (Lvl := ℕ)
    (ℓ := (c : Thread nD τ).loc cc0_scratch1) (q := q) (Finset.univ : Finset (Fin 4))
    (fun d : Fin 4 => (zslot d ch).view.set) ![f0, f1, f2, f3] f0 (grid_row_pairwise mem_zslot ch)
  rw [bigSep_fin4, grid_row_cover mem_zslot (fun i => (i 0).isLt) (mem_zslab ch)] at h
  refine h.trans ?_
  iintro ⟨%g, %hg, H⟩
  have rc := fun d : Fin 4 => View.read_congr (v := (zslot d ch).view) fun i hi => hg d (Finset.mem_univ _) i hi
  iexists g
  isplitr
  · ipureintro; exact ⟨rc 0, rc 1, rc 2, rc 3⟩
  · iexact H

theorem zslab_split (c : Dev nD) (ch : Fin 2) (q : PosShare TreeShare) (g : Buf (Elt F) ((c : Thread nD τ).loc cc0_scratch1)) :
    (((zslab ch).view.loc (c : Thread nD τ) ↦[(zslab ch).view.set]{q} g) : sProp 𝕄)
      ⊢ iprop(zS(c, 0, ch, q, g) ∗ zS(c, 1, ch, q, g) ∗ zS(c, 2, ch, q, g) ∗ zS(c, 3, ch, q, g)) := by
  rw [← grid_row_cover mem_zslot (fun i => (i 0).isLt) (mem_zslab ch), pointsTo_biUnion (ℓ := (c : Thread nD τ).loc cc0_scratch1) Finset.univ
    (fun d : Fin 4 => (zslot d ch).view.set) (grid_row_pairwise mem_zslot ch), bigSep_fin4]
  exact .rfl

end Cert.KernelIdeal.Proto

end
-- ==== Proof.SurgShares.lean ====
import proofs.«901052_g7700000000001053_dist_softmax_colshard_i_m1024_n1024_v7x_i32_bf16_1_alg».proof.Proof.Inv
import proofs.«901052_g7700000000001053_dist_softmax_colshard_i_m1024_n1024_v7x_i32_bf16_1_alg».proof.Proof.LibRegions

noncomputable section

namespace Cert.KernelIdeal.Proto

open Cert.KernelIdeal Cert.KernelIdeal.Gen Cert.KernelIdeal.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.LibRegions

variable {F : FTy → Type} [FloatOps F]

local notation "𝕄" => MT nD τ sig Unit (Elt F) ℕ UU ℕ

variable {ℓ : Loc nD τ sig} (S : Finset (Idx ℓ))

theorem share8_split (f : Buf (Elt F) ℓ) :
    ((ℓ ↦[S]{fullShare} f) : sProp 𝕄)
      ⊢ iprop((ℓ ↦[S]{sh8 0} f) ∗ (ℓ ↦[S]{sh8 1} f) ∗ (ℓ ↦[S]{sh8 2} f) ∗ (ℓ ↦[S]{sh8 3} f)
        ∗ (ℓ ↦[S]{sh8 4} f) ∗ (ℓ ↦[S]{sh8 5} f) ∗ (ℓ ↦[S]{sh8 6} f) ∗ (ℓ ↦[S]{sh8 7} f)) :=
  share_split8 S fullShare f

theorem share8_join (f0 f1 f2 f3 f4 f5 f6 f7 : Buf (Elt F) ℓ) :
    (iprop((ℓ ↦[S]{sh8 0} f0) ∗ (ℓ ↦[S]{sh8 1} f1) ∗ (ℓ ↦[S]{sh8 2} f2) ∗ (ℓ ↦[S]{sh8 3} f3)
        ∗ (ℓ ↦[S]{sh8 4} f4) ∗ (ℓ ↦[S]{sh8 5} f5) ∗ (ℓ ↦[S]{sh8 6} f6) ∗ (ℓ ↦[S]{sh8 7} f7)) : sProp 𝕄)
      ⊢ (ℓ ↦[S]{fullShare} f0) :=
  share_join8 S fullShare f0 f1 f2 f3 f4 f5 f6 f7

theorem share4_split (f : Buf (Elt F) ℓ) :
    ((ℓ ↦[S]{fullShare} f) : sProp 𝕄)
      ⊢ iprop((ℓ ↦[S]{sh4 0} f) ∗ (ℓ ↦[S]{sh4 1} f) ∗ (ℓ ↦[S]{sh4 2} f) ∗ (ℓ ↦[S]{sh4 3} f)) :=
  share_split4 S fullShare f

theorem share4_join (f0 f1 f2 f3 : Buf (Elt F) ℓ) :
    (iprop((ℓ ↦[S]{sh4 0} f0) ∗ (ℓ ↦[S]{sh4 1} f1) ∗ (ℓ ↦[S]{sh4 2} f2) ∗ (ℓ ↦[S]{sh4 3} f3)) : sProp 𝕄)
      ⊢ (ℓ ↦[S]{fullShare} f0) :=
  share_join4 S fullShare f0 f1 f2 f3

/-- Everything of a region but its first share: set aside while the region is read at that share alone. -/
def rest8 (f : Buf (Elt F) ℓ) : sProp 𝕄 :=
  iprop((ℓ ↦[S]{sh8 1} f) ∗ (ℓ ↦[S]{sh8 2} f) ∗ (ℓ ↦[S]{sh8 3} f) ∗ (ℓ ↦[S]{sh8 4} f) ∗ (ℓ ↦[S]{sh8 5} f) ∗ (ℓ ↦[S]{sh8 6} f) ∗ (ℓ ↦[S]{sh8 7} f))
def rest4 (f : Buf (Elt F) ℓ) : sProp 𝕄 :=
  iprop((ℓ ↦[S]{sh4 1} f) ∗ (ℓ ↦[S]{sh4 2} f) ∗ (ℓ ↦[S]{sh4 3} f))

theorem share8_carve (f : Buf (Elt F) ℓ) :
    ((ℓ ↦[S]{fullShare} f) : sProp 𝕄) ⊢ iprop((ℓ ↦[S]{sh8 0} f) ∗ rest8 S f) := share8_split S f
theorem share4_carve (f : Buf (Elt F) ℓ) :
    ((ℓ ↦[S]{fullShare} f) : sProp 𝕄) ⊢ iprop((ℓ ↦[S]{sh4 0} f) ∗ rest4 S f) := share4_split S f

end Cert.KernelIdeal.Proto

end
-- ==== Proof.SurgValues.lean ====
import proofs.«901052_g7700000000001053_dist_softmax_colshard_i_m1024_n1024_v7x_i32_bf16_1_alg».proof.Proof.Inv
import proofs.«901052_g7700000000001053_dist_softmax_colshard_i_m1024_n1024_v7x_i32_bf16_1_alg».proof.Proof.LibRegions

noncomputable section

namespace Cert.KernelIdeal.Proto

open Cert.KernelIdeal Cert.KernelIdeal.Gen

open Idealize.ShloMosaic
open Idealize.ShloMosaic.TcCoe
open Cert.LibRegions

variable {F : FTy → Type} [FloatOps F]

open Idealize.ShloMosaic.ValueIdx

theorem pslot_read (c : Dev nD) (g : Buf (Elt F) ((c : Thread nD τ).loc cc0_scratch0)) (d : Fin 8) (ch row : Fin 2) (r : Fin 512) :
    (pslot d ch).view.read (Elt F) g (ix2 row r) = g (ix4 d ch row r) := by
  have e : (pslot d ch).view.emb (ix2 row r) = ix4 d ch row r :=
    slot_emb (n0 := 8) (n1 := 2) (n2 := 2) (n3 := 512) ![d.val, ch.val, 0, 0] (inbP d ch) _ row r d ch row r rfl rfl
      (Nat.zero_add _).symm (Nat.zero_add _).symm
  rw [View.read_apply, e]; exact cast_eq _ _

theorem pwhole_readAt (c : Dev nD) (g : Buf (Elt F) ((c : Thread nD τ).loc cc0_scratch0)) (off size : Fin 4 → ℕ)
    (inb : ∀ a, off a + size a ≤ S8x2x2x512.size a) (i : (⟨4, size⟩ : Shape).Idx) (k0 : Fin 8) (k1 k2 : Fin 2) (k3 : Fin 512)
    (h0 : k0.val = off 0 + (i 0).val) (h1 : k1.val = off 1 + (i 1).val) (h2 : k2.val = off 2 + (i 2).val) (h3 : k3.val = off 3 + (i 3).val) :
    View.readAt (Elt F) (Memref.whole cc0_scratch0 : Memref sig .tc .vmem S8x2x2x512 .f32).view
      (Rect.unit (s := S8x2x2x512) off size inb).toLoadRect g i = g (ix4 k0 k1 k2 k3) := by
  rw [View.readAt_apply, View.read_apply]
  show _root_.cast _ (g ((Rect.unit (s := S8x2x2x512) off size inb).emb i)) = _
  rw [unit_emb4 (n0 := 8) (n1 := 2) (n2 := 2) (n3 := 512) off size inb i k0 k1 k2 k3 h0 h1 h2 h3]; exact cast_eq _ _

theorem prow_write_hit (c : Dev nD) (f : Buf (Elt F) ((c : Thread nD τ).loc cc0_scratch0)) (w : FVec F S1x1x1x512 .f32) (off : Fin 4 → ℕ)
    (inb : ∀ a, off a + S1x1x1x512.size a ≤ S8x2x2x512.size a) (k0 : Fin 8) (k1 k2 : Fin 2) (r : Fin 512)
    (h0 : k0.val = off 0) (h1 : k1.val = off 1) (h2 : k2.val = off 2) (h3 : r.val = off 3 + r.val) :
    View.write (Elt F) ((Memref.whole cc0_scratch0 : Memref sig .tc .vmem S8x2x2x512 .f32).access (Rect.unit (s := S8x2x2x512) off S1x1x1x512.size inb)) f w Finset.univ (ix4 k0 k1 k2 r)
      = w (ix4 (0 : Fin 1) (0 : Fin 1) (0 : Fin 1) r) := by
  have e : ((Memref.whole cc0_scratch0 : Memref sig .tc .vmem S8x2x2x512 .f32).access (Rect.unit (s := S8x2x2x512) off S1x1x1x512.size inb)).emb (ix4 (0 : Fin 1) (0 : Fin 1) (0 : Fin 1) r) = ix4 k0 k1 k2 r :=
    unit_emb4 (n0 := 8) (n1 := 2) (n2 := 2) (n3 := 512) off _ inb _ k0 k1 k2 r h0 h1 h2 h3
  rw [← e, View.write_emb_of_mem _ _ (Finset.mem_univ _)]; exact cast_eq _ _

theorem prow_write_miss (c : Dev nD) (f : Buf (Elt F) ((c : Thread nD τ).loc cc0_scratch0)) (w : FVec F S1x1x1x512 .f32) (off : Fin 4 → ℕ)
    (inb : ∀ a, off a + S1x1x1x512.size a ≤ S8x2x2x512.size a) (k : S8x2x2x512.Idx) (h2 : (k 2).val ≠ off 2) :
    View.write (Elt F) ((Memref.whole cc0_scratch0 : Memref sig .tc .vmem S8x2x2x512 .f32).access (Rect.unit (s := S8x2x2x512) off S1x1x1x512.size inb)) f w Finset.univ k = f k := by
  refine View.write_of_not_mem _ _ _ fun hm => h2 ?_
  rw [View.setOn_univ, View.set_slice_whole, Rect.mem_set_unit] at hm
  have h := hm 2
  have h1 : S1x1x1x512.size 2 = 1 := rfl
  omega

/-- A row stored at row 0 of slot 0 of a half and then a row at its row 1: the slot reads the one above the other. -/
theorem pslot0_holds_0 (c : Dev nD) (f : Buf (Elt F) ((c : Thread nD τ).loc cc0_scratch0)) (a b : FVec F S1x1x1x512 .f32) :
    SlotHolds ((pslot 0 0).view.read (Elt F)
      (View.write (Elt F) ((Memref.whole cc0_scratch0 : Memref sig .tc .vmem S8x2x2x512 .f32).access (Rect.unit (s := S8x2x2x512) ![0, 0, 1, 0] S1x1x1x512.size inb_S8x2x2x512_S1x1x1x512_0_0_1_0))
        (View.write (Elt F) ((Memref.whole cc0_scratch0 : Memref sig .tc .vmem S8x2x2x512 .f32).access (Rect.unit (s := S8x2x2x512) ![0, 0, 0, 0] S1x1x1x512.size inb_S8x2x2x512_S1x1x1x512_0_0_0_0)) f a Finset.univ)
        b Finset.univ)) a b := by
  intro r
  rw [pslot_read c, pslot_read c]
  constructor
  · rw [prow_write_miss c _ b _ _ _ (show (0 : ℕ) ≠ 1 from Nat.zero_ne_one),
      prow_write_hit c f a ![0, 0, 0, 0] _ 0 0 0 r rfl rfl rfl (Nat.zero_add _).symm]
  · rw [prow_write_hit c _ b ![0, 0, 1, 0] _ 0 0 1 r rfl rfl rfl (Nat.zero_add _).symm]
theorem pslot0_holds_1 (c : Dev nD) (f : Buf (Elt F) ((c : Thread nD τ).loc cc0_scratch0)) (a b : FVec F S1x1x1x512 .f32) :
    SlotHolds ((pslot 0 1).view.read (Elt F)
      (View.write (Elt F) ((Memref.whole cc0_scratch0 : Memref sig .tc .vmem S8x2x2x512 .f32).access (Rect.unit (s := S8x2x2x512) ![0, 1, 1, 0] S1x1x1x512.size inb_S8x2x2x512_S1x1x1x512_0_1_1_0))
        (View.write (Elt F) ((Memref.whole cc0_scratch0 : Memref sig .tc .vmem S8x2x2x512 .f32).access (Rect.unit (s := S8x2x2x512) ![0, 1, 0, 0] S1x1x1x512.size inb_S8x2x2x512_S1x1x1x512_0_1_0_0)) f a Finset.univ)
        b Finset.univ)) a b := by
  intro r
  rw [pslot_read c, pslot_read c]
  constructor
  · rw [prow_write_miss c _ b _ _ _ (show (0 : ℕ) ≠ 1 from Nat.zero_ne_one),
      prow_write_hit c f a ![0, 1, 0, 0] _ 0 1 0 r rfl rfl rfl (Nat.zero_add _).symm]
  · rw [prow_write_hit c _ b ![0, 1, 1, 0] _ 0 1 1 r rfl rfl rfl (Nat.zero_add _).symm]

theorem zslot_read (c : Dev nD) (g : Buf (Elt F) ((c : Thread nD τ).loc cc0_scratch1)) (d : Fin 4) (ch row : Fin 2) (r : Fin 512) :
    (zslot d ch).view.read (Elt F) g (ix2 row r) = g (ix4 d ch row r) := by
  have e : (zslot d ch).view.emb (ix2 row r) = ix4 d ch row r :=
    slot_emb (n0 := 4) (n1 := 2) (n2 := 2) (n3 := 512) ![d.val, ch.val, 0, 0] (inbZ d ch) _ row r d ch row r rfl rfl
      (Nat.zero_add _).symm (Nat.zero_add _).symm
  rw [View.read_apply, e]; exact cast_eq _ _

theorem zwhole_readAt (c : Dev nD) (g : Buf (Elt F) ((c : Thread nD τ).loc cc0_scratch1)) (off size : Fin 4 → ℕ)
    (inb : ∀ a, off a + size a ≤ S4x2x2x512.size a) (i : (⟨4, size⟩ : Shape).Idx) (k0 : Fin 4) (k1 k2 : Fin 2) (k3 : Fin 512)
    (h0 : k0.val = off 0 + (i 0).val) (h1 : k1.val = off 1 + (i 1).val) (h2 : k2.val = off 2 + (i 2).val) (h3 : k3.val = off 3 + (i 3).val) :
    View.readAt (Elt F) (Memref.whole cc0_scratch1 : Memref sig .tc .vmem S4x2x2x512 .f32).view
      (Rect.unit (s := S4x2x2x512) off size inb).toLoadRect g i = g (ix4 k0 k1 k2 k3) := by
  rw [View.readAt_apply, View.read_apply]
  show _root_.cast _ (g ((Rect.unit (s := S4x2x2x512) off size inb).emb i)) = _
  rw [unit_emb4 (n0 := 4) (n1 := 2) (n2 := 2) (n3 := 512) off size inb i k0 k1 k2 k3 h0 h1 h2 h3]; exact cast_eq _ _

theorem zrow_write_hit (c : Dev nD) (f : Buf (Elt F) ((c : Thread nD τ).loc cc0_scratch1)) (w : FVec F S1x1x1x512 .f32) (off : Fin 4 → ℕ)
    (inb : ∀ a, off a + S1x1x1x512.size a ≤ S4x2x2x512.size a) (k0 : Fin 4) (k1 k2 : Fin 2) (r : Fin 512)
    (h0 : k0.val = off 0) (h1 : k1.val = off 1) (h2 : k2.val = off 2) (h3 : r.val = off 3 + r.val) :
    View.write (Elt F) ((Memref.whole cc0_scratch1 : Memref sig .tc .vmem S4x2x2x512 .f32).access (Rect.unit (s := S4x2x2x512) off S1x1x1x512.size inb)) f w Finset.univ (ix4 k0 k1 k2 r)
      = w (ix4 (0 : Fin 1) (0 : Fin 1) (0 : Fin 1) r) := by
  have e : ((Memref.whole cc0_scratch1 : Memref sig .tc .vmem S4x2x2x512 .f32).access (Rect.unit (s := S4x2x2x512) off S1x1x1x512.size inb)).emb (ix4 (0 : Fin 1) (0 : Fin 1) (0 : Fin 1) r) = ix4 k0 k1 k2 r :=
    unit_emb4 (n0 := 4) (n1 := 2) (n2 := 2) (n3 := 512) off _ inb _ k0 k1 k2 r h0 h1 h2 h3
  rw [← e, View.write_emb_of_mem _ _ (Finset.mem_univ _)]; exact cast_eq _ _

theorem zrow_write_miss (c : Dev nD) (f : Buf (Elt F) ((c : Thread nD τ).loc cc0_scratch1)) (w : FVec F S1x1x1x512 .f32) (off : Fin 4 → ℕ)
    (inb : ∀ a, off a + S1x1x1x512.size a ≤ S4x2x2x512.size a) (k : S4x2x2x512.Idx) (h2 : (k 2).val ≠ off 2) :
    View.write (Elt F) ((Memref.whole cc0_scratch1 : Memref sig .tc .vmem S4x2x2x512 .f32).access (Rect.unit (s := S4x2x2x512) off S1x1x1x512.size inb)) f w Finset.univ k = f k := by
  refine View.write_of_not_mem _ _ _ fun hm => h2 ?_
  rw [View.setOn_univ, View.set_slice_whole, Rect.mem_set_unit] at hm
  have h := hm 2
  have h1 : S1x1x1x512.size 2 = 1 := rfl
  omega

/-- A row stored at row 0 of slot 0 of a half and then a row at its row 1: the slot reads the one above the other. -/
theorem zslot0_holds_0 (c : Dev nD) (f : Buf (Elt F) ((c : Thread nD τ).loc cc0_scratch1)) (a b : FVec F S1x1x1x512 .f32) :
    SlotHolds ((zslot 0 0).view.read (Elt F)
      (View.write (Elt F) ((Memref.whole cc0_scratch1 : Memref sig .tc .vmem S4x2x2x512 .f32).access (Rect.unit (s := S4x2x2x512) ![0, 0, 1, 0] S1x1x1x512.size inb_S4x2x2x512_S1x1x1x512_0_0_1_0))
        (View.write (Elt F) ((Memref.whole cc0_scratch1 : Memref sig .tc .vmem S4x2x2x512 .f32).access (Rect.unit (s := S4x2x2x512) ![0, 0, 0, 0] S1x1x1x512.size inb_S4x2x2x512_S1x1x1x512_0_0_0_0)) f a Finset.univ)
        b Finset.univ)) a b := by
  intro r
  rw [zslot_read c, zslot_read c]
  constructor
  · rw [zrow_write_miss c _ b _ _ _ (show (0 : ℕ) ≠ 1 from Nat.zero_ne_one),
      zrow_write_hit c f a ![0, 0, 0, 0] _ 0 0 0 r rfl rfl rfl (Nat.zero_add _).symm]
  · rw [zrow_write_hit c _ b ![0, 0, 1, 0] _ 0 0 1 r rfl rfl rfl (Nat.zero_add _).symm]
theorem zslot0_holds_1 (c : Dev nD) (f : Buf (Elt F) ((c : Thread nD τ).loc cc0_scratch1)) (a b : FVec F S1x1x1x512 .f32) :
    SlotHolds ((zslot 0 1).view.read (Elt F)
      (View.write (Elt F) ((Memref.whole cc0_scratch1 : Memref sig .tc .vmem S4x2x2x512 .f32).access (Rect.unit (s := S4x2x2x512) ![0, 1, 1, 0] S1x1x1x512.size inb_S4x2x2x512_S1x1x1x512_0_1_1_0))
        (View.write (Elt F) ((Memref.whole cc0_scratch1 : Memref sig .tc .vmem S4x2x2x512 .f32).access (Rect.unit (s := S4x2x2x512) ![0, 1, 0, 0] S1x1x1x512.size inb_S4x2x2x512_S1x1x1x512_0_1_0_0)) f a Finset.univ)
        b Finset.univ)) a b := by
  intro r
  rw [zslot_read c, zslot_read c]
  constructor
  · rw [zrow_write_miss c _ b _ _ _ (show (0 : ℕ) ≠ 1 from Nat.zero_ne_one),
      zrow_write_hit c f a ![0, 1, 0, 0] _ 0 1 0 r rfl rfl rfl (Nat.zero_add _).symm]
  · rw [zrow_write_hit c _ b ![0, 1, 1, 0] _ 0 1 1 r rfl rfl rfl (Nat.zero_add _).symm]

end Cert.KernelIdeal.Proto

end
-- ==== Proof.SurgRows.lean ====
import proofs.«901052_g7700000000001053_dist_softmax_colshard_i_m1024_n1024_v7x_i32_bf16_1_alg».proof.Proof.SurgValues

noncomputable section

namespace Cert.KernelIdeal.Proto

open Cert.KernelIdeal Cert.KernelIdeal.Gen Cert.KernelIdeal.Topo

open Idealize.ShloMosaic
open Idealize.ShloMosaic.TcCoe

variable {F : FTy → Type} [FloatOps F]

open Idealize.ShloMosaic.ValueIdx

/-- Reading one row across the slots of a half gives, at `i`, column `i 3` of that row of slot `i 0`. -/
theorem rows_pslab (c : Dev nD) (g : Buf (Elt F) ((c : Thread nD τ).loc cc0_scratch0)) (ch row : Fin 2) (off : Fin 4 → ℕ)
    (inb : ∀ a, off a + S8x1x1x512.size a ≤ S8x2x2x512.size a)
    (h0 : off 0 = 0) (h1 : off 1 = ch.val) (h2 : off 2 = row.val) (h3 : off 3 = 0) (a b : Fin 8 → FVec F S1x1x1x512 .f32)
    (h : ∀ d : Fin 8, SlotHolds ((pslot d ch).view.read (Elt F) g) (a d) (b d)) (i : S8x1x1x512.Idx) :
    View.readAt (Elt F) (Memref.whole cc0_scratch0 : Memref sig .tc .vmem S8x2x2x512 .f32).view
      (Rect.unit (s := S8x2x2x512) off S8x1x1x512.size inb).toLoadRect g i
      = (![a, b] row (⟨(i 0).val, (i 0).isLt⟩ : Fin 8) (ix4 (0 : Fin 1) (0 : Fin 1) (0 : Fin 1) (⟨(i 3).val, (i 3).isLt⟩ : Fin 512)) : Elt F .f32) := by
  have i1 : (i 1).val < 1 := (i 1).isLt
  have i2 : (i 2).val < 1 := (i 2).isLt
  rw [pwhole_readAt c g off _ inb i ⟨(i 0).val, (i 0).isLt⟩ ch row ⟨(i 3).val, (i 3).isLt⟩
      (show (i 0).val = _ by omega) (show ch.val = _ by omega) (show row.val = _ by omega) (show (i 3).val = _ by omega),
    ← pslot_read c g _ ch row _]
  exact match row with
    | 0 => (h _ _).1
    | 1 => (h _ _).2

theorem rows_zslab (c : Dev nD) (g : Buf (Elt F) ((c : Thread nD τ).loc cc0_scratch1)) (ch row : Fin 2) (off : Fin 4 → ℕ)
    (inb : ∀ a, off a + S4x1x1x512.size a ≤ S4x2x2x512.size a)
    (h0 : off 0 = 0) (h1 : off 1 = ch.val) (h2 : off 2 = row.val) (h3 : off 3 = 0) (a b : Fin 4 → FVec F S1x1x1x512 .f32)
    (h : ∀ d : Fin 4, SlotHolds ((zslot d ch).view.read (Elt F) g) (a d) (b d)) (i : S4x1x1x512.Idx) :
    View.readAt (Elt F) (Memref.whole cc0_scratch1 : Memref sig .tc .vmem S4x2x2x512 .f32).view
      (Rect.unit (s := S4x2x2x512) off S4x1x1x512.size inb).toLoadRect g i
      = (![a, b] row (⟨(i 0).val, (i 0).isLt⟩ : Fin 4) (ix4 (0 : Fin 1) (0 : Fin 1) (0 : Fin 1) (⟨(i 3).val, (i 3).isLt⟩ : Fin 512)) : Elt F .f32) := by
  have i1 : (i 1).val < 1 := (i 1).isLt
  have i2 : (i 2).val < 1 := (i 2).isLt
  rw [zwhole_readAt c g off _ inb i ⟨(i 0).val, (i 0).isLt⟩ ch row ⟨(i 3).val, (i 3).isLt⟩
      (show (i 0).val = _ by omega) (show ch.val = _ by omega) (show row.val = _ by omega) (show (i 3).val = _ by omega),
    ← zslot_read c g _ ch row _]
  exact match row with
    | 0 => (h _ _).1
    | 1 => (h _ _).2

variable (m : (ℓ : Loc nD τ sig) → Buf (Elt F) ℓ)

/-- With slot `d` holding the pair of the peer at offset `-d`, row 0 is the vector of the peers' maxima and row 1 that of their sums. -/
theorem pslab_row0_0 (c : Dev nD) (g : Buf (Elt F) ((c : Thread nD τ).loc cc0_scratch0))
    (h : ∀ d : Fin 8, SlotHolds ((pslot d 0).view.read (Elt F) g) (mrow m (pp (-d) c) 0) (srow m (pp (-d) c) 0)) :
    View.readAt (Elt F) (Memref.whole cc0_scratch0 : Memref sig .tc .vmem S8x2x2x512 .f32).view
      (Rect.unit (s := S8x2x2x512) ![0, 0, 0, 0] S8x1x1x512.size inb_S8x2x2x512_S8x1x1x512_0_0_0_0).toLoadRect g = PMvec m c 0 := by
  funext i; exact rows_pslab c g 0 0 _ _ rfl rfl rfl rfl _ _ h i
theorem pslab_row1_0 (c : Dev nD) (g : Buf (Elt F) ((c : Thread nD τ).loc cc0_scratch0))
    (h : ∀ d : Fin 8, SlotHolds ((pslot d 0).view.read (Elt F) g) (mrow m (pp (-d) c) 0) (srow m (pp (-d) c) 0)) :
    View.readAt (Elt F) (Memref.whole cc0_scratch0 : Memref sig .tc .vmem S8x2x2x512 .f32).view
      (Rect.unit (s := S8x2x2x512) ![0, 0, 1, 0] S8x1x1x512.size inb_S8x2x2x512_S8x1x1x512_0_0_1_0).toLoadRect g = PSvec m c 0 := by
  funext i; exact rows_pslab c g 0 1 _ _ rfl rfl rfl rfl _ _ h i
theorem pslab_row0_1 (c : Dev nD) (g : Buf (Elt F) ((c : Thread nD τ).loc cc0_scratch0))
    (h : ∀ d : Fin 8, SlotHolds ((pslot d 1).view.read (Elt F) g) (mrow m (pp (-d) c) 1) (srow m (pp (-d) c) 1)) :
    View.readAt (Elt F) (Memref.whole cc0_scratch0 : Memref sig .tc .vmem S8x2x2x512 .f32).view
      (Rect.unit (s := S8x2x2x512) ![0, 1, 0, 0] S8x1x1x512.size inb_S8x2x2x512_S8x1x1x512_0_1_0_0).toLoadRect g = PMvec m c 1 := by
  funext i; exact rows_pslab c g 1 0 _ _ rfl rfl rfl rfl _ _ h i
theorem pslab_row1_1 (c : Dev nD) (g : Buf (Elt F) ((c : Thread nD τ).loc cc0_scratch0))
    (h : ∀ d : Fin 8, SlotHolds ((pslot d 1).view.read (Elt F) g) (mrow m (pp (-d) c) 1) (srow m (pp (-d) c) 1)) :
    View.readAt (Elt F) (Memref.whole cc0_scratch0 : Memref sig .tc .vmem S8x2x2x512 .f32).view
      (Rect.unit (s := S8x2x2x512) ![0, 1, 1, 0] S8x1x1x512.size inb_S8x2x2x512_S8x1x1x512_0_1_1_0).toLoadRect g = PSvec m c 1 := by
  funext i; exact rows_pslab c g 1 1 _ _ rfl rfl rfl rfl _ _ h i
theorem zslab_row0_0 (c : Dev nD) (g : Buf (Elt F) ((c : Thread nD τ).loc cc0_scratch1))
    (h : ∀ d : Fin 4, SlotHolds ((zslot d 0).view.read (Elt F) g) (mprow m (zp (-d) c) 0) (sprow m (zp (-d) c) 0)) :
    View.readAt (Elt F) (Memref.whole cc0_scratch1 : Memref sig .tc .vmem S4x2x2x512 .f32).view
      (Rect.unit (s := S4x2x2x512) ![0, 0, 0, 0] S4x1x1x512.size inb_S4x2x2x512_S4x1x1x512_0_0_0_0).toLoadRect g = ZMvec m c 0 := by
  funext i; exact rows_zslab c g 0 0 _ _ rfl rfl rfl rfl _ _ h i
theorem zslab_row1_0 (c : Dev nD) (g : Buf (Elt F) ((c : Thread nD τ).loc cc0_scratch1))
    (h : ∀ d : Fin 4, SlotHolds ((zslot d 0).view.read (Elt F) g) (mprow m (zp (-d) c) 0) (sprow m (zp (-d) c) 0)) :
    View.readAt (Elt F) (Memref.whole cc0_scratch1 : Memref sig .tc .vmem S4x2x2x512 .f32).view
      (Rect.unit (s := S4x2x2x512) ![0, 0, 1, 0] S4x1x1x512.size inb_S4x2x2x512_S4x1x1x512_0_0_1_0).toLoadRect g = ZSvec m c 0 := by
  funext i; exact rows_zslab c g 0 1 _ _ rfl rfl rfl rfl _ _ h i
theorem zslab_row0_1 (c : Dev nD) (g : Buf (Elt F) ((c : Thread nD τ).loc cc0_scratch1))
    (h : ∀ d : Fin 4, SlotHolds ((zslot d 1).view.read (Elt F) g) (mprow m (zp (-d) c) 1) (sprow m (zp (-d) c) 1)) :
    View.readAt (Elt F) (Memref.whole cc0_scratch1 : Memref sig .tc .vmem S4x2x2x512 .f32).view
      (Rect.unit (s := S4x2x2x512) ![0, 1, 0, 0] S4x1x1x512.size inb_S4x2x2x512_S4x1x1x512_0_1_0_0).toLoadRect g = ZMvec m c 1 := by
  funext i; exact rows_zslab c g 1 0 _ _ rfl rfl rfl rfl _ _ h i
theorem zslab_row1_1 (c : Dev nD) (g : Buf (Elt F) ((c : Thread nD τ).loc cc0_scratch1))
    (h : ∀ d : Fin 4, SlotHolds ((zslot d 1).view.read (Elt F) g) (mprow m (zp (-d) c) 1) (sprow m (zp (-d) c) 1)) :
    View.readAt (Elt F) (Memref.whole cc0_scratch1 : Memref sig .tc .vmem S4x2x2x512 .f32).view
      (Rect.unit (s := S4x2x2x512) ![0, 1, 1, 0] S4x1x1x512.size inb_S4x2x2x512_S4x1x1x512_0_1_1_0).toLoadRect g = ZSvec m c 1 := by
  funext i; exact rows_zslab c g 1 1 _ _ rfl rfl rfl rfl _ _ h i

end Cert.KernelIdeal.Proto

end
-- ==== Proof.Surgery.lean ====
import proofs.«901052_g7700000000001053_dist_softmax_colshard_i_m1024_n1024_v7x_i32_bf16_1_alg».proof.Proof.SurgRegions
import proofs.«901052_g7700000000001053_dist_softmax_colshard_i_m1024_n1024_v7x_i32_bf16_1_alg».proof.Proof.SurgShares
import proofs.«901052_g7700000000001053_dist_softmax_colshard_i_m1024_n1024_v7x_i32_bf16_1_alg».proof.Proof.SurgValues
import proofs.«901052_g7700000000001053_dist_softmax_colshard_i_m1024_n1024_v7x_i32_bf16_1_alg».proof.Proof.SurgRows
-- ==== Proof.Sends.lean ====
import proofs.«901052_g7700000000001053_dist_softmax_colshard_i_m1024_n1024_v7x_i32_bf16_1_alg».proof.Proof.Inv

noncomputable section

namespace Cert.KernelIdeal.Proto

open Cert.KernelIdeal Cert.KernelIdeal.Gen Cert.KernelIdeal.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The schedule's three tables at a cell, read off the cell's kind. -/
theorem tb_duties (c : Dev nD) (sm : SemLoc sig) (k : Kind) (hk : kindOf sm = k) :
    (Rd (F := F) m).duties ((c : Thread nD τ), sm) 0 = (match (generalizing := false) k with | .bar => Finset.univ | .other => ∅ | _ => {0}) := by
  subst hk; unfold Rd; dsimp only; rw [if_pos ⟨rfl, rfl⟩]; cases kindOf sm <;> rfl
theorem tb_payload (c : Dev nD) (sm : SemLoc sig) (k : Kind) (hk : kindOf sm = k) (r : ℕ) (x : D) :
    (Rd (F := F) m).payload ((c : Thread nD τ), sm) r x = (match (generalizing := false) k with
      | .bar => barPay c x | .s1 ch o => send1Pay c ch o | .r1 ch o => recv1Pay m c ch o
      | .s2 ch o => send2Pay c ch o | .r2 ch o => recv2Pay m c ch o | .other => iprop(emp)) := by
  subst hk; rfl
theorem tb_amount_bar (t : Dev nD) (r : ℕ) (d : D) : (Rd (F := F) m).amount (barCell t) r d = 1 := by
  show (if kindOf (.reg barS) = .bar then 1 else NP) = 1
  exact if_pos kindOf_bar
theorem tb_duties_bar (t : Dev nD) : (Rd (F := F) m).duties (barCell t) 0 = Finset.univ := tb_duties m t _ _ kindOf_bar
theorem tb_payload_bar (t : Dev nD) (r : ℕ) (k : D) : (Rd (F := F) m).payload (barCell t) r k = barPay t k := tb_payload m t _ _ kindOf_bar r k
theorem tb_expect_bar (t : Dev nD) : (Rd (F := F) m).expect (barCell t) 0 = 10 := by
  show ∑ d ∈ (Rd (F := F) m).duties (barCell t) 0, (Rd (F := F) m).amount (barCell t) 0 d = 10
  rw [tb_duties_bar]; simp only [tb_amount_bar]; rfl

theorem kind_dma_ne_bar (q : DmaSem sig) : kindOf (.dma q) ≠ .bar := by revert q; decide
/-- No transfer semaphore is the entry semaphore, so each of its duties is a slot's credit. -/
theorem tb_amount_dma (c : Dev nD) (q : DmaSem sig) (r : ℕ) (d : D) : (Rd (F := F) m).amount ((c : Thread nD τ), .dma q) r d = NP :=
  if_neg (kind_dma_ne_bar q)
/-- A transfer cell in use has the one duty `0`, so its round expects one slot's credit. -/
theorem tb_duties_dma (c : Dev nD) (q : DmaSem sig) (h : kindOf (.dma q) ≠ .other) : (Rd (F := F) m).duties ((c : Thread nD τ), .dma q) 0 = {0} := by
  rw [tb_duties m c _ _ rfl]
  cases hk : kindOf (.dma q) <;> first | exact absurd hk h | exact absurd hk (kind_dma_ne_bar q) | rfl
theorem tb_expect_dma (c : Dev nD) (q : DmaSem sig) (h : kindOf (.dma q) ≠ .other) : (Rd (F := F) m).expect ((c : Thread nD τ), .dma q) 0 = NP := by
  show ∑ x ∈ (Rd (F := F) m).duties ((c : Thread nD τ), .dma q) 0, (Rd (F := F) m).amount ((c : Thread nD τ), .dma q) 0 x = NP
  rw [tb_duties_dma m c q h, Finset.sum_singleton, tb_amount_dma]

theorem tb_payload_s1 (c : Dev nD) (ch : Fin 2) (d : Fin 8) (hd : d ≠ 0) (r : ℕ) (k : D) : (Rd (F := F) m).payload (s1Cell c ch d) r k = send1Pay c ch d := tb_payload m c _ _ (kindOf_s1 ch d hd) r k
theorem tb_payload_r1 (c : Dev nD) (ch : Fin 2) (d : Fin 8) (hd : d ≠ 0) (r : ℕ) (k : D) : (Rd (F := F) m).payload (r1Cell c ch d) r k = recv1Pay m c ch d := tb_payload m c _ _ (kindOf_r1 ch d hd) r k
theorem tb_payload_s2 (c : Dev nD) (ch : Fin 2) (d : Fin 4) (hd : d ≠ 0) (r : ℕ) (k : D) : (Rd (F := F) m).payload (s2Cell c ch d) r k = send2Pay c ch d := tb_payload m c _ _ (kindOf_s2 ch d hd) r k
theorem tb_payload_r2 (c : Dev nD) (ch : Fin 2) (d : Fin 4) (hd : d ≠ 0) (r : ℕ) (k : D) : (Rd (F := F) m).payload (r2Cell c ch d) r k = recv2Pay m c ch d := tb_payload m c _ _ (kindOf_r2 ch d hd) r k

theorem pcredit (d : Fin 8) (ch : Fin 2) (sm : DmaSem sig) : (pslot d ch).view.amount (.dma sm) = NP := rfl
theorem zcredit (d : Fin 4) (ch : Fin 2) (sm : DmaSem sig) : (zslot d ch).view.amount (.dma sm) = NP := rfl

/-- A slot copied to a peer: counted on the sender's cell as departed (its share comes back) and on the peer's as landed (its slot, now holding the copy). -/
theorem wp_send_slot (K : GSem nD τ sig → ℕ) (c n p : Dev nD) (hn : n = p) (src dst : Memref sig .tc .vmem S2x512 .f32) (qs qr : DmaSem sig)
    (sh : PosShare TreeShare) (a b : FVec F S1x1x1x512 .f32)
    (hqs : (Rd (F := F) m).duties ((c : Thread nD τ), .dma qs) 0 = {0}) (hqr : (Rd (F := F) m).duties ((p : Thread nD τ), .dma qr) 0 = {0})
    (hN : dst.view.amount (.dma qr) = NP)
    (hps : (Rd (F := F) m).payload ((c : Thread nD τ), .dma qs) 0 0 = iprop(∃ f, src.view.loc (c : Thread nD τ) ↦[src.view.set]{sh} f))
    (hpr : (Rd (F := F) m).payload ((p : Thread nD τ), .dma qr) 0 0
      = iprop(∃ f, ⌜SlotHolds (dst.view.read (Elt F) f) a b⌝ ∗ (dst.view.loc (p : Thread nD τ) ↦[dst.view.set]{fullShare} f)))
    {hsc : (dst : Memref sig (Dev.tc n : Thread nD τ).2.kind .vmem S2x512 .f32).view.ref.isScScratch = false}
    {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (p : Thread nD τ)))
    (hfs : SlotHolds (src.view.read (Elt F) fs) a b)
    (O : CellTallies nD τ sig Unit) (W : Waits sig Unit) :
    iprop(inv m K ((c : Thread nD τ), .dma qs) ∗ inv m K ((p : Thread nD τ), .dma qr)
        ∗ (src.view.loc (c : Thread nD τ) ↦[src.view.set]{sh} fs)
        ∗ (dst.view.loc (p : Thread nD τ) ↦[dst.view.set]{fullShare} fd)
        ∗ owes (c : Thread nD τ) (O + tallyAt ((p : Thread nD τ), .dma qr) () NP) W
        ∗ dutyTok ER ((c : Thread nD τ), .dma qs) 0 (0 : D) ∗ reached ER ((c : Thread nD τ), .dma qs) 0
        ∗ dutyTok ER ((p : Thread nD τ), .dma qr) 0 (0 : D) ∗ reached ER ((p : Thread nD τ), .dma qr) 0)
      ⊢ iprop(((cred (tallyAt ((c : Thread nD τ), .dma qs) () NP) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn
  exact Rounds.wp_send_pointsTo 𝒱₀ ER (Rd m) (c : Thread nD τ) none
    (κ₁ := K ((c : Thread nD τ), .dma qs)) (κ₂ := K ((n : Thread nD τ), .dma qr)) (r₁ := 0) (r₂ := 0) (d₁ := (0 : D)) (d₂ := (0 : D)) (fd := fd)
    (by rw [hqs]; exact Finset.mem_singleton_self _) (by rw [hqr]; exact Finset.mem_singleton_self _)
    () () NP hN (tb_amount_dma m c _ 0 0) (tb_amount_dma m n _ 0 0) O rfl (W := W)
    (by rw [hps]; iintro H; iexists fs; iexact H)
    (by
      rw [hpr]
      iintro H
      iexists dst.view.write (Elt F) fd (src.view.read (Elt F) fs) Finset.univ
      isplitr
      · ipureintro
        rw [View.read_write_univ]
        exact hfs
      iexact H)
    (Topo.routes_tc c n)

/-- What a landing cell hands over, seen from the sender: the receiver's slot holding the sender's two rows. -/
theorem recv1_from (c : Dev nD) (ch : Fin 2) (d : Fin 8) (hd : d ≠ 0) : (Rd (F := F) m).payload (r1Cell (pp d c) ch d) 0 0
    = iprop(∃ f, ⌜SlotHolds ((pslot d ch).view.read (Elt F) f) (mrow m c ch) (srow m c ch)⌝
      ∗ ((pslot d ch).view.loc (pp d c : Thread nD τ) ↦[(pslot d ch).view.set]{fullShare} f)) := by
  rw [tb_payload_r1 m _ ch d hd, recv1Pay, pp_neg]
theorem recv2_from (c : Dev nD) (ch : Fin 2) (d : Fin 4) (hd : d ≠ 0) : (Rd (F := F) m).payload (r2Cell (zp d c) ch d) 0 0
    = iprop(∃ f, ⌜SlotHolds ((zslot d ch).view.read (Elt F) f) (mprow m c ch) (sprow m c ch)⌝
      ∗ ((zslot d ch).view.loc (zp d c : Thread nD τ) ↦[(zslot d ch).view.set]{fullShare} f)) := by
  rw [tb_payload_r2 m _ ch d hd, recv2Pay, zp_neg]

end Cert.KernelIdeal.Proto

end
-- ==== Proof.Before.lean ====
import proofs.«901052_g7700000000001053_dist_softmax_colshard_i_m1024_n1024_v7x_i32_bf16_1_alg».proof.Proof.Inv

namespace Cert.KernelIdeal.Proto

open Cert.KernelIdeal Cert.KernelIdeal.Gen Idealize.ShloMosaic

variable {F : FTy → Type} [FloatOps F] (m : (ℓ : Loc nD τ sig) → Buf (Elt F) ℓ) (ρ : Dev nD → PrngReg)

-- The grid has one point: what the body starts from there is the device's block of the argument, for every `d`.
theorem before0_eq (c : Dev nD) (d) : (dats m ρ 0 c).before (0 : Fin 2) t₀ d = xblk m c := by
  unfold Pipeline.Dat.before; rw [if_pos (by decide)]; rfl

end Cert.KernelIdeal.Proto
-- ==== Proof.EntryWait.lean ====
import proofs.«901052_g7700000000001053_dist_softmax_colshard_i_m1024_n1024_v7x_i32_bf16_1_alg».proof.Proof.Inv

noncomputable section

namespace Cert.KernelIdeal.Proto

open Cert.KernelIdeal.Topo
open Idealize.ShloMosaic Idealize.ShloMosaic.Rounds
open Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

variable (m : (ℓ : Loc nD τ sig) → Buf (Elt F) ℓ)

theorem duties_bar (t : Dev nD) : (Rd (F := F) m).duties (barCell t) 0 = Finset.univ := by
  show (if (0 : ℕ) = 0 ∧ (barCell t).1.2 = .tc then (match kindOf (.reg barS) with | .bar => Finset.univ | .other => ∅ | _ => {0}) else (∅ : Finset D)) = _
  rw [if_pos ⟨rfl, rfl⟩, kindOf_bar]

theorem payload_bar (t : Dev nD) (r : ℕ) (k : D) : (Rd (F := F) m).payload (barCell t) r k = barPay t k := by
  show (match kindOf (.reg barS) with
    | .bar => barPay t k | .s1 ch o => send1Pay t ch o | .r1 ch o => recv1Pay m t ch o
    | .s2 ch o => send2Pay t ch o | .r2 ch o => recv2Pay m t ch o | .other => iprop(emp)) = _
  rw [kindOf_bar]

theorem barPay_0 (t : Dev nD) : barPay (F := F) t (0 : D) = iprop(pslotAny (pp 7 t) 7 0 ∗ pslotAny (pp 7 t) 7 1 ∗ reached ER (r1Cell (pp 7 t) 0 7) 0 ∗ reached ER (r1Cell (pp 7 t) 1 7) 0) := by
  unfold barPay; rw [dif_pos (by decide)]; rfl

theorem barPay_1 (t : Dev nD) : barPay (F := F) t (1 : D) = iprop(pslotAny (pp 6 t) 6 0 ∗ pslotAny (pp 6 t) 6 1 ∗ reached ER (r1Cell (pp 6 t) 0 6) 0 ∗ reached ER (r1Cell (pp 6 t) 1 6) 0) := by
  unfold barPay; rw [dif_pos (by decide)]; rfl

theorem barPay_2 (t : Dev nD) : barPay (F := F) t (2 : D) = iprop(pslotAny (pp 5 t) 5 0 ∗ pslotAny (pp 5 t) 5 1 ∗ reached ER (r1Cell (pp 5 t) 0 5) 0 ∗ reached ER (r1Cell (pp 5 t) 1 5) 0) := by
  unfold barPay; rw [dif_pos (by decide)]; rfl

theorem barPay_3 (t : Dev nD) : barPay (F := F) t (3 : D) = iprop(pslotAny (pp 4 t) 4 0 ∗ pslotAny (pp 4 t) 4 1 ∗ reached ER (r1Cell (pp 4 t) 0 4) 0 ∗ reached ER (r1Cell (pp 4 t) 1 4) 0) := by
  unfold barPay; rw [dif_pos (by decide)]; rfl

theorem barPay_4 (t : Dev nD) : barPay (F := F) t (4 : D) = iprop(pslotAny (pp 3 t) 3 0 ∗ pslotAny (pp 3 t) 3 1 ∗ reached ER (r1Cell (pp 3 t) 0 3) 0 ∗ reached ER (r1Cell (pp 3 t) 1 3) 0) := by
  unfold barPay; rw [dif_pos (by decide)]; rfl

theorem barPay_5 (t : Dev nD) : barPay (F := F) t (5 : D) = iprop(pslotAny (pp 2 t) 2 0 ∗ pslotAny (pp 2 t) 2 1 ∗ reached ER (r1Cell (pp 2 t) 0 2) 0 ∗ reached ER (r1Cell (pp 2 t) 1 2) 0) := by
  unfold barPay; rw [dif_pos (by decide)]; rfl

theorem barPay_6 (t : Dev nD) : barPay (F := F) t (6 : D) = iprop(pslotAny (pp 1 t) 1 0 ∗ pslotAny (pp 1 t) 1 1 ∗ reached ER (r1Cell (pp 1 t) 0 1) 0 ∗ reached ER (r1Cell (pp 1 t) 1 1) 0) := by
  unfold barPay; rw [dif_pos (by decide)]; rfl

theorem barPay_7 (t : Dev nD) : barPay (F := F) t (7 : D) = iprop(zslotAny (zp 3 t) 3 0 ∗ zslotAny (zp 3 t) 3 1 ∗ reached ER (r2Cell (zp 3 t) 0 3) 0 ∗ reached ER (r2Cell (zp 3 t) 1 3) 0) := by
  unfold barPay; rw [dif_neg (by decide)]; rfl

theorem barPay_8 (t : Dev nD) : barPay (F := F) t (8 : D) = iprop(zslotAny (zp 2 t) 2 0 ∗ zslotAny (zp 2 t) 2 1 ∗ reached ER (r2Cell (zp 2 t) 0 2) 0 ∗ reached ER (r2Cell (zp 2 t) 1 2) 0) := by
  unfold barPay; rw [dif_neg (by decide)]; rfl

theorem barPay_9 (t : Dev nD) : barPay (F := F) t (9 : D) = iprop(zslotAny (zp 1 t) 1 0 ∗ zslotAny (zp 1 t) 1 1 ∗ reached ER (r2Cell (zp 1 t) 0 1) 0 ∗ reached ER (r2Cell (zp 1 t) 1 1) 0) := by
  unfold barPay; rw [dif_neg (by decide)]; rfl

theorem rest_bar (c : Dev nD) :
    bigSep ((Rd (F := F) m).duties (barCell c) 0 \ ∅) (fun d => (Rd (F := F) m).payload (barCell c) 0 d)
      = iprop(barPay c 0 ∗ barPay c 1 ∗ barPay c 2 ∗ barPay c 3 ∗ barPay c 4 ∗ barPay c 5 ∗ barPay c 6 ∗ barPay c 7 ∗ barPay c 8 ∗ barPay c 9) := by
  rw [Finset.sdiff_empty, duties_bar, bigSep_univ_eq_bigSepL [(0 : D), 1, 2, 3, 4, 5, 6, 7, 8, 9] (by decide) (by decide)]
  simp only [bigSepL_cons_cons, bigSepL_singleton, payload_bar]
  rfl

end Cert.KernelIdeal.Proto

end
-- ==== Proof.SlabHolds.lean ====
import proofs.«901052_g7700000000001053_dist_softmax_colshard_i_m1024_n1024_v7x_i32_bf16_1_alg».proof.Proof.Inv

noncomputable section

namespace Cert.KernelIdeal.Proto

open Cert.KernelIdeal Cert.KernelIdeal.Gen Cert.KernelIdeal.Topo

open Idealize.ShloMosaic
open Idealize.ShloMosaic.TcCoe

variable {F : FTy → Type} [FloatOps F]

variable (m : (ℓ : Loc nD τ sig) → Buf (Elt F) ℓ)

/-- If the joined contents read on every slot as that slot's own contents did, slot `d` still holds the pair of the peer at offset `-d`. -/
theorem pslab_holds (c : Dev nD) (ch : Fin 2) (g f0 f1 f2 f3 f4 f5 f6 f7 : Buf (Elt F) ((c : Thread nD τ).loc cc0_scratch0))
    (hg : (pslot 0 ch).view.read (Elt F) g = (pslot 0 ch).view.read (Elt F) f0
        ∧ (pslot 1 ch).view.read (Elt F) g = (pslot 1 ch).view.read (Elt F) f1
        ∧ (pslot 2 ch).view.read (Elt F) g = (pslot 2 ch).view.read (Elt F) f2
        ∧ (pslot 3 ch).view.read (Elt F) g = (pslot 3 ch).view.read (Elt F) f3
        ∧ (pslot 4 ch).view.read (Elt F) g = (pslot 4 ch).view.read (Elt F) f4
        ∧ (pslot 5 ch).view.read (Elt F) g = (pslot 5 ch).view.read (Elt F) f5
        ∧ (pslot 6 ch).view.read (Elt F) g = (pslot 6 ch).view.read (Elt F) f6
        ∧ (pslot 7 ch).view.read (Elt F) g = (pslot 7 ch).view.read (Elt F) f7)
    (h0 : SlotHolds ((pslot 0 ch).view.read (Elt F) f0) (mrow m c ch) (srow m c ch))
    (h1 : SlotHolds ((pslot 1 ch).view.read (Elt F) f1) (mrow m (pp (-1) c) ch) (srow m (pp (-1) c) ch))
    (h2 : SlotHolds ((pslot 2 ch).view.read (Elt F) f2) (mrow m (pp (-2) c) ch) (srow m (pp (-2) c) ch))
    (h3 : SlotHolds ((pslot 3 ch).view.read (Elt F) f3) (mrow m (pp (-3) c) ch) (srow m (pp (-3) c) ch))
    (h4 : SlotHolds ((pslot 4 ch).view.read (Elt F) f4) (mrow m (pp (-4) c) ch) (srow m (pp (-4) c) ch))
    (h5 : SlotHolds ((pslot 5 ch).view.read (Elt F) f5) (mrow m (pp (-5) c) ch) (srow m (pp (-5) c) ch))
    (h6 : SlotHolds ((pslot 6 ch).view.read (Elt F) f6) (mrow m (pp (-6) c) ch) (srow m (pp (-6) c) ch))
    (h7 : SlotHolds ((pslot 7 ch).view.read (Elt F) f7) (mrow m (pp (-7) c) ch) (srow m (pp (-7) c) ch)) :
    ∀ d : Fin 8, SlotHolds ((pslot d ch).view.read (Elt F) g) (mrow m (pp (-d) c) ch) (srow m (pp (-d) c) ch)
  | 0 => by rw [hg.1, show (-(0 : Fin 8)) = 0 from rfl, pp_zero]; exact h0
  | 1 => hg.2.1 ▸ h1
  | 2 => hg.2.2.1 ▸ h2
  | 3 => hg.2.2.2.1 ▸ h3
  | 4 => hg.2.2.2.2.1 ▸ h4
  | 5 => hg.2.2.2.2.2.1 ▸ h5
  | 6 => hg.2.2.2.2.2.2.1 ▸ h6
  | 7 => hg.2.2.2.2.2.2.2 ▸ h7

theorem zslab_holds (c : Dev nD) (ch : Fin 2) (g f0 f1 f2 f3 : Buf (Elt F) ((c : Thread nD τ).loc cc0_scratch1))
    (hg : (zslot 0 ch).view.read (Elt F) g = (zslot 0 ch).view.read (Elt F) f0
        ∧ (zslot 1 ch).view.read (Elt F) g = (zslot 1 ch).view.read (Elt F) f1
        ∧ (zslot 2 ch).view.read (Elt F) g = (zslot 2 ch).view.read (Elt F) f2
        ∧ (zslot 3 ch).view.read (Elt F) g = (zslot 3 ch).view.read (Elt F) f3)
    (h0 : SlotHolds ((zslot 0 ch).view.read (Elt F) f0) (mprow m c ch) (sprow m c ch))
    (h1 : SlotHolds ((zslot 1 ch).view.read (Elt F) f1) (mprow m (zp (-1) c) ch) (sprow m (zp (-1) c) ch))
    (h2 : SlotHolds ((zslot 2 ch).view.read (Elt F) f2) (mprow m (zp (-2) c) ch) (sprow m (zp (-2) c) ch))
    (h3 : SlotHolds ((zslot 3 ch).view.read (Elt F) f3) (mprow m (zp (-3) c) ch) (sprow m (zp (-3) c) ch)) :
    ∀ d : Fin 4, SlotHolds ((zslot d ch).view.read (Elt F) g) (mprow m (zp (-d) c) ch) (sprow m (zp (-d) c) ch)
  | 0 => by rw [hg.1, show (-(0 : Fin 4)) = 0 from rfl, zp_zero]; exact h0
  | 1 => hg.2.1 ▸ h1
  | 2 => hg.2.2.1 ▸ h2
  | 3 => hg.2.2.2 ▸ h3

end Cert.KernelIdeal.Proto

end
-- ==== Proof.OwnRow.lean ====
import proofs.«901052_g7700000000001053_dist_softmax_colshard_i_m1024_n1024_v7x_i32_bf16_1_alg».proof.Proof.SurgValues

noncomputable section

namespace Cert.KernelIdeal.Proto

open Cert.KernelIdeal Cert.KernelIdeal.Gen

open Idealize.ShloMosaic
open Idealize.ShloMosaic.TcCoe

variable {F : FTy → Type} [FloatOps F]

open Idealize.ShloMosaic.ValueIdx

/-- The load of row 0 of slot 0 of a half reads the slot's upper row. -/
theorem pown_row (c : Dev nD) (g : Buf (Elt F) ((c : Thread nD τ).loc cc0_scratch0)) (ch : Fin 2) (off : Fin 4 → ℕ)
    (inb : ∀ a, off a + S1x1x1x512.size a ≤ S8x2x2x512.size a)
    (h0 : off 0 = 0) (h1 : off 1 = ch.val) (h2 : off 2 = 0) (h3 : off 3 = 0) (a b : FVec F S1x1x1x512 .f32)
    (h : SlotHolds ((pslot 0 ch).view.read (Elt F) g) a b) :
    View.readAt (Elt F) (Memref.whole cc0_scratch0 : Memref sig .tc .vmem S8x2x2x512 .f32).view
      (Rect.unit (s := S8x2x2x512) off S1x1x1x512.size inb).toLoadRect g = a := by
  funext i
  have i0 : (i 0).val = 0 := Nat.lt_one_iff.mp (i 0).isLt
  have i1 : (i 1).val = 0 := Nat.lt_one_iff.mp (i 1).isLt
  have i2 : (i 2).val = 0 := Nat.lt_one_iff.mp (i 2).isLt
  have e : ix4 (0 : Fin 1) (0 : Fin 1) (0 : Fin 1) (⟨(i 3).val, (i 3).isLt⟩ : Fin 512) = i := by
    funext ax; apply Fin.ext
    match ax with
    | ⟨0, _⟩ => exact i0.symm
    | ⟨1, _⟩ => exact i1.symm
    | ⟨2, _⟩ => exact i2.symm
    | ⟨3, _⟩ => rfl
  rw [pwhole_readAt c g off _ inb i 0 ch 0 ⟨(i 3).val, (i 3).isLt⟩
      (show 0 = _ by omega) (show ch.val = _ by omega) (show 0 = _ by omega) (show (i 3).val = _ by omega),
    ← pslot_read c g 0 ch 0 _, (h _).1, e]

theorem pown_row0_0 (c : Dev nD) (g : Buf (Elt F) ((c : Thread nD τ).loc cc0_scratch0)) (a b : FVec F S1x1x1x512 .f32)
    (h : SlotHolds ((pslot 0 0).view.read (Elt F) g) a b) :
    View.readAt (Elt F) (Memref.whole cc0_scratch0 : Memref sig .tc .vmem S8x2x2x512 .f32).view
      (Rect.unit (s := S8x2x2x512) ![0, 0, 0, 0] S1x1x1x512.size inb_S8x2x2x512_S1x1x1x512_0_0_0_0).toLoadRect g = a :=
  pown_row c g 0 _ _ rfl rfl rfl rfl a b h

theorem pown_row0_1 (c : Dev nD) (g : Buf (Elt F) ((c : Thread nD τ).loc cc0_scratch0)) (a b : FVec F S1x1x1x512 .f32)
    (h : SlotHolds ((pslot 0 1).view.read (Elt F) g) a b) :
    View.readAt (Elt F) (Memref.whole cc0_scratch0 : Memref sig .tc .vmem S8x2x2x512 .f32).view
      (Rect.unit (s := S8x2x2x512) ![0, 1, 0, 0] S1x1x1x512.size inb_S8x2x2x512_S1x1x1x512_0_1_0_0).toLoadRect g = a :=
  pown_row c g 1 _ _ rfl rfl rfl rfl a b h

end Cert.KernelIdeal.Proto

end
-- ==== Proof.OutStores.lean ====
import proofs.«901052_g7700000000001053_dist_softmax_colshard_i_m1024_n1024_v7x_i32_bf16_1_alg».proof.Proof.Inv
import Idealize.ShloMosaic.Lib.ValueLayout
import Idealize.ShloMosaic.Lib.Writes

noncomputable section

namespace Cert.KernelIdeal.Proto

open Cert.KernelIdeal.Gen
open Idealize.ShloMosaic Idealize.ShloMosaic.TcCoe
open scoped Idealize.SL.BI
open Idealize.ShloMosaic.ValueIdx

variable {F : FTy → Type} [FloatOps F]

local notation "𝕄" => MT nD τ sig Unit (Elt F) ℕ UU ℕ

variable (m : (ℓ : Loc nD τ sig) → Buf (Elt F) ℓ)

/-- A store of 512 rows at `off` puts the block's element `(r, q)` at `(off 0 + r, off 1 + q)`, -/
theorem out_write_hit (c : Dev nD) (f : Buf (Elt F) ((c : Thread nD τ).loc cc0_stg1_0)) (w : FVec F S512x1024 .bf16) (off : Fin 2 → ℕ)
    (inb : ∀ a, off a + S512x1024.size a ≤ S1024x1024.size a) (k : S1024x1024.Idx) (r : Fin 512) (q : Fin 1024)
    (h0 : (k 0).val = off 0 + r.val) (h1 : (k 1).val = off 1 + q.val) :
    View.write (Elt F) ((Memref.whole cc0_stg1_0 : Memref sig .tc .vmem S1024x1024 .bf16).access (Rect.unit (s := S1024x1024) off S512x1024.size inb)) f w Finset.univ k
      = w (ix2 r q) := by
  have e : ((Memref.whole cc0_stg1_0 : Memref sig .tc .vmem S1024x1024 .bf16).access (Rect.unit (s := S1024x1024) off S512x1024.size inb)).emb
      (ix2 r q) = k := by
    show (Rect.unit (s := S1024x1024) off S512x1024.size inb).emb (ix2 r q) = k
    funext ax; apply Fin.ext
    rw [Rect.emb_apply]
    match ax with
    | ⟨0, _⟩ => show off 0 + 1 * r.val = (k 0).val; omega
    | ⟨1, _⟩ => show off 1 + 1 * q.val = (k 1).val; omega
  rw [← e, View.write_emb_of_mem _ _ (Finset.mem_univ _)]; exact cast_eq _ _

/-- and leaves every element of a row outside those 512 as it was. -/
theorem out_write_miss (c : Dev nD) (f : Buf (Elt F) ((c : Thread nD τ).loc cc0_stg1_0)) (w : FVec F S512x1024 .bf16) (off : Fin 2 → ℕ)
    (inb : ∀ a, off a + S512x1024.size a ≤ S1024x1024.size a) (k : S1024x1024.Idx)
    (h0 : (k 0).val < off 0 ∨ off 0 + 512 ≤ (k 0).val) :
    View.write (Elt F) ((Memref.whole cc0_stg1_0 : Memref sig .tc .vmem S1024x1024 .bf16).access (Rect.unit (s := S1024x1024) off S512x1024.size inb)) f w Finset.univ k
      = f k := by
  refine View.write_of_not_mem _ _ _ fun hm => ?_
  rw [View.setOn_univ, View.set_slice_whole, Rect.mem_set_unit] at hm
  have h := hm 0
  have h1 : S512x1024.size 0 = 512 := rfl
  omega

/-- A row below 512 is hit by the first store only, a row from 512 on by the second: together the result block. -/
theorem out_stores (c : Dev nD) (f : Buf (Elt F) ((c : Thread nD τ).loc cc0_stg1_0)) :
    View.write (Elt F) ((Memref.whole cc0_stg1_0 : Memref sig .tc .vmem S1024x1024 .bf16).access (Rect.unit (s := S1024x1024) ![512, 0] S512x1024.size inb_S1024x1024_S512x1024_512_0))
      (View.write (Elt F) ((Memref.whole cc0_stg1_0 : Memref sig .tc .vmem S1024x1024 .bf16).access (Rect.unit (s := S1024x1024) ![0, 0] S512x1024.size inb_S1024x1024_S512x1024_0_0)) f (outHalf m c 0) Finset.univ)
      (outHalf m c 1) Finset.univ = outAt m c := by
  funext i
  unfold outAt
  by_cases h : (i 0).val < 512
  · rw [dif_pos h,
      out_write_miss c _ (outHalf m c 1) ![512, 0] inb_S1024x1024_S512x1024_512_0 i (Or.inl (show (i 0).val < 512 from h)),
      out_write_hit c f (outHalf m c 0) ![0, 0] inb_S1024x1024_S512x1024_0_0 i ⟨(i 0).val, h⟩ ⟨(i 1).val, (i 1).isLt⟩
        (show (i 0).val = 0 + (i 0).val from (Nat.zero_add _).symm) (show (i 1).val = 0 + (i 1).val from (Nat.zero_add _).symm)]
  · have hi : (i 0).val < 1024 := (i 0).isLt
    rw [dif_neg h,
      out_write_hit c _ (outHalf m c 1) ![512, 0] inb_S1024x1024_S512x1024_512_0 i ⟨(i 0).val - 512, by omega⟩ ⟨(i 1).val, (i 1).isLt⟩
        (show (i 0).val = 512 + ((i 0).val - 512) by omega) (show (i 1).val = 0 + (i 1).val from (Nat.zero_add _).symm)]

theorem out_writes (c : Dev nD) (f : Buf (Elt F) ((c : Thread nD τ).loc cc0_stg1_0)) :
    (Memref.whole cc0_stg1_0 : Memref sig .tc .vmem S1024x1024 .bf16).view.writes (Elt F) f
      [⟨Rect.unit (s := S1024x1024) ![512, 0] S512x1024.size inb_S1024x1024_S512x1024_512_0, outHalf m c 1⟩,
       ⟨Rect.unit (s := S1024x1024) ![0, 0] S512x1024.size inb_S1024x1024_S512x1024_0_0, outHalf m c 0⟩] = outAt m c :=
  out_stores m c f

end Cert.KernelIdeal.Proto

end
-- ==== Proof.Close.lean ====
import proofs.«901052_g7700000000001053_dist_softmax_colshard_i_m1024_n1024_v7x_i32_bf16_1_alg».proof.Proof.Inv

noncomputable section

namespace Cert.KernelIdeal.Proto

open Cert.KernelIdeal.Topo
open Idealize.ShloMosaic Idealize.ShloMosaic.Rounds
open Idealize.SL.BI Idealize.SL.BI.BIBase
open scoped Idealize.SL.BI

variable {F : FTy → Type} [FloatOps F]

local notation "𝕄" => MT nD τ sig Unit (Elt F) ℕ UU ℕ

variable (m : (ℓ : Loc nD τ sig) → Buf (Elt F) ℓ)

theorem duties_later (g : GSem nD τ sig) : ∀ r, 1 ≤ r → (Rd (F := F) m).duties g r = ∅ :=
  fun r hr => if_neg fun h => absurd h.1 (by omega)

def positions1 (c : Dev nD) : sProp 𝕄 :=
  iprop((bigSep (Finset.univ : Finset (Fin 2 × Fin 7)) fun x => iprop(atPos ER (s1Cell c x.1 x.2.succ) 1 ∅ 0 ∗ atPos ER (r1Cell c x.1 x.2.succ) 1 ∅ 0))
    ∗ (bigSep (Finset.univ : Finset (Fin 2 × Fin 3)) fun x => iprop(atPos ER (s2Cell c x.1 x.2.succ) 1 ∅ 0 ∗ atPos ER (r2Cell c x.1 x.2.succ) 1 ∅ 0)))

/-- A cell whose owner stands past its one round has no duty left, so closing it yields its semaphore at zero. -/
theorem close_cell (K : GSem nD τ sig → ℕ) (g : GSem nD τ sig) :
    iprop(inv m K g ∗ atPos ER g 1 ∅ 0) ⊢ |={Set.univ}=> semVal g 0 :=
  Rounds.cell_close ER (Rd m) (Set.mem_univ (K g)) (fun h => h) (R := 1) (duties_later m g)

theorem close_pair (K : GSem nD τ sig → ℕ) (s r r' : GSem nD τ sig) :
    iprop(iprop(inv m K s ∗ inv m K r ∗ inv m K r') ∗ iprop(atPos ER s 1 ∅ 0 ∗ atPos ER r 1 ∅ 0))
      ⊢ |={Set.univ}=> iprop(semVal s 0 ∗ semVal r 0) := by
  iintro ⟨⟨HIs, HIr, -⟩, Has, Har⟩
  imod (close_cell m K s) $$ [HIs Has] with Hs
  · isplitl [HIs] <;> iassumption
  imod (close_cell m K r) $$ [HIr Har] with Hr
  · isplitl [HIr] <;> iassumption
  imodintro
  isplitl [Hs] <;> iassumption

/-- A family of send and landing cells is closed pair by pair. -/
theorem close_fam {ι : Type} (T : Finset ι) (K : GSem nD τ sig → ℕ) (s r r' : ι → GSem nD τ sig) :
    iprop((bigSep T fun x => iprop(inv m K (s x) ∗ inv m K (r x) ∗ inv m K (r' x)))
        ∗ (bigSep T fun x => iprop(atPos ER (s x) 1 ∅ 0 ∗ atPos ER (r x) 1 ∅ 0)))
      ⊢ |={Set.univ}=> (bigSep T fun x => iprop(semVal (s x) 0 ∗ semVal (r x) 0) : sProp 𝕄) := by
  rw [← bigSep_sep']
  exact (bigSep_mono fun x _ => close_pair m K (s x) (r x) (r' x)).trans (bigSep_fupd _ _)

/-- Over both halves, offsets 0 to n are offset 0 and the successors of 0 to n - 1. -/
theorem bigSep_prod_fin_succ {n : ℕ} (Φ : Fin 2 × Fin (n + 1) → sProp 𝕄) :
    bigSep Finset.univ Φ
      = iprop((bigSep Finset.univ fun ch : Fin 2 => Φ (ch, 0)) ∗ bigSep Finset.univ fun x : Fin 2 × Fin n => Φ (x.1, x.2.succ)) := by
  classical
  rw [bigSep_univ_prod, bigSep_univ_prod (fun x : Fin 2 × Fin n => Φ (x.1, x.2.succ)), ← bigSep_sep']
  refine bigSep_congr fun ch _ => ?_
  rw [Fin.univ_succ, Finset.cons_eq_insert, bigSep_insert (by simp [Fin.succ_ne_zero]), bigSep_map]
  rfl

theorem idle_split (c : Dev nD) :
    (idleSems c : sProp 𝕄) ⊢ iprop((bigSep Finset.univ fun ch : Fin 2 => iprop(semVal (s1Cell c ch 0) 0 ∗ semVal (r1Cell c ch 0) 0))
      ∗ bigSep Finset.univ fun ch : Fin 2 => iprop(semVal (s2Cell c ch 0) 0 ∗ semVal (r2Cell c ch 0) 0)) := by
  unfold idleSems
  rw [← bigSep_sep']
  exact bigSep_mono fun ch _ => Idealize.SL.BI.sep_assoc'

/-- Every used transfer cell is closed; with the eight untouched semaphores, all forty-eight stand at zero. -/
theorem close_all (K : GSem nD τ sig → ℕ) (c : Dev nD) :
    iprop(invs m K c ∗ positions1 c ∗ idleSems c) ⊢ |={Set.univ}=> ownZero c := by
  unfold invs positions1 ownZero
  rw [bigSep_prod_fin_succ (n := 7), bigSep_prod_fin_succ (n := 3)]
  iintro ⟨⟨-, HI1, HI2, -, -⟩, ⟨Hp1, Hp2⟩, Hidle⟩
  imod (close_fam m Finset.univ K (fun x : Fin 2 × Fin 7 => s1Cell c x.1 x.2.succ) (fun x => r1Cell c x.1 x.2.succ)
    (fun x => r1Cell (pp x.2.succ c) x.1 x.2.succ)) $$ [HI1 Hp1] with H1
  · isplitl [HI1] <;> iassumption
  imod (close_fam m Finset.univ K (fun x : Fin 2 × Fin 3 => s2Cell c x.1 x.2.succ) (fun x => r2Cell c x.1 x.2.succ)
    (fun x => r2Cell (zp x.2.succ c) x.1 x.2.succ)) $$ [HI2 Hp2] with H2
  · isplitl [HI2] <;> iassumption
  ihave Hi := (idle_split (F := F) c) $$ Hidle
  icases Hi with ⟨Hi1, Hi2⟩
  imodintro
  isplitl [Hi1 H1]
  · isplitl [Hi1] <;> iassumption
  isplitl [Hi2] <;> iassumption

end Cert.KernelIdeal.Proto

end
-- ==== Proof.Finish.lean ====
import proofs.«901052_g7700000000001053_dist_softmax_colshard_i_m1024_n1024_v7x_i32_bf16_1_alg».proof.Proof.Close
import proofs.«901052_g7700000000001053_dist_softmax_colshard_i_m1024_n1024_v7x_i32_bf16_1_alg».proof.Proof.Surgery
import proofs.«901052_g7700000000001053_dist_softmax_colshard_i_m1024_n1024_v7x_i32_bf16_1_alg».proof.Proof.Before

noncomputable section

namespace Cert.KernelIdeal.Proto

open Idealize.ShloMosaic Idealize.ShloMosaic.TcCoe
open Idealize.SL.RA Idealize.SL.BI Idealize.SL.BI.BIBase Idealize.SL.Sem
open scoped Idealize.SL.BI

variable {F : FTy → Type} [FloatOps F]

local notation "𝕄" => MT nD τ sig Unit (Elt F) ℕ UU ℕ

variable (m : (ℓ : Loc nD τ sig) → Buf (Elt F) ℓ) (ρ : Dev nD → PrngReg)

/-- The share of a slot 0 that was kept and the shares its copies give back are the slot outright. -/
theorem pslot0_join (c : Dev nD) (ch : Fin 2) (g : Buf (Elt F) ((pslot 0 ch).view.loc (c : Thread nD τ))) :
    (iprop(((pslot 0 ch).view.loc (c : Thread nD τ) ↦[(pslot 0 ch).view.set]{sh8 0} g) ∗ send1Pay c ch 1 ∗ send1Pay c ch 2
        ∗ send1Pay c ch 3 ∗ send1Pay c ch 4 ∗ send1Pay c ch 5 ∗ send1Pay c ch 6 ∗ send1Pay c ch 7) : sProp 𝕄)
      ⊢ pslotAny c 0 ch := by
  unfold send1Pay pslotAny
  iintro ⟨H0, ⟨%f1, H1⟩, ⟨%f2, H2⟩, ⟨%f3, H3⟩, ⟨%f4, H4⟩, ⟨%f5, H5⟩, ⟨%f6, H6⟩, ⟨%f7, H7⟩⟩
  iexists g
  iapply (share8_join (pslot 0 ch).view.set g f1 f2 f3 f4 f5 f6 f7)
  iframe

theorem zslot0_join (c : Dev nD) (ch : Fin 2) (g : Buf (Elt F) ((zslot 0 ch).view.loc (c : Thread nD τ))) :
    (iprop(((zslot 0 ch).view.loc (c : Thread nD τ) ↦[(zslot 0 ch).view.set]{sh4 0} g) ∗ send2Pay c ch 1 ∗ send2Pay c ch 2
        ∗ send2Pay c ch 3) : sProp 𝕄)
      ⊢ zslotAny c 0 ch := by
  unfold send2Pay zslotAny
  iintro ⟨H0, ⟨%f1, H1⟩, ⟨%f2, H2⟩, ⟨%f3, H3⟩⟩
  iexists g
  iapply (share4_join (zslot 0 ch).view.set g f1 f2 f3)
  iframe

/-- The end of the body: the cells closed, each buffer rejoined from its slots, nothing owed, the result block in place. -/
theorem body_finish_wp (c : Dev nD) (K : GSem nD τ sig → ℕ) (W : Waits sig Unit) (d0) (f0 : Buf (Elt F) ((c : Thread nD τ).loc cc0_stg0_0)) (f1 : Buf (Elt F) ((c : Thread nD τ).loc cc0_stg1_0)) (hf0 : f0 = (dats m ρ 0 c).before (0 : Fin 2) t₀ d0) (hf1 : f1 = outAt m c) (gp0 gp1 : Buf (Elt F) ((c : Thread nD τ).loc cc0_scratch0)) (gz0 gz1 : Buf (Elt F) ((c : Thread nD τ).loc cc0_scratch1)) :
 iprop(invs m K c ∗ positions1 c ∗ idleSems c
  ∗ (pslotAny c 7 0 ∗ pslotAny c 7 1 ∗ pslotAny c 6 0 ∗ pslotAny c 6 1 ∗ pslotAny c 5 0 ∗ pslotAny c 5 1 ∗ pslotAny c 4 0 ∗ pslotAny c 4 1 ∗ pslotAny c 3 0 ∗ pslotAny c 3 1 ∗ pslotAny c 2 0 ∗ pslotAny c 2 1 ∗ pslotAny c 1 0 ∗ pslotAny c 1 1)
  ∗ (((pslot 0 0).view.loc (c : Thread nD τ) ↦[(pslot 0 0).view.set]{sh8 0} gp0) ∗ send1Pay c 0 1 ∗ send1Pay c 0 2 ∗ send1Pay c 0 3 ∗ send1Pay c 0 4 ∗ send1Pay c 0 5 ∗ send1Pay c 0 6 ∗ send1Pay c 0 7)
  ∗ (((pslot 0 1).view.loc (c : Thread nD τ) ↦[(pslot 0 1).view.set]{sh8 0} gp1) ∗ send1Pay c 1 1 ∗ send1Pay c 1 2 ∗ send1Pay c 1 3 ∗ send1Pay c 1 4 ∗ send1Pay c 1 5 ∗ send1Pay c 1 6 ∗ send1Pay c 1 7)
  ∗ (zslotAny c 3 0 ∗ zslotAny c 3 1 ∗ zslotAny c 2 0 ∗ zslotAny c 2 1 ∗ zslotAny c 1 0 ∗ zslotAny c 1 1)
  ∗ (((zslot 0 0).view.loc (c : Thread nD τ) ↦[(zslot 0 0).view.set]{sh4 0} gz0) ∗ send2Pay c 0 1 ∗ send2Pay c 0 2 ∗ send2Pay c 0 3)
  ∗ (((zslot 0 1).view.loc (c : Thread nD τ) ↦[(zslot 0 1).view.set]{sh4 0} gz1) ∗ send2Pay c 1 1 ∗ send2Pay c 1 2 ∗ send2Pay c 1 3)
  ∗ owes (c : Thread nD τ) 0 W ∗ (((c : Thread nD τ).loc cc0_stg0_0) ↦{fullShare} f0) ∗ (((c : Thread nD τ).loc cc0_stg1_0) ↦{fullShare} f1))
 ⊢ wp frame (wpE (defs₀ (F := F)) 𝒱₀ c none) Set.univ (Prog.ret (⟨⟩ : PUnit) : Prog (TpuEff nD τ sig (Elt F) Λ₀ .tc) PUnit) (fun _ => bodyPost m ρ c) := by
  show _ ⊢ iprop(|={Set.univ}=> bodyPost m ρ c)
  have hx : f0 = xblk m c := hf0.trans (before0_eq m ρ c d0)
  iintro ⟨#HI, Hpos, Hidle, ⟨P70, P71, P60, P61, P50, P51, P40, P41, P30, P31, P20, P21, P10, P11⟩, Hs0, Hs1,
    ⟨Z30, Z31, Z20, Z21, Z10, Z11⟩, Ht0, Ht1, HO, Hx, Hout⟩
  imod (close_all m K c) $$ [Hpos Hidle] with Hzero
  · isplitr; · iexact HI
    iframe
  ihave P00 := (pslot0_join (F := F) c 0 gp0) $$ Hs0
  ihave P01 := (pslot0_join (F := F) c 1 gp1) $$ Hs1
  ihave Z00 := (zslot0_join (F := F) c 0 gz0) $$ Ht0
  ihave Z01 := (zslot0_join (F := F) c 1 gz1) $$ Ht1
  ihave HP := (pB_join (F := F) c) $$ [P70 P71 P60 P61 P50 P51 P40 P41 P30 P31 P20 P21 P10 P11 P00 P01]
  · iframe
  ihave HZ := (zB_join (F := F) c) $$ [Z30 Z31 Z20 Z21 Z10 Z11 Z00 Z01]
  · iframe
  imodintro
  unfold bodyPost Φ₁ bufs Pipeline.Dat.owesAt Pipeline.owesWithin
  rw [show (dats m ρ 0 c).owed t₀.succ = 0 from rfl]
  isplitl [HP HZ Hzero]
  · iframe
  isplitl [HO]
  · iexists W
    isplitr; · ipureintro; exact fun _ _ => Or.inl trivial
    iexact HO
  isplitl [Hx]
  · iexists f0
    isplitr; · ipureintro; exact hx
    iexact Hx
  iexists f1
  isplitr; · ipureintro; exact hf1
  iexact Hout

end Cert.KernelIdeal.Proto

end
-- ==== Proof.Body.lean ====
import proofs.«901052_g7700000000001053_dist_softmax_colshard_i_m1024_n1024_v7x_i32_bf16_1_alg».proof.Proof.Inv
import proofs.«901052_g7700000000001053_dist_softmax_colshard_i_m1024_n1024_v7x_i32_bf16_1_alg».proof.Proof.Surgery
import proofs.«901052_g7700000000001053_dist_softmax_colshard_i_m1024_n1024_v7x_i32_bf16_1_alg».proof.Proof.Sends
import proofs.«901052_g7700000000001053_dist_softmax_colshard_i_m1024_n1024_v7x_i32_bf16_1_alg».proof.Proof.Before
import proofs.«901052_g7700000000001053_dist_softmax_colshard_i_m1024_n1024_v7x_i32_bf16_1_alg».proof.Proof.EntryWait
import proofs.«901052_g7700000000001053_dist_softmax_colshard_i_m1024_n1024_v7x_i32_bf16_1_alg».proof.Proof.SlabHolds
import proofs.«901052_g7700000000001053_dist_softmax_colshard_i_m1024_n1024_v7x_i32_bf16_1_alg».proof.Proof.OwnRow
import proofs.«901052_g7700000000001053_dist_softmax_colshard_i_m1024_n1024_v7x_i32_bf16_1_alg».proof.Proof.OutStores
import proofs.«901052_g7700000000001053_dist_softmax_colshard_i_m1024_n1024_v7x_i32_bf16_1_alg».proof.Proof.Finish

noncomputable section

namespace Cert.KernelIdeal.Proto

open Cert.KernelIdeal Cert.KernelIdeal.Gen Cert.KernelIdeal.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

open Lean in
macro "ichain " h:ident " as " p:ident n:num k:num : tactic => do
  let nn := n.getNat
  let kk := k.getNat
  let outer (i : Nat) : Ident := mkIdentFrom p (p.getId.appendAfter (toString i))
  let inner (i j : Nat) : Ident := mkIdentFrom p (p.getId.appendAfter (toString i ++ "_" ++ toString j))
  let mut tacs : Array (TSyntax `tactic) := #[]
  for i in [1:nn+1] do
    let hi := outer i
    if i < nn then
      tacs := tacs.push (← `(tactic| icases $h:ident with ⟨$hi:ident, $h:ident⟩))
    else
      tacs := tacs.push (← `(tactic| irename $h:ident => $hi:ident))
    if kk > 1 then
      for j in [1:kk+1] do
        let hij := inner i j
        if j < kk then
          tacs := tacs.push (← `(tactic| icases $hi:ident with ⟨$hij:ident, $hi:ident⟩))
        else
          tacs := tacs.push (← `(tactic| irename $hi:ident => $hij:ident))
  `(tactic| ($[$tacs];*))

section Keep

variable (m : (ℓ : Loc nD τ sig) → Buf (Elt F) ℓ)

/-- The cells' invariants under a name that later unfolding leaves alone: they are wanted whole when the cells are closed. -/
def invsKept (K : GSem nD τ sig → ℕ) (c : Dev nD) : sProp 𝕄 := invs m K c

instance invsKept_persistent (K : GSem nD τ sig → ℕ) (c : Dev nD) : BI.Persistent (invsKept m K c) := by
  unfold invsKept; infer_instance

theorem invs_keep (K : GSem nD τ sig → ℕ) (c : Dev nD) : invs m K c ⊢ iprop(invsKept m K c ∗ invs m K c) := by
  iintro #H
  isplitl []
  · unfold invsKept; iexact H
  · iexact H

theorem invsKept_out (K : GSem nD τ sig → ℕ) (c : Dev nD) : invsKept m K c ⊢ invs m K c := by
  unfold invsKept; exact Entails.rfl

/-- A slot's kept share and the seven set aside are the slot outright. -/
theorem pslot_back (c : Dev nD) (d : Fin 8) (ch : Fin 2) (g r : Buf (Elt F) ((c : Thread nD τ).loc cc0_scratch0)) :
    iprop(((pslot d ch).view.loc (c : Thread nD τ) ↦[(pslot d ch).view.set]{sh8 0} g) ∗ rest8 (pslot d ch).view.set r)
      ⊢ pslotAny c d ch := by
  unfold rest8 pslotAny
  iintro ⟨H0, H1, H2, H3, H4, H5, H6, H7⟩
  iexists g
  iapply (share8_join _ g r r r r r r r)
  iframe

theorem zslot_back (c : Dev nD) (d : Fin 4) (ch : Fin 2) (g r : Buf (Elt F) ((c : Thread nD τ).loc cc0_scratch1)) :
    iprop(((zslot d ch).view.loc (c : Thread nD τ) ↦[(zslot d ch).view.set]{sh4 0} g) ∗ rest4 (zslot d ch).view.set r)
      ⊢ zslotAny c d ch := by
  unfold rest4 zslotAny
  iintro ⟨H0, H1, H2, H3⟩
  iexists g
  iapply (share4_join _ g r r r)
  iframe

theorem owes_zero_add (c : Dev nD) (t : CellTallies nD τ sig Unit) (W : Waits sig Unit) :
    (owes (c : Thread nD τ) t W : sProp 𝕄) ⊢ owes (c : Thread nD τ) (0 + t) W := by
  rw [zero_add]

end Keep

open Lean in
macro "plane_send " ch:num d:num : tactic => do
  let chn := ch.getNat; let dn := d.getNat
  let i := 7 * chn + dn
  let id (s : String) : Ident := mkIdent (Name.mkSimple s)
  let i1 := id s!"IA{i}_1"; let i2 := id s!"IA{i}_3"
  let t1 := id s!"TA{i}_1"; let t2 := id s!"TA{i}_2"
  let r1 := id s!"RA{i}_1"; let r2 := id s!"RA{i}_3"
  let s := id s!"S{chn}{dn}"; let g := id s!"G{dn}{chn}"; let gd := id s!"g{dn}{chn}"
  let hs := id s!"hs{chn}"; let cs := id s!"CS{chn}{dn}"
  let mI := id "m"; let kI := id "K"; let cI := id "c"; let ho := id "HO"
  `(tactic| (iapply (wp_send_slot $mI $kI $cI _ _ rfl (pslot 0 $ch) (pslot $d $ch) (s1 $ch $d) (r1 $ch $d) (sh8 $d) _ _
                (tb_duties_dma $mI $cI _ (by decide)) (tb_duties_dma $mI _ _ (by decide)) rfl (tb_payload_s1 $mI $cI $ch $d (by decide) 0 0)
                (recv1_from $mI $cI $ch $d (by decide)) _ $gd $hs _ _) $$ [$s:ident $g:ident $ho:ident $t1:ident $t2:ident]
             · iframe $i1:ident $i2:ident $r1:ident $r2:ident ∗
             iintro ⟨$cs:ident, $ho:ident⟩))

open Lean in
macro "column_send " ch:num d:num : tactic => do
  let chn := ch.getNat; let dn := d.getNat
  let i := 3 * chn + dn
  let id (s : String) : Ident := mkIdent (Name.mkSimple s)
  let i1 := id s!"IB{i}_1"; let i2 := id s!"IB{i}_3"
  let t1 := id s!"TB{i}_1"; let t2 := id s!"TB{i}_2"
  let r1 := id s!"RB{i}_1"; let r2 := id s!"RB{i}_3"
  let s := id s!"Y{chn}{dn}"; let g := id s!"Z{dn}{chn}"; let gd := id s!"h{dn}{chn}"
  let hs := id s!"hz{chn}"; let cs := id s!"CY{chn}{dn}"
  let mI := id "m"; let kI := id "K"; let cI := id "c"; let ho := id "HO"
  `(tactic| (iapply (wp_send_slot $mI $kI $cI _ _ rfl (zslot 0 $ch) (zslot $d $ch) (s2 $ch $d) (r2 $ch $d) (sh4 $d) _ _
                (tb_duties_dma $mI $cI _ (by decide)) (tb_duties_dma $mI _ _ (by decide)) rfl (tb_payload_s2 $mI $cI $ch $d (by decide) 0 0)
                (recv2_from $mI $cI $ch $d (by decide)) _ $gd $hs _ _) $$ [$s:ident $g:ident $ho:ident $t1:ident $t2:ident]
             · iframe $i1:ident $i2:ident $r1:ident $r2:ident ∗
             iintro ⟨$cs:ident, $ho:ident⟩))

macro "run_on" : tactic => `(tactic| sl_exec (disch := (simp only [sl_canon])))

macro "pback" : tactic => `(tactic| (iapply (pslot_back _ _ _ _ _); iframe))
macro "zback" : tactic => `(tactic| (iapply (zslot_back _ _ _ _ _); iframe))

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_f23 (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
theorem bigSep_f27 (Φ : Fin 2 × Fin 7 → sProp 𝕄) :
    bigSep Finset.univ Φ = iprop(Φ (0, 0) ∗ Φ (0, 1) ∗ Φ (0, 2) ∗ Φ (0, 3) ∗ Φ (0, 4) ∗ Φ (0, 5) ∗ Φ (0, 6)
      ∗ Φ (1, 0) ∗ Φ (1, 1) ∗ Φ (1, 2) ∗ Φ (1, 3) ∗ Φ (1, 4) ∗ Φ (1, 5) ∗ Φ (1, 6)) :=
  bigSep_univ_eq_bigSepL [(0, 0), (0, 1), (0, 2), (0, 3), (0, 4), (0, 5), (0, 6), (1, 0), (1, 1), (1, 2), (1, 3), (1, 4), (1, 5), (1, 6)]
    (by decide) (by decide) Φ

theorem offs : (0 : Fin 7).succ = (1 : Fin 8) ∧ (1 : Fin 7).succ = (2 : Fin 8) ∧ (2 : Fin 7).succ = (3 : Fin 8) ∧ (3 : Fin 7).succ = (4 : Fin 8)
    ∧ (4 : Fin 7).succ = (5 : Fin 8) ∧ (5 : Fin 7).succ = (6 : Fin 8) ∧ (6 : Fin 7).succ = (7 : Fin 8)
    ∧ (0 : Fin 3).succ = (1 : Fin 4) ∧ (1 : Fin 3).succ = (2 : Fin 4) ∧ (2 : Fin 3).succ = (3 : Fin 4)
    ∧ dP 0 = (0 : D) ∧ dP 1 = (1 : D) ∧ dP 2 = (2 : D) ∧ dP 3 = (3 : D) ∧ dP 4 = (4 : D) ∧ dP 5 = (5 : D) ∧ dP 6 = (6 : D)
    ∧ dZ 0 = (7 : D) ∧ dZ 1 = (8 : D) ∧ dZ 2 = (9 : D) := by decide

set_option quotPrecheck false in
local notation "pAny(" p ", " d ", " ch ")" =>
  iprop(∃ f, (pslot d ch).view.loc (p : Thread nD τ) ↦[(pslot d ch).view.set]{fullShare} f)
set_option quotPrecheck false in
local notation "zAny(" p ", " d ", " ch ")" =>
  iprop(∃ f, (zslot d ch).view.loc (p : Thread nD τ) ↦[(zslot d ch).view.set]{fullShare} f)

section Pays

variable (m : (ℓ : Loc nD τ sig) → Buf (Elt F) ℓ)

/-- On the entry cell of its plane peer at offset `e` a device pays duty `e - 1`, handing over its own two slots `-e`. -/
theorem payload_on_pp (c : Dev nD) (e d : Fin 8) (k : D) (hk : k.val < 7)
    (hd : d = -(⟨k.val + 1, by omega⟩ : Fin 8)) (he : e = -d) :
    (Rd (F := F) m).payload (barCell (pp e c)) 0 k
      = iprop(pAny(c, d, 0) ∗ pAny(c, d, 1) ∗ reached ER (r1Cell c 0 d) 0 ∗ reached ER (r1Cell c 1 d) 0) := by
  subst hd he
  rw [tb_payload_bar]
  unfold barPay
  rw [dif_pos hk, pp_neg']
  rfl

theorem payload_on_zp (c : Dev nD) (e d : Fin 4) (k : D) (hk : ¬ k.val < 7)
    (hd : d = -(⟨k.val - 6, by have := k.isLt; omega⟩ : Fin 4)) (he : e = -d) :
    (Rd (F := F) m).payload (barCell (zp e c)) 0 k
      = iprop(zAny(c, d, 0) ∗ zAny(c, d, 1) ∗ reached ER (r2Cell c 0 d) 0 ∗ reached ER (r2Cell c 1 d) 0) := by
  subst hd he
  rw [tb_payload_bar]
  unfold barPay
  rw [dif_neg hk, zp_neg']
  rfl

theorem pay_pp1 (c : Dev nD) : (Rd (F := F) m).payload (barCell (pp 1 c)) 0 (0 : D)
    = iprop(pAny(c, 7, 0) ∗ pAny(c, 7, 1) ∗ reached ER (r1Cell c 0 7) 0 ∗ reached ER (r1Cell c 1 7) 0) :=
  payload_on_pp m c 1 7 0 (by decide) (by decide) (by decide)
theorem pay_pp2 (c : Dev nD) : (Rd (F := F) m).payload (barCell (pp 2 c)) 0 (1 : D)
    = iprop(pAny(c, 6, 0) ∗ pAny(c, 6, 1) ∗ reached ER (r1Cell c 0 6) 0 ∗ reached ER (r1Cell c 1 6) 0) :=
  payload_on_pp m c 2 6 1 (by decide) (by decide) (by decide)
theorem pay_pp3 (c : Dev nD) : (Rd (F := F) m).payload (barCell (pp 3 c)) 0 (2 : D)
    = iprop(pAny(c, 5, 0) ∗ pAny(c, 5, 1) ∗ reached ER (r1Cell c 0 5) 0 ∗ reached ER (r1Cell c 1 5) 0) :=
  payload_on_pp m c 3 5 2 (by decide) (by decide) (by decide)
theorem pay_pp4 (c : Dev nD) : (Rd (F := F) m).payload (barCell (pp 4 c)) 0 (3 : D)
    = iprop(pAny(c, 4, 0) ∗ pAny(c, 4, 1) ∗ reached ER (r1Cell c 0 4) 0 ∗ reached ER (r1Cell c 1 4) 0) :=
  payload_on_pp m c 4 4 3 (by decide) (by decide) (by decide)
theorem pay_pp5 (c : Dev nD) : (Rd (F := F) m).payload (barCell (pp 5 c)) 0 (4 : D)
    = iprop(pAny(c, 3, 0) ∗ pAny(c, 3, 1) ∗ reached ER (r1Cell c 0 3) 0 ∗ reached ER (r1Cell c 1 3) 0) :=
  payload_on_pp m c 5 3 4 (by decide) (by decide) (by decide)
theorem pay_pp6 (c : Dev nD) : (Rd (F := F) m).payload (barCell (pp 6 c)) 0 (5 : D)
    = iprop(pAny(c, 2, 0) ∗ pAny(c, 2, 1) ∗ reached ER (r1Cell c 0 2) 0 ∗ reached ER (r1Cell c 1 2) 0) :=
  payload_on_pp m c 6 2 5 (by decide) (by decide) (by decide)
theorem pay_pp7 (c : Dev nD) : (Rd (F := F) m).payload (barCell (pp 7 c)) 0 (6 : D)
    = iprop(pAny(c, 1, 0) ∗ pAny(c, 1, 1) ∗ reached ER (r1Cell c 0 1) 0 ∗ reached ER (r1Cell c 1 1) 0) :=
  payload_on_pp m c 7 1 6 (by decide) (by decide) (by decide)
theorem pay_zp1 (c : Dev nD) : (Rd (F := F) m).payload (barCell (zp 1 c)) 0 (7 : D)
    = iprop(zAny(c, 3, 0) ∗ zAny(c, 3, 1) ∗ reached ER (r2Cell c 0 3) 0 ∗ reached ER (r2Cell c 1 3) 0) :=
  payload_on_zp m c 1 3 7 (by decide) (by decide) (by decide)
theorem pay_zp2 (c : Dev nD) : (Rd (F := F) m).payload (barCell (zp 2 c)) 0 (8 : D)
    = iprop(zAny(c, 2, 0) ∗ zAny(c, 2, 1) ∗ reached ER (r2Cell c 0 2) 0 ∗ reached ER (r2Cell c 1 2) 0) :=
  payload_on_zp m c 2 2 8 (by decide) (by decide) (by decide)
theorem pay_zp3 (c : Dev nD) : (Rd (F := F) m).payload (barCell (zp 3 c)) 0 (9 : D)
    = iprop(zAny(c, 1, 0) ∗ zAny(c, 1, 1) ∗ reached ER (r2Cell c 0 1) 0 ∗ reached ER (r2Cell c 1 1) 0) :=
  payload_on_zp m c 3 1 9 (by decide) (by decide) (by decide)

end Pays

section Ledger

/-- The landings still owed at the three waits: the second half's column landings; all six column landings; all twenty. -/
def colOwed1 (c : Dev nD) : CellTallies nD τ sig Unit := tallyAt (r2Cell (zp 3 c) 1 3) () NP + tallyAt (r2Cell (zp 2 c) 1 2) () NP + tallyAt (r2Cell (zp 1 c) 1 1) () NP
def colOwed (c : Dev nD) : CellTallies nD τ sig Unit := colOwed1 c + tallyAt (r2Cell (zp 3 c) 0 3) () NP + tallyAt (r2Cell (zp 2 c) 0 2) () NP + tallyAt (r2Cell (zp 1 c) 0 1) () NP
def landOwed (c : Dev nD) : CellTallies nD τ sig Unit := colOwed c
    + tallyAt (r1Cell (pp 7 c) 1 7) () NP + tallyAt (r1Cell (pp 6 c) 1 6) () NP + tallyAt (r1Cell (pp 5 c) 1 5) () NP + tallyAt (r1Cell (pp 4 c) 1 4) () NP + tallyAt (r1Cell (pp 3 c) 1 3) () NP + tallyAt (r1Cell (pp 2 c) 1 2) () NP + tallyAt (r1Cell (pp 1 c) 1 1) () NP
    + tallyAt (r1Cell (pp 7 c) 0 7) () NP + tallyAt (r1Cell (pp 6 c) 0 6) () NP + tallyAt (r1Cell (pp 5 c) 0 5) () NP + tallyAt (r1Cell (pp 4 c) 0 4) () NP + tallyAt (r1Cell (pp 3 c) 0 3) () NP + tallyAt (r1Cell (pp 2 c) 0 2) () NP + tallyAt (r1Cell (pp 1 c) 0 1) () NP

/-- What a device owes at entry as one sum, the summand paid first standing last. -/
theorem O₀_eq (c : Dev nD) : O₀ c = landOwed c
    + tallyAt (barCell (zp 3 c)) () 1 + tallyAt (barCell (zp 2 c)) () 1 + tallyAt (barCell (zp 1 c)) () 1
    + tallyAt (barCell (pp 7 c)) () 1 + tallyAt (barCell (pp 6 c)) () 1 + tallyAt (barCell (pp 5 c)) () 1
    + tallyAt (barCell (pp 4 c)) () 1 + tallyAt (barCell (pp 3 c)) () 1 + tallyAt (barCell (pp 2 c)) () 1
    + tallyAt (barCell (pp 1 c)) () 1 := by
  unfold O₀ landOwed colOwed colOwed1
  rw [Fin.sum_univ_seven, Fin.sum_univ_three, Fin.sum_univ_two, Fin.sum_univ_seven, Fin.sum_univ_seven,
    Fin.sum_univ_two, Fin.sum_univ_three, Fin.sum_univ_three]
  simp only [offs]
  abel

/-- `O` owes only at cells of `L`, each of level above `n`. -/
def Above (n : ℕ) (O : CellTallies nD τ sig Unit) : Prop := ∀ g u, 0 < O g u → u ∈ L g ∧ n < lv g u

theorem mem_L (t : Dev nD) (sm : SemLoc sig) : () ∈ L ((t : Thread nD τ), sm) := by
  unfold L; rw [if_pos rfl]; exact Finset.mem_singleton_self _

theorem Above.add {n : ℕ} {O₁ O₂ : CellTallies nD τ sig Unit} (h₁ : Above n O₁) (h₂ : Above n O₂) : Above n (O₁ + O₂) :=
  fun g u h => (Pipeline.add_pos_cases h).elim (h₁ g u) (h₂ g u)
theorem above_r1 (n : ℕ) (p : Dev nD) (ch : Fin 2) (d : Fin 8) (k : ℕ) (hd : d ≠ 0) (h : n < 2 + ch.val) :
    Above n (tallyAt (r1Cell p ch d) () k) := fun g u h0 => by
  obtain ⟨rfl, rfl⟩ := Pipeline.tallyAt_pos h0
  refine ⟨mem_L p _, ?_⟩
  show n < lv (r1Cell p ch d) ()
  unfold lv; rw [kindOf_r1 ch d hd]; exact h
theorem above_r2 (n : ℕ) (p : Dev nD) (ch : Fin 2) (d : Fin 4) (k : ℕ) (hd : d ≠ 0) (h : n < 4 + ch.val) :
    Above n (tallyAt (r2Cell p ch d) () k) := fun g u h0 => by
  obtain ⟨rfl, rfl⟩ := Pipeline.tallyAt_pos h0
  refine ⟨mem_L p _, ?_⟩
  show n < lv (r2Cell p ch d) ()
  unfold lv; rw [kindOf_r2 ch d hd]; exact h

theorem mw_bar (c : Dev nD) (O : CellTallies nD τ sig Unit) (h : Above 1 O) :
    (levAts L lv : sProp 𝕄) ⊢ MayWait (c : Thread nD τ) (.reg barS) () O :=
  Pipeline.mayWait_of_levAts (mem_L c _) (fun g u hg => by
    have := h g u hg; refine ⟨this.1, ?_⟩; show lv (barCell c) () < _; unfold lv; rw [kindOf_bar]; exact this.2)
theorem mw_r1 (c : Dev nD) (ch : Fin 2) (d : Fin 8) (hd : d ≠ 0) (O : CellTallies nD τ sig Unit) (h : Above (2 + ch.val) O) :
    (levAts L lv : sProp 𝕄) ⊢ MayWait (c : Thread nD τ) (.dma (r1 ch d)) () O :=
  Pipeline.mayWait_of_levAts (mem_L c _) (fun g u hg => by
    have := h g u hg; refine ⟨this.1, ?_⟩; show lv (r1Cell c ch d) () < _; unfold lv; rw [kindOf_r1 ch d hd]; exact this.2)
theorem mw_r2 (c : Dev nD) (ch : Fin 2) (d : Fin 4) (hd : d ≠ 0) (O : CellTallies nD τ sig Unit) (h : Above (4 + ch.val) O) :
    (levAts L lv : sProp 𝕄) ⊢ MayWait (c : Thread nD τ) (.dma (r2 ch d)) () O :=
  Pipeline.mayWait_of_levAts (mem_L c _) (fun g u hg => by
    have := h g u hg; refine ⟨this.1, ?_⟩; show lv (r2Cell c ch d) () < _; unfold lv; rw [kindOf_r2 ch d hd]; exact this.2)

end Ledger

section Debts

set_option quotPrecheck false in
local notation "aR1(" c ", " n ", " ch ", " d ")" => above_r1 n (pp d c) ch d NP (by decide) (by decide)
set_option quotPrecheck false in
local notation "aR2(" c ", " n ", " ch ", " d ")" => above_r2 n (zp d c) ch d NP (by decide) (by decide)

/-- Each wait lies below everything still owed at it. -/
theorem above_entry (c : Dev nD) : Above 1 (landOwed c) := by
  unfold landOwed colOwed colOwed1
  exact aR2(c, 1, 1, 3) |>.add aR2(c, 1, 1, 2) |>.add aR2(c, 1, 1, 1) |>.add aR2(c, 1, 0, 3) |>.add aR2(c, 1, 0, 2) |>.add aR2(c, 1, 0, 1)
    |>.add aR1(c, 1, 1, 7) |>.add aR1(c, 1, 1, 6) |>.add aR1(c, 1, 1, 5) |>.add aR1(c, 1, 1, 4) |>.add aR1(c, 1, 1, 3) |>.add aR1(c, 1, 1, 2)
    |>.add aR1(c, 1, 1, 1)
    |>.add aR1(c, 1, 0, 7) |>.add aR1(c, 1, 0, 6) |>.add aR1(c, 1, 0, 5) |>.add aR1(c, 1, 0, 4) |>.add aR1(c, 1, 0, 3) |>.add aR1(c, 1, 0, 2)
    |>.add aR1(c, 1, 0, 1)
theorem above_plane0 (c : Dev nD) : Above (2 + (0 : Fin 2).val) (colOwed c) := by
  unfold colOwed colOwed1
  exact aR2(c, 2 + (0 : Fin 2).val, 1, 3) |>.add aR2(c, 2 + (0 : Fin 2).val, 1, 2) |>.add aR2(c, 2 + (0 : Fin 2).val, 1, 1)
    |>.add aR2(c, 2 + (0 : Fin 2).val, 0, 3) |>.add aR2(c, 2 + (0 : Fin 2).val, 0, 2) |>.add aR2(c, 2 + (0 : Fin 2).val, 0, 1)
theorem above_plane1 (c : Dev nD) : Above (2 + (1 : Fin 2).val) (colOwed1 c) := by
  unfold colOwed1
  exact aR2(c, 2 + (1 : Fin 2).val, 1, 3) |>.add aR2(c, 2 + (1 : Fin 2).val, 1, 2) |>.add aR2(c, 2 + (1 : Fin 2).val, 1, 1)

end Debts

theorem stg0_view (c : Dev nD) (f : Buf (Elt F) ((c : Thread nD τ).loc cc0_stg0_0)) :
    ((((c : Thread nD τ).loc cc0_stg0_0) ↦{fullShare} f) : sProp 𝕄)
      ⊢ ((Memref.whole cc0_stg0_0 : Memref sig .tc .vmem S1024x1024 .f32).view.loc (c : Thread nD τ) ↦{fullShare} f) :=
  Entails.rfl
theorem stg1_view (c : Dev nD) (f : Buf (Elt F) ((c : Thread nD τ).loc cc0_stg1_0)) :
    ((((c : Thread nD τ).loc cc0_stg1_0) ↦{fullShare} f) : sProp 𝕄)
      ⊢ ((Memref.whole cc0_stg1_0 : Memref sig .tc .vmem S1024x1024 .bf16).view.loc (c : Thread nD τ) ↦{fullShare} f) :=
  Entails.rfl

section Entry

variable (m : (ℓ : Loc nD τ sig) → Buf (Elt F) ℓ)

/-- The ten entry units bring the slots this device copies into, on its ten peers. -/
theorem bar_open (c : Dev nD) :
    bigSep (Finset.univ : Finset D) (fun d => (Rd (F := F) m).payload (barCell c) 0 d)
      ⊢ iprop((pAny(pp 7 c, 7, 0) ∗ pAny(pp 7 c, 7, 1)) ∗ (pAny(pp 6 c, 6, 0) ∗ pAny(pp 6 c, 6, 1))
        ∗ (pAny(pp 5 c, 5, 0) ∗ pAny(pp 5 c, 5, 1)) ∗ (pAny(pp 4 c, 4, 0) ∗ pAny(pp 4 c, 4, 1))
        ∗ (pAny(pp 3 c, 3, 0) ∗ pAny(pp 3 c, 3, 1)) ∗ (pAny(pp 2 c, 2, 0) ∗ pAny(pp 2 c, 2, 1))
        ∗ (pAny(pp 1 c, 1, 0) ∗ pAny(pp 1 c, 1, 1))
        ∗ (zAny(zp 3 c, 3, 0) ∗ zAny(zp 3 c, 3, 1)) ∗ (zAny(zp 2 c, 2, 0) ∗ zAny(zp 2 c, 2, 1))
        ∗ (zAny(zp 1 c, 1, 0) ∗ zAny(zp 1 c, 1, 1))) := by
  have hrest := rest_bar m c
  rw [Finset.sdiff_empty, tb_duties_bar] at hrest
  rw [hrest, barPay_0, barPay_1, barPay_2, barPay_3, barPay_4, barPay_5, barPay_6, barPay_7, barPay_8, barPay_9]
  unfold pslotAny zslotAny
  iintro ⟨⟨A0, B0, -, -⟩, ⟨A1, B1, -, -⟩, ⟨A2, B2, -, -⟩, ⟨A3, B3, -, -⟩, ⟨A4, B4, -, -⟩, ⟨A5, B5, -, -⟩, ⟨A6, B6, -, -⟩,
    ⟨A7, B7, -, -⟩, ⟨A8, B8, -, -⟩, ⟨A9, B9, -, -⟩⟩
  iframe

end Entry

attribute [local sl_canon] Topo.dev1_eq Topo.dev2_eq Topo.dev3_eq Topo.dev4_eq Topo.dev5_eq Topo.dev6_eq Topo.dev7_eq
  Topo.dev8_eq Topo.dev9_eq Topo.dev10_eq Topo.dev11_eq Topo.dev12_eq Topo.dev13_eq Topo.dev14_eq Topo.dev15_eq
  Topo.dev16_eq Topo.dev17_eq Topo.dev18_eq Topo.dev19_eq Topo.dev20_eq Topo.dev21_eq Topo.dev22_eq Topo.dev23_eq
  Topo.dev24_eq Topo.dev25_eq Topo.dev26_eq Topo.dev27_eq Topo.dev28_eq Topo.dev29_eq Topo.dev30_eq

attribute [local sl_rounds] tb_duties_bar tb_duties_dma tb_amount_bar tb_amount_dma tb_expect_bar tb_expect_dma tb_payload_s1 tb_payload_r1 tb_payload_s2 tb_payload_r2
  pcredit zcredit pay_pp1 pay_pp2 pay_pp3 pay_pp4 pay_pp5 pay_pp6 pay_pp7 pay_zp1 pay_zp2 pay_zp3

attribute [local irreducible] Topo.pp Topo.zp

set_option maxHeartbeats 3000000

variable (m : (ℓ : Loc nD τ sig) → Buf (Elt F) ℓ) (ρ : Dev nD → PrngReg)

theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4 cc0_scratch5)
      (fun _ => bodyPost m ρ c) := by
  have hmwb := mw_bar (F := F) c
  have hmw1 := mw_r1 (F := F) c
  have hmw2 := mw_r2 (F := F) c
  have hA1 := above_entry c
  have hA2 := above_plane0 c
  have hA3 := above_plane1 c
  unfold landOwed colOwed colOwed1 at hA1
  unfold colOwed colOwed1 at hA2
  unfold colOwed1 at hA3
  unfold bodyPre Φ₀ start ghost bufs reacheds
  iintro ⟨⟨⟨⟨%K, #Hinv, Hpos, #Hrch, Htok, Hidle⟩, Hcr, #Hlev⟩, ⟨%fp, Hp⟩, ⟨%fz, Hz⟩⟩, ⟨%W, %hW, HO⟩, ⟨%d0, %f0, %hf0, Hx⟩, ⟨%d1, %f1, %hf1, Ho⟩⟩
  icases (invs_keep m K c) $$ Hinv with ⟨#HinvK, #Hinv⟩
  unfold invs positions payToks creds
  simp only [bigSep_fin2, bigSep_fin3, bigSep_fin7, bigSep_f23, bigSep_f27, offs]
  icases Hinv with ⟨Ibar, I27, I23, I7, I3⟩
  ichain I27 as IA 14 3
  ichain I23 as IB 6 3
  ichain I7 as IC 7 1
  ichain I3 as ID 3 1
  icases Hrch with ⟨R7, R3, R27, R23⟩
  ichain R7 as RC 7 1
  ichain R3 as RD 3 1
  ichain R27 as RA 14 3
  ichain R23 as RB 6 3
  icases Hpos with ⟨Pbar, P27, P23⟩
  ichain P27 as PA 14 2
  ichain P23 as PB 6 2
  icases Htok with ⟨T7, T3, T27, T23⟩
  ichain T7 as TC 7 1
  ichain T3 as TD 3 1
  ichain T27 as TA 14 2
  ichain T23 as TB 6 2
  icases Hcr with ⟨Cbar, C27, C23⟩
  ichain C27 as CA 14 1
  ichain C23 as CB 6 1
  rw [before0_eq m ρ c d0] at hf0
  subst hf0
  have hO : (dats m ρ 0 c).owed t₀.castSucc = _ := O₀_eq c
  rw [hO]
  unfold landOwed colOwed colOwed1
  icases (pB_split c fp) $$ Hp with ⟨Hp70, Hp71, Hp60, Hp61, Hp50, Hp51, Hp40, Hp41, Hp30, Hp31, Hp20, Hp21, Hp10, Hp11, Hp00, Hp01⟩
  icases (zB_split c fz) $$ Hz with ⟨Hz30, Hz31, Hz20, Hz21, Hz10, Hz11, Hz00, Hz01⟩
  icases (stg0_view c (xblk m c)) $$ Hx with Hx
  icases (stg1_view c f1) $$ Ho with Ho
  run_on
  icases (bar_open m c) $$ Pbar_pay1 with ⟨⟨⟨%g70, G70⟩, ⟨%g71, G71⟩⟩, ⟨⟨%g60, G60⟩, ⟨%g61, G61⟩⟩, ⟨⟨%g50, G50⟩, ⟨%g51, G51⟩⟩,
    ⟨⟨%g40, G40⟩, ⟨%g41, G41⟩⟩, ⟨⟨%g30, G30⟩, ⟨%g31, G31⟩⟩, ⟨⟨%g20, G20⟩, ⟨%g21, G21⟩⟩, ⟨⟨%g10, G10⟩, ⟨%g11, G11⟩⟩,
    ⟨⟨%h30, Z30⟩, ⟨%h31, Z31⟩⟩, ⟨⟨%h20, Z20⟩, ⟨%h21, Z21⟩⟩, ⟨⟨%h10, Z10⟩, ⟨%h11, Z11⟩⟩⟩
  have hs0 : SlotHolds ((pslot 0 0).view.read (Elt F) (sound_body.sl.Hp00_w2 m c fp)) (mrow m c 0) (srow m c 0) :=
    pslot0_holds_0 c fp _ _
  icases (share8_split _ _) $$ Hp00 with ⟨S00, S01, S02, S03, S04, S05, S06, S07⟩
  plane_send 0 1
  run_on
  plane_send 0 2
  run_on
  plane_send 0 3
  run_on
  plane_send 0 4
  run_on
  plane_send 0 5
  run_on
  plane_send 0 6
  run_on
  plane_send 0 7
  run_on
  have hs1 : SlotHolds ((pslot 0 1).view.read (Elt F) (sound_body.sl.Hp01_w2 m c fp)) (mrow m c 1) (srow m c 1) :=
    pslot0_holds_1 c fp _ _
  icases (share8_split _ _) $$ Hp01 with ⟨S10, S11, S12, S13, S14, S15, S16, S17⟩
  plane_send 1 1
  run_on
  plane_send 1 2
  run_on
  plane_send 1 3
  run_on
  plane_send 1 4
  run_on
  plane_send 1 5
  run_on
  plane_send 1 6
  run_on
  plane_send 1 7
  run_on
  unfold recv1Pay
  icases PA1_2_pay1 with ⟨%r10, %hr10, L10⟩
  icases PA2_2_pay1 with ⟨%r20, %hr20, L20⟩
  icases PA3_2_pay1 with ⟨%r30, %hr30, L30⟩
  icases PA4_2_pay1 with ⟨%r40, %hr40, L40⟩
  icases PA5_2_pay1 with ⟨%r50, %hr50, L50⟩
  icases PA6_2_pay1 with ⟨%r60, %hr60, L60⟩
  icases PA7_2_pay1 with ⟨%r70, %hr70, L70⟩
  icases (share8_carve _ _) $$ L10 with ⟨L10, L10r⟩
  icases (share8_carve _ _) $$ L20 with ⟨L20, L20r⟩
  icases (share8_carve _ _) $$ L30 with ⟨L30, L30r⟩
  icases (share8_carve _ _) $$ L40 with ⟨L40, L40r⟩
  icases (share8_carve _ _) $$ L50 with ⟨L50, L50r⟩
  icases (share8_carve _ _) $$ L60 with ⟨L60, L60r⟩
  icases (share8_carve _ _) $$ L70 with ⟨L70, L70r⟩
  icases (pslab_join c 0 (sh8 0) _ r10 r20 r30 r40 r50 r60 r70) $$ [S00 L10 L20 L30 L40 L50 L60 L70] with ⟨%gA, %hgA, SLAB0⟩
  · iframe
  have hallA := pslab_holds m c 0 gA _ r10 r20 r30 r40 r50 r60 r70 hgA hs0 hr10 hr20 hr30 hr40 hr50 hr60 hr70
  run_on
  have e0A := pslab_row0_0 m c gA hallA
  have e1A := pslab_row1_0 m c gA hallA
  have hz0 : SlotHolds ((zslot 0 0).view.read (Elt F) (sound_body.sl.Hz00_w2 c fz gA)) (mprow m c 0) (sprow m c 0) := by
    show SlotHolds _ (k0_pay13 (k0_pay11 (PMvec m c 0))) (k0_pay14 (k0_pay11 (PMvec m c 0)) (PSvec m c 0))
    rw [← e0A, ← e1A]
    exact zslot0_holds_0 c fz _ _
  icases (share4_split _ _) $$ Hz00 with ⟨Y00, Y01, Y02, Y03⟩
  column_send 0 1
  run_on
  column_send 0 2
  run_on
  column_send 0 3
  run_on
  unfold recv1Pay
  icases PA8_2_pay1 with ⟨%r11, %hr11, L11⟩
  icases PA9_2_pay1 with ⟨%r21, %hr21, L21⟩
  icases PA10_2_pay1 with ⟨%r31, %hr31, L31⟩
  icases PA11_2_pay1 with ⟨%r41, %hr41, L41⟩
  icases PA12_2_pay1 with ⟨%r51, %hr51, L51⟩
  icases PA13_2_pay1 with ⟨%r61, %hr61, L61⟩
  icases PA14_2_pay1 with ⟨%r71, %hr71, L71⟩
  icases (share8_carve _ _) $$ L11 with ⟨L11, L11r⟩
  icases (share8_carve _ _) $$ L21 with ⟨L21, L21r⟩
  icases (share8_carve _ _) $$ L31 with ⟨L31, L31r⟩
  icases (share8_carve _ _) $$ L41 with ⟨L41, L41r⟩
  icases (share8_carve _ _) $$ L51 with ⟨L51, L51r⟩
  icases (share8_carve _ _) $$ L61 with ⟨L61, L61r⟩
  icases (share8_carve _ _) $$ L71 with ⟨L71, L71r⟩
  icases (pslab_join c 1 (sh8 0) _ r11 r21 r31 r41 r51 r61 r71) $$ [S10 L11 L21 L31 L41 L51 L61 L71] with ⟨%gB, %hgB, SLAB1⟩
  · iframe
  have hallB := pslab_holds m c 1 gB _ r11 r21 r31 r41 r51 r61 r71 hgB hs1 hr11 hr21 hr31 hr41 hr51 hr61 hr71
  run_on
  have e0B := pslab_row0_1 m c gB hallB
  have e1B := pslab_row1_1 m c gB hallB
  have hz1 : SlotHolds ((zslot 0 1).view.read (Elt F) (sound_body.sl.Hz01_w2 c fz gB)) (mprow m c 1) (sprow m c 1) := by
    show SlotHolds _ (k0_pay18 (k0_pay16 (PMvec m c 1))) (k0_pay19 (k0_pay17 (PMvec m c 1) (PSvec m c 1)))
    rw [← e0B, ← e1B]
    exact zslot0_holds_1 c fz _ _
  icases (share4_split _ _) $$ Hz01 with ⟨Y10, Y11, Y12, Y13⟩
  column_send 1 1
  run_on
  column_send 1 2
  run_on
  icases (owes_zero_add c _ _) $$ HO with HO
  column_send 1 3
  run_on
  unfold recv2Pay
  icases PB1_2_pay1 with ⟨%q10, %hq10, M10⟩
  icases PB2_2_pay1 with ⟨%q20, %hq20, M20⟩
  icases PB3_2_pay1 with ⟨%q30, %hq30, M30⟩
  icases (share4_carve _ _) $$ M10 with ⟨M10, M10r⟩
  icases (share4_carve _ _) $$ M20 with ⟨M20, M20r⟩
  icases (share4_carve _ _) $$ M30 with ⟨M30, M30r⟩
  icases (zslab_join c 0 (sh4 0) _ q10 q20 q30) $$ [Y00 M10 M20 M30] with ⟨%gC, %hgC, ZSLAB0⟩
  · iframe
  have hallC := zslab_holds m c 0 gC _ q10 q20 q30 hgC hz0 hq10 hq20 hq30
  run_on
  unfold recv2Pay
  icases PB4_2_pay1 with ⟨%q11, %hq11, M11⟩
  icases PB5_2_pay1 with ⟨%q21, %hq21, M21⟩
  icases PB6_2_pay1 with ⟨%q31, %hq31, M31⟩
  icases (share4_carve _ _) $$ M11 with ⟨M11, M11r⟩
  icases (share4_carve _ _) $$ M21 with ⟨M21, M21r⟩
  icases (share4_carve _ _) $$ M31 with ⟨M31, M31r⟩
  icases (zslab_join c 1 (sh4 0) _ q11 q21 q31) $$ [Y10 M11 M21 M31] with ⟨%gD, %hgD, ZSLAB1⟩
  · iframe
  have hallD := zslab_holds m c 1 gD _ q11 q21 q31 hgD hz1 hq11 hq21 hq31
  run_on
  have e0C := zslab_row0_0 m c gC hallC
  have e1C := zslab_row1_0 m c gC hallC
  have e0D := zslab_row0_1 m c gD hallD
  have e1D := zslab_row1_1 m c gD hallD
  have h00 : SlotHolds ((pslot 0 0).view.read (Elt F) gA) (mrow m c 0) (srow m c 0) := by
    have h := hallA 0
    rwa [show (-(0 : Fin 8)) = 0 from rfl, pp_zero] at h
  have h01 : SlotHolds ((pslot 0 1).view.read (Elt F) gB) (mrow m c 1) (srow m c 1) := by
    have h := hallB 0
    rwa [show (-(0 : Fin 8)) = 0 from rfl, pp_zero] at h
  have eo0 := pown_row0_0 c gA _ _ h00
  have eo1 := pown_row0_1 c gB _ _ h01
  have hp0 : k0_pay22 (sound_body.sl.r_1 m c) (sound_body.sl.r_7 c gC) (sound_body.sl.r_8 c gC)
      (View.readAt (Elt F) (Memref.whole cc0_scratch0 : Memref sig .tc .vmem S8x2x2x512 .f32).view
        (Rect.unit (s := S8x2x2x512) ![0, 0, 0, 0] S1x1x1x512.size inb_S8x2x2x512_S1x1x1x512_0_0_0_0).toLoadRect gA) = outHalf m c 0 := by
    show _ = k0_pay22 (k0_pay3 (xhalf m c 0)) (k0_pay20 (ZMvec m c 0)) (k0_pay21 (ZSvec m c 0)) (mrow m c 0)
    rw [← e0C, ← e1C, ← eo0]
    rfl
  have hp1 : k0_pay26 (sound_body.sl.r_2 m c) (sound_body.sl.r_9 c gD) (sound_body.sl.r_10 c gD) (sound_body.sl.r_11 c gB) = outHalf m c 1 := by
    show _ = k0_pay26 (k0_pay8 (xhalf m c 1)) (k0_pay24 (ZMvec m c 1)) (k0_pay25 (ZMvec m c 1) (ZSvec m c 1)) (mrow m c 1)
    rw [← e0D, ← e1D, ← eo1]
    rfl
  have hout := out_writes m c f1
  rw [← hp0, ← hp1] at hout
  icases (pslab_split c 0 (sh8 0) gA) $$ SLAB0 with ⟨X00, X10, X20, X30, X40, X50, X60, X70⟩
  icases (pslab_split c 1 (sh8 0) gB) $$ SLAB1 with ⟨X01, X11, X21, X31, X41, X51, X61, X71⟩
  icases (zslab_split c 0 (sh4 0) gC) $$ ZSLAB0 with ⟨V00, V10, V20, V30⟩
  icases (zslab_split c 1 (sh4 0) gD) $$ ZSLAB1 with ⟨V01, V11, V21, V31⟩
  iapply (body_finish_wp m ρ c K _ d0 (xblk m c) _ (before0_eq m ρ c d0).symm hout gA gB gC gD)
  unfold positions1
  simp only [bigSep_f23, bigSep_f27, offs]
  iframe
  isplitl []
  · iapply (invsKept_out m K c); iexact HinvK
  isplitr [V30 M30r V31 M31r V20 M20r V21 M21r V10 M10r V11 M11r]
  · isplitl [X70 L70r]; · pback
    isplitl [X71 L71r]; · pback
    isplitl [X60 L60r]; · pback
    isplitl [X61 L61r]; · pback
    isplitl [X50 L50r]; · pback
    isplitl [X51 L51r]; · pback
    isplitl [X40 L40r]; · pback
    isplitl [X41 L41r]; · pback
    isplitl [X30 L30r]; · pback
    isplitl [X31 L31r]; · pback
    isplitl [X20 L20r]; · pback
    isplitl [X21 L21r]; · pback
    isplitl [X10 L10r]; · pback
    pback
  isplitl [V30 M30r]; · zback
  isplitl [V31 M31r]; · zback
  isplitl [V20 M20r]; · zback
  isplitl [V21 M21r]; · zback
  isplitl [V10 M10r]; · zback
  zback

end Cert.KernelIdeal.Proto

end
-- ==== Proof.Fund.lean ====
import proofs.«901052_g7700000000001053_dist_softmax_colshard_i_m1024_n1024_v7x_i32_bf16_1_alg».proof.Proof.Inv

noncomputable section

namespace Cert.KernelIdeal.Proto

open Cert.KernelIdeal Cert.KernelIdeal.Gen Cert.KernelIdeal.Topo
open Idealize.ShloMosaic Idealize.ShloMosaic.TcCoe Idealize.ShloMosaic.Rounds
open Idealize.SL Idealize.SL.BI Idealize.SL.BI.BIBase Idealize.SL.ProofMode
open scoped Idealize.SL.BI

variable {F : FTy → Type} [FloatOps F]

local notation "𝕄" => MT nD τ sig Unit (Elt F) ℕ UU ℕ

variable (m : (ℓ : Loc nD τ sig) → Buf (Elt F) ℓ)

abbrev osem : Fin 48 → SemLoc sig := fun i => .dma ((⟨2 + i.val, by have := i.isLt; omega⟩ : Fin 50) : DmaSem sig)

theorem ownSemFacts : Pipeline.OwnSemFacts cfg0.spec osem := by decide

def G' (c : Dev nD) : sProp 𝕄 := iprop(∃ K, ghost m K c)

abbrev P1 : Type := Fin 2 × Fin 7
abbrev P2 : Type := Fin 2 × Fin 3
abbrev XC : Type := (P1 ⊕ P1) ⊕ (P2 ⊕ P2)
abbrev CC : Type := Unit ⊕ XC

abbrev xsem : XC → SemLoc sig
  | .inl (.inl x) => .dma (s1 x.1 x.2.succ)
  | .inl (.inr x) => .dma (r1 x.1 x.2.succ)
  | .inr (.inl x) => .dma (s2 x.1 x.2.succ)
  | .inr (.inr x) => .dma (r2 x.1 x.2.succ)
abbrev csem : CC → SemLoc sig
  | .inl _ => .reg barS
  | .inr x => xsem x
abbrev kcell (ck : Dev nD × CC) : GSem nD τ sig := ((ck.1 : Thread nD τ), csem ck.2)

theorem kcell_injective : Function.Injective (kcell : Dev nD × CC → GSem nD τ sig) := by
  rintro ⟨c, k⟩ ⟨c', k'⟩ h
  cases (congrArg (fun g : GSem nD τ sig => g.1.1) h : c = c')
  cases (by decide : Function.Injective (csem : CC → SemLoc sig)) (congrArg Prod.snd h : csem k = csem k')
  rfl

def protoCells : Finset (GSem nD τ sig) := Finset.univ.map ⟨kcell, kcell_injective⟩

-- A family over the protocol's cells, device by device.
theorem cells_eq (Φ : GSem nD τ sig → sProp 𝕄) :
    bigSep protoCells Φ = bigSep Finset.univ fun c : Dev nD => bigSep Finset.univ fun x : CC => Φ (kcell (c, x)) := by
  unfold protoCells; rw [bigSep_map, bigSep_univ_prod]; rfl

abbrev TT : Type := Fin 7 ⊕ Fin 3 ⊕ XC
-- The device on whose cell device `c` pays duty `t`: a peer's entry or landing cell, or its own sending cell.
abbrev tdev : TT → Dev nD → Dev nD
  | .inl k, c => pp k.succ c
  | .inr (.inl k), c => zp k.succ c
  | .inr (.inr (.inl (.inr x))), c => pp x.2.succ c
  | .inr (.inr (.inr (.inr x))), c => zp x.2.succ c
  | _, c => c
abbrev tsig : TT → SemLoc sig × D
  | .inl k => (.reg barS, dP k)
  | .inr (.inl k) => (.reg barS, dZ k)
  | .inr (.inr x) => (xsem x, 0)
abbrev tokOf (ct : Dev nD × TT) : GSem nD τ sig × ℕ × D := (((tdev ct.2 ct.1 : Thread nD τ), (tsig ct.2).1), 0, (tsig ct.2).2)

-- A duty names its offset, and offsets are translations: the tokens the devices pay are pairwise distinct.
theorem tokOf_injective : Function.Injective (tokOf : Dev nD × TT → GSem nD τ sig × ℕ × D) := by
  rintro ⟨c, t⟩ ⟨c', t'⟩ h
  cases (by decide : Function.Injective (tsig : TT → SemLoc sig × D))
    (Prod.ext (congrArg (Prod.snd ∘ Prod.fst) h) (congrArg (Prod.snd ∘ Prod.snd) h) : tsig t = tsig t')
  have hd : tdev t c = tdev t c' := congrArg (Prod.fst ∘ Prod.fst ∘ Prod.fst) h
  have hc : c = c' := by
    rcases t with k | k | (x | x) | (x | x)
    exacts [Function.LeftInverse.injective (pp_neg k.succ) hd, Function.LeftInverse.injective (zp_neg k.succ) hd, hd,
      Function.LeftInverse.injective (pp_neg x.2.succ) hd, hd, Function.LeftInverse.injective (zp_neg x.2.succ) hd]
  rw [hc]

def protoToks : Finset (GSem nD τ sig × ℕ × D) := Finset.univ.map ⟨tokOf, tokOf_injective⟩

def uProto : UB := initOf protoCells protoToks

def u₀ : UU := (initOf (Pipeline.cells cfgs cellOf_inj) (Pipeline.launchToks cfgs cellOf_inj), uProto)

theorem bigSep_XC (Φ : XC → sProp 𝕄) :
    bigSep Finset.univ Φ = iprop((bigSep Finset.univ fun x : P1 => iprop(Φ (.inl (.inl x)) ∗ Φ (.inl (.inr x))))
      ∗ (bigSep Finset.univ fun x : P2 => iprop(Φ (.inr (.inl x)) ∗ Φ (.inr (.inr x))))) := by
  rw [bigSep_univ_sum, bigSep_univ_sum, bigSep_univ_sum, bigSep_sep', bigSep_sep']; rfl

theorem bigSep_CC (Φ : CC → sProp 𝕄) :
    bigSep Finset.univ Φ = iprop(Φ (.inl ()) ∗ bigSep Finset.univ fun x : XC => Φ (.inr x)) := by
  rw [bigSep_univ_sum, bigSep_univ_of_subsingleton ()]; rfl

-- The minted tokens are, device by device, the tokens that device pays.
theorem toks_eq : bigSep protoToks (fun x => (dutyTok ER x.1 x.2.1 x.2.2 : sProp 𝕄)) = bigSep Finset.univ fun c : Dev nD => payToks c := by
  unfold protoToks; rw [bigSep_map, bigSep_univ_prod]
  exact bigSep_congr fun c _ => by unfold payToks; rw [bigSep_univ_sum, bigSep_univ_sum, bigSep_XC]; rfl

theorem positions_eq : bigSep protoCells (fun g => (atPos ER g 0 ∅ 0 : sProp 𝕄)) = bigSep Finset.univ fun c : Dev nD => positions c := by
  rw [cells_eq]
  exact bigSep_congr fun c _ => by unfold positions; rw [bigSep_CC, bigSep_XC]

-- Until the semaphores are at hand the protocol's element stays whole, with the first device.
abbrev G (_ : (ℓ : Loc nD τ sig) → Buf (Elt F) ℓ) (c : Dev nD) : sProp 𝕄 :=
  if c = ⟨0, by decide⟩ then BI.own (ER uProto) else iprop(emp)

theorem hu₀ : (ownU u₀ : sProp 𝕄)
    ⊢ |={Set.univ}=> iprop(BI.own (EP (initOf (Pipeline.cells cfgs cellOf_inj) (Pipeline.launchToks cfgs cellOf_inj))) ∗ bigSep Finset.univ (G m)) :=
by
  unfold u₀
  iintro Hu
  ihave H := (ownU_pair _ _) $$ Hu
  icases H with ⟨HP, HX⟩
  imodintro
  isplitl [HP]; · iexact HP
  iapply (bigSep_deal_one _ _); iexact HX

abbrev SS : Type := XC ⊕ Fin 2 × Fin 4
abbrev ssem : SS → SemLoc sig
  | .inl x => xsem x
  | .inr y => match y.2 with
    | 0 => .dma (s1 y.1 0) | 1 => .dma (r1 y.1 0) | 2 => .dma (s2 y.1 0) | 3 => .dma (r2 y.1 0)

-- The kernel's own semaphores at zero, listed along any other enumeration of the same forty-eight.
theorem own_reindex {ι : Type} [Fintype ι] (f : ι → SemLoc sig) (hf : Function.Injective f)
    (h : Finset.univ.map ⟨osem, ownSemFacts.inj⟩ = Finset.univ.map ⟨f, hf⟩) (c : Dev nD) :
    (Pipeline.ownSems0 osem c : sProp 𝕄) = bigSep Finset.univ fun i => semVal ((c : Thread nD τ), f i) 0 :=
  (bigSep_map _).symm.trans ((congrArg (fun s => bigSep s fun sm => (semVal ((c : Thread nD τ), sm) 0 : sProp 𝕄)) h).trans (bigSep_map ⟨f, hf⟩))

theorem sems0_eq (c : Dev nD) :
    iprop(Pipeline.ownSems0 osem c ∗ unscopedSems0 c ∗ G m c)
      ⊢ iprop((bigSep Finset.univ fun x : CC => semVal (kcell (c, x)) 0) ∗ idleSems c ∗ G m c : sProp 𝕄) := by
  have hI : (bigSep Finset.univ fun y : Fin 2 × Fin 4 => (semVal ((c : Thread nD τ), ssem (.inr y)) 0 : sProp 𝕄)) = idleSems c := by
    unfold idleSems; rw [bigSep_univ_prod]
    exact bigSep_congr fun ch _ => by rw [bigSep_univ_eq_bigSepL [0, 1, 2, 3] (by decide) (by decide)]; rfl
  have hB : (unscopedSems0 c : sProp 𝕄) = semVal (barCell c) 0 := by
    unfold unscopedSems0; rw [bigSep_eq_bigSepL_of_eq [SemLoc.reg barS] (by decide) (by decide)]; rfl
  rw [own_reindex ssem (by decide) (by decide), bigSep_univ_sum, hI, hB, bigSep_CC]
  show iprop((_ ∗ _) ∗ _) ⊢ _
  iintro ⟨⟨HX, HI⟩, HB, HG⟩
  isplitl [HB HX]
  · isplitl [HB] <;> iassumption
  isplitl [HI] <;> iassumption

-- All cells' invariants under the names `K`, and that round 0 of every cell is reached.
variable (K : GSem nD τ sig → ℕ)

def records : sProp 𝕄 :=
  iprop(bigSep protoCells (inv m K) ∗ bigSep protoCells fun g => reached ER g 0)

instance records_persistent : BI.Persistent (records m K) := by unfold records; infer_instance

theorem cells_elim (Φ : GSem nD τ sig → sProp 𝕄) (ck : Dev nD × CC) : bigSep protoCells Φ ⊢ Φ (kcell ck) :=
  bigSep_elim (Finset.mem_map_of_mem _ (Finset.mem_univ ck))

theorem inv_at (ck : Dev nD × CC) : records m K ⊢ inv m K (kcell ck) := by
  unfold records; iintro ⟨H, -⟩
  iapply (cells_elim (inv m K) ck); iexact H

theorem reached_at (ck : Dev nD × CC) : records m K ⊢ (reached ER (kcell ck) 0 : sProp 𝕄) := by
  unfold records; iintro ⟨-, H⟩
  iapply (cells_elim (fun g => reached ER g 0) ck); iexact H

theorem pers_sep {R P Q : sProp 𝕄} [BI.Persistent R] (h1 : R ⊢ P) (h2 : R ⊢ Q) : R ⊢ iprop(P ∗ Q) := by
  iintro #H
  isplitr
  · iapply h1; iexact H
  · iapply h2; iexact H

-- What holds of every cell holds of a device's own cells and of the cells of others it pays on.
theorem shape_of {R : sProp 𝕄} [BI.Persistent R] (Ψ : GSem nD τ sig → sProp 𝕄) (h : ∀ ck, R ⊢ Ψ (kcell ck)) (c : Dev nD) :
    R ⊢ iprop(Ψ (barCell c)
      ∗ (bigSep Finset.univ fun x : P1 => iprop(Ψ (s1Cell c x.1 x.2.succ) ∗ Ψ (r1Cell c x.1 x.2.succ) ∗ Ψ (r1Cell (pp x.2.succ c) x.1 x.2.succ)))
      ∗ (bigSep Finset.univ fun x : P2 => iprop(Ψ (s2Cell c x.1 x.2.succ) ∗ Ψ (r2Cell c x.1 x.2.succ) ∗ Ψ (r2Cell (zp x.2.succ c) x.1 x.2.succ)))
      ∗ (bigSep Finset.univ fun k : Fin 7 => Ψ (barCell (pp k.succ c)))
      ∗ (bigSep Finset.univ fun k : Fin 3 => Ψ (barCell (zp k.succ c)))) :=
  pers_sep (h (c, .inl ()))
    (pers_sep (bigSep_intro_persistent fun x _ => pers_sep (h (c, .inr (.inl (.inl x))))
        (pers_sep (h (c, .inr (.inl (.inr x)))) (h (pp x.2.succ c, .inr (.inl (.inr x))))))
    (pers_sep (bigSep_intro_persistent fun x _ => pers_sep (h (c, .inr (.inr (.inl x))))
        (pers_sep (h (c, .inr (.inr (.inr x)))) (h (zp x.2.succ c, .inr (.inr (.inr x))))))
    (pers_sep (bigSep_intro_persistent fun k _ => h (pp k.succ c, .inl ()))
      (bigSep_intro_persistent fun k _ => h (zp k.succ c, .inl ())))))

theorem ghost_intro (c : Dev nD) : iprop(records m K ∗ positions c ∗ payToks c ∗ idleSems c) ⊢ G' m c := by
  unfold G' ghost invs reacheds
  iintro ⟨#HR, Hpos, Htok, Hidle⟩
  iexists K
  isplitr; · iapply (shape_of (inv m K) (inv_at m K) c); iexact HR
  isplitl [Hpos]; · iexact Hpos
  isplitr
  · ihave H := (shape_of (fun g => reached ER g 0) (reached_at m K) c) $$ HR
    icases H with ⟨-, A, B, C, D⟩
    isplitl [C]; · iexact C
    isplitl [D]; · iexact D
    isplitl [A] <;> iassumption
  isplitl [Htok] <;> iassumption

-- With every device's semaphores at zero the cells' invariants are allocated, and each device takes what it holds.
theorem G_elim : bigSep Finset.univ (G m) ⊢ (BI.own (ER (initOf protoCells protoToks)) : sProp 𝕄) := by
  have h : G m ⟨0, by decide⟩ = (BI.own (ER (initOf protoCells protoToks)) : sProp 𝕄) := if_pos rfl
  rw [← h]; exact bigSep_elim (Finset.mem_univ _)

theorem hglob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine (bigSep_mono fun c _ => sems0_eq m c).trans ?_
  rw [bigSep_sep', bigSep_sep', ← cells_eq fun g => semVal g 0]
  show (_ : sProp 𝕄) ⊢ _
  iintro ⟨Hv, Hidle, HG⟩
  ihave HX := (G_elim m) $$ HG
  imod (Rounds.fund ER (Rd m) protoCells protoToks) $$ HX with ⟨Hst, #Hr, Hat, Htok⟩
  ihave Hb := (Rounds.bodies_intro ER (Rd m) protoCells) $$ [Hv Hst]
  · isplitl [Hv] <;> iassumption
  imod (inv_alloc_family protoCells (Rounds.body ER (Rd m)) ∅) $$ Hb with ⟨%K, -, #HI⟩
  imodintro
  iapply (bigSep_with_persistent (R := records m K) fun c _ => ghost_intro m K c)
  isplitr
  · unfold records; isplitr <;> iassumption
  rw [bigSep_sep', bigSep_sep', ← toks_eq, ← positions_eq]
  isplitl [Hat]; · iexact Hat
  isplitl [Htok] <;> iassumption

end Cert.KernelIdeal.Proto

end
-- ==== Proof.Launch.lean ====
import proofs.«901052_g7700000000001053_dist_softmax_colshard_i_m1024_n1024_v7x_i32_bf16_1_alg».proof.Proof.Body
import proofs.«901052_g7700000000001053_dist_softmax_colshard_i_m1024_n1024_v7x_i32_bf16_1_alg».proof.Proof.Fund

noncomputable section

namespace Cert.KernelIdeal.Proto

open Cert.KernelIdeal Cert.KernelIdeal.Gen Cert.KernelIdeal.Topo
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  exact sound_body m ρ c

theorem share_eq (c : Dev nD) (w : Fin cfg0.W) : (dats m ρ 0 c).share w = fullShare := by unfold Dat.share; split <;> rfl

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    (∃ d : Dev nD, g = barCell d) ∨ (∃ (d : Dev nD) (ch : Fin 2) (k : Fin 7), g = r1Cell d ch k.succ)
      ∨ (∃ (d : Dev nD) (ch : Fin 2) (k : Fin 3), g = r2Cell d ch k.succ) := by
  unfold O₀ at h
  rcases Pipeline.add_pos_cases h with h | h
  · rcases Pipeline.add_pos_cases h with h | h
    · rcases Pipeline.add_pos_cases h with h | h
      · obtain ⟨k, -, hk⟩ := Pipeline.sum_pos_exists h
        exact Or.inl ⟨_, (Pipeline.tallyAt_pos hk).1⟩
      · obtain ⟨k, -, hk⟩ := Pipeline.sum_pos_exists h
        exact Or.inl ⟨_, (Pipeline.tallyAt_pos hk).1⟩
    · obtain ⟨ch, -, hch⟩ := Pipeline.sum_pos_exists h
      obtain ⟨k, -, hk⟩ := Pipeline.sum_pos_exists hch
      exact Or.inr (Or.inl ⟨_, ch, k, (Pipeline.tallyAt_pos hk).1⟩)
  · obtain ⟨ch, -, hch⟩ := Pipeline.sum_pos_exists h
    obtain ⟨k, -, hk⟩ := Pipeline.sum_pos_exists hch
    exact Or.inr (Or.inr ⟨_, ch, k, (Pipeline.tallyAt_pos hk).1⟩)

theorem mayWait_stage (c : Dev nD) (q : DmaSem sig) (hq : kindOf (.dma q) = .other) (O : CellTallies nD τ sig Unit) (hO : O = O₀ c ∨ O = 0) :
    (levAts L lv : sProp 𝕄) ⊢ MayWait (c : Thread nD τ) (.dma q) () O := by
  refine Pipeline.mayWait_of_levAts (by rw [L_tc]; exact Finset.mem_singleton_self _) fun g u hg => ?_
  rw [show lv ((c : Thread nD τ), .dma q) () = 0 by unfold lv; rw [hq]]
  rcases hO with rfl | rfl
  · rcases O₀_pos hg with ⟨d, rfl⟩ | ⟨d, ch, k, rfl⟩ | ⟨d, ch, k, rfl⟩ <;>
      refine ⟨by rw [L_tc]; exact Finset.mem_singleton_self _, ?_⟩ <;> unfold lv
    · rw [kindOf_bar]; exact Nat.one_pos
    · rw [kindOf_r1 ch k.succ (Fin.succ_ne_zero k)]; exact Nat.lt_of_lt_of_le (by decide : 0 < 2) (Nat.le_add_right _ _)
    · rw [kindOf_r2 ch k.succ (Fin.succ_ne_zero k)]; exact Nat.lt_of_lt_of_le (by decide : 0 < 4) (Nat.le_add_right _ _)
  · exact absurd hg (by simp)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def T₀ (d : Dev nD) : CellTallies nD τ sig Unit :=
  tallyAt (barCell d) () 10
  + (∑ x : Fin 2 × Fin 7, tallyAt (r1Cell d x.1 x.2.succ) () NP)
  + (∑ x : Fin 2 × Fin 3, tallyAt (r2Cell d x.1 x.2.succ) () NP)

theorem nsmul_tallyAt (g : GSem nD τ sig) (n k : ℕ) : n • (tallyAt g () k : CellTallies nD τ sig Unit) = tallyAt g () (n * k) := by
  induction n with
  | zero => rw [zero_smul, Nat.zero_mul, tallyAt_zero]
  | succ n ih => rw [succ_nsmul, ih, tallyAt_add, Nat.succ_mul]

/-- An offset permutes the devices, so what all owe their peers at it is what all are owed from it. -/
theorem sum_peers {n : ℕ} (p : Fin (n + 1) → Dev nD → Dev nD) (hp : ∀ k, Function.Bijective (p k))
    (f : Fin (n + 1) → Dev nD → CellTallies nD τ sig Unit) :
    (∑ d : Dev nD, ∑ k : Fin n, f k.succ (p k.succ d)) = ∑ d : Dev nD, ∑ k : Fin n, f k.succ d :=
  (Finset.sum_comm.trans (Finset.sum_congr rfl fun k _ => (hp k.succ).sum_comp (f k.succ))).trans Finset.sum_comm

/-- What every device owes its peers' landing cells is what every device is owed on its own. -/
theorem sum_landing {n : ℕ} (p : Fin (n + 1) → Dev nD → Dev nD) (hp : ∀ k, Function.Bijective (p k))
    (cell : Dev nD → Fin 2 → Fin (n + 1) → GSem nD τ sig) (a : ℕ) :
    (∑ d : Dev nD, ∑ ch : Fin 2, ∑ k : Fin n, (tallyAt (cell (p k.succ d) ch k.succ) () a : CellTallies nD τ sig Unit))
      = ∑ d : Dev nD, ∑ x : Fin 2 × Fin n, (tallyAt (cell d x.1 x.2.succ) () a : CellTallies nD τ sig Unit) :=
  calc _ = ∑ ch : Fin 2, ∑ d : Dev nD, ∑ k : Fin n, tallyAt (cell (p k.succ d) ch k.succ) () a := Finset.sum_comm
    _ = ∑ ch : Fin 2, ∑ d : Dev nD, ∑ k : Fin n, tallyAt (cell d ch k.succ) () a :=
        Finset.sum_congr rfl fun ch _ => sum_peers p hp (fun o d => tallyAt (cell d ch o) () a)
    _ = ∑ d : Dev nD, ∑ ch : Fin 2, ∑ k : Fin n, tallyAt (cell d ch k.succ) () a := Finset.sum_comm
    _ = _ := Finset.sum_congr rfl fun d _ =>
        (Fintype.sum_prod_type (fun x : Fin 2 × Fin n => (tallyAt (cell d x.1 x.2.succ) () a : CellTallies nD τ sig Unit))).symm

theorem sum_O₀ : (∑ d : Dev nD, O₀ d) = ∑ d : Dev nD, T₀ d := by
  have hb : (∑ d : Dev nD, ∑ k : Fin 7, (tallyAt (barCell (pp k.succ d)) () 1 : CellTallies nD τ sig Unit))
        + (∑ d : Dev nD, ∑ k : Fin 3, (tallyAt (barCell (zp k.succ d)) () 1 : CellTallies nD τ sig Unit))
      = ∑ d : Dev nD, (tallyAt (barCell d) () 10 : CellTallies nD τ sig Unit) := by
    rw [sum_peers pp (fun k => (ppE k).bijective) (fun _ d => tallyAt (barCell d) () 1),
      sum_peers zp (fun k => (zpE k).bijective) (fun _ d => tallyAt (barCell d) () 1), ← Finset.sum_add_distrib]
    refine Finset.sum_congr rfl fun d _ => ?_
    rw [Finset.sum_const, Finset.sum_const, Finset.card_univ, Finset.card_univ, Fintype.card_fin, Fintype.card_fin,
      nsmul_tallyAt, nsmul_tallyAt, tallyAt_add]
  simp only [O₀, T₀, Finset.sum_add_distrib]
  rw [hb, sum_landing pp (fun k => (ppE k).bijective) r1Cell NP, sum_landing zp (fun k => (zpE k).bijective) r2Cell NP]

theorem T₀_own (d : Dev nD) (g : GSem nD τ sig) (h : T₀ d g ≠ 0) : g.1 = (d.tc : Thread nD τ) := by
  obtain ⟨u, hu⟩ := DFunLike.ne_iff.mp h
  have hp : 0 < T₀ d g u := Nat.pos_of_ne_zero hu
  unfold T₀ at hp
  rcases Pipeline.add_pos_cases hp with hp | hp
  · rcases Pipeline.add_pos_cases hp with hp | hp
    · rw [(Pipeline.tallyAt_pos hp).1]
    · obtain ⟨x, -, hx⟩ := Pipeline.sum_pos_exists hp
      rw [(Pipeline.tallyAt_pos hx).1]
  · obtain ⟨x, -, hx⟩ := Pipeline.sum_pos_exists hp
    rw [(Pipeline.tallyAt_pos hx).1]

theorem creds_intro (c : Dev nD) : (Pipeline.launchCred O₀ c : sProp 𝕄) ⊢ creds c := by
  have e (a b : CellTallies nD τ sig Unit) : (cred (a + b) : sProp 𝕄) = iprop(cred a ∗ cred b) :=
    BI.Entails.antisymm (cred_add _ _).1 (cred_add _ _).2
  rw [Pipeline.launchCred_of_sum O₀ T₀ sum_O₀ T₀_own c]
  unfold T₀ creds
  rw [e, e, Pipeline.cred_finsetSum, Pipeline.cred_finsetSum]
  iintro ⟨⟨H1, H2⟩, H3⟩
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hb⟩
  iframe

abbrev zsem : (Fin 2 × Fin 8 ⊕ Fin 2 × Fin 8) ⊕ (Fin 2 × Fin 4 ⊕ Fin 2 × Fin 4) → SemLoc sig
  | .inl (.inl x) => .dma (s1 x.1 x.2)
  | .inl (.inr x) => .dma (r1 x.1 x.2)
  | .inr (.inl x) => .dma (s2 x.1 x.2)
  | .inr (.inr x) => .dma (r2 x.1 x.2)

theorem ownSems0_ownZero (c : Dev nD) :
    (Pipeline.ownSems0 (Ix := Unit) (Name := ℕ) (U := UU) (Lvl := ℕ) (Val := Elt F) (τ := τ) osem c : sProp 𝕄) = ownZero c := by
  unfold ownZero
  rw [own_reindex zsem (by decide) (by decide), bigSep_univ_sum, bigSep_univ_sum, bigSep_univ_sum, bigSep_sep', bigSep_sep']; rfl

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_ownZero]
  unfold Φ₁ bufs
  iintro ⟨Hb, Hz⟩
  isplitr; · iempintro
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := hglob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = m ((c : Thread nD τ).loc main_arg0) :=
  (dats (F := F) m ρ 0 c).arrAt_in (0 : Fin 2) rfl _

theorem finalA_out (c : Dev nD) : finalA m ρ c (1 : Fin 2) = outAt m c := by
  unfold finalA
  rw [show cfg0.N = (t₀ : Fin cfg0.N).val + 1 from rfl, (dats (F := F) m ρ 0 c).arrAt_succ (1 : Fin 2) t₀,
    if_pos (show (cfg0.win (1 : Fin 2)).flush t₀ = true by decide)]
  exact Memref.write_access_unit_zero_univ (Elt F) main_v1 (funext fun a => by fin_cases a <;> rfl) _ _ _

/-- Every fair execution on all devices ends with each device's result array at its result block, its argument array kept. -/
theorem run_values :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ)

end Cert.KernelIdeal.Proto

end
-- ==== Proof.Bits.Topo.lean ====
import proofs.«901052_g7700000000001053_dist_softmax_colshard_i_m1024_n1024_v7x_i32_bf16_1_alg».proof.Proof.Gen.Kernel

namespace Cert.Kernel.Topo

open Idealize.ShloMosaic Cert.Kernel

-- The mesh is four planes of eight devices: the plane peer of `c` at offset `d` is `d` places on in its plane, its column peer `d` planes on.
def pp (d : Fin 8) (c : Dev nD) : Dev nD := ⟨c.val - c.val % 8 + (c.val % 8 + d.val) % 8, by have := c.isLt; have : nD = 32 := rfl; omega⟩
def zp (d : Fin 4) (c : Dev nD) : Dev nD := ⟨(c.val + 8 * d.val) % 32, Nat.mod_lt _ (by decide)⟩

theorem pp_neg (d : Fin 8) (c : Dev nD) : pp (-d) (pp d c) = c := by revert d c; decide +kernel
theorem pp_neg' (d : Fin 8) (c : Dev nD) : pp d (pp (-d) c) = c := by revert d c; decide +kernel
theorem zp_neg (d : Fin 4) (c : Dev nD) : zp (-d) (zp d c) = c := by revert d c; decide +kernel
theorem zp_neg' (d : Fin 4) (c : Dev nD) : zp d (zp (-d) c) = c := by revert d c; decide +kernel
theorem pp_zero (c : Dev nD) : pp 0 c = c := by revert c; decide +kernel
theorem zp_zero (c : Dev nD) : zp 0 c = c := by revert c; decide +kernel

def ppE (d : Fin 8) : Dev nD ≃ Dev nD := ⟨pp d, pp (-d), pp_neg d, pp_neg' d⟩
def zpE (d : Fin 4) : Dev nD ≃ Dev nD := ⟨zp d, zp (-d), zp_neg d, zp_neg' d⟩

end Cert.Kernel.Topo
-- ==== Proof.Bits.TopoDev.lean ====
import proofs.«901052_g7700000000001053_dist_softmax_colshard_i_m1024_n1024_v7x_i32_bf16_1_alg».proof.Proof.Bits.Topo

namespace Cert.Kernel.Topo

open Idealize.ShloMosaic Cert.Kernel Cert.Kernel.Gen

/-- entry signal to the plane peer at offset 1. -/
theorem dev1_eq (c : Dev nD) : (⟨k0_dev1 c, k0_dev1_lt c⟩ : Dev nD) = pp 1 c := by revert c; decide +kernel
/-- entry signal to the plane peer at offset 2. -/
theorem dev2_eq (c : Dev nD) : (⟨k0_dev2 c, k0_dev2_lt c⟩ : Dev nD) = pp 2 c := by revert c; decide +kernel
/-- entry signal to the plane peer at offset 3. -/
theorem dev3_eq (c : Dev nD) : (⟨k0_dev3 c, k0_dev3_lt c⟩ : Dev nD) = pp 3 c := by revert c; decide +kernel
/-- entry signal to the plane peer at offset 4. -/
theorem dev4_eq (c : Dev nD) : (⟨k0_dev4 c, k0_dev4_lt c⟩ : Dev nD) = pp 4 c := by revert c; decide +kernel
/-- entry signal to the plane peer at offset 5. -/
theorem dev5_eq (c : Dev nD) : (⟨k0_dev5 c, k0_dev5_lt c⟩ : Dev nD) = pp 5 c := by revert c; decide +kernel
/-- entry signal to the plane peer at offset 6. -/
theorem dev6_eq (c : Dev nD) : (⟨k0_dev6 c, k0_dev6_lt c⟩ : Dev nD) = pp 6 c := by revert c; decide +kernel
/-- entry signal to the plane peer at offset 7. -/
theorem dev7_eq (c : Dev nD) : (⟨k0_dev7 c, k0_dev7_lt c⟩ : Dev nD) = pp 7 c := by revert c; decide +kernel
/-- entry signal to the column peer at offset 1. -/
theorem dev8_eq (c : Dev nD) : (⟨k0_dev8 c, k0_dev8_lt c⟩ : Dev nD) = zp 1 c := by revert c; decide +kernel
/-- entry signal to the column peer at offset 2. -/
theorem dev9_eq (c : Dev nD) : (⟨k0_dev9 c, k0_dev9_lt c⟩ : Dev nD) = zp 2 c := by revert c; decide +kernel
/-- entry signal to the column peer at offset 3. -/
theorem dev10_eq (c : Dev nD) : (⟨k0_dev10 c, k0_dev10_lt c⟩ : Dev nD) = zp 3 c := by revert c; decide +kernel
/-- first half's copy to the plane peer at offset 1. -/
theorem dev11_eq (c : Dev nD) : (⟨k0_dev11 c, k0_dev11_lt c⟩ : Dev nD) = pp 1 c := by revert c; decide +kernel
/-- first half's copy to the plane peer at offset 2. -/
theorem dev12_eq (c : Dev nD) : (⟨k0_dev12 c, k0_dev12_lt c⟩ : Dev nD) = pp 2 c := by revert c; decide +kernel
/-- first half's copy to the plane peer at offset 3. -/
theorem dev13_eq (c : Dev nD) : (⟨k0_dev13 c, k0_dev13_lt c⟩ : Dev nD) = pp 3 c := by revert c; decide +kernel
/-- first half's copy to the plane peer at offset 4. -/
theorem dev14_eq (c : Dev nD) : (⟨k0_dev14 c, k0_dev14_lt c⟩ : Dev nD) = pp 4 c := by revert c; decide +kernel
/-- first half's copy to the plane peer at offset 5. -/
theorem dev15_eq (c : Dev nD) : (⟨k0_dev15 c, k0_dev15_lt c⟩ : Dev nD) = pp 5 c := by revert c; decide +kernel
/-- first half's copy to the plane peer at offset 6. -/
theorem dev16_eq (c : Dev nD) : (⟨k0_dev16 c, k0_dev16_lt c⟩ : Dev nD) = pp 6 c := by revert c; decide +kernel
/-- first half's copy to the plane peer at offset 7. -/
theorem dev17_eq (c : Dev nD) : (⟨k0_dev17 c, k0_dev17_lt c⟩ : Dev nD) = pp 7 c := by revert c; decide +kernel
/-- second half's copy to the plane peer at offset 1. -/
theorem dev18_eq (c : Dev nD) : (⟨k0_dev18 c, k0_dev18_lt c⟩ : Dev nD) = pp 1 c := by revert c; decide +kernel
/-- second half's copy to the plane peer at offset 2. -/
theorem dev19_eq (c : Dev nD) : (⟨k0_dev19 c, k0_dev19_lt c⟩ : Dev nD) = pp 2 c := by revert c; decide +kernel
/-- second half's copy to the plane peer at offset 3. -/
theorem dev20_eq (c : Dev nD) : (⟨k0_dev20 c, k0_dev20_lt c⟩ : Dev nD) = pp 3 c := by revert c; decide +kernel
/-- second half's copy to the plane peer at offset 4. -/
theorem dev21_eq (c : Dev nD) : (⟨k0_dev21 c, k0_dev21_lt c⟩ : Dev nD) = pp 4 c := by revert c; decide +kernel
/-- second half's copy to the plane peer at offset 5. -/
theorem dev22_eq (c : Dev nD) : (⟨k0_dev22 c, k0_dev22_lt c⟩ : Dev nD) = pp 5 c := by revert c; decide +kernel
/-- second half's copy to the plane peer at offset 6. -/
theorem dev23_eq (c : Dev nD) : (⟨k0_dev23 c, k0_dev23_lt c⟩ : Dev nD) = pp 6 c := by revert c; decide +kernel
/-- second half's copy to the plane peer at offset 7. -/
theorem dev24_eq (c : Dev nD) : (⟨k0_dev24 c, k0_dev24_lt c⟩ : Dev nD) = pp 7 c := by revert c; decide +kernel
/-- first half's copy to the column peer at offset 1. -/
theorem dev25_eq (c : Dev nD) : (⟨k0_dev25 c, k0_dev25_lt c⟩ : Dev nD) = zp 1 c := by revert c; decide +kernel
/-- first half's copy to the column peer at offset 2. -/
theorem dev26_eq (c : Dev nD) : (⟨k0_dev26 c, k0_dev26_lt c⟩ : Dev nD) = zp 2 c := by revert c; decide +kernel
/-- first half's copy to the column peer at offset 3. -/
theorem dev27_eq (c : Dev nD) : (⟨k0_dev27 c, k0_dev27_lt c⟩ : Dev nD) = zp 3 c := by revert c; decide +kernel
/-- second half's copy to the column peer at offset 1. -/
theorem dev28_eq (c : Dev nD) : (⟨k0_dev28 c, k0_dev28_lt c⟩ : Dev nD) = zp 1 c := by revert c; decide +kernel
/-- second half's copy to the column peer at offset 2. -/
theorem dev29_eq (c : Dev nD) : (⟨k0_dev29 c, k0_dev29_lt c⟩ : Dev nD) = zp 2 c := by revert c; decide +kernel
/-- second half's copy to the column peer at offset 3. -/
theorem dev30_eq (c : Dev nD) : (⟨k0_dev30 c, k0_dev30_lt c⟩ : Dev nD) = zp 3 c := by revert c; decide +kernel

end Cert.Kernel.Topo
-- ==== Proof.Bits.Proto.lean ====
import proofs.«901052_g7700000000001053_dist_softmax_colshard_i_m1024_n1024_v7x_i32_bf16_1_alg».proof.Proof.Bits.TopoDev
import proofs.«901052_g7700000000001053_dist_softmax_colshard_i_m1024_n1024_v7x_i32_bf16_1_alg».proof.Proof.Gen.Kernel.Skeleton
import proofs.«901052_g7700000000001053_dist_softmax_colshard_i_m1024_n1024_v7x_i32_bf16_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen Cert.Kernel.Topo
open Idealize.ShloMosaic Idealize.ShloMosaic.TcCoe Idealize.ShloMosaic.Rounds
open Idealize.SL Idealize.SL.RA Idealize.SL.BI Idealize.SL.BI.BIBase Idealize.SL.ProofMode
open scoped Idealize.SL.BI

variable {F : FTy → Type} [FloatOps F]

abbrev D : Type := Fin 10
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev pB : Memref sig .tc .vmem S8x2x2x512 .f32 := Memref.whole cc0_scratch0
abbrev zB : Memref sig .tc .vmem S4x2x2x512 .f32 := Memref.whole cc0_scratch1

theorem inbP (d : Fin 8) (ch : Fin 2) : ∀ a, (![d.val, ch.val, 0, 0] : Fin 4 → Nat) a + S1x1x2x512.size a ≤ S8x2x2x512.size a := by
  revert d ch; decide
theorem inbZ (d : Fin 4) (ch : Fin 2) : ∀ a, (![d.val, ch.val, 0, 0] : Fin 4 → Nat) a + S1x1x2x512.size a ≤ S4x2x2x512.size a := by
  revert d ch; decide

abbrev pslot (d : Fin 8) (ch : Fin 2) : Memref sig .tc .vmem S2x512 .f32 :=
  (pB.slice (Rect.unit (s := S8x2x2x512) ![d.val, ch.val, 0, 0] S1x1x2x512.size (inbP d ch)) (fun _ => rfl)).squeeze S2x512 squeezes_S1x1x2x512_S2x512

abbrev zslot (d : Fin 4) (ch : Fin 2) : Memref sig .tc .vmem S2x512 .f32 :=
  (zB.slice (Rect.unit (s := S4x2x2x512) ![d.val, ch.val, 0, 0] S1x1x2x512.size (inbZ d ch)) (fun _ => rfl)).squeeze S2x512 squeezes_S1x1x2x512_S2x512

abbrev barS : Sem sig := barrier0
abbrev s1 (ch : Fin 2) (d : Fin 8) : DmaSem sig := (⟨2 + 8 * ch.val + d.val, by have := ch.isLt; have := d.isLt; omega⟩ : Fin 50)
abbrev r1 (ch : Fin 2) (d : Fin 8) : DmaSem sig := (⟨18 + 8 * ch.val + d.val, by have := ch.isLt; have := d.isLt; omega⟩ : Fin 50)
abbrev s2 (ch : Fin 2) (d : Fin 4) : DmaSem sig := (⟨34 + 4 * ch.val + d.val, by have := ch.isLt; have := d.isLt; omega⟩ : Fin 50)
abbrev r2 (ch : Fin 2) (d : Fin 4) : DmaSem sig := (⟨42 + 4 * ch.val + d.val, by have := ch.isLt; have := d.isLt; omega⟩ : Fin 50)

abbrev barCell (c : Dev nD) : GSem nD τ sig := ((c : Thread nD τ), .reg barS)
abbrev s1Cell (c : Dev nD) (ch : Fin 2) (d : Fin 8) : GSem nD τ sig := ((c : Thread nD τ), .dma (s1 ch d))
abbrev r1Cell (c : Dev nD) (ch : Fin 2) (d : Fin 8) : GSem nD τ sig := ((c : Thread nD τ), .dma (r1 ch d))
abbrev s2Cell (c : Dev nD) (ch : Fin 2) (d : Fin 4) : GSem nD τ sig := ((c : Thread nD τ), .dma (s2 ch d))
abbrev r2Cell (c : Dev nD) (ch : Fin 2) (d : Fin 4) : GSem nD τ sig := ((c : Thread nD τ), .dma (r2 ch d))

inductive Kind where
  | bar | s1 (ch : Fin 2) (d : Fin 8) | r1 (ch : Fin 2) (d : Fin 8) | s2 (ch : Fin 2) (d : Fin 4) | r2 (ch : Fin 2) (d : Fin 4) | other
  deriving DecidableEq

def kindOf : SemLoc sig → Kind
  | .reg s => if s = barS then .bar else .other
  | .dma q =>
    let n := q.val
    if h1 : 2 ≤ n ∧ n < 18 then (if (n - 2) % 8 = 0 then .other else .s1 ⟨(n - 2) / 8, by omega⟩ ⟨(n - 2) % 8, Nat.mod_lt _ (by decide)⟩)
    else if h2 : 18 ≤ n ∧ n < 34 then (if (n - 18) % 8 = 0 then .other else .r1 ⟨(n - 18) / 8, by omega⟩ ⟨(n - 18) % 8, Nat.mod_lt _ (by decide)⟩)
    else if h3 : 34 ≤ n ∧ n < 42 then (if (n - 34) % 4 = 0 then .other else .s2 ⟨(n - 34) / 4, by omega⟩ ⟨(n - 34) % 4, Nat.mod_lt _ (by decide)⟩)
    else if h4 : 42 ≤ n ∧ n < 50 then (if (n - 42) % 4 = 0 then .other else .r2 ⟨(n - 42) / 4, by omega⟩ ⟨(n - 42) % 4, Nat.mod_lt _ (by decide)⟩)
    else .other

theorem kindOf_bar : kindOf (.reg barS) = .bar := by decide
theorem kindOf_s1 (ch : Fin 2) (d : Fin 8) (hd : d ≠ 0) : kindOf (.dma (s1 ch d)) = .s1 ch d := by revert ch d; decide
theorem kindOf_r1 (ch : Fin 2) (d : Fin 8) (hd : d ≠ 0) : kindOf (.dma (r1 ch d)) = .r1 ch d := by revert ch d; decide
theorem kindOf_s2 (ch : Fin 2) (d : Fin 4) (hd : d ≠ 0) : kindOf (.dma (s2 ch d)) = .s2 ch d := by revert ch d; decide
theorem kindOf_r2 (ch : Fin 2) (d : Fin 4) (hd : d ≠ 0) : kindOf (.dma (r2 ch d)) = .r2 ch d := by revert ch d; decide

abbrev NP : ℕ := (pslot 1 0).view.dmaCredit
theorem NP_pos : 0 < NP := View.dmaCredit_pos _ (by decide)

section Contents

variable (m : (ℓ : Loc nD τ sig) → Buf (Elt F) ℓ)

def xblk (c : Dev nD) : (cc0_stg0_0 : Ref sig .tc).ty.Contents (Elt F) :=
  (win0_0.blk (0 : Fin 1)).view.read (Elt F) (m ((c : Thread nD τ).loc main_arg0))

def xhalf (c : Dev nD) : Fin 2 → Vec F S512x1024 .f32
  | 0 => (Memref.whole cc0_stg0_0 : Memref sig .tc .vmem S1024x1024 .f32).view.readAt (Elt F)
      (Rect.unit (s := S1024x1024) ![0, 0] S512x1024.size inb_S1024x1024_S512x1024_0_0).toLoadRect (xblk m c)
  | 1 => (Memref.whole cc0_stg0_0 : Memref sig .tc .vmem S1024x1024 .f32).view.readAt (Elt F)
      (Rect.unit (s := S1024x1024) ![512, 0] S512x1024.size inb_S1024x1024_S512x1024_512_0).toLoadRect (xblk m c)

def mrow (c : Dev nD) : Fin 2 → FVec F S1x1x1x512 .f32
  | 0 => k0_pay4 (xhalf m c 0)
  | 1 => k0_pay9 (xhalf m c 1)
def srow (c : Dev nD) : Fin 2 → FVec F S1x1x1x512 .f32
  | 0 => k0_pay5 (xhalf m c 0)
  | 1 => k0_pay10 (xhalf m c 1)

end Contents

section Schedule

variable (m : (ℓ : Loc nD τ sig) → Buf (Elt F) ℓ)

def SlotHolds (g : (S2x512 : Shape).Idx → Elt F .f32) (a b : FVec F S1x1x1x512 .f32) : Prop :=
  ∀ r : Fin 512, g (ValueIdx.ix2 (0 : Fin 2) r) = (a (ValueIdx.ix4 (0 : Fin 1) (0 : Fin 1) (0 : Fin 1) r) : Elt F .f32)
    ∧ g (ValueIdx.ix2 (1 : Fin 2) r) = (b (ValueIdx.ix4 (0 : Fin 1) (0 : Fin 1) (0 : Fin 1) r) : Elt F .f32)

def pslotAny (p : Dev nD) (d : Fin 8) (ch : Fin 2) : sProp 𝕄 :=
  iprop(∃ f, (pslot d ch).view.loc (p : Thread nD τ) ↦[(pslot d ch).view.set]{fullShare} f)
def zslotAny (p : Dev nD) (d : Fin 4) (ch : Fin 2) : sProp 𝕄 :=
  iprop(∃ f, (zslot d ch).view.loc (p : Thread nD τ) ↦[(zslot d ch).view.set]{fullShare} f)

def barPay (t : Dev nD) (k : D) : sProp 𝕄 :=
  if h : k.val < 7 then
    iprop(pslotAny (pp (-(⟨k.val + 1, by omega⟩ : Fin 8)) t) (-(⟨k.val + 1, by omega⟩ : Fin 8)) 0
      ∗ pslotAny (pp (-(⟨k.val + 1, by omega⟩ : Fin 8)) t) (-(⟨k.val + 1, by omega⟩ : Fin 8)) 1
      ∗ reached ER (r1Cell (pp (-(⟨k.val + 1, by omega⟩ : Fin 8)) t) 0 (-(⟨k.val + 1, by omega⟩ : Fin 8))) 0
      ∗ reached ER (r1Cell (pp (-(⟨k.val + 1, by omega⟩ : Fin 8)) t) 1 (-(⟨k.val + 1, by omega⟩ : Fin 8))) 0)
  else
    iprop(zslotAny (zp (-(⟨k.val - 6, by have := k.isLt; omega⟩ : Fin 4)) t) (-(⟨k.val - 6, by have := k.isLt; omega⟩ : Fin 4)) 0
      ∗ zslotAny (zp (-(⟨k.val - 6, by have := k.isLt; omega⟩ : Fin 4)) t) (-(⟨k.val - 6, by have := k.isLt; omega⟩ : Fin 4)) 1
      ∗ reached ER (r2Cell (zp (-(⟨k.val - 6, by have := k.isLt; omega⟩ : Fin 4)) t) 0 (-(⟨k.val - 6, by have := k.isLt; omega⟩ : Fin 4))) 0
      ∗ reached ER (r2Cell (zp (-(⟨k.val - 6, by have := k.isLt; omega⟩ : Fin 4)) t) 1 (-(⟨k.val - 6, by have := k.isLt; omega⟩ : Fin 4))) 0)

def recv1Pay (c : Dev nD) (ch : Fin 2) (d : Fin 8) : sProp 𝕄 :=
  iprop(∃ f, ⌜SlotHolds ((pslot d ch).view.read (Elt F) f) (mrow m (pp (-d) c) ch) (srow m (pp (-d) c) ch)⌝
    ∗ ((pslot d ch).view.loc (c : Thread nD τ) ↦[(pslot d ch).view.set]{fullShare} f))

def sh8 : Fin 8 → PosShare TreeShare
  | 0 => fullShare.left.left.left | 1 => fullShare.left.left.right | 2 => fullShare.left.right.left | 3 => fullShare.left.right.right
  | 4 => fullShare.right.left.left | 5 => fullShare.right.left.right | 6 => fullShare.right.right.left | 7 => fullShare.right.right.right
def sh4 : Fin 4 → PosShare TreeShare
  | 0 => fullShare.left.left | 1 => fullShare.left.right | 2 => fullShare.right.left | 3 => fullShare.right.right

def send1Pay (c : Dev nD) (ch : Fin 2) (d : Fin 8) : sProp 𝕄 :=
  iprop(∃ f, (pslot 0 ch).view.loc (c : Thread nD τ) ↦[(pslot 0 ch).view.set]{sh8 d} f)
def send2Pay (c : Dev nD) (ch : Fin 2) (d : Fin 4) : sProp 𝕄 :=
  iprop(∃ f, (zslot 0 ch).view.loc (c : Thread nD τ) ↦[(zslot 0 ch).view.set]{sh4 d} f)

end Schedule

section Schedule2

variable (m : (ℓ : Loc nD τ sig) → Buf (Elt F) ℓ)

def PMvec (c : Dev nD) (ch : Fin 2) : Vec F S8x1x1x512 .f32 :=
  fun i => (mrow m (pp (-(⟨(i 0).val, (i 0).isLt⟩ : Fin 8)) c) ch (ValueIdx.ix4 (0 : Fin 1) (0 : Fin 1) (0 : Fin 1) (⟨(i 3).val, (i 3).isLt⟩ : Fin 512)) : Elt F .f32)
def PSvec (c : Dev nD) (ch : Fin 2) : Vec F S8x1x1x512 .f32 :=
  fun i => (srow m (pp (-(⟨(i 0).val, (i 0).isLt⟩ : Fin 8)) c) ch (ValueIdx.ix4 (0 : Fin 1) (0 : Fin 1) (0 : Fin 1) (⟨(i 3).val, (i 3).isLt⟩ : Fin 512)) : Elt F .f32)
def mprow (c : Dev nD) : Fin 2 → FVec F S1x1x1x512 .f32
  | 0 => k0_pay13 (k0_pay11 (PMvec m c 0))
  | 1 => k0_pay18 (k0_pay16 (PMvec m c 1))
def sprow (c : Dev nD) : Fin 2 → FVec F S1x1x1x512 .f32
  | 0 => k0_pay14 (k0_pay11 (PMvec m c 0)) (PSvec m c 0)
  | 1 => k0_pay19 (k0_pay17 (PMvec m c 1) (PSvec m c 1))

def recv2Pay (c : Dev nD) (ch : Fin 2) (d : Fin 4) : sProp 𝕄 :=
  iprop(∃ f, ⌜SlotHolds ((zslot d ch).view.read (Elt F) f) (mprow m (zp (-d) c) ch) (sprow m (zp (-d) c) ch)⌝
    ∗ ((zslot d ch).view.loc (c : Thread nD τ) ↦[(zslot d ch).view.set]{fullShare} f))

def Rd : Rounds.Schedule (GSem nD τ sig) D 𝕄 where
  duties g r := if r = 0 ∧ g.1.2 = .tc then (match kindOf g.2 with | .bar => Finset.univ | .other => ∅ | _ => {0}) else ∅
  unitless _ := False
  amount g _ _ := if kindOf g.2 = .bar then 1 else NP
  payload g _ d := match kindOf g.2 with
    | .bar => barPay g.1.1 d
    | .s1 ch o => send1Pay g.1.1 ch o
    | .r1 ch o => recv1Pay m g.1.1 ch o
    | .s2 ch o => send2Pay g.1.1 ch o
    | .r2 ch o => recv2Pay m g.1.1 ch o
    | .other => iprop(emp)
  amount_pos g _ _ _ := by
    by_cases h : kindOf g.2 = .bar
    · rw [if_pos h]; exact Nat.one_pos
    · rw [if_neg h]; exact NP_pos

instance Rd_payload_storable (g : GSem nD τ sig) (r : ℕ) (d : D) : BI.Storable (upEmb : UEmb _ 𝕄) ((Rd (F := F) m).payload g r d) := by
  unfold Rd; dsimp only
  unfold barPay send1Pay recv1Pay send2Pay recv2Pay pslotAny zslotAny
  (repeat' split) <;> infer_instance

def L (g : GSem nD τ sig) : Finset Unit := if g.1.2 = .tc then {()} else ∅

def lv (g : GSem nD τ sig) (_ : Unit) : ℕ := match kindOf g.2 with
  | .bar => 1 | .r1 ch _ => 2 + ch.val | .r2 ch _ => 4 + ch.val | _ => 0

def O₀ (c : Dev nD) : CellTallies nD τ sig Unit :=
  (∑ k : Fin 7, tallyAt (barCell (pp k.succ c)) () 1) + (∑ k : Fin 3, tallyAt (barCell (zp k.succ c)) () 1)
  + (∑ ch : Fin 2, ∑ k : Fin 7, tallyAt (r1Cell (pp k.succ c) ch k.succ) () NP)
  + (∑ ch : Fin 2, ∑ k : Fin 3, tallyAt (r2Cell (zp k.succ c) ch k.succ) () NP)

end Schedule2

end Cert.Kernel.Proto

end
-- ==== Proof.Bits.Inv.lean ====
import proofs.«901052_g7700000000001053_dist_softmax_colshard_i_m1024_n1024_v7x_i32_bf16_1_alg».proof.Proof.Bits.Proto

noncomputable section

namespace Cert.Kernel.Proto

open Cert.Kernel Cert.Kernel.Gen Cert.Kernel.Topo
open Idealize.ShloMosaic Idealize.ShloMosaic.TcCoe Idealize.ShloMosaic.Rounds
open Idealize.SL Idealize.SL.RA Idealize.SL.BI Idealize.SL.BI.BIBase Idealize.SL.ProofMode
open scoped Idealize.SL.BI
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

def st0 : MemSt nD τ sig (Elt F) := ⟨m, fun _ => 0, ρ⟩

def ZMvec (c : Dev nD) (ch : Fin 2) : Vec F S4x1x1x512 .f32 :=
  fun i => (mprow m (zp (-(⟨(i 0).val, (i 0).isLt⟩ : Fin 4)) c) ch (ValueIdx.ix4 (0 : Fin 1) (0 : Fin 1) (0 : Fin 1) (⟨(i 3).val, (i 3).isLt⟩ : Fin 512)) : Elt F .f32)
def ZSvec (c : Dev nD) (ch : Fin 2) : Vec F S4x1x1x512 .f32 :=
  fun i => (sprow m (zp (-(⟨(i 0).val, (i 0).isLt⟩ : Fin 4)) c) ch (ValueIdx.ix4 (0 : Fin 1) (0 : Fin 1) (0 : Fin 1) (⟨(i 3).val, (i 3).isLt⟩ : Fin 512)) : Elt F .f32)

def outHalf (c : Dev nD) : Fin 2 → FVec F S512x1024 .bf16
  | 0 => k0_pay22 (k0_pay3 (xhalf m c 0)) (k0_pay20 (ZMvec m c 0)) (k0_pay21 (ZSvec m c 0)) (mrow m c 0)
  | 1 => k0_pay26 (k0_pay8 (xhalf m c 1)) (k0_pay24 (ZMvec m c 1)) (k0_pay25 (ZMvec m c 1) (ZSvec m c 1)) (mrow m c 1)

def outAt (c : Dev nD) : (cc0_stg1_0 : Ref sig .tc).ty.Contents (Elt F) :=
  fun i => if h : (i 0).val < 512 then (outHalf m c 0 (ValueIdx.ix2 (⟨(i 0).val, h⟩ : Fin 512) (⟨(i 1).val, (i 1).isLt⟩ : Fin 1024)) : Elt F .bf16)
    else outHalf m c 1 (ValueIdx.ix2 (⟨(i 0).val - 512, by have h1 := (i 0).isLt; have h2 : (cc0_stg1_0 : Ref sig .tc).ty.shape.size 0 = 1024 := rfl; omega⟩ : Fin 512) (⟨(i 1).val, (i 1).isLt⟩ : Fin 1024))

section Ghost

variable (K : GSem nD τ sig → ℕ)

abbrev inv (g : GSem nD τ sig) : sProp 𝕄 := cellInv ER (Rd m) (K g) g

def invs (c : Dev nD) : sProp 𝕄 :=
  iprop(inv m K (barCell c)
    ∗ (bigSep (Finset.univ : Finset (Fin 2 × Fin 7)) fun x => iprop(inv m K (s1Cell c x.1 x.2.succ) ∗ inv m K (r1Cell c x.1 x.2.succ) ∗ inv m K (r1Cell (pp x.2.succ c) x.1 x.2.succ)))
    ∗ (bigSep (Finset.univ : Finset (Fin 2 × Fin 3)) fun x => iprop(inv m K (s2Cell c x.1 x.2.succ) ∗ inv m K (r2Cell c x.1 x.2.succ) ∗ inv m K (r2Cell (zp x.2.succ c) x.1 x.2.succ)))
    ∗ (bigSep (Finset.univ : Finset (Fin 7)) fun k => inv m K (barCell (pp k.succ c)))
    ∗ (bigSep (Finset.univ : Finset (Fin 3)) fun k => inv m K (barCell (zp k.succ c))))

instance invs_persistent (c : Dev nD) : BI.Persistent (invs m K c) := by unfold invs; infer_instance

abbrev dP (k : Fin 7) : D := ⟨k.val, by omega⟩
abbrev dZ (k : Fin 3) : D := ⟨7 + k.val, by omega⟩

def positions (c : Dev nD) : sProp 𝕄 :=
  iprop(atPos ER (barCell c) 0 ∅ 0
    ∗ (bigSep (Finset.univ : Finset (Fin 2 × Fin 7)) fun x => iprop(atPos ER (s1Cell c x.1 x.2.succ) 0 ∅ 0 ∗ atPos ER (r1Cell c x.1 x.2.succ) 0 ∅ 0))
    ∗ (bigSep (Finset.univ : Finset (Fin 2 × Fin 3)) fun x => iprop(atPos ER (s2Cell c x.1 x.2.succ) 0 ∅ 0 ∗ atPos ER (r2Cell c x.1 x.2.succ) 0 ∅ 0)))

def reacheds (c : Dev nD) : sProp 𝕄 :=
  iprop((bigSep (Finset.univ : Finset (Fin 7)) fun k => reached ER (barCell (pp k.succ c)) 0)
    ∗ (bigSep (Finset.univ : Finset (Fin 3)) fun k => reached ER (barCell (zp k.succ c)) 0)
    ∗ (bigSep (Finset.univ : Finset (Fin 2 × Fin 7)) fun x => iprop(reached ER (s1Cell c x.1 x.2.succ) 0 ∗ reached ER (r1Cell c x.1 x.2.succ) 0 ∗ reached ER (r1Cell (pp x.2.succ c) x.1 x.2.succ) 0))
    ∗ (bigSep (Finset.univ : Finset (Fin 2 × Fin 3)) fun x => iprop(reached ER (s2Cell c x.1 x.2.succ) 0 ∗ reached ER (r2Cell c x.1 x.2.succ) 0 ∗ reached ER (r2Cell (zp x.2.succ c) x.1 x.2.succ) 0)))

def payToks (c : Dev nD) : sProp 𝕄 :=
  iprop((bigSep (Finset.univ : Finset (Fin 7)) fun k => dutyTok ER (barCell (pp k.succ c)) 0 (dP k))
    ∗ (bigSep (Finset.univ : Finset (Fin 3)) fun k => dutyTok ER (barCell (zp k.succ c)) 0 (dZ k))
    ∗ (bigSep (Finset.univ : Finset (Fin 2 × Fin 7)) fun x => iprop(dutyTok ER (s1Cell c x.1 x.2.succ) 0 (0 : D) ∗ dutyTok ER (r1Cell (pp x.2.succ c) x.1 x.2.succ) 0 (0 : D)))
    ∗ (bigSep (Finset.univ : Finset (Fin 2 × Fin 3)) fun x => iprop(dutyTok ER (s2Cell c x.1 x.2.succ) 0 (0 : D) ∗ dutyTok ER (r2Cell (zp x.2.succ c) x.1 x.2.succ) 0 (0 : D))))

def idleSems (c : Dev nD) : sProp 𝕄 :=
  bigSep (Finset.univ : Finset (Fin 2)) fun ch => iprop(semVal (s1Cell c ch 0) 0 ∗ semVal (r1Cell c ch 0) 0 ∗ semVal (s2Cell c ch 0) 0 ∗ semVal (r2Cell c ch 0) 0)

def ghost (c : Dev nD) : sProp 𝕄 :=
  iprop(invs m K c ∗ positions c ∗ reacheds c ∗ payToks c ∗ idleSems c)

end Ghost

def creds (c : Dev nD) : sProp 𝕄 :=
  iprop(cred (tallyAt (barCell c) () 10)
    ∗ (bigSep (Finset.univ : Finset (Fin 2 × Fin 7)) fun x => cred (tallyAt (r1Cell c x.1 x.2.succ) () NP))
    ∗ (bigSep (Finset.univ : Finset (Fin 2 × Fin 3)) fun x => cred (tallyAt (r2Cell c x.1 x.2.succ) () NP)))

def start (c : Dev nD) : sProp 𝕄 :=
  iprop((∃ K, ghost m K c) ∗ creds c ∗ levAts L lv)

def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ bufs c)

def ownZero (c : Dev nD) : sProp 𝕄 :=
  iprop((bigSep (Finset.univ : Finset (Fin 2 × Fin 8)) fun x => iprop(semVal (s1Cell c x.1 x.2) 0 ∗ semVal (r1Cell c x.1 x.2) 0))
    ∗ (bigSep (Finset.univ : Finset (Fin 2 × Fin 4)) fun x => iprop(semVal (s2Cell c x.1 x.2) 0 ∗ semVal (r2Cell c x.1 x.2) 0)))

def Φ₁ (c : Dev nD) : sProp 𝕄 := iprop(bufs c ∗ ownZero c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m c) ∗ stg c cc0_stg1_0 (outAt m c))

end Cert.Kernel.Proto

end
-- ==== Proof.Bits.SurgDefs.lean ====
import proofs.«901052_g7700000000001053_dist_softmax_colshard_i_m1024_n1024_v7x_i32_bf16_1_alg».proof.Proof.Bits.Inv

noncomputable section

namespace Cert.Kernel.Proto

open Cert.Kernel Cert.Kernel.Gen
open Idealize.ShloMosaic

abbrev S8x1x2x512 : Shape := ⟨4, ![8, 1, 2, 512]⟩
abbrev S4x1x2x512 : Shape := ⟨4, ![4, 1, 2, 512]⟩

theorem inbPS (ch : Fin 2) : ∀ a, (![0, ch.val, 0, 0] : Fin 4 → Nat) a + S8x1x2x512.size a ≤ S8x2x2x512.size a := by
  revert ch; decide
theorem inbZS (ch : Fin 2) : ∀ a, (![0, ch.val, 0, 0] : Fin 4 → Nat) a + S4x1x2x512.size a ≤ S4x2x2x512.size a := by
  revert ch; decide

/-- All slots of one half of a buffer form one slice of it: the half's slab. -/
abbrev pslab (ch : Fin 2) : Memref sig .tc .vmem S8x1x2x512 .f32 :=
  pB.slice (Rect.unit (s := S8x2x2x512) ![0, ch.val, 0, 0] S8x1x2x512.size (inbPS ch)) (fun _ => rfl)
abbrev zslab (ch : Fin 2) : Memref sig .tc .vmem S4x1x2x512 .f32 :=
  zB.slice (Rect.unit (s := S4x2x2x512) ![0, ch.val, 0, 0] S4x1x2x512.size (inbZS ch)) (fun _ => rfl)

end Cert.Kernel.Proto

end
-- ==== Proof.Bits.SurgRegions.lean ====
import proofs.«901052_g7700000000001053_dist_softmax_colshard_i_m1024_n1024_v7x_i32_bf16_1_alg».proof.Proof.Bits.SurgDefs
import proofs.«901052_g7700000000001053_dist_softmax_colshard_i_m1024_n1024_v7x_i32_bf16_1_alg».proof.Proof.LibRegions

noncomputable section

namespace Cert.Kernel.Proto

open Cert.Kernel Cert.Kernel.Gen Cert.Kernel.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.LibRegions

variable {F : FTy → Type} [FloatOps F]

local notation "𝕄" => MT nD τ sig Unit (Elt F) ℕ UU ℕ

set_option quotPrecheck false in
local notation "pS(" p ", " d ", " ch ", " q ", " f ")" =>
  ((pslot d ch).view.loc (p : Thread nD τ) ↦[(pslot d ch).view.set]{q} f)
set_option quotPrecheck false in
local notation "zS(" p ", " d ", " ch ", " q ", " f ")" =>
  ((zslot d ch).view.loc (p : Thread nD τ) ↦[(zslot d ch).view.set]{q} f)

/-- A slot is the elements whose first coordinate is its number and whose second is its half; a slab those of its half. -/
theorem mem_pslot (d : Fin 8) (ch : Fin 2) (i : S8x2x2x512.Idx) :
    i ∈ (pslot d ch).view.set ↔ (i 0).val = d.val ∧ (i 1).val = ch.val :=
  (Finset.ext_iff.mp ((View.set_reshape _ _).trans (View.set_slice_whole _ _)) i).trans (mem_slotRect i)

theorem mem_pslab (ch : Fin 2) (i : S8x2x2x512.Idx) : i ∈ (pslab ch).view.set ↔ (i 1).val = ch.val :=
  (Finset.ext_iff.mp (View.set_slice_whole _ _) i).trans (mem_slabRect i)

theorem mem_zslot (d : Fin 4) (ch : Fin 2) (i : S4x2x2x512.Idx) :
    i ∈ (zslot d ch).view.set ↔ (i 0).val = d.val ∧ (i 1).val = ch.val :=
  (Finset.ext_iff.mp ((View.set_reshape _ _).trans (View.set_slice_whole _ _)) i).trans (mem_slotRect i)

theorem mem_zslab (ch : Fin 2) (i : S4x2x2x512.Idx) : i ∈ (zslab ch).view.set ↔ (i 1).val = ch.val :=
  (Finset.ext_iff.mp (View.set_slice_whole _ _) i).trans (mem_slabRect i)

theorem pB_split (c : Dev nD) (f : Buf (Elt F) ((c : Thread nD τ).loc cc0_scratch0)) :
    ((((c : Thread nD τ).loc cc0_scratch0) ↦{fullShare} f) : sProp 𝕄)
      ⊢ iprop(pS(c, 7, 0, fullShare, f) ∗ pS(c, 7, 1, fullShare, f) ∗ pS(c, 6, 0, fullShare, f) ∗ pS(c, 6, 1, fullShare, f)
        ∗ pS(c, 5, 0, fullShare, f) ∗ pS(c, 5, 1, fullShare, f) ∗ pS(c, 4, 0, fullShare, f) ∗ pS(c, 4, 1, fullShare, f)
        ∗ pS(c, 3, 0, fullShare, f) ∗ pS(c, 3, 1, fullShare, f) ∗ pS(c, 2, 0, fullShare, f) ∗ pS(c, 2, 1, fullShare, f)
        ∗ pS(c, 1, 0, fullShare, f) ∗ pS(c, 1, 1, fullShare, f) ∗ pS(c, 0, 0, fullShare, f) ∗ pS(c, 0, 1, fullShare, f)) := by
  rw [← grid_cover mem_pslot (fun i => (i 0).isLt) (fun i => (i 1).isLt), pointsTo_biUnion (ℓ := (c : Thread nD τ).loc cc0_scratch0) Finset.univ
    (fun x : Fin 8 × Fin 2 => (pslot x.1 x.2).view.set) (grid_pairwise mem_pslot), bigSep_fin8x2]
  exact .rfl

theorem pB_join (c : Dev nD) :
    (iprop(pslotAny c 7 0 ∗ pslotAny c 7 1 ∗ pslotAny c 6 0 ∗ pslotAny c 6 1 ∗ pslotAny c 5 0 ∗ pslotAny c 5 1
        ∗ pslotAny c 4 0 ∗ pslotAny c 4 1 ∗ pslotAny c 3 0 ∗ pslotAny c 3 1 ∗ pslotAny c 2 0 ∗ pslotAny c 2 1
        ∗ pslotAny c 1 0 ∗ pslotAny c 1 1 ∗ pslotAny c 0 0 ∗ pslotAny c 0 1) : sProp 𝕄)
      ⊢ iprop(∃ f : Buf (Elt F) ((c : Thread nD τ).loc cc0_scratch0), ((c : Thread nD τ).loc cc0_scratch0) ↦{fullShare} f) := by
  have h := pointsTo_biUnion_join_any (Ix := Unit) (Val := Elt F) (Name := ℕ) (U := UU) (Lvl := ℕ)
    ((c : Thread nD τ).loc cc0_scratch0) fullShare Finset.univ
    (fun x : Fin 8 × Fin 2 => (pslot x.1 x.2).view.set) (fun _ => default) (grid_pairwise mem_pslot)
  rw [grid_cover mem_pslot (fun i => (i 0).isLt) (fun i => (i 1).isLt), bigSep_fin8x2] at h
  exact h

theorem zB_split (c : Dev nD) (f : Buf (Elt F) ((c : Thread nD τ).loc cc0_scratch1)) :
    ((((c : Thread nD τ).loc cc0_scratch1) ↦{fullShare} f) : sProp 𝕄)
      ⊢ iprop(zS(c, 3, 0, fullShare, f) ∗ zS(c, 3, 1, fullShare, f) ∗ zS(c, 2, 0, fullShare, f) ∗ zS(c, 2, 1, fullShare, f)
        ∗ zS(c, 1, 0, fullShare, f) ∗ zS(c, 1, 1, fullShare, f) ∗ zS(c, 0, 0, fullShare, f) ∗ zS(c, 0, 1, fullShare, f)) := by
  rw [← grid_cover mem_zslot (fun i => (i 0).isLt) (fun i => (i 1).isLt), pointsTo_biUnion (ℓ := (c : Thread nD τ).loc cc0_scratch1) Finset.univ
    (fun x : Fin 4 × Fin 2 => (zslot x.1 x.2).view.set) (grid_pairwise mem_zslot), bigSep_fin4x2]
  exact .rfl

theorem zB_join (c : Dev nD) :
    (iprop(zslotAny c 3 0 ∗ zslotAny c 3 1 ∗ zslotAny c 2 0 ∗ zslotAny c 2 1 ∗ zslotAny c 1 0 ∗ zslotAny c 1 1
        ∗ zslotAny c 0 0 ∗ zslotAny c 0 1) : sProp 𝕄)
      ⊢ iprop(∃ f : Buf (Elt F) ((c : Thread nD τ).loc cc0_scratch1), ((c : Thread nD τ).loc cc0_scratch1) ↦{fullShare} f) := by
  have h := pointsTo_biUnion_join_any (Ix := Unit) (Val := Elt F) (Name := ℕ) (U := UU) (Lvl := ℕ)
    ((c : Thread nD τ).loc cc0_scratch1) fullShare Finset.univ
    (fun x : Fin 4 × Fin 2 => (zslot x.1 x.2).view.set) (fun _ => default) (grid_pairwise mem_zslot)
  rw [grid_cover mem_zslot (fun i => (i 0).isLt) (fun i => (i 1).isLt), bigSep_fin4x2] at h
  exact h

theorem pslab_join (c : Dev nD) (ch : Fin 2) (q : PosShare TreeShare)
    (f0 f1 f2 f3 f4 f5 f6 f7 : Buf (Elt F) ((c : Thread nD τ).loc cc0_scratch0)) :
    (iprop(pS(c, 0, ch, q, f0) ∗ pS(c, 1, ch, q, f1) ∗ pS(c, 2, ch, q, f2) ∗ pS(c, 3, ch, q, f3)
        ∗ pS(c, 4, ch, q, f4) ∗ pS(c, 5, ch, q, f5) ∗ pS(c, 6, ch, q, f6) ∗ pS(c, 7, ch, q, f7)) : sProp 𝕄)
      ⊢ iprop(∃ g : Buf (Elt F) ((c : Thread nD τ).loc cc0_scratch0),
          ⌜(pslot 0 ch).view.read (Elt F) g = (pslot 0 ch).view.read (Elt F) f0
            ∧ (pslot 1 ch).view.read (Elt F) g = (pslot 1 ch).view.read (Elt F) f1
            ∧ (pslot 2 ch).view.read (Elt F) g = (pslot 2 ch).view.read (Elt F) f2
            ∧ (pslot 3 ch).view.read (Elt F) g = (pslot 3 ch).view.read (Elt F) f3
            ∧ (pslot 4 ch).view.read (Elt F) g = (pslot 4 ch).view.read (Elt F) f4
            ∧ (pslot 5 ch).view.read (Elt F) g = (pslot 5 ch).view.read (Elt F) f5
            ∧ (pslot 6 ch).view.read (Elt F) g = (pslot 6 ch).view.read (Elt F) f6
            ∧ (pslot 7 ch).view.read (Elt F) g = (pslot 7 ch).view.read (Elt F) f7⌝
          ∗ ((pslab ch).view.loc (c : Thread nD τ) ↦[(pslab ch).view.set]{q} g)) := by
  have h := pointsTo_biUnion_join (Ix := Unit) (Name := ℕ) (U := UU) (Lvl := ℕ)
    (ℓ := (c : Thread nD τ).loc cc0_scratch0) (q := q) (Finset.univ : Finset (Fin 8))
    (fun d : Fin 8 => (pslot d ch).view.set) ![f0, f1, f2, f3, f4, f5, f6, f7] f0 (grid_row_pairwise mem_pslot ch)
  rw [bigSep_fin8, grid_row_cover mem_pslot (fun i => (i 0).isLt) (mem_pslab ch)] at h
  refine h.trans ?_
  iintro ⟨%g, %hg, H⟩
  have rc := fun d : Fin 8 => View.read_congr (v := (pslot d ch).view) fun i hi => hg d (Finset.mem_univ _) i hi
  iexists g
  isplitr
  · ipureintro; exact ⟨rc 0, rc 1, rc 2, rc 3, rc 4, rc 5, rc 6, rc 7⟩
  · iexact H

theorem pslab_split (c : Dev nD) (ch : Fin 2) (q : PosShare TreeShare) (g : Buf (Elt F) ((c : Thread nD τ).loc cc0_scratch0)) :
    (((pslab ch).view.loc (c : Thread nD τ) ↦[(pslab ch).view.set]{q} g) : sProp 𝕄)
      ⊢ iprop(pS(c, 0, ch, q, g) ∗ pS(c, 1, ch, q, g) ∗ pS(c, 2, ch, q, g) ∗ pS(c, 3, ch, q, g)
        ∗ pS(c, 4, ch, q, g) ∗ pS(c, 5, ch, q, g) ∗ pS(c, 6, ch, q, g) ∗ pS(c, 7, ch, q, g)) := by
  rw [← grid_row_cover mem_pslot (fun i => (i 0).isLt) (mem_pslab ch), pointsTo_biUnion (ℓ := (c : Thread nD τ).loc cc0_scratch0) Finset.univ
    (fun d : Fin 8 => (pslot d ch).view.set) (grid_row_pairwise mem_pslot ch), bigSep_fin8]
  exact .rfl

theorem zslab_join (c : Dev nD) (ch : Fin 2) (q : PosShare TreeShare)
    (f0 f1 f2 f3 : Buf (Elt F) ((c : Thread nD τ).loc cc0_scratch1)) :
    (iprop(zS(c, 0, ch, q, f0) ∗ zS(c, 1, ch, q, f1) ∗ zS(c, 2, ch, q, f2) ∗ zS(c, 3, ch, q, f3)) : sProp 𝕄)
      ⊢ iprop(∃ g : Buf (Elt F) ((c : Thread nD τ).loc cc0_scratch1),
          ⌜(zslot 0 ch).view.read (Elt F) g = (zslot 0 ch).view.read (Elt F) f0
            ∧ (zslot 1 ch).view.read (Elt F) g = (zslot 1 ch).view.read (Elt F) f1
            ∧ (zslot 2 ch).view.read (Elt F) g = (zslot 2 ch).view.read (Elt F) f2
            ∧ (zslot 3 ch).view.read (Elt F) g = (zslot 3 ch).view.read (Elt F) f3⌝
          ∗ ((zslab ch).view.loc (c : Thread nD τ) ↦[(zslab ch).view.set]{q} g)) := by
  have h := pointsTo_biUnion_join (Ix := Unit) (Name := ℕ) (U := UU) (Lvl := ℕ)
    (ℓ := (c : Thread nD τ).loc cc0_scratch1) (q := q) (Finset.univ : Finset (Fin 4))
    (fun d : Fin 4 => (zslot d ch).view.set) ![f0, f1, f2, f3] f0 (grid_row_pairwise mem_zslot ch)
  rw [bigSep_fin4, grid_row_cover mem_zslot (fun i => (i 0).isLt) (mem_zslab ch)] at h
  refine h.trans ?_
  iintro ⟨%g, %hg, H⟩
  have rc := fun d : Fin 4 => View.read_congr (v := (zslot d ch).view) fun i hi => hg d (Finset.mem_univ _) i hi
  iexists g
  isplitr
  · ipureintro; exact ⟨rc 0, rc 1, rc 2, rc 3⟩
  · iexact H

theorem zslab_split (c : Dev nD) (ch : Fin 2) (q : PosShare TreeShare) (g : Buf (Elt F) ((c : Thread nD τ).loc cc0_scratch1)) :
    (((zslab ch).view.loc (c : Thread nD τ) ↦[(zslab ch).view.set]{q} g) : sProp 𝕄)
      ⊢ iprop(zS(c, 0, ch, q, g) ∗ zS(c, 1, ch, q, g) ∗ zS(c, 2, ch, q, g) ∗ zS(c, 3, ch, q, g)) := by
  rw [← grid_row_cover mem_zslot (fun i => (i 0).isLt) (mem_zslab ch), pointsTo_biUnion (ℓ := (c : Thread nD τ).loc cc0_scratch1) Finset.univ
    (fun d : Fin 4 => (zslot d ch).view.set) (grid_row_pairwise mem_zslot ch), bigSep_fin4]
  exact .rfl

end Cert.Kernel.Proto

end
-- ==== Proof.Bits.SurgShares.lean ====
import proofs.«901052_g7700000000001053_dist_softmax_colshard_i_m1024_n1024_v7x_i32_bf16_1_alg».proof.Proof.Bits.Inv
import proofs.«901052_g7700000000001053_dist_softmax_colshard_i_m1024_n1024_v7x_i32_bf16_1_alg».proof.Proof.LibRegions

noncomputable section

namespace Cert.Kernel.Proto

open Cert.Kernel Cert.Kernel.Gen Cert.Kernel.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.LibRegions

variable {F : FTy → Type} [FloatOps F]

local notation "𝕄" => MT nD τ sig Unit (Elt F) ℕ UU ℕ

variable {ℓ : Loc nD τ sig} (S : Finset (Idx ℓ))

theorem share8_split (f : Buf (Elt F) ℓ) :
    ((ℓ ↦[S]{fullShare} f) : sProp 𝕄)
      ⊢ iprop((ℓ ↦[S]{sh8 0} f) ∗ (ℓ ↦[S]{sh8 1} f) ∗ (ℓ ↦[S]{sh8 2} f) ∗ (ℓ ↦[S]{sh8 3} f)
        ∗ (ℓ ↦[S]{sh8 4} f) ∗ (ℓ ↦[S]{sh8 5} f) ∗ (ℓ ↦[S]{sh8 6} f) ∗ (ℓ ↦[S]{sh8 7} f)) :=
  share_split8 S fullShare f

theorem share8_join (f0 f1 f2 f3 f4 f5 f6 f7 : Buf (Elt F) ℓ) :
    (iprop((ℓ ↦[S]{sh8 0} f0) ∗ (ℓ ↦[S]{sh8 1} f1) ∗ (ℓ ↦[S]{sh8 2} f2) ∗ (ℓ ↦[S]{sh8 3} f3)
        ∗ (ℓ ↦[S]{sh8 4} f4) ∗ (ℓ ↦[S]{sh8 5} f5) ∗ (ℓ ↦[S]{sh8 6} f6) ∗ (ℓ ↦[S]{sh8 7} f7)) : sProp 𝕄)
      ⊢ (ℓ ↦[S]{fullShare} f0) :=
  share_join8 S fullShare f0 f1 f2 f3 f4 f5 f6 f7

theorem share4_split (f : Buf (Elt F) ℓ) :
    ((ℓ ↦[S]{fullShare} f) : sProp 𝕄)
      ⊢ iprop((ℓ ↦[S]{sh4 0} f) ∗ (ℓ ↦[S]{sh4 1} f) ∗ (ℓ ↦[S]{sh4 2} f) ∗ (ℓ ↦[S]{sh4 3} f)) :=
  share_split4 S fullShare f

theorem share4_join (f0 f1 f2 f3 : Buf (Elt F) ℓ) :
    (iprop((ℓ ↦[S]{sh4 0} f0) ∗ (ℓ ↦[S]{sh4 1} f1) ∗ (ℓ ↦[S]{sh4 2} f2) ∗ (ℓ ↦[S]{sh4 3} f3)) : sProp 𝕄)
      ⊢ (ℓ ↦[S]{fullShare} f0) :=
  share_join4 S fullShare f0 f1 f2 f3

/-- Everything of a region but its first share: set aside while the region is read at that share alone. -/
def rest8 (f : Buf (Elt F) ℓ) : sProp 𝕄 :=
  iprop((ℓ ↦[S]{sh8 1} f) ∗ (ℓ ↦[S]{sh8 2} f) ∗ (ℓ ↦[S]{sh8 3} f) ∗ (ℓ ↦[S]{sh8 4} f) ∗ (ℓ ↦[S]{sh8 5} f) ∗ (ℓ ↦[S]{sh8 6} f) ∗ (ℓ ↦[S]{sh8 7} f))
def rest4 (f : Buf (Elt F) ℓ) : sProp 𝕄 :=
  iprop((ℓ ↦[S]{sh4 1} f) ∗ (ℓ ↦[S]{sh4 2} f) ∗ (ℓ ↦[S]{sh4 3} f))

theorem share8_carve (f : Buf (Elt F) ℓ) :
    ((ℓ ↦[S]{fullShare} f) : sProp 𝕄) ⊢ iprop((ℓ ↦[S]{sh8 0} f) ∗ rest8 S f) := share8_split S f
theorem share4_carve (f : Buf (Elt F) ℓ) :
    ((ℓ ↦[S]{fullShare} f) : sProp 𝕄) ⊢ iprop((ℓ ↦[S]{sh4 0} f) ∗ rest4 S f) := share4_split S f

end Cert.Kernel.Proto

end
-- ==== Proof.Bits.SurgValues.lean ====
import proofs.«901052_g7700000000001053_dist_softmax_colshard_i_m1024_n1024_v7x_i32_bf16_1_alg».proof.Proof.Bits.Inv
import proofs.«901052_g7700000000001053_dist_softmax_colshard_i_m1024_n1024_v7x_i32_bf16_1_alg».proof.Proof.LibRegions

noncomputable section

namespace Cert.Kernel.Proto

open Cert.Kernel Cert.Kernel.Gen

open Idealize.ShloMosaic
open Idealize.ShloMosaic.TcCoe
open Cert.LibRegions

variable {F : FTy → Type} [FloatOps F]

open Idealize.ShloMosaic.ValueIdx

theorem pslot_read (c : Dev nD) (g : Buf (Elt F) ((c : Thread nD τ).loc cc0_scratch0)) (d : Fin 8) (ch row : Fin 2) (r : Fin 512) :
    (pslot d ch).view.read (Elt F) g (ix2 row r) = g (ix4 d ch row r) := by
  have e : (pslot d ch).view.emb (ix2 row r) = ix4 d ch row r :=
    slot_emb (n0 := 8) (n1 := 2) (n2 := 2) (n3 := 512) ![d.val, ch.val, 0, 0] (inbP d ch) _ row r d ch row r rfl rfl
      (Nat.zero_add _).symm (Nat.zero_add _).symm
  rw [View.read_apply, e]; exact cast_eq _ _

theorem pwhole_readAt (c : Dev nD) (g : Buf (Elt F) ((c : Thread nD τ).loc cc0_scratch0)) (off size : Fin 4 → ℕ)
    (inb : ∀ a, off a + size a ≤ S8x2x2x512.size a) (i : (⟨4, size⟩ : Shape).Idx) (k0 : Fin 8) (k1 k2 : Fin 2) (k3 : Fin 512)
    (h0 : k0.val = off 0 + (i 0).val) (h1 : k1.val = off 1 + (i 1).val) (h2 : k2.val = off 2 + (i 2).val) (h3 : k3.val = off 3 + (i 3).val) :
    View.readAt (Elt F) (Memref.whole cc0_scratch0 : Memref sig .tc .vmem S8x2x2x512 .f32).view
      (Rect.unit (s := S8x2x2x512) off size inb).toLoadRect g i = g (ix4 k0 k1 k2 k3) := by
  rw [View.readAt_apply, View.read_apply]
  show _root_.cast _ (g ((Rect.unit (s := S8x2x2x512) off size inb).emb i)) = _
  rw [unit_emb4 (n0 := 8) (n1 := 2) (n2 := 2) (n3 := 512) off size inb i k0 k1 k2 k3 h0 h1 h2 h3]; exact cast_eq _ _

theorem prow_write_hit (c : Dev nD) (f : Buf (Elt F) ((c : Thread nD τ).loc cc0_scratch0)) (w : FVec F S1x1x1x512 .f32) (off : Fin 4 → ℕ)
    (inb : ∀ a, off a + S1x1x1x512.size a ≤ S8x2x2x512.size a) (k0 : Fin 8) (k1 k2 : Fin 2) (r : Fin 512)
    (h0 : k0.val = off 0) (h1 : k1.val = off 1) (h2 : k2.val = off 2) (h3 : r.val = off 3 + r.val) :
    View.write (Elt F) ((Memref.whole cc0_scratch0 : Memref sig .tc .vmem S8x2x2x512 .f32).access (Rect.unit (s := S8x2x2x512) off S1x1x1x512.size inb)) f w Finset.univ (ix4 k0 k1 k2 r)
      = w (ix4 (0 : Fin 1) (0 : Fin 1) (0 : Fin 1) r) := by
  have e : ((Memref.whole cc0_scratch0 : Memref sig .tc .vmem S8x2x2x512 .f32).access (Rect.unit (s := S8x2x2x512) off S1x1x1x512.size inb)).emb (ix4 (0 : Fin 1) (0 : Fin 1) (0 : Fin 1) r) = ix4 k0 k1 k2 r :=
    unit_emb4 (n0 := 8) (n1 := 2) (n2 := 2) (n3 := 512) off _ inb _ k0 k1 k2 r h0 h1 h2 h3
  rw [← e, View.write_emb_of_mem _ _ (Finset.mem_univ _)]; exact cast_eq _ _

theorem prow_write_miss (c : Dev nD) (f : Buf (Elt F) ((c : Thread nD τ).loc cc0_scratch0)) (w : FVec F S1x1x1x512 .f32) (off : Fin 4 → ℕ)
    (inb : ∀ a, off a + S1x1x1x512.size a ≤ S8x2x2x512.size a) (k : S8x2x2x512.Idx) (h2 : (k 2).val ≠ off 2) :
    View.write (Elt F) ((Memref.whole cc0_scratch0 : Memref sig .tc .vmem S8x2x2x512 .f32).access (Rect.unit (s := S8x2x2x512) off S1x1x1x512.size inb)) f w Finset.univ k = f k := by
  refine View.write_of_not_mem _ _ _ fun hm => h2 ?_
  rw [View.setOn_univ, View.set_slice_whole, Rect.mem_set_unit] at hm
  have h := hm 2
  have h1 : S1x1x1x512.size 2 = 1 := rfl
  omega

/-- A row stored at row 0 of slot 0 of a half and then a row at its row 1: the slot reads the one above the other. -/
theorem pslot0_holds_0 (c : Dev nD) (f : Buf (Elt F) ((c : Thread nD τ).loc cc0_scratch0)) (a b : FVec F S1x1x1x512 .f32) :
    SlotHolds ((pslot 0 0).view.read (Elt F)
      (View.write (Elt F) ((Memref.whole cc0_scratch0 : Memref sig .tc .vmem S8x2x2x512 .f32).access (Rect.unit (s := S8x2x2x512) ![0, 0, 1, 0] S1x1x1x512.size inb_S8x2x2x512_S1x1x1x512_0_0_1_0))
        (View.write (Elt F) ((Memref.whole cc0_scratch0 : Memref sig .tc .vmem S8x2x2x512 .f32).access (Rect.unit (s := S8x2x2x512) ![0, 0, 0, 0] S1x1x1x512.size inb_S8x2x2x512_S1x1x1x512_0_0_0_0)) f a Finset.univ)
        b Finset.univ)) a b := by
  intro r
  rw [pslot_read c, pslot_read c]
  constructor
  · rw [prow_write_miss c _ b _ _ _ (show (0 : ℕ) ≠ 1 from Nat.zero_ne_one),
      prow_write_hit c f a ![0, 0, 0, 0] _ 0 0 0 r rfl rfl rfl (Nat.zero_add _).symm]
  · rw [prow_write_hit c _ b ![0, 0, 1, 0] _ 0 0 1 r rfl rfl rfl (Nat.zero_add _).symm]
theorem pslot0_holds_1 (c : Dev nD) (f : Buf (Elt F) ((c : Thread nD τ).loc cc0_scratch0)) (a b : FVec F S1x1x1x512 .f32) :
    SlotHolds ((pslot 0 1).view.read (Elt F)
      (View.write (Elt F) ((Memref.whole cc0_scratch0 : Memref sig .tc .vmem S8x2x2x512 .f32).access (Rect.unit (s := S8x2x2x512) ![0, 1, 1, 0] S1x1x1x512.size inb_S8x2x2x512_S1x1x1x512_0_1_1_0))
        (View.write (Elt F) ((Memref.whole cc0_scratch0 : Memref sig .tc .vmem S8x2x2x512 .f32).access (Rect.unit (s := S8x2x2x512) ![0, 1, 0, 0] S1x1x1x512.size inb_S8x2x2x512_S1x1x1x512_0_1_0_0)) f a Finset.univ)
        b Finset.univ)) a b := by
  intro r
  rw [pslot_read c, pslot_read c]
  constructor
  · rw [prow_write_miss c _ b _ _ _ (show (0 : ℕ) ≠ 1 from Nat.zero_ne_one),
      prow_write_hit c f a ![0, 1, 0, 0] _ 0 1 0 r rfl rfl rfl (Nat.zero_add _).symm]
  · rw [prow_write_hit c _ b ![0, 1, 1, 0] _ 0 1 1 r rfl rfl rfl (Nat.zero_add _).symm]

theorem zslot_read (c : Dev nD) (g : Buf (Elt F) ((c : Thread nD τ).loc cc0_scratch1)) (d : Fin 4) (ch row : Fin 2) (r : Fin 512) :
    (zslot d ch).view.read (Elt F) g (ix2 row r) = g (ix4 d ch row r) := by
  have e : (zslot d ch).view.emb (ix2 row r) = ix4 d ch row r :=
    slot_emb (n0 := 4) (n1 := 2) (n2 := 2) (n3 := 512) ![d.val, ch.val, 0, 0] (inbZ d ch) _ row r d ch row r rfl rfl
      (Nat.zero_add _).symm (Nat.zero_add _).symm
  rw [View.read_apply, e]; exact cast_eq _ _

theorem zwhole_readAt (c : Dev nD) (g : Buf (Elt F) ((c : Thread nD τ).loc cc0_scratch1)) (off size : Fin 4 → ℕ)
    (inb : ∀ a, off a + size a ≤ S4x2x2x512.size a) (i : (⟨4, size⟩ : Shape).Idx) (k0 : Fin 4) (k1 k2 : Fin 2) (k3 : Fin 512)
    (h0 : k0.val = off 0 + (i 0).val) (h1 : k1.val = off 1 + (i 1).val) (h2 : k2.val = off 2 + (i 2).val) (h3 : k3.val = off 3 + (i 3).val) :
    View.readAt (Elt F) (Memref.whole cc0_scratch1 : Memref sig .tc .vmem S4x2x2x512 .f32).view
      (Rect.unit (s := S4x2x2x512) off size inb).toLoadRect g i = g (ix4 k0 k1 k2 k3) := by
  rw [View.readAt_apply, View.read_apply]
  show _root_.cast _ (g ((Rect.unit (s := S4x2x2x512) off size inb).emb i)) = _
  rw [unit_emb4 (n0 := 4) (n1 := 2) (n2 := 2) (n3 := 512) off size inb i k0 k1 k2 k3 h0 h1 h2 h3]; exact cast_eq _ _

theorem zrow_write_hit (c : Dev nD) (f : Buf (Elt F) ((c : Thread nD τ).loc cc0_scratch1)) (w : FVec F S1x1x1x512 .f32) (off : Fin 4 → ℕ)
    (inb : ∀ a, off a + S1x1x1x512.size a ≤ S4x2x2x512.size a) (k0 : Fin 4) (k1 k2 : Fin 2) (r : Fin 512)
    (h0 : k0.val = off 0) (h1 : k1.val = off 1) (h2 : k2.val = off 2) (h3 : r.val = off 3 + r.val) :
    View.write (Elt F) ((Memref.whole cc0_scratch1 : Memref sig .tc .vmem S4x2x2x512 .f32).access (Rect.unit (s := S4x2x2x512) off S1x1x1x512.size inb)) f w Finset.univ (ix4 k0 k1 k2 r)
      = w (ix4 (0 : Fin 1) (0 : Fin 1) (0 : Fin 1) r) := by
  have e : ((Memref.whole cc0_scratch1 : Memref sig .tc .vmem S4x2x2x512 .f32).access (Rect.unit (s := S4x2x2x512) off S1x1x1x512.size inb)).emb (ix4 (0 : Fin 1) (0 : Fin 1) (0 : Fin 1) r) = ix4 k0 k1 k2 r :=
    unit_emb4 (n0 := 4) (n1 := 2) (n2 := 2) (n3 := 512) off _ inb _ k0 k1 k2 r h0 h1 h2 h3
  rw [← e, View.write_emb_of_mem _ _ (Finset.mem_univ _)]; exact cast_eq _ _

theorem zrow_write_miss (c : Dev nD) (f : Buf (Elt F) ((c : Thread nD τ).loc cc0_scratch1)) (w : FVec F S1x1x1x512 .f32) (off : Fin 4 → ℕ)
    (inb : ∀ a, off a + S1x1x1x512.size a ≤ S4x2x2x512.size a) (k : S4x2x2x512.Idx) (h2 : (k 2).val ≠ off 2) :
    View.write (Elt F) ((Memref.whole cc0_scratch1 : Memref sig .tc .vmem S4x2x2x512 .f32).access (Rect.unit (s := S4x2x2x512) off S1x1x1x512.size inb)) f w Finset.univ k = f k := by
  refine View.write_of_not_mem _ _ _ fun hm => h2 ?_
  rw [View.setOn_univ, View.set_slice_whole, Rect.mem_set_unit] at hm
  have h := hm 2
  have h1 : S1x1x1x512.size 2 = 1 := rfl
  omega

/-- A row stored at row 0 of slot 0 of a half and then a row at its row 1: the slot reads the one above the other. -/
theorem zslot0_holds_0 (c : Dev nD) (f : Buf (Elt F) ((c : Thread nD τ).loc cc0_scratch1)) (a b : FVec F S1x1x1x512 .f32) :
    SlotHolds ((zslot 0 0).view.read (Elt F)
      (View.write (Elt F) ((Memref.whole cc0_scratch1 : Memref sig .tc .vmem S4x2x2x512 .f32).access (Rect.unit (s := S4x2x2x512) ![0, 0, 1, 0] S1x1x1x512.size inb_S4x2x2x512_S1x1x1x512_0_0_1_0))
        (View.write (Elt F) ((Memref.whole cc0_scratch1 : Memref sig .tc .vmem S4x2x2x512 .f32).access (Rect.unit (s := S4x2x2x512) ![0, 0, 0, 0] S1x1x1x512.size inb_S4x2x2x512_S1x1x1x512_0_0_0_0)) f a Finset.univ)
        b Finset.univ)) a b := by
  intro r
  rw [zslot_read c, zslot_read c]
  constructor
  · rw [zrow_write_miss c _ b _ _ _ (show (0 : ℕ) ≠ 1 from Nat.zero_ne_one),
      zrow_write_hit c f a ![0, 0, 0, 0] _ 0 0 0 r rfl rfl rfl (Nat.zero_add _).symm]
  · rw [zrow_write_hit c _ b ![0, 0, 1, 0] _ 0 0 1 r rfl rfl rfl (Nat.zero_add _).symm]
theorem zslot0_holds_1 (c : Dev nD) (f : Buf (Elt F) ((c : Thread nD τ).loc cc0_scratch1)) (a b : FVec F S1x1x1x512 .f32) :
    SlotHolds ((zslot 0 1).view.read (Elt F)
      (View.write (Elt F) ((Memref.whole cc0_scratch1 : Memref sig .tc .vmem S4x2x2x512 .f32).access (Rect.unit (s := S4x2x2x512) ![0, 1, 1, 0] S1x1x1x512.size inb_S4x2x2x512_S1x1x1x512_0_1_1_0))
        (View.write (Elt F) ((Memref.whole cc0_scratch1 : Memref sig .tc .vmem S4x2x2x512 .f32).access (Rect.unit (s := S4x2x2x512) ![0, 1, 0, 0] S1x1x1x512.size inb_S4x2x2x512_S1x1x1x512_0_1_0_0)) f a Finset.univ)
        b Finset.univ)) a b := by
  intro r
  rw [zslot_read c, zslot_read c]
  constructor
  · rw [zrow_write_miss c _ b _ _ _ (show (0 : ℕ) ≠ 1 from Nat.zero_ne_one),
      zrow_write_hit c f a ![0, 1, 0, 0] _ 0 1 0 r rfl rfl rfl (Nat.zero_add _).symm]
  · rw [zrow_write_hit c _ b ![0, 1, 1, 0] _ 0 1 1 r rfl rfl rfl (Nat.zero_add _).symm]

end Cert.Kernel.Proto

end
-- ==== Proof.Bits.SurgRows.lean ====
import proofs.«901052_g7700000000001053_dist_softmax_colshard_i_m1024_n1024_v7x_i32_bf16_1_alg».proof.Proof.Bits.SurgValues

noncomputable section

namespace Cert.Kernel.Proto

open Cert.Kernel Cert.Kernel.Gen Cert.Kernel.Topo

open Idealize.ShloMosaic
open Idealize.ShloMosaic.TcCoe

variable {F : FTy → Type} [FloatOps F]

open Idealize.ShloMosaic.ValueIdx

/-- Reading one row across the slots of a half gives, at `i`, column `i 3` of that row of slot `i 0`. -/
theorem rows_pslab (c : Dev nD) (g : Buf (Elt F) ((c : Thread nD τ).loc cc0_scratch0)) (ch row : Fin 2) (off : Fin 4 → ℕ)
    (inb : ∀ a, off a + S8x1x1x512.size a ≤ S8x2x2x512.size a)
    (h0 : off 0 = 0) (h1 : off 1 = ch.val) (h2 : off 2 = row.val) (h3 : off 3 = 0) (a b : Fin 8 → FVec F S1x1x1x512 .f32)
    (h : ∀ d : Fin 8, SlotHolds ((pslot d ch).view.read (Elt F) g) (a d) (b d)) (i : S8x1x1x512.Idx) :
    View.readAt (Elt F) (Memref.whole cc0_scratch0 : Memref sig .tc .vmem S8x2x2x512 .f32).view
      (Rect.unit (s := S8x2x2x512) off S8x1x1x512.size inb).toLoadRect g i
      = (![a, b] row (⟨(i 0).val, (i 0).isLt⟩ : Fin 8) (ix4 (0 : Fin 1) (0 : Fin 1) (0 : Fin 1) (⟨(i 3).val, (i 3).isLt⟩ : Fin 512)) : Elt F .f32) := by
  have i1 : (i 1).val < 1 := (i 1).isLt
  have i2 : (i 2).val < 1 := (i 2).isLt
  rw [pwhole_readAt c g off _ inb i ⟨(i 0).val, (i 0).isLt⟩ ch row ⟨(i 3).val, (i 3).isLt⟩
      (show (i 0).val = _ by omega) (show ch.val = _ by omega) (show row.val = _ by omega) (show (i 3).val = _ by omega),
    ← pslot_read c g _ ch row _]
  exact match row with
    | 0 => (h _ _).1
    | 1 => (h _ _).2

theorem rows_zslab (c : Dev nD) (g : Buf (Elt F) ((c : Thread nD τ).loc cc0_scratch1)) (ch row : Fin 2) (off : Fin 4 → ℕ)
    (inb : ∀ a, off a + S4x1x1x512.size a ≤ S4x2x2x512.size a)
    (h0 : off 0 = 0) (h1 : off 1 = ch.val) (h2 : off 2 = row.val) (h3 : off 3 = 0) (a b : Fin 4 → FVec F S1x1x1x512 .f32)
    (h : ∀ d : Fin 4, SlotHolds ((zslot d ch).view.read (Elt F) g) (a d) (b d)) (i : S4x1x1x512.Idx) :
    View.readAt (Elt F) (Memref.whole cc0_scratch1 : Memref sig .tc .vmem S4x2x2x512 .f32).view
      (Rect.unit (s := S4x2x2x512) off S4x1x1x512.size inb).toLoadRect g i
      = (![a, b] row (⟨(i 0).val, (i 0).isLt⟩ : Fin 4) (ix4 (0 : Fin 1) (0 : Fin 1) (0 : Fin 1) (⟨(i 3).val, (i 3).isLt⟩ : Fin 512)) : Elt F .f32) := by
  have i1 : (i 1).val < 1 := (i 1).isLt
  have i2 : (i 2).val < 1 := (i 2).isLt
  rw [zwhole_readAt c g off _ inb i ⟨(i 0).val, (i 0).isLt⟩ ch row ⟨(i 3).val, (i 3).isLt⟩
      (show (i 0).val = _ by omega) (show ch.val = _ by omega) (show row.val = _ by omega) (show (i 3).val = _ by omega),
    ← zslot_read c g _ ch row _]
  exact match row with
    | 0 => (h _ _).1
    | 1 => (h _ _).2

variable (m : (ℓ : Loc nD τ sig) → Buf (Elt F) ℓ)

/-- With slot `d` holding the pair of the peer at offset `-d`, row 0 is the vector of the peers' maxima and row 1 that of their sums. -/
theorem pslab_row0_0 (c : Dev nD) (g : Buf (Elt F) ((c : Thread nD τ).loc cc0_scratch0))
    (h : ∀ d : Fin 8, SlotHolds ((pslot d 0).view.read (Elt F) g) (mrow m (pp (-d) c) 0) (srow m (pp (-d) c) 0)) :
    View.readAt (Elt F) (Memref.whole cc0_scratch0 : Memref sig .tc .vmem S8x2x2x512 .f32).view
      (Rect.unit (s := S8x2x2x512) ![0, 0, 0, 0] S8x1x1x512.size inb_S8x2x2x512_S8x1x1x512_0_0_0_0).toLoadRect g = PMvec m c 0 := by
  funext i; exact rows_pslab c g 0 0 _ _ rfl rfl rfl rfl _ _ h i
theorem pslab_row1_0 (c : Dev nD) (g : Buf (Elt F) ((c : Thread nD τ).loc cc0_scratch0))
    (h : ∀ d : Fin 8, SlotHolds ((pslot d 0).view.read (Elt F) g) (mrow m (pp (-d) c) 0) (srow m (pp (-d) c) 0)) :
    View.readAt (Elt F) (Memref.whole cc0_scratch0 : Memref sig .tc .vmem S8x2x2x512 .f32).view
      (Rect.unit (s := S8x2x2x512) ![0, 0, 1, 0] S8x1x1x512.size inb_S8x2x2x512_S8x1x1x512_0_0_1_0).toLoadRect g = PSvec m c 0 := by
  funext i; exact rows_pslab c g 0 1 _ _ rfl rfl rfl rfl _ _ h i
theorem pslab_row0_1 (c : Dev nD) (g : Buf (Elt F) ((c : Thread nD τ).loc cc0_scratch0))
    (h : ∀ d : Fin 8, SlotHolds ((pslot d 1).view.read (Elt F) g) (mrow m (pp (-d) c) 1) (srow m (pp (-d) c) 1)) :
    View.readAt (Elt F) (Memref.whole cc0_scratch0 : Memref sig .tc .vmem S8x2x2x512 .f32).view
      (Rect.unit (s := S8x2x2x512) ![0, 1, 0, 0] S8x1x1x512.size inb_S8x2x2x512_S8x1x1x512_0_1_0_0).toLoadRect g = PMvec m c 1 := by
  funext i; exact rows_pslab c g 1 0 _ _ rfl rfl rfl rfl _ _ h i
theorem pslab_row1_1 (c : Dev nD) (g : Buf (Elt F) ((c : Thread nD τ).loc cc0_scratch0))
    (h : ∀ d : Fin 8, SlotHolds ((pslot d 1).view.read (Elt F) g) (mrow m (pp (-d) c) 1) (srow m (pp (-d) c) 1)) :
    View.readAt (Elt F) (Memref.whole cc0_scratch0 : Memref sig .tc .vmem S8x2x2x512 .f32).view
      (Rect.unit (s := S8x2x2x512) ![0, 1, 1, 0] S8x1x1x512.size inb_S8x2x2x512_S8x1x1x512_0_1_1_0).toLoadRect g = PSvec m c 1 := by
  funext i; exact rows_pslab c g 1 1 _ _ rfl rfl rfl rfl _ _ h i
theorem zslab_row0_0 (c : Dev nD) (g : Buf (Elt F) ((c : Thread nD τ).loc cc0_scratch1))
    (h : ∀ d : Fin 4, SlotHolds ((zslot d 0).view.read (Elt F) g) (mprow m (zp (-d) c) 0) (sprow m (zp (-d) c) 0)) :
    View.readAt (Elt F) (Memref.whole cc0_scratch1 : Memref sig .tc .vmem S4x2x2x512 .f32).view
      (Rect.unit (s := S4x2x2x512) ![0, 0, 0, 0] S4x1x1x512.size inb_S4x2x2x512_S4x1x1x512_0_0_0_0).toLoadRect g = ZMvec m c 0 := by
  funext i; exact rows_zslab c g 0 0 _ _ rfl rfl rfl rfl _ _ h i
theorem zslab_row1_0 (c : Dev nD) (g : Buf (Elt F) ((c : Thread nD τ).loc cc0_scratch1))
    (h : ∀ d : Fin 4, SlotHolds ((zslot d 0).view.read (Elt F) g) (mprow m (zp (-d) c) 0) (sprow m (zp (-d) c) 0)) :
    View.readAt (Elt F) (Memref.whole cc0_scratch1 : Memref sig .tc .vmem S4x2x2x512 .f32).view
      (Rect.unit (s := S4x2x2x512) ![0, 0, 1, 0] S4x1x1x512.size inb_S4x2x2x512_S4x1x1x512_0_0_1_0).toLoadRect g = ZSvec m c 0 := by
  funext i; exact rows_zslab c g 0 1 _ _ rfl rfl rfl rfl _ _ h i
theorem zslab_row0_1 (c : Dev nD) (g : Buf (Elt F) ((c : Thread nD τ).loc cc0_scratch1))
    (h : ∀ d : Fin 4, SlotHolds ((zslot d 1).view.read (Elt F) g) (mprow m (zp (-d) c) 1) (sprow m (zp (-d) c) 1)) :
    View.readAt (Elt F) (Memref.whole cc0_scratch1 : Memref sig .tc .vmem S4x2x2x512 .f32).view
      (Rect.unit (s := S4x2x2x512) ![0, 1, 0, 0] S4x1x1x512.size inb_S4x2x2x512_S4x1x1x512_0_1_0_0).toLoadRect g = ZMvec m c 1 := by
  funext i; exact rows_zslab c g 1 0 _ _ rfl rfl rfl rfl _ _ h i
theorem zslab_row1_1 (c : Dev nD) (g : Buf (Elt F) ((c : Thread nD τ).loc cc0_scratch1))
    (h : ∀ d : Fin 4, SlotHolds ((zslot d 1).view.read (Elt F) g) (mprow m (zp (-d) c) 1) (sprow m (zp (-d) c) 1)) :
    View.readAt (Elt F) (Memref.whole cc0_scratch1 : Memref sig .tc .vmem S4x2x2x512 .f32).view
      (Rect.unit (s := S4x2x2x512) ![0, 1, 1, 0] S4x1x1x512.size inb_S4x2x2x512_S4x1x1x512_0_1_1_0).toLoadRect g = ZSvec m c 1 := by
  funext i; exact rows_zslab c g 1 1 _ _ rfl rfl rfl rfl _ _ h i

end Cert.Kernel.Proto

end
-- ==== Proof.Bits.Surgery.lean ====
import proofs.«901052_g7700000000001053_dist_softmax_colshard_i_m1024_n1024_v7x_i32_bf16_1_alg».proof.Proof.Bits.SurgRegions
import proofs.«901052_g7700000000001053_dist_softmax_colshard_i_m1024_n1024_v7x_i32_bf16_1_alg».proof.Proof.Bits.SurgShares
import proofs.«901052_g7700000000001053_dist_softmax_colshard_i_m1024_n1024_v7x_i32_bf16_1_alg».proof.Proof.Bits.SurgValues
import proofs.«901052_g7700000000001053_dist_softmax_colshard_i_m1024_n1024_v7x_i32_bf16_1_alg».proof.Proof.Bits.SurgRows
-- ==== Proof.Bits.Sends.lean ====
import proofs.«901052_g7700000000001053_dist_softmax_colshard_i_m1024_n1024_v7x_i32_bf16_1_alg».proof.Proof.Bits.Inv

noncomputable section

namespace Cert.Kernel.Proto

open Cert.Kernel Cert.Kernel.Gen Cert.Kernel.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The schedule's three tables at a cell, read off the cell's kind. -/
theorem tb_duties (c : Dev nD) (sm : SemLoc sig) (k : Kind) (hk : kindOf sm = k) :
    (Rd (F := F) m).duties ((c : Thread nD τ), sm) 0 = (match (generalizing := false) k with | .bar => Finset.univ | .other => ∅ | _ => {0}) := by
  subst hk; unfold Rd; dsimp only; rw [if_pos ⟨rfl, rfl⟩]; cases kindOf sm <;> rfl
theorem tb_payload (c : Dev nD) (sm : SemLoc sig) (k : Kind) (hk : kindOf sm = k) (r : ℕ) (x : D) :
    (Rd (F := F) m).payload ((c : Thread nD τ), sm) r x = (match (generalizing := false) k with
      | .bar => barPay c x | .s1 ch o => send1Pay c ch o | .r1 ch o => recv1Pay m c ch o
      | .s2 ch o => send2Pay c ch o | .r2 ch o => recv2Pay m c ch o | .other => iprop(emp)) := by
  subst hk; rfl
theorem tb_amount_bar (t : Dev nD) (r : ℕ) (d : D) : (Rd (F := F) m).amount (barCell t) r d = 1 := by
  show (if kindOf (.reg barS) = .bar then 1 else NP) = 1
  exact if_pos kindOf_bar
theorem tb_duties_bar (t : Dev nD) : (Rd (F := F) m).duties (barCell t) 0 = Finset.univ := tb_duties m t _ _ kindOf_bar
theorem tb_payload_bar (t : Dev nD) (r : ℕ) (k : D) : (Rd (F := F) m).payload (barCell t) r k = barPay t k := tb_payload m t _ _ kindOf_bar r k
theorem tb_expect_bar (t : Dev nD) : (Rd (F := F) m).expect (barCell t) 0 = 10 := by
  show ∑ d ∈ (Rd (F := F) m).duties (barCell t) 0, (Rd (F := F) m).amount (barCell t) 0 d = 10
  rw [tb_duties_bar]; simp only [tb_amount_bar]; rfl

theorem kind_dma_ne_bar (q : DmaSem sig) : kindOf (.dma q) ≠ .bar := by revert q; decide
/-- No transfer semaphore is the entry semaphore, so each of its duties is a slot's credit. -/
theorem tb_amount_dma (c : Dev nD) (q : DmaSem sig) (r : ℕ) (d : D) : (Rd (F := F) m).amount ((c : Thread nD τ), .dma q) r d = NP :=
  if_neg (kind_dma_ne_bar q)
/-- A transfer cell in use has the one duty `0`, so its round expects one slot's credit. -/
theorem tb_duties_dma (c : Dev nD) (q : DmaSem sig) (h : kindOf (.dma q) ≠ .other) : (Rd (F := F) m).duties ((c : Thread nD τ), .dma q) 0 = {0} := by
  rw [tb_duties m c _ _ rfl]
  cases hk : kindOf (.dma q) <;> first | exact absurd hk h | exact absurd hk (kind_dma_ne_bar q) | rfl
theorem tb_expect_dma (c : Dev nD) (q : DmaSem sig) (h : kindOf (.dma q) ≠ .other) : (Rd (F := F) m).expect ((c : Thread nD τ), .dma q) 0 = NP := by
  show ∑ x ∈ (Rd (F := F) m).duties ((c : Thread nD τ), .dma q) 0, (Rd (F := F) m).amount ((c : Thread nD τ), .dma q) 0 x = NP
  rw [tb_duties_dma m c q h, Finset.sum_singleton, tb_amount_dma]

theorem tb_payload_s1 (c : Dev nD) (ch : Fin 2) (d : Fin 8) (hd : d ≠ 0) (r : ℕ) (k : D) : (Rd (F := F) m).payload (s1Cell c ch d) r k = send1Pay c ch d := tb_payload m c _ _ (kindOf_s1 ch d hd) r k
theorem tb_payload_r1 (c : Dev nD) (ch : Fin 2) (d : Fin 8) (hd : d ≠ 0) (r : ℕ) (k : D) : (Rd (F := F) m).payload (r1Cell c ch d) r k = recv1Pay m c ch d := tb_payload m c _ _ (kindOf_r1 ch d hd) r k
theorem tb_payload_s2 (c : Dev nD) (ch : Fin 2) (d : Fin 4) (hd : d ≠ 0) (r : ℕ) (k : D) : (Rd (F := F) m).payload (s2Cell c ch d) r k = send2Pay c ch d := tb_payload m c _ _ (kindOf_s2 ch d hd) r k
theorem tb_payload_r2 (c : Dev nD) (ch : Fin 2) (d : Fin 4) (hd : d ≠ 0) (r : ℕ) (k : D) : (Rd (F := F) m).payload (r2Cell c ch d) r k = recv2Pay m c ch d := tb_payload m c _ _ (kindOf_r2 ch d hd) r k

theorem pcredit (d : Fin 8) (ch : Fin 2) (sm : DmaSem sig) : (pslot d ch).view.amount (.dma sm) = NP := rfl
theorem zcredit (d : Fin 4) (ch : Fin 2) (sm : DmaSem sig) : (zslot d ch).view.amount (.dma sm) = NP := rfl

/-- A slot copied to a peer: counted on the sender's cell as departed (its share comes back) and on the peer's as landed (its slot, now holding the copy). -/
theorem wp_send_slot (K : GSem nD τ sig → ℕ) (c n p : Dev nD) (hn : n = p) (src dst : Memref sig .tc .vmem S2x512 .f32) (qs qr : DmaSem sig)
    (sh : PosShare TreeShare) (a b : FVec F S1x1x1x512 .f32)
    (hqs : (Rd (F := F) m).duties ((c : Thread nD τ), .dma qs) 0 = {0}) (hqr : (Rd (F := F) m).duties ((p : Thread nD τ), .dma qr) 0 = {0})
    (hN : dst.view.amount (.dma qr) = NP)
    (hps : (Rd (F := F) m).payload ((c : Thread nD τ), .dma qs) 0 0 = iprop(∃ f, src.view.loc (c : Thread nD τ) ↦[src.view.set]{sh} f))
    (hpr : (Rd (F := F) m).payload ((p : Thread nD τ), .dma qr) 0 0
      = iprop(∃ f, ⌜SlotHolds (dst.view.read (Elt F) f) a b⌝ ∗ (dst.view.loc (p : Thread nD τ) ↦[dst.view.set]{fullShare} f)))
    {hsc : (dst : Memref sig (Dev.tc n : Thread nD τ).2.kind .vmem S2x512 .f32).view.ref.isScScratch = false}
    {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (p : Thread nD τ)))
    (hfs : SlotHolds (src.view.read (Elt F) fs) a b)
    (O : CellTallies nD τ sig Unit) (W : Waits sig Unit) :
    iprop(inv m K ((c : Thread nD τ), .dma qs) ∗ inv m K ((p : Thread nD τ), .dma qr)
        ∗ (src.view.loc (c : Thread nD τ) ↦[src.view.set]{sh} fs)
        ∗ (dst.view.loc (p : Thread nD τ) ↦[dst.view.set]{fullShare} fd)
        ∗ owes (c : Thread nD τ) (O + tallyAt ((p : Thread nD τ), .dma qr) () NP) W
        ∗ dutyTok ER ((c : Thread nD τ), .dma qs) 0 (0 : D) ∗ reached ER ((c : Thread nD τ), .dma qs) 0
        ∗ dutyTok ER ((p : Thread nD τ), .dma qr) 0 (0 : D) ∗ reached ER ((p : Thread nD τ), .dma qr) 0)
      ⊢ iprop(((cred (tallyAt ((c : Thread nD τ), .dma qs) () NP) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn
  exact Rounds.wp_send_pointsTo 𝒱₀ ER (Rd m) (c : Thread nD τ) none
    (κ₁ := K ((c : Thread nD τ), .dma qs)) (κ₂ := K ((n : Thread nD τ), .dma qr)) (r₁ := 0) (r₂ := 0) (d₁ := (0 : D)) (d₂ := (0 : D)) (fd := fd)
    (by rw [hqs]; exact Finset.mem_singleton_self _) (by rw [hqr]; exact Finset.mem_singleton_self _)
    () () NP hN (tb_amount_dma m c _ 0 0) (tb_amount_dma m n _ 0 0) O rfl (W := W)
    (by rw [hps]; iintro H; iexists fs; iexact H)
    (by
      rw [hpr]
      iintro H
      iexists dst.view.write (Elt F) fd (src.view.read (Elt F) fs) Finset.univ
      isplitr
      · ipureintro
        rw [View.read_write_univ]
        exact hfs
      iexact H)
    (Topo.routes_tc c n)

/-- What a landing cell hands over, seen from the sender: the receiver's slot holding the sender's two rows. -/
theorem recv1_from (c : Dev nD) (ch : Fin 2) (d : Fin 8) (hd : d ≠ 0) : (Rd (F := F) m).payload (r1Cell (pp d c) ch d) 0 0
    = iprop(∃ f, ⌜SlotHolds ((pslot d ch).view.read (Elt F) f) (mrow m c ch) (srow m c ch)⌝
      ∗ ((pslot d ch).view.loc (pp d c : Thread nD τ) ↦[(pslot d ch).view.set]{fullShare} f)) := by
  rw [tb_payload_r1 m _ ch d hd, recv1Pay, pp_neg]
theorem recv2_from (c : Dev nD) (ch : Fin 2) (d : Fin 4) (hd : d ≠ 0) : (Rd (F := F) m).payload (r2Cell (zp d c) ch d) 0 0
    = iprop(∃ f, ⌜SlotHolds ((zslot d ch).view.read (Elt F) f) (mprow m c ch) (sprow m c ch)⌝
      ∗ ((zslot d ch).view.loc (zp d c : Thread nD τ) ↦[(zslot d ch).view.set]{fullShare} f)) := by
  rw [tb_payload_r2 m _ ch d hd, recv2Pay, zp_neg]

end Cert.Kernel.Proto

end
-- ==== Proof.Bits.Before.lean ====
import proofs.«901052_g7700000000001053_dist_softmax_colshard_i_m1024_n1024_v7x_i32_bf16_1_alg».proof.Proof.Bits.Inv

namespace Cert.Kernel.Proto

open Cert.Kernel Cert.Kernel.Gen Idealize.ShloMosaic

variable {F : FTy → Type} [FloatOps F] (m : (ℓ : Loc nD τ sig) → Buf (Elt F) ℓ) (ρ : Dev nD → PrngReg)

-- The grid has one point: what the body starts from there is the device's block of the argument, for every `d`.
theorem before0_eq (c : Dev nD) (d) : (dats m ρ 0 c).before (0 : Fin 2) t₀ d = xblk m c := by
  unfold Pipeline.Dat.before; rw [if_pos (by decide)]; rfl

end Cert.Kernel.Proto
-- ==== Proof.Bits.EntryWait.lean ====
import proofs.«901052_g7700000000001053_dist_softmax_colshard_i_m1024_n1024_v7x_i32_bf16_1_alg».proof.Proof.Bits.Inv

noncomputable section

namespace Cert.Kernel.Proto

open Cert.Kernel.Topo
open Idealize.ShloMosaic Idealize.ShloMosaic.Rounds
open Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

variable (m : (ℓ : Loc nD τ sig) → Buf (Elt F) ℓ)

theorem duties_bar (t : Dev nD) : (Rd (F := F) m).duties (barCell t) 0 = Finset.univ := by
  show (if (0 : ℕ) = 0 ∧ (barCell t).1.2 = .tc then (match kindOf (.reg barS) with | .bar => Finset.univ | .other => ∅ | _ => {0}) else (∅ : Finset D)) = _
  rw [if_pos ⟨rfl, rfl⟩, kindOf_bar]

theorem payload_bar (t : Dev nD) (r : ℕ) (k : D) : (Rd (F := F) m).payload (barCell t) r k = barPay t k := by
  show (match kindOf (.reg barS) with
    | .bar => barPay t k | .s1 ch o => send1Pay t ch o | .r1 ch o => recv1Pay m t ch o
    | .s2 ch o => send2Pay t ch o | .r2 ch o => recv2Pay m t ch o | .other => iprop(emp)) = _
  rw [kindOf_bar]

theorem barPay_0 (t : Dev nD) : barPay (F := F) t (0 : D) = iprop(pslotAny (pp 7 t) 7 0 ∗ pslotAny (pp 7 t) 7 1 ∗ reached ER (r1Cell (pp 7 t) 0 7) 0 ∗ reached ER (r1Cell (pp 7 t) 1 7) 0) := by
  unfold barPay; rw [dif_pos (by decide)]; rfl

theorem barPay_1 (t : Dev nD) : barPay (F := F) t (1 : D) = iprop(pslotAny (pp 6 t) 6 0 ∗ pslotAny (pp 6 t) 6 1 ∗ reached ER (r1Cell (pp 6 t) 0 6) 0 ∗ reached ER (r1Cell (pp 6 t) 1 6) 0) := by
  unfold barPay; rw [dif_pos (by decide)]; rfl

theorem barPay_2 (t : Dev nD) : barPay (F := F) t (2 : D) = iprop(pslotAny (pp 5 t) 5 0 ∗ pslotAny (pp 5 t) 5 1 ∗ reached ER (r1Cell (pp 5 t) 0 5) 0 ∗ reached ER (r1Cell (pp 5 t) 1 5) 0) := by
  unfold barPay; rw [dif_pos (by decide)]; rfl

theorem barPay_3 (t : Dev nD) : barPay (F := F) t (3 : D) = iprop(pslotAny (pp 4 t) 4 0 ∗ pslotAny (pp 4 t) 4 1 ∗ reached ER (r1Cell (pp 4 t) 0 4) 0 ∗ reached ER (r1Cell (pp 4 t) 1 4) 0) := by
  unfold barPay; rw [dif_pos (by decide)]; rfl

theorem barPay_4 (t : Dev nD) : barPay (F := F) t (4 : D) = iprop(pslotAny (pp 3 t) 3 0 ∗ pslotAny (pp 3 t) 3 1 ∗ reached ER (r1Cell (pp 3 t) 0 3) 0 ∗ reached ER (r1Cell (pp 3 t) 1 3) 0) := by
  unfold barPay; rw [dif_pos (by decide)]; rfl

theorem barPay_5 (t : Dev nD) : barPay (F := F) t (5 : D) = iprop(pslotAny (pp 2 t) 2 0 ∗ pslotAny (pp 2 t) 2 1 ∗ reached ER (r1Cell (pp 2 t) 0 2) 0 ∗ reached ER (r1Cell (pp 2 t) 1 2) 0) := by
  unfold barPay; rw [dif_pos (by decide)]; rfl

theorem barPay_6 (t : Dev nD) : barPay (F := F) t (6 : D) = iprop(pslotAny (pp 1 t) 1 0 ∗ pslotAny (pp 1 t) 1 1 ∗ reached ER (r1Cell (pp 1 t) 0 1) 0 ∗ reached ER (r1Cell (pp 1 t) 1 1) 0) := by
  unfold barPay; rw [dif_pos (by decide)]; rfl

theorem barPay_7 (t : Dev nD) : barPay (F := F) t (7 : D) = iprop(zslotAny (zp 3 t) 3 0 ∗ zslotAny (zp 3 t) 3 1 ∗ reached ER (r2Cell (zp 3 t) 0 3) 0 ∗ reached ER (r2Cell (zp 3 t) 1 3) 0) := by
  unfold barPay; rw [dif_neg (by decide)]; rfl

theorem barPay_8 (t : Dev nD) : barPay (F := F) t (8 : D) = iprop(zslotAny (zp 2 t) 2 0 ∗ zslotAny (zp 2 t) 2 1 ∗ reached ER (r2Cell (zp 2 t) 0 2) 0 ∗ reached ER (r2Cell (zp 2 t) 1 2) 0) := by
  unfold barPay; rw [dif_neg (by decide)]; rfl

theorem barPay_9 (t : Dev nD) : barPay (F := F) t (9 : D) = iprop(zslotAny (zp 1 t) 1 0 ∗ zslotAny (zp 1 t) 1 1 ∗ reached ER (r2Cell (zp 1 t) 0 1) 0 ∗ reached ER (r2Cell (zp 1 t) 1 1) 0) := by
  unfold barPay; rw [dif_neg (by decide)]; rfl

theorem rest_bar (c : Dev nD) :
    bigSep ((Rd (F := F) m).duties (barCell c) 0 \ ∅) (fun d => (Rd (F := F) m).payload (barCell c) 0 d)
      = iprop(barPay c 0 ∗ barPay c 1 ∗ barPay c 2 ∗ barPay c 3 ∗ barPay c 4 ∗ barPay c 5 ∗ barPay c 6 ∗ barPay c 7 ∗ barPay c 8 ∗ barPay c 9) := by
  rw [Finset.sdiff_empty, duties_bar, bigSep_univ_eq_bigSepL [(0 : D), 1, 2, 3, 4, 5, 6, 7, 8, 9] (by decide) (by decide)]
  simp only [bigSepL_cons_cons, bigSepL_singleton, payload_bar]
  rfl

end Cert.Kernel.Proto

end
-- ==== Proof.Bits.SlabHolds.lean ====
import proofs.«901052_g7700000000001053_dist_softmax_colshard_i_m1024_n1024_v7x_i32_bf16_1_alg».proof.Proof.Bits.Inv

noncomputable section

namespace Cert.Kernel.Proto

open Cert.Kernel Cert.Kernel.Gen Cert.Kernel.Topo

open Idealize.ShloMosaic
open Idealize.ShloMosaic.TcCoe

variable {F : FTy → Type} [FloatOps F]

variable (m : (ℓ : Loc nD τ sig) → Buf (Elt F) ℓ)

/-- If the joined contents read on every slot as that slot's own contents did, slot `d` still holds the pair of the peer at offset `-d`. -/
theorem pslab_holds (c : Dev nD) (ch : Fin 2) (g f0 f1 f2 f3 f4 f5 f6 f7 : Buf (Elt F) ((c : Thread nD τ).loc cc0_scratch0))
    (hg : (pslot 0 ch).view.read (Elt F) g = (pslot 0 ch).view.read (Elt F) f0
        ∧ (pslot 1 ch).view.read (Elt F) g = (pslot 1 ch).view.read (Elt F) f1
        ∧ (pslot 2 ch).view.read (Elt F) g = (pslot 2 ch).view.read (Elt F) f2
        ∧ (pslot 3 ch).view.read (Elt F) g = (pslot 3 ch).view.read (Elt F) f3
        ∧ (pslot 4 ch).view.read (Elt F) g = (pslot 4 ch).view.read (Elt F) f4
        ∧ (pslot 5 ch).view.read (Elt F) g = (pslot 5 ch).view.read (Elt F) f5
        ∧ (pslot 6 ch).view.read (Elt F) g = (pslot 6 ch).view.read (Elt F) f6
        ∧ (pslot 7 ch).view.read (Elt F) g = (pslot 7 ch).view.read (Elt F) f7)
    (h0 : SlotHolds ((pslot 0 ch).view.read (Elt F) f0) (mrow m c ch) (srow m c ch))
    (h1 : SlotHolds ((pslot 1 ch).view.read (Elt F) f1) (mrow m (pp (-1) c) ch) (srow m (pp (-1) c) ch))
    (h2 : SlotHolds ((pslot 2 ch).view.read (Elt F) f2) (mrow m (pp (-2) c) ch) (srow m (pp (-2) c) ch))
    (h3 : SlotHolds ((pslot 3 ch).view.read (Elt F) f3) (mrow m (pp (-3) c) ch) (srow m (pp (-3) c) ch))
    (h4 : SlotHolds ((pslot 4 ch).view.read (Elt F) f4) (mrow m (pp (-4) c) ch) (srow m (pp (-4) c) ch))
    (h5 : SlotHolds ((pslot 5 ch).view.read (Elt F) f5) (mrow m (pp (-5) c) ch) (srow m (pp (-5) c) ch))
    (h6 : SlotHolds ((pslot 6 ch).view.read (Elt F) f6) (mrow m (pp (-6) c) ch) (srow m (pp (-6) c) ch))
    (h7 : SlotHolds ((pslot 7 ch).view.read (Elt F) f7) (mrow m (pp (-7) c) ch) (srow m (pp (-7) c) ch)) :
    ∀ d : Fin 8, SlotHolds ((pslot d ch).view.read (Elt F) g) (mrow m (pp (-d) c) ch) (srow m (pp (-d) c) ch)
  | 0 => by rw [hg.1, show (-(0 : Fin 8)) = 0 from rfl, pp_zero]; exact h0
  | 1 => hg.2.1 ▸ h1
  | 2 => hg.2.2.1 ▸ h2
  | 3 => hg.2.2.2.1 ▸ h3
  | 4 => hg.2.2.2.2.1 ▸ h4
  | 5 => hg.2.2.2.2.2.1 ▸ h5
  | 6 => hg.2.2.2.2.2.2.1 ▸ h6
  | 7 => hg.2.2.2.2.2.2.2 ▸ h7

theorem zslab_holds (c : Dev nD) (ch : Fin 2) (g f0 f1 f2 f3 : Buf (Elt F) ((c : Thread nD τ).loc cc0_scratch1))
    (hg : (zslot 0 ch).view.read (Elt F) g = (zslot 0 ch).view.read (Elt F) f0
        ∧ (zslot 1 ch).view.read (Elt F) g = (zslot 1 ch).view.read (Elt F) f1
        ∧ (zslot 2 ch).view.read (Elt F) g = (zslot 2 ch).view.read (Elt F) f2
        ∧ (zslot 3 ch).view.read (Elt F) g = (zslot 3 ch).view.read (Elt F) f3)
    (h0 : SlotHolds ((zslot 0 ch).view.read (Elt F) f0) (mprow m c ch) (sprow m c ch))
    (h1 : SlotHolds ((zslot 1 ch).view.read (Elt F) f1) (mprow m (zp (-1) c) ch) (sprow m (zp (-1) c) ch))
    (h2 : SlotHolds ((zslot 2 ch).view.read (Elt F) f2) (mprow m (zp (-2) c) ch) (sprow m (zp (-2) c) ch))
    (h3 : SlotHolds ((zslot 3 ch).view.read (Elt F) f3) (mprow m (zp (-3) c) ch) (sprow m (zp (-3) c) ch)) :
    ∀ d : Fin 4, SlotHolds ((zslot d ch).view.read (Elt F) g) (mprow m (zp (-d) c) ch) (sprow m (zp (-d) c) ch)
  | 0 => by rw [hg.1, show (-(0 : Fin 4)) = 0 from rfl, zp_zero]; exact h0
  | 1 => hg.2.1 ▸ h1
  | 2 => hg.2.2.1 ▸ h2
  | 3 => hg.2.2.2 ▸ h3

end Cert.Kernel.Proto

end
-- ==== Proof.Bits.OwnRow.lean ====
import proofs.«901052_g7700000000001053_dist_softmax_colshard_i_m1024_n1024_v7x_i32_bf16_1_alg».proof.Proof.Bits.SurgValues

noncomputable section

namespace Cert.Kernel.Proto

open Cert.Kernel Cert.Kernel.Gen

open Idealize.ShloMosaic
open Idealize.ShloMosaic.TcCoe

variable {F : FTy → Type} [FloatOps F]

open Idealize.ShloMosaic.ValueIdx

/-- The load of row 0 of slot 0 of a half reads the slot's upper row. -/
theorem pown_row (c : Dev nD) (g : Buf (Elt F) ((c : Thread nD τ).loc cc0_scratch0)) (ch : Fin 2) (off : Fin 4 → ℕ)
    (inb : ∀ a, off a + S1x1x1x512.size a ≤ S8x2x2x512.size a)
    (h0 : off 0 = 0) (h1 : off 1 = ch.val) (h2 : off 2 = 0) (h3 : off 3 = 0) (a b : FVec F S1x1x1x512 .f32)
    (h : SlotHolds ((pslot 0 ch).view.read (Elt F) g) a b) :
    View.readAt (Elt F) (Memref.whole cc0_scratch0 : Memref sig .tc .vmem S8x2x2x512 .f32).view
      (Rect.unit (s := S8x2x2x512) off S1x1x1x512.size inb).toLoadRect g = a := by
  funext i
  have i0 : (i 0).val = 0 := Nat.lt_one_iff.mp (i 0).isLt
  have i1 : (i 1).val = 0 := Nat.lt_one_iff.mp (i 1).isLt
  have i2 : (i 2).val = 0 := Nat.lt_one_iff.mp (i 2).isLt
  have e : ix4 (0 : Fin 1) (0 : Fin 1) (0 : Fin 1) (⟨(i 3).val, (i 3).isLt⟩ : Fin 512) = i := by
    funext ax; apply Fin.ext
    match ax with
    | ⟨0, _⟩ => exact i0.symm
    | ⟨1, _⟩ => exact i1.symm
    | ⟨2, _⟩ => exact i2.symm
    | ⟨3, _⟩ => rfl
  rw [pwhole_readAt c g off _ inb i 0 ch 0 ⟨(i 3).val, (i 3).isLt⟩
      (show 0 = _ by omega) (show ch.val = _ by omega) (show 0 = _ by omega) (show (i 3).val = _ by omega),
    ← pslot_read c g 0 ch 0 _, (h _).1, e]

theorem pown_row0_0 (c : Dev nD) (g : Buf (Elt F) ((c : Thread nD τ).loc cc0_scratch0)) (a b : FVec F S1x1x1x512 .f32)
    (h : SlotHolds ((pslot 0 0).view.read (Elt F) g) a b) :
    View.readAt (Elt F) (Memref.whole cc0_scratch0 : Memref sig .tc .vmem S8x2x2x512 .f32).view
      (Rect.unit (s := S8x2x2x512) ![0, 0, 0, 0] S1x1x1x512.size inb_S8x2x2x512_S1x1x1x512_0_0_0_0).toLoadRect g = a :=
  pown_row c g 0 _ _ rfl rfl rfl rfl a b h

theorem pown_row0_1 (c : Dev nD) (g : Buf (Elt F) ((c : Thread nD τ).loc cc0_scratch0)) (a b : FVec F S1x1x1x512 .f32)
    (h : SlotHolds ((pslot 0 1).view.read (Elt F) g) a b) :
    View.readAt (Elt F) (Memref.whole cc0_scratch0 : Memref sig .tc .vmem S8x2x2x512 .f32).view
      (Rect.unit (s := S8x2x2x512) ![0, 1, 0, 0] S1x1x1x512.size inb_S8x2x2x512_S1x1x1x512_0_1_0_0).toLoadRect g = a :=
  pown_row c g 1 _ _ rfl rfl rfl rfl a b h

end Cert.Kernel.Proto

end
-- ==== Proof.Bits.OutStores.lean ====
import proofs.«901052_g7700000000001053_dist_softmax_colshard_i_m1024_n1024_v7x_i32_bf16_1_alg».proof.Proof.Bits.Inv
import Idealize.ShloMosaic.Lib.ValueLayout
import Idealize.ShloMosaic.Lib.Writes

noncomputable section

namespace Cert.Kernel.Proto

open Cert.Kernel.Gen
open Idealize.ShloMosaic Idealize.ShloMosaic.TcCoe
open scoped Idealize.SL.BI
open Idealize.ShloMosaic.ValueIdx

variable {F : FTy → Type} [FloatOps F]

local notation "𝕄" => MT nD τ sig Unit (Elt F) ℕ UU ℕ

variable (m : (ℓ : Loc nD τ sig) → Buf (Elt F) ℓ)

/-- A store of 512 rows at `off` puts the block's element `(r, q)` at `(off 0 + r, off 1 + q)`, -/
theorem out_write_hit (c : Dev nD) (f : Buf (Elt F) ((c : Thread nD τ).loc cc0_stg1_0)) (w : FVec F S512x1024 .bf16) (off : Fin 2 → ℕ)
    (inb : ∀ a, off a + S512x1024.size a ≤ S1024x1024.size a) (k : S1024x1024.Idx) (r : Fin 512) (q : Fin 1024)
    (h0 : (k 0).val = off 0 + r.val) (h1 : (k 1).val = off 1 + q.val) :
    View.write (Elt F) ((Memref.whole cc0_stg1_0 : Memref sig .tc .vmem S1024x1024 .bf16).access (Rect.unit (s := S1024x1024) off S512x1024.size inb)) f w Finset.univ k
      = w (ix2 r q) := by
  have e : ((Memref.whole cc0_stg1_0 : Memref sig .tc .vmem S1024x1024 .bf16).access (Rect.unit (s := S1024x1024) off S512x1024.size inb)).emb
      (ix2 r q) = k := by
    show (Rect.unit (s := S1024x1024) off S512x1024.size inb).emb (ix2 r q) = k
    funext ax; apply Fin.ext
    rw [Rect.emb_apply]
    match ax with
    | ⟨0, _⟩ => show off 0 + 1 * r.val = (k 0).val; omega
    | ⟨1, _⟩ => show off 1 + 1 * q.val = (k 1).val; omega
  rw [← e, View.write_emb_of_mem _ _ (Finset.mem_univ _)]; exact cast_eq _ _

/-- and leaves every element of a row outside those 512 as it was. -/
theorem out_write_miss (c : Dev nD) (f : Buf (Elt F) ((c : Thread nD τ).loc cc0_stg1_0)) (w : FVec F S512x1024 .bf16) (off : Fin 2 → ℕ)
    (inb : ∀ a, off a + S512x1024.size a ≤ S1024x1024.size a) (k : S1024x1024.Idx)
    (h0 : (k 0).val < off 0 ∨ off 0 + 512 ≤ (k 0).val) :
    View.write (Elt F) ((Memref.whole cc0_stg1_0 : Memref sig .tc .vmem S1024x1024 .bf16).access (Rect.unit (s := S1024x1024) off S512x1024.size inb)) f w Finset.univ k
      = f k := by
  refine View.write_of_not_mem _ _ _ fun hm => ?_
  rw [View.setOn_univ, View.set_slice_whole, Rect.mem_set_unit] at hm
  have h := hm 0
  have h1 : S512x1024.size 0 = 512 := rfl
  omega

/-- A row below 512 is hit by the first store only, a row from 512 on by the second: together the result block. -/
theorem out_stores (c : Dev nD) (f : Buf (Elt F) ((c : Thread nD τ).loc cc0_stg1_0)) :
    View.write (Elt F) ((Memref.whole cc0_stg1_0 : Memref sig .tc .vmem S1024x1024 .bf16).access (Rect.unit (s := S1024x1024) ![512, 0] S512x1024.size inb_S1024x1024_S512x1024_512_0))
      (View.write (Elt F) ((Memref.whole cc0_stg1_0 : Memref sig .tc .vmem S1024x1024 .bf16).access (Rect.unit (s := S1024x1024) ![0, 0] S512x1024.size inb_S1024x1024_S512x1024_0_0)) f (outHalf m c 0) Finset.univ)
      (outHalf m c 1) Finset.univ = outAt m c := by
  funext i
  unfold outAt
  by_cases h : (i 0).val < 512
  · rw [dif_pos h,
      out_write_miss c _ (outHalf m c 1) ![512, 0] inb_S1024x1024_S512x1024_512_0 i (Or.inl (show (i 0).val < 512 from h)),
      out_write_hit c f (outHalf m c 0) ![0, 0] inb_S1024x1024_S512x1024_0_0 i ⟨(i 0).val, h⟩ ⟨(i 1).val, (i 1).isLt⟩
        (show (i 0).val = 0 + (i 0).val from (Nat.zero_add _).symm) (show (i 1).val = 0 + (i 1).val from (Nat.zero_add _).symm)]
  · have hi : (i 0).val < 1024 := (i 0).isLt
    rw [dif_neg h,
      out_write_hit c _ (outHalf m c 1) ![512, 0] inb_S1024x1024_S512x1024_512_0 i ⟨(i 0).val - 512, by omega⟩ ⟨(i 1).val, (i 1).isLt⟩
        (show (i 0).val = 512 + ((i 0).val - 512) by omega) (show (i 1).val = 0 + (i 1).val from (Nat.zero_add _).symm)]

theorem out_writes (c : Dev nD) (f : Buf (Elt F) ((c : Thread nD τ).loc cc0_stg1_0)) :
    (Memref.whole cc0_stg1_0 : Memref sig .tc .vmem S1024x1024 .bf16).view.writes (Elt F) f
      [⟨Rect.unit (s := S1024x1024) ![512, 0] S512x1024.size inb_S1024x1024_S512x1024_512_0, outHalf m c 1⟩,
       ⟨Rect.unit (s := S1024x1024) ![0, 0] S512x1024.size inb_S1024x1024_S512x1024_0_0, outHalf m c 0⟩] = outAt m c :=
  out_stores m c f

end Cert.Kernel.Proto

end
-- ==== Proof.Bits.Close.lean ====
import proofs.«901052_g7700000000001053_dist_softmax_colshard_i_m1024_n1024_v7x_i32_bf16_1_alg».proof.Proof.Bits.Inv

noncomputable section

namespace Cert.Kernel.Proto

open Cert.Kernel.Topo
open Idealize.ShloMosaic Idealize.ShloMosaic.Rounds
open Idealize.SL.BI Idealize.SL.BI.BIBase
open scoped Idealize.SL.BI

variable {F : FTy → Type} [FloatOps F]

local notation "𝕄" => MT nD τ sig Unit (Elt F) ℕ UU ℕ

variable (m : (ℓ : Loc nD τ sig) → Buf (Elt F) ℓ)

theorem duties_later (g : GSem nD τ sig) : ∀ r, 1 ≤ r → (Rd (F := F) m).duties g r = ∅ :=
  fun r hr => if_neg fun h => absurd h.1 (by omega)

def positions1 (c : Dev nD) : sProp 𝕄 :=
  iprop((bigSep (Finset.univ : Finset (Fin 2 × Fin 7)) fun x => iprop(atPos ER (s1Cell c x.1 x.2.succ) 1 ∅ 0 ∗ atPos ER (r1Cell c x.1 x.2.succ) 1 ∅ 0))
    ∗ (bigSep (Finset.univ : Finset (Fin 2 × Fin 3)) fun x => iprop(atPos ER (s2Cell c x.1 x.2.succ) 1 ∅ 0 ∗ atPos ER (r2Cell c x.1 x.2.succ) 1 ∅ 0)))

/-- A cell whose owner stands past its one round has no duty left, so closing it yields its semaphore at zero. -/
theorem close_cell (K : GSem nD τ sig → ℕ) (g : GSem nD τ sig) :
    iprop(inv m K g ∗ atPos ER g 1 ∅ 0) ⊢ |={Set.univ}=> semVal g 0 :=
  Rounds.cell_close ER (Rd m) (Set.mem_univ (K g)) (fun h => h) (R := 1) (duties_later m g)

theorem close_pair (K : GSem nD τ sig → ℕ) (s r r' : GSem nD τ sig) :
    iprop(iprop(inv m K s ∗ inv m K r ∗ inv m K r') ∗ iprop(atPos ER s 1 ∅ 0 ∗ atPos ER r 1 ∅ 0))
      ⊢ |={Set.univ}=> iprop(semVal s 0 ∗ semVal r 0) := by
  iintro ⟨⟨HIs, HIr, -⟩, Has, Har⟩
  imod (close_cell m K s) $$ [HIs Has] with Hs
  · isplitl [HIs] <;> iassumption
  imod (close_cell m K r) $$ [HIr Har] with Hr
  · isplitl [HIr] <;> iassumption
  imodintro
  isplitl [Hs] <;> iassumption

/-- A family of send and landing cells is closed pair by pair. -/
theorem close_fam {ι : Type} (T : Finset ι) (K : GSem nD τ sig → ℕ) (s r r' : ι → GSem nD τ sig) :
    iprop((bigSep T fun x => iprop(inv m K (s x) ∗ inv m K (r x) ∗ inv m K (r' x)))
        ∗ (bigSep T fun x => iprop(atPos ER (s x) 1 ∅ 0 ∗ atPos ER (r x) 1 ∅ 0)))
      ⊢ |={Set.univ}=> (bigSep T fun x => iprop(semVal (s x) 0 ∗ semVal (r x) 0) : sProp 𝕄) := by
  rw [← bigSep_sep']
  exact (bigSep_mono fun x _ => close_pair m K (s x) (r x) (r' x)).trans (bigSep_fupd _ _)

/-- Over both halves, offsets 0 to n are offset 0 and the successors of 0 to n - 1. -/
theorem bigSep_prod_fin_succ {n : ℕ} (Φ : Fin 2 × Fin (n + 1) → sProp 𝕄) :
    bigSep Finset.univ Φ
      = iprop((bigSep Finset.univ fun ch : Fin 2 => Φ (ch, 0)) ∗ bigSep Finset.univ fun x : Fin 2 × Fin n => Φ (x.1, x.2.succ)) := by
  classical
  rw [bigSep_univ_prod, bigSep_univ_prod (fun x : Fin 2 × Fin n => Φ (x.1, x.2.succ)), ← bigSep_sep']
  refine bigSep_congr fun ch _ => ?_
  rw [Fin.univ_succ, Finset.cons_eq_insert, bigSep_insert (by simp [Fin.succ_ne_zero]), bigSep_map]
  rfl

theorem idle_split (c : Dev nD) :
    (idleSems c : sProp 𝕄) ⊢ iprop((bigSep Finset.univ fun ch : Fin 2 => iprop(semVal (s1Cell c ch 0) 0 ∗ semVal (r1Cell c ch 0) 0))
      ∗ bigSep Finset.univ fun ch : Fin 2 => iprop(semVal (s2Cell c ch 0) 0 ∗ semVal (r2Cell c ch 0) 0)) := by
  unfold idleSems
  rw [← bigSep_sep']
  exact bigSep_mono fun ch _ => Idealize.SL.BI.sep_assoc'

/-- Every used transfer cell is closed; with the eight untouched semaphores, all forty-eight stand at zero. -/
theorem close_all (K : GSem nD τ sig → ℕ) (c : Dev nD) :
    iprop(invs m K c ∗ positions1 c ∗ idleSems c) ⊢ |={Set.univ}=> ownZero c := by
  unfold invs positions1 ownZero
  rw [bigSep_prod_fin_succ (n := 7), bigSep_prod_fin_succ (n := 3)]
  iintro ⟨⟨-, HI1, HI2, -, -⟩, ⟨Hp1, Hp2⟩, Hidle⟩
  imod (close_fam m Finset.univ K (fun x : Fin 2 × Fin 7 => s1Cell c x.1 x.2.succ) (fun x => r1Cell c x.1 x.2.succ)
    (fun x => r1Cell (pp x.2.succ c) x.1 x.2.succ)) $$ [HI1 Hp1] with H1
  · isplitl [HI1] <;> iassumption
  imod (close_fam m Finset.univ K (fun x : Fin 2 × Fin 3 => s2Cell c x.1 x.2.succ) (fun x => r2Cell c x.1 x.2.succ)
    (fun x => r2Cell (zp x.2.succ c) x.1 x.2.succ)) $$ [HI2 Hp2] with H2
  · isplitl [HI2] <;> iassumption
  ihave Hi := (idle_split (F := F) c) $$ Hidle
  icases Hi with ⟨Hi1, Hi2⟩
  imodintro
  isplitl [Hi1 H1]
  · isplitl [Hi1] <;> iassumption
  isplitl [Hi2] <;> iassumption

end Cert.Kernel.Proto

end
-- ==== Proof.Bits.Finish.lean ====
import proofs.«901052_g7700000000001053_dist_softmax_colshard_i_m1024_n1024_v7x_i32_bf16_1_alg».proof.Proof.Bits.Close
import proofs.«901052_g7700000000001053_dist_softmax_colshard_i_m1024_n1024_v7x_i32_bf16_1_alg».proof.Proof.Bits.Surgery
import proofs.«901052_g7700000000001053_dist_softmax_colshard_i_m1024_n1024_v7x_i32_bf16_1_alg».proof.Proof.Bits.Before

noncomputable section

namespace Cert.Kernel.Proto

open Idealize.ShloMosaic Idealize.ShloMosaic.TcCoe
open Idealize.SL.RA Idealize.SL.BI Idealize.SL.BI.BIBase Idealize.SL.Sem
open scoped Idealize.SL.BI

variable {F : FTy → Type} [FloatOps F]

local notation "𝕄" => MT nD τ sig Unit (Elt F) ℕ UU ℕ

variable (m : (ℓ : Loc nD τ sig) → Buf (Elt F) ℓ) (ρ : Dev nD → PrngReg)

/-- The share of a slot 0 that was kept and the shares its copies give back are the slot outright. -/
theorem pslot0_join (c : Dev nD) (ch : Fin 2) (g : Buf (Elt F) ((pslot 0 ch).view.loc (c : Thread nD τ))) :
    (iprop(((pslot 0 ch).view.loc (c : Thread nD τ) ↦[(pslot 0 ch).view.set]{sh8 0} g) ∗ send1Pay c ch 1 ∗ send1Pay c ch 2
        ∗ send1Pay c ch 3 ∗ send1Pay c ch 4 ∗ send1Pay c ch 5 ∗ send1Pay c ch 6 ∗ send1Pay c ch 7) : sProp 𝕄)
      ⊢ pslotAny c 0 ch := by
  unfold send1Pay pslotAny
  iintro ⟨H0, ⟨%f1, H1⟩, ⟨%f2, H2⟩, ⟨%f3, H3⟩, ⟨%f4, H4⟩, ⟨%f5, H5⟩, ⟨%f6, H6⟩, ⟨%f7, H7⟩⟩
  iexists g
  iapply (share8_join (pslot 0 ch).view.set g f1 f2 f3 f4 f5 f6 f7)
  iframe

theorem zslot0_join (c : Dev nD) (ch : Fin 2) (g : Buf (Elt F) ((zslot 0 ch).view.loc (c : Thread nD τ))) :
    (iprop(((zslot 0 ch).view.loc (c : Thread nD τ) ↦[(zslot 0 ch).view.set]{sh4 0} g) ∗ send2Pay c ch 1 ∗ send2Pay c ch 2
        ∗ send2Pay c ch 3) : sProp 𝕄)
      ⊢ zslotAny c 0 ch := by
  unfold send2Pay zslotAny
  iintro ⟨H0, ⟨%f1, H1⟩, ⟨%f2, H2⟩, ⟨%f3, H3⟩⟩
  iexists g
  iapply (share4_join (zslot 0 ch).view.set g f1 f2 f3)
  iframe

/-- The end of the body: the cells closed, each buffer rejoined from its slots, nothing owed, the result block in place. -/
theorem body_finish_wp (c : Dev nD) (K : GSem nD τ sig → ℕ) (W : Waits sig Unit) (d0) (f0 : Buf (Elt F) ((c : Thread nD τ).loc cc0_stg0_0)) (f1 : Buf (Elt F) ((c : Thread nD τ).loc cc0_stg1_0)) (hf0 : f0 = (dats m ρ 0 c).before (0 : Fin 2) t₀ d0) (hf1 : f1 = outAt m c) (gp0 gp1 : Buf (Elt F) ((c : Thread nD τ).loc cc0_scratch0)) (gz0 gz1 : Buf (Elt F) ((c : Thread nD τ).loc cc0_scratch1)) :
 iprop(invs m K c ∗ positions1 c ∗ idleSems c
  ∗ (pslotAny c 7 0 ∗ pslotAny c 7 1 ∗ pslotAny c 6 0 ∗ pslotAny c 6 1 ∗ pslotAny c 5 0 ∗ pslotAny c 5 1 ∗ pslotAny c 4 0 ∗ pslotAny c 4 1 ∗ pslotAny c 3 0 ∗ pslotAny c 3 1 ∗ pslotAny c 2 0 ∗ pslotAny c 2 1 ∗ pslotAny c 1 0 ∗ pslotAny c 1 1)
  ∗ (((pslot 0 0).view.loc (c : Thread nD τ) ↦[(pslot 0 0).view.set]{sh8 0} gp0) ∗ send1Pay c 0 1 ∗ send1Pay c 0 2 ∗ send1Pay c 0 3 ∗ send1Pay c 0 4 ∗ send1Pay c 0 5 ∗ send1Pay c 0 6 ∗ send1Pay c 0 7)
  ∗ (((pslot 0 1).view.loc (c : Thread nD τ) ↦[(pslot 0 1).view.set]{sh8 0} gp1) ∗ send1Pay c 1 1 ∗ send1Pay c 1 2 ∗ send1Pay c 1 3 ∗ send1Pay c 1 4 ∗ send1Pay c 1 5 ∗ send1Pay c 1 6 ∗ send1Pay c 1 7)
  ∗ (zslotAny c 3 0 ∗ zslotAny c 3 1 ∗ zslotAny c 2 0 ∗ zslotAny c 2 1 ∗ zslotAny c 1 0 ∗ zslotAny c 1 1)
  ∗ (((zslot 0 0).view.loc (c : Thread nD τ) ↦[(zslot 0 0).view.set]{sh4 0} gz0) ∗ send2Pay c 0 1 ∗ send2Pay c 0 2 ∗ send2Pay c 0 3)
  ∗ (((zslot 0 1).view.loc (c : Thread nD τ) ↦[(zslot 0 1).view.set]{sh4 0} gz1) ∗ send2Pay c 1 1 ∗ send2Pay c 1 2 ∗ send2Pay c 1 3)
  ∗ owes (c : Thread nD τ) 0 W ∗ (((c : Thread nD τ).loc cc0_stg0_0) ↦{fullShare} f0) ∗ (((c : Thread nD τ).loc cc0_stg1_0) ↦{fullShare} f1))
 ⊢ wp frame (wpE (defs₀ (F := F)) 𝒱₀ c none) Set.univ (Prog.ret (⟨⟩ : PUnit) : Prog (TpuEff nD τ sig (Elt F) Λ₀ .tc) PUnit) (fun _ => bodyPost m ρ c) := by
  show _ ⊢ iprop(|={Set.univ}=> bodyPost m ρ c)
  have hx : f0 = xblk m c := hf0.trans (before0_eq m ρ c d0)
  iintro ⟨#HI, Hpos, Hidle, ⟨P70, P71, P60, P61, P50, P51, P40, P41, P30, P31, P20, P21, P10, P11⟩, Hs0, Hs1,
    ⟨Z30, Z31, Z20, Z21, Z10, Z11⟩, Ht0, Ht1, HO, Hx, Hout⟩
  imod (close_all m K c) $$ [Hpos Hidle] with Hzero
  · isplitr; · iexact HI
    iframe
  ihave P00 := (pslot0_join (F := F) c 0 gp0) $$ Hs0
  ihave P01 := (pslot0_join (F := F) c 1 gp1) $$ Hs1
  ihave Z00 := (zslot0_join (F := F) c 0 gz0) $$ Ht0
  ihave Z01 := (zslot0_join (F := F) c 1 gz1) $$ Ht1
  ihave HP := (pB_join (F := F) c) $$ [P70 P71 P60 P61 P50 P51 P40 P41 P30 P31 P20 P21 P10 P11 P00 P01]
  · iframe
  ihave HZ := (zB_join (F := F) c) $$ [Z30 Z31 Z20 Z21 Z10 Z11 Z00 Z01]
  · iframe
  imodintro
  unfold bodyPost Φ₁ bufs Pipeline.Dat.owesAt Pipeline.owesWithin
  rw [show (dats m ρ 0 c).owed t₀.succ = 0 from rfl]
  isplitl [HP HZ Hzero]
  · iframe
  isplitl [HO]
  · iexists W
    isplitr; · ipureintro; exact fun _ _ => Or.inl trivial
    iexact HO
  isplitl [Hx]
  · iexists f0
    isplitr; · ipureintro; exact hx
    iexact Hx
  iexists f1
  isplitr; · ipureintro; exact hf1
  iexact Hout

end Cert.Kernel.Proto

end
-- ==== Proof.Bits.Body.lean ====
import proofs.«901052_g7700000000001053_dist_softmax_colshard_i_m1024_n1024_v7x_i32_bf16_1_alg».proof.Proof.Bits.Inv
import proofs.«901052_g7700000000001053_dist_softmax_colshard_i_m1024_n1024_v7x_i32_bf16_1_alg».proof.Proof.Bits.Surgery
import proofs.«901052_g7700000000001053_dist_softmax_colshard_i_m1024_n1024_v7x_i32_bf16_1_alg».proof.Proof.Bits.Sends
import proofs.«901052_g7700000000001053_dist_softmax_colshard_i_m1024_n1024_v7x_i32_bf16_1_alg».proof.Proof.Bits.Before
import proofs.«901052_g7700000000001053_dist_softmax_colshard_i_m1024_n1024_v7x_i32_bf16_1_alg».proof.Proof.Bits.EntryWait
import proofs.«901052_g7700000000001053_dist_softmax_colshard_i_m1024_n1024_v7x_i32_bf16_1_alg».proof.Proof.Bits.SlabHolds
import proofs.«901052_g7700000000001053_dist_softmax_colshard_i_m1024_n1024_v7x_i32_bf16_1_alg».proof.Proof.Bits.OwnRow
import proofs.«901052_g7700000000001053_dist_softmax_colshard_i_m1024_n1024_v7x_i32_bf16_1_alg».proof.Proof.Bits.OutStores
import proofs.«901052_g7700000000001053_dist_softmax_colshard_i_m1024_n1024_v7x_i32_bf16_1_alg».proof.Proof.Bits.Finish

noncomputable section

namespace Cert.Kernel.Proto

open Cert.Kernel Cert.Kernel.Gen Cert.Kernel.Topo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

open Lean in
macro "ichain " h:ident " as " p:ident n:num k:num : tactic => do
  let nn := n.getNat
  let kk := k.getNat
  let outer (i : Nat) : Ident := mkIdentFrom p (p.getId.appendAfter (toString i))
  let inner (i j : Nat) : Ident := mkIdentFrom p (p.getId.appendAfter (toString i ++ "_" ++ toString j))
  let mut tacs : Array (TSyntax `tactic) := #[]
  for i in [1:nn+1] do
    let hi := outer i
    if i < nn then
      tacs := tacs.push (← `(tactic| icases $h:ident with ⟨$hi:ident, $h:ident⟩))
    else
      tacs := tacs.push (← `(tactic| irename $h:ident => $hi:ident))
    if kk > 1 then
      for j in [1:kk+1] do
        let hij := inner i j
        if j < kk then
          tacs := tacs.push (← `(tactic| icases $hi:ident with ⟨$hij:ident, $hi:ident⟩))
        else
          tacs := tacs.push (← `(tactic| irename $hi:ident => $hij:ident))
  `(tactic| ($[$tacs];*))

section Keep

variable (m : (ℓ : Loc nD τ sig) → Buf (Elt F) ℓ)

/-- The cells' invariants under a name that later unfolding leaves alone: they are wanted whole when the cells are closed. -/
def invsKept (K : GSem nD τ sig → ℕ) (c : Dev nD) : sProp 𝕄 := invs m K c

instance invsKept_persistent (K : GSem nD τ sig → ℕ) (c : Dev nD) : BI.Persistent (invsKept m K c) := by
  unfold invsKept; infer_instance

theorem invs_keep (K : GSem nD τ sig → ℕ) (c : Dev nD) : invs m K c ⊢ iprop(invsKept m K c ∗ invs m K c) := by
  iintro #H
  isplitl []
  · unfold invsKept; iexact H
  · iexact H

theorem invsKept_out (K : GSem nD τ sig → ℕ) (c : Dev nD) : invsKept m K c ⊢ invs m K c := by
  unfold invsKept; exact Entails.rfl

/-- A slot's kept share and the seven set aside are the slot outright. -/
theorem pslot_back (c : Dev nD) (d : Fin 8) (ch : Fin 2) (g r : Buf (Elt F) ((c : Thread nD τ).loc cc0_scratch0)) :
    iprop(((pslot d ch).view.loc (c : Thread nD τ) ↦[(pslot d ch).view.set]{sh8 0} g) ∗ rest8 (pslot d ch).view.set r)
      ⊢ pslotAny c d ch := by
  unfold rest8 pslotAny
  iintro ⟨H0, H1, H2, H3, H4, H5, H6, H7⟩
  iexists g
  iapply (share8_join _ g r r r r r r r)
  iframe

theorem zslot_back (c : Dev nD) (d : Fin 4) (ch : Fin 2) (g r : Buf (Elt F) ((c : Thread nD τ).loc cc0_scratch1)) :
    iprop(((zslot d ch).view.loc (c : Thread nD τ) ↦[(zslot d ch).view.set]{sh4 0} g) ∗ rest4 (zslot d ch).view.set r)
      ⊢ zslotAny c d ch := by
  unfold rest4 zslotAny
  iintro ⟨H0, H1, H2, H3⟩
  iexists g
  iapply (share4_join _ g r r r)
  iframe

theorem owes_zero_add (c : Dev nD) (t : CellTallies nD τ sig Unit) (W : Waits sig Unit) :
    (owes (c : Thread nD τ) t W : sProp 𝕄) ⊢ owes (c : Thread nD τ) (0 + t) W := by
  rw [zero_add]

end Keep

open Lean in
macro "plane_send " ch:num d:num : tactic => do
  let chn := ch.getNat; let dn := d.getNat
  let i := 7 * chn + dn
  let id (s : String) : Ident := mkIdent (Name.mkSimple s)
  let i1 := id s!"IA{i}_1"; let i2 := id s!"IA{i}_3"
  let t1 := id s!"TA{i}_1"; let t2 := id s!"TA{i}_2"
  let r1 := id s!"RA{i}_1"; let r2 := id s!"RA{i}_3"
  let s := id s!"S{chn}{dn}"; let g := id s!"G{dn}{chn}"; let gd := id s!"g{dn}{chn}"
  let hs := id s!"hs{chn}"; let cs := id s!"CS{chn}{dn}"
  let mI := id "m"; let kI := id "K"; let cI := id "c"; let ho := id "HO"
  `(tactic| (iapply (wp_send_slot $mI $kI $cI _ _ rfl (pslot 0 $ch) (pslot $d $ch) (s1 $ch $d) (r1 $ch $d) (sh8 $d) _ _
                (tb_duties_dma $mI $cI _ (by decide)) (tb_duties_dma $mI _ _ (by decide)) rfl (tb_payload_s1 $mI $cI $ch $d (by decide) 0 0)
                (recv1_from $mI $cI $ch $d (by decide)) _ $gd $hs _ _) $$ [$s:ident $g:ident $ho:ident $t1:ident $t2:ident]
             · iframe $i1:ident $i2:ident $r1:ident $r2:ident ∗
             iintro ⟨$cs:ident, $ho:ident⟩))

open Lean in
macro "column_send " ch:num d:num : tactic => do
  let chn := ch.getNat; let dn := d.getNat
  let i := 3 * chn + dn
  let id (s : String) : Ident := mkIdent (Name.mkSimple s)
  let i1 := id s!"IB{i}_1"; let i2 := id s!"IB{i}_3"
  let t1 := id s!"TB{i}_1"; let t2 := id s!"TB{i}_2"
  let r1 := id s!"RB{i}_1"; let r2 := id s!"RB{i}_3"
  let s := id s!"Y{chn}{dn}"; let g := id s!"Z{dn}{chn}"; let gd := id s!"h{dn}{chn}"
  let hs := id s!"hz{chn}"; let cs := id s!"CY{chn}{dn}"
  let mI := id "m"; let kI := id "K"; let cI := id "c"; let ho := id "HO"
  `(tactic| (iapply (wp_send_slot $mI $kI $cI _ _ rfl (zslot 0 $ch) (zslot $d $ch) (s2 $ch $d) (r2 $ch $d) (sh4 $d) _ _
                (tb_duties_dma $mI $cI _ (by decide)) (tb_duties_dma $mI _ _ (by decide)) rfl (tb_payload_s2 $mI $cI $ch $d (by decide) 0 0)
                (recv2_from $mI $cI $ch $d (by decide)) _ $gd $hs _ _) $$ [$s:ident $g:ident $ho:ident $t1:ident $t2:ident]
             · iframe $i1:ident $i2:ident $r1:ident $r2:ident ∗
             iintro ⟨$cs:ident, $ho:ident⟩))

macro "run_on" : tactic => `(tactic| sl_exec (disch := (simp only [sl_canon])))

macro "pback" : tactic => `(tactic| (iapply (pslot_back _ _ _ _ _); iframe))
macro "zback" : tactic => `(tactic| (iapply (zslot_back _ _ _ _ _); iframe))

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_f23 (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
theorem bigSep_f27 (Φ : Fin 2 × Fin 7 → sProp 𝕄) :
    bigSep Finset.univ Φ = iprop(Φ (0, 0) ∗ Φ (0, 1) ∗ Φ (0, 2) ∗ Φ (0, 3) ∗ Φ (0, 4) ∗ Φ (0, 5) ∗ Φ (0, 6)
      ∗ Φ (1, 0) ∗ Φ (1, 1) ∗ Φ (1, 2) ∗ Φ (1, 3) ∗ Φ (1, 4) ∗ Φ (1, 5) ∗ Φ (1, 6)) :=
  bigSep_univ_eq_bigSepL [(0, 0), (0, 1), (0, 2), (0, 3), (0, 4), (0, 5), (0, 6), (1, 0), (1, 1), (1, 2), (1, 3), (1, 4), (1, 5), (1, 6)]
    (by decide) (by decide) Φ

theorem offs : (0 : Fin 7).succ = (1 : Fin 8) ∧ (1 : Fin 7).succ = (2 : Fin 8) ∧ (2 : Fin 7).succ = (3 : Fin 8) ∧ (3 : Fin 7).succ = (4 : Fin 8)
    ∧ (4 : Fin 7).succ = (5 : Fin 8) ∧ (5 : Fin 7).succ = (6 : Fin 8) ∧ (6 : Fin 7).succ = (7 : Fin 8)
    ∧ (0 : Fin 3).succ = (1 : Fin 4) ∧ (1 : Fin 3).succ = (2 : Fin 4) ∧ (2 : Fin 3).succ = (3 : Fin 4)
    ∧ dP 0 = (0 : D) ∧ dP 1 = (1 : D) ∧ dP 2 = (2 : D) ∧ dP 3 = (3 : D) ∧ dP 4 = (4 : D) ∧ dP 5 = (5 : D) ∧ dP 6 = (6 : D)
    ∧ dZ 0 = (7 : D) ∧ dZ 1 = (8 : D) ∧ dZ 2 = (9 : D) := by decide

set_option quotPrecheck false in
local notation "pAny(" p ", " d ", " ch ")" =>
  iprop(∃ f, (pslot d ch).view.loc (p : Thread nD τ) ↦[(pslot d ch).view.set]{fullShare} f)
set_option quotPrecheck false in
local notation "zAny(" p ", " d ", " ch ")" =>
  iprop(∃ f, (zslot d ch).view.loc (p : Thread nD τ) ↦[(zslot d ch).view.set]{fullShare} f)

section Pays

variable (m : (ℓ : Loc nD τ sig) → Buf (Elt F) ℓ)

/-- On the entry cell of its plane peer at offset `e` a device pays duty `e - 1`, handing over its own two slots `-e`. -/
theorem payload_on_pp (c : Dev nD) (e d : Fin 8) (k : D) (hk : k.val < 7)
    (hd : d = -(⟨k.val + 1, by omega⟩ : Fin 8)) (he : e = -d) :
    (Rd (F := F) m).payload (barCell (pp e c)) 0 k
      = iprop(pAny(c, d, 0) ∗ pAny(c, d, 1) ∗ reached ER (r1Cell c 0 d) 0 ∗ reached ER (r1Cell c 1 d) 0) := by
  subst hd he
  rw [tb_payload_bar]
  unfold barPay
  rw [dif_pos hk, pp_neg']
  rfl

theorem payload_on_zp (c : Dev nD) (e d : Fin 4) (k : D) (hk : ¬ k.val < 7)
    (hd : d = -(⟨k.val - 6, by have := k.isLt; omega⟩ : Fin 4)) (he : e = -d) :
    (Rd (F := F) m).payload (barCell (zp e c)) 0 k
      = iprop(zAny(c, d, 0) ∗ zAny(c, d, 1) ∗ reached ER (r2Cell c 0 d) 0 ∗ reached ER (r2Cell c 1 d) 0) := by
  subst hd he
  rw [tb_payload_bar]
  unfold barPay
  rw [dif_neg hk, zp_neg']
  rfl

theorem pay_pp1 (c : Dev nD) : (Rd (F := F) m).payload (barCell (pp 1 c)) 0 (0 : D)
    = iprop(pAny(c, 7, 0) ∗ pAny(c, 7, 1) ∗ reached ER (r1Cell c 0 7) 0 ∗ reached ER (r1Cell c 1 7) 0) :=
  payload_on_pp m c 1 7 0 (by decide) (by decide) (by decide)
theorem pay_pp2 (c : Dev nD) : (Rd (F := F) m).payload (barCell (pp 2 c)) 0 (1 : D)
    = iprop(pAny(c, 6, 0) ∗ pAny(c, 6, 1) ∗ reached ER (r1Cell c 0 6) 0 ∗ reached ER (r1Cell c 1 6) 0) :=
  payload_on_pp m c 2 6 1 (by decide) (by decide) (by decide)
theorem pay_pp3 (c : Dev nD) : (Rd (F := F) m).payload (barCell (pp 3 c)) 0 (2 : D)
    = iprop(pAny(c, 5, 0) ∗ pAny(c, 5, 1) ∗ reached ER (r1Cell c 0 5) 0 ∗ reached ER (r1Cell c 1 5) 0) :=
  payload_on_pp m c 3 5 2 (by decide) (by decide) (by decide)
theorem pay_pp4 (c : Dev nD) : (Rd (F := F) m).payload (barCell (pp 4 c)) 0 (3 : D)
    = iprop(pAny(c, 4, 0) ∗ pAny(c, 4, 1) ∗ reached ER (r1Cell c 0 4) 0 ∗ reached ER (r1Cell c 1 4) 0) :=
  payload_on_pp m c 4 4 3 (by decide) (by decide) (by decide)
theorem pay_pp5 (c : Dev nD) : (Rd (F := F) m).payload (barCell (pp 5 c)) 0 (4 : D)
    = iprop(pAny(c, 3, 0) ∗ pAny(c, 3, 1) ∗ reached ER (r1Cell c 0 3) 0 ∗ reached ER (r1Cell c 1 3) 0) :=
  payload_on_pp m c 5 3 4 (by decide) (by decide) (by decide)
theorem pay_pp6 (c : Dev nD) : (Rd (F := F) m).payload (barCell (pp 6 c)) 0 (5 : D)
    = iprop(pAny(c, 2, 0) ∗ pAny(c, 2, 1) ∗ reached ER (r1Cell c 0 2) 0 ∗ reached ER (r1Cell c 1 2) 0) :=
  payload_on_pp m c 6 2 5 (by decide) (by decide) (by decide)
theorem pay_pp7 (c : Dev nD) : (Rd (F := F) m).payload (barCell (pp 7 c)) 0 (6 : D)
    = iprop(pAny(c, 1, 0) ∗ pAny(c, 1, 1) ∗ reached ER (r1Cell c 0 1) 0 ∗ reached ER (r1Cell c 1 1) 0) :=
  payload_on_pp m c 7 1 6 (by decide) (by decide) (by decide)
theorem pay_zp1 (c : Dev nD) : (Rd (F := F) m).payload (barCell (zp 1 c)) 0 (7 : D)
    = iprop(zAny(c, 3, 0) ∗ zAny(c, 3, 1) ∗ reached ER (r2Cell c 0 3) 0 ∗ reached ER (r2Cell c 1 3) 0) :=
  payload_on_zp m c 1 3 7 (by decide) (by decide) (by decide)
theorem pay_zp2 (c : Dev nD) : (Rd (F := F) m).payload (barCell (zp 2 c)) 0 (8 : D)
    = iprop(zAny(c, 2, 0) ∗ zAny(c, 2, 1) ∗ reached ER (r2Cell c 0 2) 0 ∗ reached ER (r2Cell c 1 2) 0) :=
  payload_on_zp m c 2 2 8 (by decide) (by decide) (by decide)
theorem pay_zp3 (c : Dev nD) : (Rd (F := F) m).payload (barCell (zp 3 c)) 0 (9 : D)
    = iprop(zAny(c, 1, 0) ∗ zAny(c, 1, 1) ∗ reached ER (r2Cell c 0 1) 0 ∗ reached ER (r2Cell c 1 1) 0) :=
  payload_on_zp m c 3 1 9 (by decide) (by decide) (by decide)

end Pays

section Ledger

/-- The landings still owed at the three waits: the second half's column landings; all six column landings; all twenty. -/
def colOwed1 (c : Dev nD) : CellTallies nD τ sig Unit := tallyAt (r2Cell (zp 3 c) 1 3) () NP + tallyAt (r2Cell (zp 2 c) 1 2) () NP + tallyAt (r2Cell (zp 1 c) 1 1) () NP
def colOwed (c : Dev nD) : CellTallies nD τ sig Unit := colOwed1 c + tallyAt (r2Cell (zp 3 c) 0 3) () NP + tallyAt (r2Cell (zp 2 c) 0 2) () NP + tallyAt (r2Cell (zp 1 c) 0 1) () NP
def landOwed (c : Dev nD) : CellTallies nD τ sig Unit := colOwed c
    + tallyAt (r1Cell (pp 7 c) 1 7) () NP + tallyAt (r1Cell (pp 6 c) 1 6) () NP + tallyAt (r1Cell (pp 5 c) 1 5) () NP + tallyAt (r1Cell (pp 4 c) 1 4) () NP + tallyAt (r1Cell (pp 3 c) 1 3) () NP + tallyAt (r1Cell (pp 2 c) 1 2) () NP + tallyAt (r1Cell (pp 1 c) 1 1) () NP
    + tallyAt (r1Cell (pp 7 c) 0 7) () NP + tallyAt (r1Cell (pp 6 c) 0 6) () NP + tallyAt (r1Cell (pp 5 c) 0 5) () NP + tallyAt (r1Cell (pp 4 c) 0 4) () NP + tallyAt (r1Cell (pp 3 c) 0 3) () NP + tallyAt (r1Cell (pp 2 c) 0 2) () NP + tallyAt (r1Cell (pp 1 c) 0 1) () NP

/-- What a device owes at entry as one sum, the summand paid first standing last. -/
theorem O₀_eq (c : Dev nD) : O₀ c = landOwed c
    + tallyAt (barCell (zp 3 c)) () 1 + tallyAt (barCell (zp 2 c)) () 1 + tallyAt (barCell (zp 1 c)) () 1
    + tallyAt (barCell (pp 7 c)) () 1 + tallyAt (barCell (pp 6 c)) () 1 + tallyAt (barCell (pp 5 c)) () 1
    + tallyAt (barCell (pp 4 c)) () 1 + tallyAt (barCell (pp 3 c)) () 1 + tallyAt (barCell (pp 2 c)) () 1
    + tallyAt (barCell (pp 1 c)) () 1 := by
  unfold O₀ landOwed colOwed colOwed1
  rw [Fin.sum_univ_seven, Fin.sum_univ_three, Fin.sum_univ_two, Fin.sum_univ_seven, Fin.sum_univ_seven,
    Fin.sum_univ_two, Fin.sum_univ_three, Fin.sum_univ_three]
  simp only [offs]
  abel

/-- `O` owes only at cells of `L`, each of level above `n`. -/
def Above (n : ℕ) (O : CellTallies nD τ sig Unit) : Prop := ∀ g u, 0 < O g u → u ∈ L g ∧ n < lv g u

theorem mem_L (t : Dev nD) (sm : SemLoc sig) : () ∈ L ((t : Thread nD τ), sm) := by
  unfold L; rw [if_pos rfl]; exact Finset.mem_singleton_self _

theorem Above.add {n : ℕ} {O₁ O₂ : CellTallies nD τ sig Unit} (h₁ : Above n O₁) (h₂ : Above n O₂) : Above n (O₁ + O₂) :=
  fun g u h => (Pipeline.add_pos_cases h).elim (h₁ g u) (h₂ g u)
theorem above_r1 (n : ℕ) (p : Dev nD) (ch : Fin 2) (d : Fin 8) (k : ℕ) (hd : d ≠ 0) (h : n < 2 + ch.val) :
    Above n (tallyAt (r1Cell p ch d) () k) := fun g u h0 => by
  obtain ⟨rfl, rfl⟩ := Pipeline.tallyAt_pos h0
  refine ⟨mem_L p _, ?_⟩
  show n < lv (r1Cell p ch d) ()
  unfold lv; rw [kindOf_r1 ch d hd]; exact h
theorem above_r2 (n : ℕ) (p : Dev nD) (ch : Fin 2) (d : Fin 4) (k : ℕ) (hd : d ≠ 0) (h : n < 4 + ch.val) :
    Above n (tallyAt (r2Cell p ch d) () k) := fun g u h0 => by
  obtain ⟨rfl, rfl⟩ := Pipeline.tallyAt_pos h0
  refine ⟨mem_L p _, ?_⟩
  show n < lv (r2Cell p ch d) ()
  unfold lv; rw [kindOf_r2 ch d hd]; exact h

theorem mw_bar (c : Dev nD) (O : CellTallies nD τ sig Unit) (h : Above 1 O) :
    (levAts L lv : sProp 𝕄) ⊢ MayWait (c : Thread nD τ) (.reg barS) () O :=
  Pipeline.mayWait_of_levAts (mem_L c _) (fun g u hg => by
    have := h g u hg; refine ⟨this.1, ?_⟩; show lv (barCell c) () < _; unfold lv; rw [kindOf_bar]; exact this.2)
theorem mw_r1 (c : Dev nD) (ch : Fin 2) (d : Fin 8) (hd : d ≠ 0) (O : CellTallies nD τ sig Unit) (h : Above (2 + ch.val) O) :
    (levAts L lv : sProp 𝕄) ⊢ MayWait (c : Thread nD τ) (.dma (r1 ch d)) () O :=
  Pipeline.mayWait_of_levAts (mem_L c _) (fun g u hg => by
    have := h g u hg; refine ⟨this.1, ?_⟩; show lv (r1Cell c ch d) () < _; unfold lv; rw [kindOf_r1 ch d hd]; exact this.2)
theorem mw_r2 (c : Dev nD) (ch : Fin 2) (d : Fin 4) (hd : d ≠ 0) (O : CellTallies nD τ sig Unit) (h : Above (4 + ch.val) O) :
    (levAts L lv : sProp 𝕄) ⊢ MayWait (c : Thread nD τ) (.dma (r2 ch d)) () O :=
  Pipeline.mayWait_of_levAts (mem_L c _) (fun g u hg => by
    have := h g u hg; refine ⟨this.1, ?_⟩; show lv (r2Cell c ch d) () < _; unfold lv; rw [kindOf_r2 ch d hd]; exact this.2)

end Ledger

section Debts

set_option quotPrecheck false in
local notation "aR1(" c ", " n ", " ch ", " d ")" => above_r1 n (pp d c) ch d NP (by decide) (by decide)
set_option quotPrecheck false in
local notation "aR2(" c ", " n ", " ch ", " d ")" => above_r2 n (zp d c) ch d NP (by decide) (by decide)

/-- Each wait lies below everything still owed at it. -/
theorem above_entry (c : Dev nD) : Above 1 (landOwed c) := by
  unfold landOwed colOwed colOwed1
  exact aR2(c, 1, 1, 3) |>.add aR2(c, 1, 1, 2) |>.add aR2(c, 1, 1, 1) |>.add aR2(c, 1, 0, 3) |>.add aR2(c, 1, 0, 2) |>.add aR2(c, 1, 0, 1)
    |>.add aR1(c, 1, 1, 7) |>.add aR1(c, 1, 1, 6) |>.add aR1(c, 1, 1, 5) |>.add aR1(c, 1, 1, 4) |>.add aR1(c, 1, 1, 3) |>.add aR1(c, 1, 1, 2)
    |>.add aR1(c, 1, 1, 1)
    |>.add aR1(c, 1, 0, 7) |>.add aR1(c, 1, 0, 6) |>.add aR1(c, 1, 0, 5) |>.add aR1(c, 1, 0, 4) |>.add aR1(c, 1, 0, 3) |>.add aR1(c, 1, 0, 2)
    |>.add aR1(c, 1, 0, 1)
theorem above_plane0 (c : Dev nD) : Above (2 + (0 : Fin 2).val) (colOwed c) := by
  unfold colOwed colOwed1
  exact aR2(c, 2 + (0 : Fin 2).val, 1, 3) |>.add aR2(c, 2 + (0 : Fin 2).val, 1, 2) |>.add aR2(c, 2 + (0 : Fin 2).val, 1, 1)
    |>.add aR2(c, 2 + (0 : Fin 2).val, 0, 3) |>.add aR2(c, 2 + (0 : Fin 2).val, 0, 2) |>.add aR2(c, 2 + (0 : Fin 2).val, 0, 1)
theorem above_plane1 (c : Dev nD) : Above (2 + (1 : Fin 2).val) (colOwed1 c) := by
  unfold colOwed1
  exact aR2(c, 2 + (1 : Fin 2).val, 1, 3) |>.add aR2(c, 2 + (1 : Fin 2).val, 1, 2) |>.add aR2(c, 2 + (1 : Fin 2).val, 1, 1)

end Debts

theorem stg0_view (c : Dev nD) (f : Buf (Elt F) ((c : Thread nD τ).loc cc0_stg0_0)) :
    ((((c : Thread nD τ).loc cc0_stg0_0) ↦{fullShare} f) : sProp 𝕄)
      ⊢ ((Memref.whole cc0_stg0_0 : Memref sig .tc .vmem S1024x1024 .f32).view.loc (c : Thread nD τ) ↦{fullShare} f) :=
  Entails.rfl
theorem stg1_view (c : Dev nD) (f : Buf (Elt F) ((c : Thread nD τ).loc cc0_stg1_0)) :
    ((((c : Thread nD τ).loc cc0_stg1_0) ↦{fullShare} f) : sProp 𝕄)
      ⊢ ((Memref.whole cc0_stg1_0 : Memref sig .tc .vmem S1024x1024 .bf16).view.loc (c : Thread nD τ) ↦{fullShare} f) :=
  Entails.rfl

section Entry

variable (m : (ℓ : Loc nD τ sig) → Buf (Elt F) ℓ)

/-- The ten entry units bring the slots this device copies into, on its ten peers. -/
theorem bar_open (c : Dev nD) :
    bigSep (Finset.univ : Finset D) (fun d => (Rd (F := F) m).payload (barCell c) 0 d)
      ⊢ iprop((pAny(pp 7 c, 7, 0) ∗ pAny(pp 7 c, 7, 1)) ∗ (pAny(pp 6 c, 6, 0) ∗ pAny(pp 6 c, 6, 1))
        ∗ (pAny(pp 5 c, 5, 0) ∗ pAny(pp 5 c, 5, 1)) ∗ (pAny(pp 4 c, 4, 0) ∗ pAny(pp 4 c, 4, 1))
        ∗ (pAny(pp 3 c, 3, 0) ∗ pAny(pp 3 c, 3, 1)) ∗ (pAny(pp 2 c, 2, 0) ∗ pAny(pp 2 c, 2, 1))
        ∗ (pAny(pp 1 c, 1, 0) ∗ pAny(pp 1 c, 1, 1))
        ∗ (zAny(zp 3 c, 3, 0) ∗ zAny(zp 3 c, 3, 1)) ∗ (zAny(zp 2 c, 2, 0) ∗ zAny(zp 2 c, 2, 1))
        ∗ (zAny(zp 1 c, 1, 0) ∗ zAny(zp 1 c, 1, 1))) := by
  have hrest := rest_bar m c
  rw [Finset.sdiff_empty, tb_duties_bar] at hrest
  rw [hrest, barPay_0, barPay_1, barPay_2, barPay_3, barPay_4, barPay_5, barPay_6, barPay_7, barPay_8, barPay_9]
  unfold pslotAny zslotAny
  iintro ⟨⟨A0, B0, -, -⟩, ⟨A1, B1, -, -⟩, ⟨A2, B2, -, -⟩, ⟨A3, B3, -, -⟩, ⟨A4, B4, -, -⟩, ⟨A5, B5, -, -⟩, ⟨A6, B6, -, -⟩,
    ⟨A7, B7, -, -⟩, ⟨A8, B8, -, -⟩, ⟨A9, B9, -, -⟩⟩
  iframe

end Entry

attribute [local sl_canon] Topo.dev1_eq Topo.dev2_eq Topo.dev3_eq Topo.dev4_eq Topo.dev5_eq Topo.dev6_eq Topo.dev7_eq
  Topo.dev8_eq Topo.dev9_eq Topo.dev10_eq Topo.dev11_eq Topo.dev12_eq Topo.dev13_eq Topo.dev14_eq Topo.dev15_eq
  Topo.dev16_eq Topo.dev17_eq Topo.dev18_eq Topo.dev19_eq Topo.dev20_eq Topo.dev21_eq Topo.dev22_eq Topo.dev23_eq
  Topo.dev24_eq Topo.dev25_eq Topo.dev26_eq Topo.dev27_eq Topo.dev28_eq Topo.dev29_eq Topo.dev30_eq

attribute [local sl_rounds] tb_duties_bar tb_duties_dma tb_amount_bar tb_amount_dma tb_expect_bar tb_expect_dma tb_payload_s1 tb_payload_r1 tb_payload_s2 tb_payload_r2
  pcredit zcredit pay_pp1 pay_pp2 pay_pp3 pay_pp4 pay_pp5 pay_pp6 pay_pp7 pay_zp1 pay_zp2 pay_zp3

attribute [local irreducible] Topo.pp Topo.zp

set_option maxHeartbeats 3000000

variable (m : (ℓ : Loc nD τ sig) → Buf (Elt F) ℓ) (ρ : Dev nD → PrngReg)

theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4 cc0_scratch5)
      (fun _ => bodyPost m ρ c) := by
  have hmwb := mw_bar (F := F) c
  have hmw1 := mw_r1 (F := F) c
  have hmw2 := mw_r2 (F := F) c
  have hA1 := above_entry c
  have hA2 := above_plane0 c
  have hA3 := above_plane1 c
  unfold landOwed colOwed colOwed1 at hA1
  unfold colOwed colOwed1 at hA2
  unfold colOwed1 at hA3
  unfold bodyPre Φ₀ start ghost bufs reacheds
  iintro ⟨⟨⟨⟨%K, #Hinv, Hpos, #Hrch, Htok, Hidle⟩, Hcr, #Hlev⟩, ⟨%fp, Hp⟩, ⟨%fz, Hz⟩⟩, ⟨%W, %hW, HO⟩, ⟨%d0, %f0, %hf0, Hx⟩, ⟨%d1, %f1, %hf1, Ho⟩⟩
  icases (invs_keep m K c) $$ Hinv with ⟨#HinvK, #Hinv⟩
  unfold invs positions payToks creds
  simp only [bigSep_fin2, bigSep_fin3, bigSep_fin7, bigSep_f23, bigSep_f27, offs]
  icases Hinv with ⟨Ibar, I27, I23, I7, I3⟩
  ichain I27 as IA 14 3
  ichain I23 as IB 6 3
  ichain I7 as IC 7 1
  ichain I3 as ID 3 1
  icases Hrch with ⟨R7, R3, R27, R23⟩
  ichain R7 as RC 7 1
  ichain R3 as RD 3 1
  ichain R27 as RA 14 3
  ichain R23 as RB 6 3
  icases Hpos with ⟨Pbar, P27, P23⟩
  ichain P27 as PA 14 2
  ichain P23 as PB 6 2
  icases Htok with ⟨T7, T3, T27, T23⟩
  ichain T7 as TC 7 1
  ichain T3 as TD 3 1
  ichain T27 as TA 14 2
  ichain T23 as TB 6 2
  icases Hcr with ⟨Cbar, C27, C23⟩
  ichain C27 as CA 14 1
  ichain C23 as CB 6 1
  rw [before0_eq m ρ c d0] at hf0
  subst hf0
  have hO : (dats m ρ 0 c).owed t₀.castSucc = _ := O₀_eq c
  rw [hO]
  unfold landOwed colOwed colOwed1
  icases (pB_split c fp) $$ Hp with ⟨Hp70, Hp71, Hp60, Hp61, Hp50, Hp51, Hp40, Hp41, Hp30, Hp31, Hp20, Hp21, Hp10, Hp11, Hp00, Hp01⟩
  icases (zB_split c fz) $$ Hz with ⟨Hz30, Hz31, Hz20, Hz21, Hz10, Hz11, Hz00, Hz01⟩
  icases (stg0_view c (xblk m c)) $$ Hx with Hx
  icases (stg1_view c f1) $$ Ho with Ho
  run_on
  icases (bar_open m c) $$ Pbar_pay1 with ⟨⟨⟨%g70, G70⟩, ⟨%g71, G71⟩⟩, ⟨⟨%g60, G60⟩, ⟨%g61, G61⟩⟩, ⟨⟨%g50, G50⟩, ⟨%g51, G51⟩⟩,
    ⟨⟨%g40, G40⟩, ⟨%g41, G41⟩⟩, ⟨⟨%g30, G30⟩, ⟨%g31, G31⟩⟩, ⟨⟨%g20, G20⟩, ⟨%g21, G21⟩⟩, ⟨⟨%g10, G10⟩, ⟨%g11, G11⟩⟩,
    ⟨⟨%h30, Z30⟩, ⟨%h31, Z31⟩⟩, ⟨⟨%h20, Z20⟩, ⟨%h21, Z21⟩⟩, ⟨⟨%h10, Z10⟩, ⟨%h11, Z11⟩⟩⟩
  have hs0 : SlotHolds ((pslot 0 0).view.read (Elt F) (sound_body.sl.Hp00_w2 m c fp)) (mrow m c 0) (srow m c 0) :=
    pslot0_holds_0 c fp _ _
  icases (share8_split _ _) $$ Hp00 with ⟨S00, S01, S02, S03, S04, S05, S06, S07⟩
  plane_send 0 1
  run_on
  plane_send 0 2
  run_on
  plane_send 0 3
  run_on
  plane_send 0 4
  run_on
  plane_send 0 5
  run_on
  plane_send 0 6
  run_on
  plane_send 0 7
  run_on
  have hs1 : SlotHolds ((pslot 0 1).view.read (Elt F) (sound_body.sl.Hp01_w2 m c fp)) (mrow m c 1) (srow m c 1) :=
    pslot0_holds_1 c fp _ _
  icases (share8_split _ _) $$ Hp01 with ⟨S10, S11, S12, S13, S14, S15, S16, S17⟩
  plane_send 1 1
  run_on
  plane_send 1 2
  run_on
  plane_send 1 3
  run_on
  plane_send 1 4
  run_on
  plane_send 1 5
  run_on
  plane_send 1 6
  run_on
  plane_send 1 7
  run_on
  unfold recv1Pay
  icases PA1_2_pay1 with ⟨%r10, %hr10, L10⟩
  icases PA2_2_pay1 with ⟨%r20, %hr20, L20⟩
  icases PA3_2_pay1 with ⟨%r30, %hr30, L30⟩
  icases PA4_2_pay1 with ⟨%r40, %hr40, L40⟩
  icases PA5_2_pay1 with ⟨%r50, %hr50, L50⟩
  icases PA6_2_pay1 with ⟨%r60, %hr60, L60⟩
  icases PA7_2_pay1 with ⟨%r70, %hr70, L70⟩
  icases (share8_carve _ _) $$ L10 with ⟨L10, L10r⟩
  icases (share8_carve _ _) $$ L20 with ⟨L20, L20r⟩
  icases (share8_carve _ _) $$ L30 with ⟨L30, L30r⟩
  icases (share8_carve _ _) $$ L40 with ⟨L40, L40r⟩
  icases (share8_carve _ _) $$ L50 with ⟨L50, L50r⟩
  icases (share8_carve _ _) $$ L60 with ⟨L60, L60r⟩
  icases (share8_carve _ _) $$ L70 with ⟨L70, L70r⟩
  icases (pslab_join c 0 (sh8 0) _ r10 r20 r30 r40 r50 r60 r70) $$ [S00 L10 L20 L30 L40 L50 L60 L70] with ⟨%gA, %hgA, SLAB0⟩
  · iframe
  have hallA := pslab_holds m c 0 gA _ r10 r20 r30 r40 r50 r60 r70 hgA hs0 hr10 hr20 hr30 hr40 hr50 hr60 hr70
  run_on
  have e0A := pslab_row0_0 m c gA hallA
  have e1A := pslab_row1_0 m c gA hallA
  have hz0 : SlotHolds ((zslot 0 0).view.read (Elt F) (sound_body.sl.Hz00_w2 c fz gA)) (mprow m c 0) (sprow m c 0) := by
    show SlotHolds _ (k0_pay13 (k0_pay11 (PMvec m c 0))) (k0_pay14 (k0_pay11 (PMvec m c 0)) (PSvec m c 0))
    rw [← e0A, ← e1A]
    exact zslot0_holds_0 c fz _ _
  icases (share4_split _ _) $$ Hz00 with ⟨Y00, Y01, Y02, Y03⟩
  column_send 0 1
  run_on
  column_send 0 2
  run_on
  column_send 0 3
  run_on
  unfold recv1Pay
  icases PA8_2_pay1 with ⟨%r11, %hr11, L11⟩
  icases PA9_2_pay1 with ⟨%r21, %hr21, L21⟩
  icases PA10_2_pay1 with ⟨%r31, %hr31, L31⟩
  icases PA11_2_pay1 with ⟨%r41, %hr41, L41⟩
  icases PA12_2_pay1 with ⟨%r51, %hr51, L51⟩
  icases PA13_2_pay1 with ⟨%r61, %hr61, L61⟩
  icases PA14_2_pay1 with ⟨%r71, %hr71, L71⟩
  icases (share8_carve _ _) $$ L11 with ⟨L11, L11r⟩
  icases (share8_carve _ _) $$ L21 with ⟨L21, L21r⟩
  icases (share8_carve _ _) $$ L31 with ⟨L31, L31r⟩
  icases (share8_carve _ _) $$ L41 with ⟨L41, L41r⟩
  icases (share8_carve _ _) $$ L51 with ⟨L51, L51r⟩
  icases (share8_carve _ _) $$ L61 with ⟨L61, L61r⟩
  icases (share8_carve _ _) $$ L71 with ⟨L71, L71r⟩
  icases (pslab_join c 1 (sh8 0) _ r11 r21 r31 r41 r51 r61 r71) $$ [S10 L11 L21 L31 L41 L51 L61 L71] with ⟨%gB, %hgB, SLAB1⟩
  · iframe
  have hallB := pslab_holds m c 1 gB _ r11 r21 r31 r41 r51 r61 r71 hgB hs1 hr11 hr21 hr31 hr41 hr51 hr61 hr71
  run_on
  have e0B := pslab_row0_1 m c gB hallB
  have e1B := pslab_row1_1 m c gB hallB
  have hz1 : SlotHolds ((zslot 0 1).view.read (Elt F) (sound_body.sl.Hz01_w2 c fz gB)) (mprow m c 1) (sprow m c 1) := by
    show SlotHolds _ (k0_pay18 (k0_pay16 (PMvec m c 1))) (k0_pay19 (k0_pay17 (PMvec m c 1) (PSvec m c 1)))
    rw [← e0B, ← e1B]
    exact zslot0_holds_1 c fz _ _
  icases (share4_split _ _) $$ Hz01 with ⟨Y10, Y11, Y12, Y13⟩
  column_send 1 1
  run_on
  column_send 1 2
  run_on
  icases (owes_zero_add c _ _) $$ HO with HO
  column_send 1 3
  run_on
  unfold recv2Pay
  icases PB1_2_pay1 with ⟨%q10, %hq10, M10⟩
  icases PB2_2_pay1 with ⟨%q20, %hq20, M20⟩
  icases PB3_2_pay1 with ⟨%q30, %hq30, M30⟩
  icases (share4_carve _ _) $$ M10 with ⟨M10, M10r⟩
  icases (share4_carve _ _) $$ M20 with ⟨M20, M20r⟩
  icases (share4_carve _ _) $$ M30 with ⟨M30, M30r⟩
  icases (zslab_join c 0 (sh4 0) _ q10 q20 q30) $$ [Y00 M10 M20 M30] with ⟨%gC, %hgC, ZSLAB0⟩
  · iframe
  have hallC := zslab_holds m c 0 gC _ q10 q20 q30 hgC hz0 hq10 hq20 hq30
  run_on
  unfold recv2Pay
  icases PB4_2_pay1 with ⟨%q11, %hq11, M11⟩
  icases PB5_2_pay1 with ⟨%q21, %hq21, M21⟩
  icases PB6_2_pay1 with ⟨%q31, %hq31, M31⟩
  icases (share4_carve _ _) $$ M11 with ⟨M11, M11r⟩
  icases (share4_carve _ _) $$ M21 with ⟨M21, M21r⟩
  icases (share4_carve _ _) $$ M31 with ⟨M31, M31r⟩
  icases (zslab_join c 1 (sh4 0) _ q11 q21 q31) $$ [Y10 M11 M21 M31] with ⟨%gD, %hgD, ZSLAB1⟩
  · iframe
  have hallD := zslab_holds m c 1 gD _ q11 q21 q31 hgD hz1 hq11 hq21 hq31
  run_on
  have e0C := zslab_row0_0 m c gC hallC
  have e1C := zslab_row1_0 m c gC hallC
  have e0D := zslab_row0_1 m c gD hallD
  have e1D := zslab_row1_1 m c gD hallD
  have h00 : SlotHolds ((pslot 0 0).view.read (Elt F) gA) (mrow m c 0) (srow m c 0) := by
    have h := hallA 0
    rwa [show (-(0 : Fin 8)) = 0 from rfl, pp_zero] at h
  have h01 : SlotHolds ((pslot 0 1).view.read (Elt F) gB) (mrow m c 1) (srow m c 1) := by
    have h := hallB 0
    rwa [show (-(0 : Fin 8)) = 0 from rfl, pp_zero] at h
  have eo0 := pown_row0_0 c gA _ _ h00
  have eo1 := pown_row0_1 c gB _ _ h01
  have hp0 : k0_pay22 (sound_body.sl.r_1 m c) (sound_body.sl.r_7 c gC) (sound_body.sl.r_8 c gC)
      (View.readAt (Elt F) (Memref.whole cc0_scratch0 : Memref sig .tc .vmem S8x2x2x512 .f32).view
        (Rect.unit (s := S8x2x2x512) ![0, 0, 0, 0] S1x1x1x512.size inb_S8x2x2x512_S1x1x1x512_0_0_0_0).toLoadRect gA) = outHalf m c 0 := by
    show _ = k0_pay22 (k0_pay3 (xhalf m c 0)) (k0_pay20 (ZMvec m c 0)) (k0_pay21 (ZSvec m c 0)) (mrow m c 0)
    rw [← e0C, ← e1C, ← eo0]
    rfl
  have hp1 : k0_pay26 (sound_body.sl.r_2 m c) (sound_body.sl.r_9 c gD) (sound_body.sl.r_10 c gD) (sound_body.sl.r_11 c gB) = outHalf m c 1 := by
    show _ = k0_pay26 (k0_pay8 (xhalf m c 1)) (k0_pay24 (ZMvec m c 1)) (k0_pay25 (ZMvec m c 1) (ZSvec m c 1)) (mrow m c 1)
    rw [← e0D, ← e1D, ← eo1]
    rfl
  have hout := out_writes m c f1
  rw [← hp0, ← hp1] at hout
  icases (pslab_split c 0 (sh8 0) gA) $$ SLAB0 with ⟨X00, X10, X20, X30, X40, X50, X60, X70⟩
  icases (pslab_split c 1 (sh8 0) gB) $$ SLAB1 with ⟨X01, X11, X21, X31, X41, X51, X61, X71⟩
  icases (zslab_split c 0 (sh4 0) gC) $$ ZSLAB0 with ⟨V00, V10, V20, V30⟩
  icases (zslab_split c 1 (sh4 0) gD) $$ ZSLAB1 with ⟨V01, V11, V21, V31⟩
  iapply (body_finish_wp m ρ c K _ d0 (xblk m c) _ (before0_eq m ρ c d0).symm hout gA gB gC gD)
  unfold positions1
  simp only [bigSep_f23, bigSep_f27, offs]
  iframe
  isplitl []
  · iapply (invsKept_out m K c); iexact HinvK
  isplitr [V30 M30r V31 M31r V20 M20r V21 M21r V10 M10r V11 M11r]
  · isplitl [X70 L70r]; · pback
    isplitl [X71 L71r]; · pback
    isplitl [X60 L60r]; · pback
    isplitl [X61 L61r]; · pback
    isplitl [X50 L50r]; · pback
    isplitl [X51 L51r]; · pback
    isplitl [X40 L40r]; · pback
    isplitl [X41 L41r]; · pback
    isplitl [X30 L30r]; · pback
    isplitl [X31 L31r]; · pback
    isplitl [X20 L20r]; · pback
    isplitl [X21 L21r]; · pback
    isplitl [X10 L10r]; · pback
    pback
  isplitl [V30 M30r]; · zback
  isplitl [V31 M31r]; · zback
  isplitl [V20 M20r]; · zback
  isplitl [V21 M21r]; · zback
  isplitl [V10 M10r]; · zback
  zback

end Cert.Kernel.Proto

end
-- ==== Proof.Bits.Fund.lean ====
import proofs.«901052_g7700000000001053_dist_softmax_colshard_i_m1024_n1024_v7x_i32_bf16_1_alg».proof.Proof.Bits.Inv

noncomputable section

namespace Cert.Kernel.Proto

open Cert.Kernel Cert.Kernel.Gen Cert.Kernel.Topo
open Idealize.ShloMosaic Idealize.ShloMosaic.TcCoe Idealize.ShloMosaic.Rounds
open Idealize.SL Idealize.SL.BI Idealize.SL.BI.BIBase Idealize.SL.ProofMode
open scoped Idealize.SL.BI

variable {F : FTy → Type} [FloatOps F]

local notation "𝕄" => MT nD τ sig Unit (Elt F) ℕ UU ℕ

variable (m : (ℓ : Loc nD τ sig) → Buf (Elt F) ℓ)

abbrev osem : Fin 48 → SemLoc sig := fun i => .dma ((⟨2 + i.val, by have := i.isLt; omega⟩ : Fin 50) : DmaSem sig)

theorem ownSemFacts : Pipeline.OwnSemFacts cfg0.spec osem := by decide

def G' (c : Dev nD) : sProp 𝕄 := iprop(∃ K, ghost m K c)

abbrev P1 : Type := Fin 2 × Fin 7
abbrev P2 : Type := Fin 2 × Fin 3
abbrev XC : Type := (P1 ⊕ P1) ⊕ (P2 ⊕ P2)
abbrev CC : Type := Unit ⊕ XC

abbrev xsem : XC → SemLoc sig
  | .inl (.inl x) => .dma (s1 x.1 x.2.succ)
  | .inl (.inr x) => .dma (r1 x.1 x.2.succ)
  | .inr (.inl x) => .dma (s2 x.1 x.2.succ)
  | .inr (.inr x) => .dma (r2 x.1 x.2.succ)
abbrev csem : CC → SemLoc sig
  | .inl _ => .reg barS
  | .inr x => xsem x
abbrev kcell (ck : Dev nD × CC) : GSem nD τ sig := ((ck.1 : Thread nD τ), csem ck.2)

theorem kcell_injective : Function.Injective (kcell : Dev nD × CC → GSem nD τ sig) := by
  rintro ⟨c, k⟩ ⟨c', k'⟩ h
  cases (congrArg (fun g : GSem nD τ sig => g.1.1) h : c = c')
  cases (by decide : Function.Injective (csem : CC → SemLoc sig)) (congrArg Prod.snd h : csem k = csem k')
  rfl

def protoCells : Finset (GSem nD τ sig) := Finset.univ.map ⟨kcell, kcell_injective⟩

-- A family over the protocol's cells, device by device.
theorem cells_eq (Φ : GSem nD τ sig → sProp 𝕄) :
    bigSep protoCells Φ = bigSep Finset.univ fun c : Dev nD => bigSep Finset.univ fun x : CC => Φ (kcell (c, x)) := by
  unfold protoCells; rw [bigSep_map, bigSep_univ_prod]; rfl

abbrev TT : Type := Fin 7 ⊕ Fin 3 ⊕ XC
-- The device on whose cell device `c` pays duty `t`: a peer's entry or landing cell, or its own sending cell.
abbrev tdev : TT → Dev nD → Dev nD
  | .inl k, c => pp k.succ c
  | .inr (.inl k), c => zp k.succ c
  | .inr (.inr (.inl (.inr x))), c => pp x.2.succ c
  | .inr (.inr (.inr (.inr x))), c => zp x.2.succ c
  | _, c => c
abbrev tsig : TT → SemLoc sig × D
  | .inl k => (.reg barS, dP k)
  | .inr (.inl k) => (.reg barS, dZ k)
  | .inr (.inr x) => (xsem x, 0)
abbrev tokOf (ct : Dev nD × TT) : GSem nD τ sig × ℕ × D := (((tdev ct.2 ct.1 : Thread nD τ), (tsig ct.2).1), 0, (tsig ct.2).2)

-- A duty names its offset, and offsets are translations: the tokens the devices pay are pairwise distinct.
theorem tokOf_injective : Function.Injective (tokOf : Dev nD × TT → GSem nD τ sig × ℕ × D) := by
  rintro ⟨c, t⟩ ⟨c', t'⟩ h
  cases (by decide : Function.Injective (tsig : TT → SemLoc sig × D))
    (Prod.ext (congrArg (Prod.snd ∘ Prod.fst) h) (congrArg (Prod.snd ∘ Prod.snd) h) : tsig t = tsig t')
  have hd : tdev t c = tdev t c' := congrArg (Prod.fst ∘ Prod.fst ∘ Prod.fst) h
  have hc : c = c' := by
    rcases t with k | k | (x | x) | (x | x)
    exacts [Function.LeftInverse.injective (pp_neg k.succ) hd, Function.LeftInverse.injective (zp_neg k.succ) hd, hd,
      Function.LeftInverse.injective (pp_neg x.2.succ) hd, hd, Function.LeftInverse.injective (zp_neg x.2.succ) hd]
  rw [hc]

def protoToks : Finset (GSem nD τ sig × ℕ × D) := Finset.univ.map ⟨tokOf, tokOf_injective⟩

def uProto : UB := initOf protoCells protoToks

def u₀ : UU := (initOf (Pipeline.cells cfgs cellOf_inj) (Pipeline.launchToks cfgs cellOf_inj), uProto)

theorem bigSep_XC (Φ : XC → sProp 𝕄) :
    bigSep Finset.univ Φ = iprop((bigSep Finset.univ fun x : P1 => iprop(Φ (.inl (.inl x)) ∗ Φ (.inl (.inr x))))
      ∗ (bigSep Finset.univ fun x : P2 => iprop(Φ (.inr (.inl x)) ∗ Φ (.inr (.inr x))))) := by
  rw [bigSep_univ_sum, bigSep_univ_sum, bigSep_univ_sum, bigSep_sep', bigSep_sep']; rfl

theorem bigSep_CC (Φ : CC → sProp 𝕄) :
    bigSep Finset.univ Φ = iprop(Φ (.inl ()) ∗ bigSep Finset.univ fun x : XC => Φ (.inr x)) := by
  rw [bigSep_univ_sum, bigSep_univ_of_subsingleton ()]; rfl

-- The minted tokens are, device by device, the tokens that device pays.
theorem toks_eq : bigSep protoToks (fun x => (dutyTok ER x.1 x.2.1 x.2.2 : sProp 𝕄)) = bigSep Finset.univ fun c : Dev nD => payToks c := by
  unfold protoToks; rw [bigSep_map, bigSep_univ_prod]
  exact bigSep_congr fun c _ => by unfold payToks; rw [bigSep_univ_sum, bigSep_univ_sum, bigSep_XC]; rfl

theorem positions_eq : bigSep protoCells (fun g => (atPos ER g 0 ∅ 0 : sProp 𝕄)) = bigSep Finset.univ fun c : Dev nD => positions c := by
  rw [cells_eq]
  exact bigSep_congr fun c _ => by unfold positions; rw [bigSep_CC, bigSep_XC]

-- Until the semaphores are at hand the protocol's element stays whole, with the first device.
abbrev G (_ : (ℓ : Loc nD τ sig) → Buf (Elt F) ℓ) (c : Dev nD) : sProp 𝕄 :=
  if c = ⟨0, by decide⟩ then BI.own (ER uProto) else iprop(emp)

theorem hu₀ : (ownU u₀ : sProp 𝕄)
    ⊢ |={Set.univ}=> iprop(BI.own (EP (initOf (Pipeline.cells cfgs cellOf_inj) (Pipeline.launchToks cfgs cellOf_inj))) ∗ bigSep Finset.univ (G m)) :=
by
  unfold u₀
  iintro Hu
  ihave H := (ownU_pair _ _) $$ Hu
  icases H with ⟨HP, HX⟩
  imodintro
  isplitl [HP]; · iexact HP
  iapply (bigSep_deal_one _ _); iexact HX

abbrev SS : Type := XC ⊕ Fin 2 × Fin 4
abbrev ssem : SS → SemLoc sig
  | .inl x => xsem x
  | .inr y => match y.2 with
    | 0 => .dma (s1 y.1 0) | 1 => .dma (r1 y.1 0) | 2 => .dma (s2 y.1 0) | 3 => .dma (r2 y.1 0)

-- The kernel's own semaphores at zero, listed along any other enumeration of the same forty-eight.
theorem own_reindex {ι : Type} [Fintype ι] (f : ι → SemLoc sig) (hf : Function.Injective f)
    (h : Finset.univ.map ⟨osem, ownSemFacts.inj⟩ = Finset.univ.map ⟨f, hf⟩) (c : Dev nD) :
    (Pipeline.ownSems0 osem c : sProp 𝕄) = bigSep Finset.univ fun i => semVal ((c : Thread nD τ), f i) 0 :=
  (bigSep_map _).symm.trans ((congrArg (fun s => bigSep s fun sm => (semVal ((c : Thread nD τ), sm) 0 : sProp 𝕄)) h).trans (bigSep_map ⟨f, hf⟩))

theorem sems0_eq (c : Dev nD) :
    iprop(Pipeline.ownSems0 osem c ∗ unscopedSems0 c ∗ G m c)
      ⊢ iprop((bigSep Finset.univ fun x : CC => semVal (kcell (c, x)) 0) ∗ idleSems c ∗ G m c : sProp 𝕄) := by
  have hI : (bigSep Finset.univ fun y : Fin 2 × Fin 4 => (semVal ((c : Thread nD τ), ssem (.inr y)) 0 : sProp 𝕄)) = idleSems c := by
    unfold idleSems; rw [bigSep_univ_prod]
    exact bigSep_congr fun ch _ => by rw [bigSep_univ_eq_bigSepL [0, 1, 2, 3] (by decide) (by decide)]; rfl
  have hB : (unscopedSems0 c : sProp 𝕄) = semVal (barCell c) 0 := by
    unfold unscopedSems0; rw [bigSep_eq_bigSepL_of_eq [SemLoc.reg barS] (by decide) (by decide)]; rfl
  rw [own_reindex ssem (by decide) (by decide), bigSep_univ_sum, hI, hB, bigSep_CC]
  show iprop((_ ∗ _) ∗ _) ⊢ _
  iintro ⟨⟨HX, HI⟩, HB, HG⟩
  isplitl [HB HX]
  · isplitl [HB] <;> iassumption
  isplitl [HI] <;> iassumption

-- All cells' invariants under the names `K`, and that round 0 of every cell is reached.
variable (K : GSem nD τ sig → ℕ)

def records : sProp 𝕄 :=
  iprop(bigSep protoCells (inv m K) ∗ bigSep protoCells fun g => reached ER g 0)

instance records_persistent : BI.Persistent (records m K) := by unfold records; infer_instance

theorem cells_elim (Φ : GSem nD τ sig → sProp 𝕄) (ck : Dev nD × CC) : bigSep protoCells Φ ⊢ Φ (kcell ck) :=
  bigSep_elim (Finset.mem_map_of_mem _ (Finset.mem_univ ck))

theorem inv_at (ck : Dev nD × CC) : records m K ⊢ inv m K (kcell ck) := by
  unfold records; iintro ⟨H, -⟩
  iapply (cells_elim (inv m K) ck); iexact H

theorem reached_at (ck : Dev nD × CC) : records m K ⊢ (reached ER (kcell ck) 0 : sProp 𝕄) := by
  unfold records; iintro ⟨-, H⟩
  iapply (cells_elim (fun g => reached ER g 0) ck); iexact H

theorem pers_sep {R P Q : sProp 𝕄} [BI.Persistent R] (h1 : R ⊢ P) (h2 : R ⊢ Q) : R ⊢ iprop(P ∗ Q) := by
  iintro #H
  isplitr
  · iapply h1; iexact H
  · iapply h2; iexact H

-- What holds of every cell holds of a device's own cells and of the cells of others it pays on.
theorem shape_of {R : sProp 𝕄} [BI.Persistent R] (Ψ : GSem nD τ sig → sProp 𝕄) (h : ∀ ck, R ⊢ Ψ (kcell ck)) (c : Dev nD) :
    R ⊢ iprop(Ψ (barCell c)
      ∗ (bigSep Finset.univ fun x : P1 => iprop(Ψ (s1Cell c x.1 x.2.succ) ∗ Ψ (r1Cell c x.1 x.2.succ) ∗ Ψ (r1Cell (pp x.2.succ c) x.1 x.2.succ)))
      ∗ (bigSep Finset.univ fun x : P2 => iprop(Ψ (s2Cell c x.1 x.2.succ) ∗ Ψ (r2Cell c x.1 x.2.succ) ∗ Ψ (r2Cell (zp x.2.succ c) x.1 x.2.succ)))
      ∗ (bigSep Finset.univ fun k : Fin 7 => Ψ (barCell (pp k.succ c)))
      ∗ (bigSep Finset.univ fun k : Fin 3 => Ψ (barCell (zp k.succ c)))) :=
  pers_sep (h (c, .inl ()))
    (pers_sep (bigSep_intro_persistent fun x _ => pers_sep (h (c, .inr (.inl (.inl x))))
        (pers_sep (h (c, .inr (.inl (.inr x)))) (h (pp x.2.succ c, .inr (.inl (.inr x))))))
    (pers_sep (bigSep_intro_persistent fun x _ => pers_sep (h (c, .inr (.inr (.inl x))))
        (pers_sep (h (c, .inr (.inr (.inr x)))) (h (zp x.2.succ c, .inr (.inr (.inr x))))))
    (pers_sep (bigSep_intro_persistent fun k _ => h (pp k.succ c, .inl ()))
      (bigSep_intro_persistent fun k _ => h (zp k.succ c, .inl ())))))

theorem ghost_intro (c : Dev nD) : iprop(records m K ∗ positions c ∗ payToks c ∗ idleSems c) ⊢ G' m c := by
  unfold G' ghost invs reacheds
  iintro ⟨#HR, Hpos, Htok, Hidle⟩
  iexists K
  isplitr; · iapply (shape_of (inv m K) (inv_at m K) c); iexact HR
  isplitl [Hpos]; · iexact Hpos
  isplitr
  · ihave H := (shape_of (fun g => reached ER g 0) (reached_at m K) c) $$ HR
    icases H with ⟨-, A, B, C, D⟩
    isplitl [C]; · iexact C
    isplitl [D]; · iexact D
    isplitl [A] <;> iassumption
  isplitl [Htok] <;> iassumption

-- With every device's semaphores at zero the cells' invariants are allocated, and each device takes what it holds.
theorem G_elim : bigSep Finset.univ (G m) ⊢ (BI.own (ER (initOf protoCells protoToks)) : sProp 𝕄) := by
  have h : G m ⟨0, by decide⟩ = (BI.own (ER (initOf protoCells protoToks)) : sProp 𝕄) := if_pos rfl
  rw [← h]; exact bigSep_elim (Finset.mem_univ _)

theorem hglob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine (bigSep_mono fun c _ => sems0_eq m c).trans ?_
  rw [bigSep_sep', bigSep_sep', ← cells_eq fun g => semVal g 0]
  show (_ : sProp 𝕄) ⊢ _
  iintro ⟨Hv, Hidle, HG⟩
  ihave HX := (G_elim m) $$ HG
  imod (Rounds.fund ER (Rd m) protoCells protoToks) $$ HX with ⟨Hst, #Hr, Hat, Htok⟩
  ihave Hb := (Rounds.bodies_intro ER (Rd m) protoCells) $$ [Hv Hst]
  · isplitl [Hv] <;> iassumption
  imod (inv_alloc_family protoCells (Rounds.body ER (Rd m)) ∅) $$ Hb with ⟨%K, -, #HI⟩
  imodintro
  iapply (bigSep_with_persistent (R := records m K) fun c _ => ghost_intro m K c)
  isplitr
  · unfold records; isplitr <;> iassumption
  rw [bigSep_sep', bigSep_sep', ← toks_eq, ← positions_eq]
  isplitl [Hat]; · iexact Hat
  isplitl [Htok] <;> iassumption

end Cert.Kernel.Proto

end
-- ==== Proof.Bits.Launch.lean ====
import proofs.«901052_g7700000000001053_dist_softmax_colshard_i_m1024_n1024_v7x_i32_bf16_1_alg».proof.Proof.Bits.Body
import proofs.«901052_g7700000000001053_dist_softmax_colshard_i_m1024_n1024_v7x_i32_bf16_1_alg».proof.Proof.Bits.Fund

noncomputable section

namespace Cert.Kernel.Proto

open Cert.Kernel Cert.Kernel.Gen Cert.Kernel.Topo
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  exact sound_body m ρ c

theorem share_eq (c : Dev nD) (w : Fin cfg0.W) : (dats m ρ 0 c).share w = fullShare := by unfold Dat.share; split <;> rfl

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    (∃ d : Dev nD, g = barCell d) ∨ (∃ (d : Dev nD) (ch : Fin 2) (k : Fin 7), g = r1Cell d ch k.succ)
      ∨ (∃ (d : Dev nD) (ch : Fin 2) (k : Fin 3), g = r2Cell d ch k.succ) := by
  unfold O₀ at h
  rcases Pipeline.add_pos_cases h with h | h
  · rcases Pipeline.add_pos_cases h with h | h
    · rcases Pipeline.add_pos_cases h with h | h
      · obtain ⟨k, -, hk⟩ := Pipeline.sum_pos_exists h
        exact Or.inl ⟨_, (Pipeline.tallyAt_pos hk).1⟩
      · obtain ⟨k, -, hk⟩ := Pipeline.sum_pos_exists h
        exact Or.inl ⟨_, (Pipeline.tallyAt_pos hk).1⟩
    · obtain ⟨ch, -, hch⟩ := Pipeline.sum_pos_exists h
      obtain ⟨k, -, hk⟩ := Pipeline.sum_pos_exists hch
      exact Or.inr (Or.inl ⟨_, ch, k, (Pipeline.tallyAt_pos hk).1⟩)
  · obtain ⟨ch, -, hch⟩ := Pipeline.sum_pos_exists h
    obtain ⟨k, -, hk⟩ := Pipeline.sum_pos_exists hch
    exact Or.inr (Or.inr ⟨_, ch, k, (Pipeline.tallyAt_pos hk).1⟩)

theorem mayWait_stage (c : Dev nD) (q : DmaSem sig) (hq : kindOf (.dma q) = .other) (O : CellTallies nD τ sig Unit) (hO : O = O₀ c ∨ O = 0) :
    (levAts L lv : sProp 𝕄) ⊢ MayWait (c : Thread nD τ) (.dma q) () O := by
  refine Pipeline.mayWait_of_levAts (by rw [L_tc]; exact Finset.mem_singleton_self _) fun g u hg => ?_
  rw [show lv ((c : Thread nD τ), .dma q) () = 0 by unfold lv; rw [hq]]
  rcases hO with rfl | rfl
  · rcases O₀_pos hg with ⟨d, rfl⟩ | ⟨d, ch, k, rfl⟩ | ⟨d, ch, k, rfl⟩ <;>
      refine ⟨by rw [L_tc]; exact Finset.mem_singleton_self _, ?_⟩ <;> unfold lv
    · rw [kindOf_bar]; exact Nat.one_pos
    · rw [kindOf_r1 ch k.succ (Fin.succ_ne_zero k)]; exact Nat.lt_of_lt_of_le (by decide : 0 < 2) (Nat.le_add_right _ _)
    · rw [kindOf_r2 ch k.succ (Fin.succ_ne_zero k)]; exact Nat.lt_of_lt_of_le (by decide : 0 < 4) (Nat.le_add_right _ _)
  · exact absurd hg (by simp)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def T₀ (d : Dev nD) : CellTallies nD τ sig Unit :=
  tallyAt (barCell d) () 10
  + (∑ x : Fin 2 × Fin 7, tallyAt (r1Cell d x.1 x.2.succ) () NP)
  + (∑ x : Fin 2 × Fin 3, tallyAt (r2Cell d x.1 x.2.succ) () NP)

theorem nsmul_tallyAt (g : GSem nD τ sig) (n k : ℕ) : n • (tallyAt g () k : CellTallies nD τ sig Unit) = tallyAt g () (n * k) := by
  induction n with
  | zero => rw [zero_smul, Nat.zero_mul, tallyAt_zero]
  | succ n ih => rw [succ_nsmul, ih, tallyAt_add, Nat.succ_mul]

/-- An offset permutes the devices, so what all owe their peers at it is what all are owed from it. -/
theorem sum_peers {n : ℕ} (p : Fin (n + 1) → Dev nD → Dev nD) (hp : ∀ k, Function.Bijective (p k))
    (f : Fin (n + 1) → Dev nD → CellTallies nD τ sig Unit) :
    (∑ d : Dev nD, ∑ k : Fin n, f k.succ (p k.succ d)) = ∑ d : Dev nD, ∑ k : Fin n, f k.succ d :=
  (Finset.sum_comm.trans (Finset.sum_congr rfl fun k _ => (hp k.succ).sum_comp (f k.succ))).trans Finset.sum_comm

/-- What every device owes its peers' landing cells is what every device is owed on its own. -/
theorem sum_landing {n : ℕ} (p : Fin (n + 1) → Dev nD → Dev nD) (hp : ∀ k, Function.Bijective (p k))
    (cell : Dev nD → Fin 2 → Fin (n + 1) → GSem nD τ sig) (a : ℕ) :
    (∑ d : Dev nD, ∑ ch : Fin 2, ∑ k : Fin n, (tallyAt (cell (p k.succ d) ch k.succ) () a : CellTallies nD τ sig Unit))
      = ∑ d : Dev nD, ∑ x : Fin 2 × Fin n, (tallyAt (cell d x.1 x.2.succ) () a : CellTallies nD τ sig Unit) :=
  calc _ = ∑ ch : Fin 2, ∑ d : Dev nD, ∑ k : Fin n, tallyAt (cell (p k.succ d) ch k.succ) () a := Finset.sum_comm
    _ = ∑ ch : Fin 2, ∑ d : Dev nD, ∑ k : Fin n, tallyAt (cell d ch k.succ) () a :=
        Finset.sum_congr rfl fun ch _ => sum_peers p hp (fun o d => tallyAt (cell d ch o) () a)
    _ = ∑ d : Dev nD, ∑ ch : Fin 2, ∑ k : Fin n, tallyAt (cell d ch k.succ) () a := Finset.sum_comm
    _ = _ := Finset.sum_congr rfl fun d _ =>
        (Fintype.sum_prod_type (fun x : Fin 2 × Fin n => (tallyAt (cell d x.1 x.2.succ) () a : CellTallies nD τ sig Unit))).symm

theorem sum_O₀ : (∑ d : Dev nD, O₀ d) = ∑ d : Dev nD, T₀ d := by
  have hb : (∑ d : Dev nD, ∑ k : Fin 7, (tallyAt (barCell (pp k.succ d)) () 1 : CellTallies nD τ sig Unit))
        + (∑ d : Dev nD, ∑ k : Fin 3, (tallyAt (barCell (zp k.succ d)) () 1 : CellTallies nD τ sig Unit))
      = ∑ d : Dev nD, (tallyAt (barCell d) () 10 : CellTallies nD τ sig Unit) := by
    rw [sum_peers pp (fun k => (ppE k).bijective) (fun _ d => tallyAt (barCell d) () 1),
      sum_peers zp (fun k => (zpE k).bijective) (fun _ d => tallyAt (barCell d) () 1), ← Finset.sum_add_distrib]
    refine Finset.sum_congr rfl fun d _ => ?_
    rw [Finset.sum_const, Finset.sum_const, Finset.card_univ, Finset.card_univ, Fintype.card_fin, Fintype.card_fin,
      nsmul_tallyAt, nsmul_tallyAt, tallyAt_add]
  simp only [O₀, T₀, Finset.sum_add_distrib]
  rw [hb, sum_landing pp (fun k => (ppE k).bijective) r1Cell NP, sum_landing zp (fun k => (zpE k).bijective) r2Cell NP]

theorem T₀_own (d : Dev nD) (g : GSem nD τ sig) (h : T₀ d g ≠ 0) : g.1 = (d.tc : Thread nD τ) := by
  obtain ⟨u, hu⟩ := DFunLike.ne_iff.mp h
  have hp : 0 < T₀ d g u := Nat.pos_of_ne_zero hu
  unfold T₀ at hp
  rcases Pipeline.add_pos_cases hp with hp | hp
  · rcases Pipeline.add_pos_cases hp with hp | hp
    · rw [(Pipeline.tallyAt_pos hp).1]
    · obtain ⟨x, -, hx⟩ := Pipeline.sum_pos_exists hp
      rw [(Pipeline.tallyAt_pos hx).1]
  · obtain ⟨x, -, hx⟩ := Pipeline.sum_pos_exists hp
    rw [(Pipeline.tallyAt_pos hx).1]

theorem creds_intro (c : Dev nD) : (Pipeline.launchCred O₀ c : sProp 𝕄) ⊢ creds c := by
  have e (a b : CellTallies nD τ sig Unit) : (cred (a + b) : sProp 𝕄) = iprop(cred a ∗ cred b) :=
    BI.Entails.antisymm (cred_add _ _).1 (cred_add _ _).2
  rw [Pipeline.launchCred_of_sum O₀ T₀ sum_O₀ T₀_own c]
  unfold T₀ creds
  rw [e, e, Pipeline.cred_finsetSum, Pipeline.cred_finsetSum]
  iintro ⟨⟨H1, H2⟩, H3⟩
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hb⟩
  iframe

abbrev zsem : (Fin 2 × Fin 8 ⊕ Fin 2 × Fin 8) ⊕ (Fin 2 × Fin 4 ⊕ Fin 2 × Fin 4) → SemLoc sig
  | .inl (.inl x) => .dma (s1 x.1 x.2)
  | .inl (.inr x) => .dma (r1 x.1 x.2)
  | .inr (.inl x) => .dma (s2 x.1 x.2)
  | .inr (.inr x) => .dma (r2 x.1 x.2)

theorem ownSems0_ownZero (c : Dev nD) :
    (Pipeline.ownSems0 (Ix := Unit) (Name := ℕ) (U := UU) (Lvl := ℕ) (Val := Elt F) (τ := τ) osem c : sProp 𝕄) = ownZero c := by
  unfold ownZero
  rw [own_reindex zsem (by decide) (by decide), bigSep_univ_sum, bigSep_univ_sum, bigSep_univ_sum, bigSep_sep', bigSep_sep']; rfl

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_ownZero]
  unfold Φ₁ bufs
  iintro ⟨Hb, Hz⟩
  isplitr; · iempintro
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := hglob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = m ((c : Thread nD τ).loc main_arg0) :=
  (dats (F := F) m ρ 0 c).arrAt_in (0 : Fin 2) rfl _

theorem finalA_out (c : Dev nD) : finalA m ρ c (1 : Fin 2) = outAt m c := by
  unfold finalA
  rw [show cfg0.N = (t₀ : Fin cfg0.N).val + 1 from rfl, (dats (F := F) m ρ 0 c).arrAt_succ (1 : Fin 2) t₀,
    if_pos (show (cfg0.win (1 : Fin 2)).flush t₀ = true by decide)]
  exact Memref.write_access_unit_zero_univ (Elt F) main_v1 (funext fun a => by fin_cases a <;> rfl) _ _ _

/-- Every fair execution on all devices ends with each device's result array at its result block, its argument array kept. -/
theorem run_values :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ)

end Cert.Kernel.Proto

end
-- ==== Proof.Spec.lean ====
import Idealize.ShloMosaic.PureOps.Ideal
import Idealize.ShloMosaic.PureOps.Ideal.Laws

noncomputable section

namespace Cert.Spec

open Idealize.ShloMosaic

def fmax {ι : Type} [Fintype ι] (v : ι → EReal) : EReal := (Finset.univ : Finset ι).fold max ⊥ v

/-- The softmax of a row at a column: the exponential of the entry minus the row's maximum, over zero plus their sum. -/
def softmaxAt {ι : Type} [Fintype ι] (v : ι → EReal) (k : ι) : EReal :=
  Ideal.div (Ideal.exp (v k - fmax v)) (0 + ∑ k', Ideal.exp (v k' - fmax v))

theorem fmax_eq_sup {ι : Type} [Fintype ι] (v : ι → EReal) : fmax v = (Finset.univ : Finset ι).sup v := rfl

theorem fmax_equiv {ι κ : Type} [Fintype ι] [Fintype κ] (e : ι ≃ κ) (v : κ → EReal) : fmax (fun i => v (e i)) = fmax v := by
  rw [fmax_eq_sup, fmax_eq_sup, ← Finset.map_univ_equiv e, Finset.sup_map]
  rfl

theorem softmaxAt_equiv {ι κ : Type} [Fintype ι] [Fintype κ] (e : ι ≃ κ) (v : κ → EReal) (i : ι) :
    softmaxAt (fun i => v (e i)) i = softmaxAt v (e i) := by
  unfold softmaxAt
  rw [fmax_equiv e v, Equiv.sum_comp e (fun k' => Ideal.exp (v k' - fmax v))]

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fmax_coe {ι : Type} [Fintype ι] [Nonempty ι] (v : ι → ℝ) :
    ∃ r : ℝ, fmax (fun i => (v i : EReal)) = (r : EReal) := by
  refine ⟨Finset.univ.sup' Finset.univ_nonempty v, ?_⟩
  rw [fmax_eq_sup, ← Finset.sup'_eq_sup Finset.univ_nonempty]
  exact (Finset.comp_sup'_eq_sup'_comp Finset.univ_nonempty (fun r : ℝ => (r : EReal))
    (fun a b => EReal.coe_strictMono.monotone.map_max)).symm

section TwoLevel

variable {A B K : Type} [Fintype A] [Fintype B] [Fintype K] [Nonempty A] [Nonempty B] [Nonempty K]

def devMax (x : A → B → K → EReal) (a : A) (b : B) : EReal := fmax (x a b)
def devSum (x : A → B → K → EReal) (a : A) (b : B) : EReal := ∑ k, Ideal.exp (x a b k - devMax x a b)
def planeMax (x : A → B → K → EReal) (a : A) : EReal := fmax (devMax x a)
def planeSum (x : A → B → K → EReal) (a : A) : EReal := ∑ b, devSum x a b * Ideal.exp (devMax x a b - planeMax x a)
def rowMax (x : A → B → K → EReal) : EReal := fmax (planeMax x)
def rowSum (x : A → B → K → EReal) : EReal := ∑ a, planeSum x a * Ideal.exp (planeMax x a - rowMax x)
def devOut (x : A → B → K → EReal) (a : A) (b : B) (k : K) : EReal :=
  Ideal.exp (x a b k - devMax x a b) * Ideal.div (Ideal.exp (devMax x a b - rowMax x)) (rowSum x)

/-- Each rescaling telescopes inside the exponential, and the common factor cancels between numerator and denominator. -/
theorem two_level_real (x : A → B → K → ℝ) (m : A → B → ℝ) (pm : A → ℝ) (M M' : ℝ) (a : A) (b : B) (k : K) :
    Real.exp (x a b k - m a b) * (Real.exp (m a b - M) *
        (1 / ∑ a', (∑ b', (∑ k', Real.exp (x a' b' k' - m a' b')) * Real.exp (m a' b' - pm a')) * Real.exp (pm a' - M)))
      = Real.exp (x a b k - M') * (1 / ∑ p : A × B × K, Real.exp (x p.1 p.2.1 p.2.2 - M')) := by
  have hS : (∑ a', (∑ b', (∑ k', Real.exp (x a' b' k' - m a' b')) * Real.exp (m a' b' - pm a')) * Real.exp (pm a' - M))
      = Real.exp (-M) * ∑ a', ∑ b', ∑ k', Real.exp (x a' b' k') := by
    simp_rw [Finset.sum_mul, Finset.mul_sum, ← Real.exp_add]
    refine Finset.sum_congr rfl fun a' _ => Finset.sum_congr rfl fun b' _ => Finset.sum_congr rfl fun k' _ => ?_
    congr 1; ring
  have hT : (∑ p : A × B × K, Real.exp (x p.1 p.2.1 p.2.2 - M'))
      = Real.exp (-M') * ∑ a', ∑ b', ∑ k', Real.exp (x a' b' k') := by
    simp_rw [Fintype.sum_prod_type, Finset.mul_sum, ← Real.exp_add]
    refine Finset.sum_congr rfl fun a' _ => Finset.sum_congr rfl fun b' _ => Finset.sum_congr rfl fun k' _ => ?_
    congr 1; ring
  have hpos : 0 < ∑ a', ∑ b', ∑ k', Real.exp (x a' b' k') :=
    Finset.sum_pos (fun a' _ => Finset.sum_pos (fun b' _ => Finset.sum_pos (fun k' _ => Real.exp_pos _)
      Finset.univ_nonempty) Finset.univ_nonempty) Finset.univ_nonempty
  have e1 : Real.exp (x a b k - m a b) * Real.exp (m a b - M) = Real.exp (x a b k) * Real.exp (-M) := by
    rw [← Real.exp_add, ← Real.exp_add]; congr 1; ring
  have e2 : Real.exp (x a b k - M') = Real.exp (x a b k) * Real.exp (-M') := by
    rw [← Real.exp_add]; congr 1
  have h1 := Real.exp_pos (-M)
  have h2 := Real.exp_pos (-M')
  rw [hS, hT, ← mul_assoc, e1, e2]
  field_simp

/-- For real entries what a device writes at a column is the softmax of the whole row there. -/
theorem devOut_eq_softmax (x : A → B → K → ℝ) (a : A) (b : B) (k : K) :
    devOut (fun a b k => (x a b k : EReal)) a b k
      = softmaxAt (fun p : A × B × K => ((x p.1 p.2.1 p.2.2 : ℝ) : EReal)) (a, b, k) := by
  obtain ⟨m, hm⟩ : ∃ m : A → B → ℝ, ∀ a b, devMax (fun a b k => (x a b k : EReal)) a b = (m a b : EReal) := by
    choose m hm using fun a b => fmax_coe (x a b)
    exact ⟨m, hm⟩
  have hds : ∀ a b, devSum (fun a b k => (x a b k : EReal)) a b
      = ((∑ k, Real.exp (x a b k - m a b) : ℝ) : EReal) := by
    intro a b
    unfold devSum
    rw [hm a b, coe_sum]
    refine Finset.sum_congr rfl fun k _ => ?_
    rw [← EReal.coe_sub, Ideal.exp_coe]
  obtain ⟨pm, hpm⟩ : ∃ pm : A → ℝ, ∀ a, planeMax (fun a b k => (x a b k : EReal)) a = (pm a : EReal) := by
    have h : ∀ a, ∃ r : ℝ, planeMax (fun a b k => (x a b k : EReal)) a = (r : EReal) := by
      intro a
      unfold planeMax
      rw [show devMax (fun a b k => (x a b k : EReal)) a = fun b => (m a b : EReal) from funext (hm a)]
      exact fmax_coe (m a)
    choose pm hpm using h
    exact ⟨pm, hpm⟩
  have hps : ∀ a, planeSum (fun a b k => (x a b k : EReal)) a
      = ((∑ b, (∑ k, Real.exp (x a b k - m a b)) * Real.exp (m a b - pm a) : ℝ) : EReal) := by
    intro a
    unfold planeSum
    rw [hpm a, coe_sum]
    refine Finset.sum_congr rfl fun b _ => ?_
    rw [hds a b, hm a b, ← EReal.coe_sub, Ideal.exp_coe, ← EReal.coe_mul]
  obtain ⟨M, hM⟩ : ∃ M : ℝ, rowMax (fun a b k => (x a b k : EReal)) = (M : EReal) := by
    unfold rowMax
    rw [show planeMax (fun a b k => (x a b k : EReal)) = fun a => (pm a : EReal) from funext hpm]
    exact fmax_coe pm
  have hrs : rowSum (fun a b k => (x a b k : EReal))
      = ((∑ a, (∑ b, (∑ k, Real.exp (x a b k - m a b)) * Real.exp (m a b - pm a)) * Real.exp (pm a - M) : ℝ) : EReal) := by
    unfold rowSum
    rw [hM, coe_sum]
    refine Finset.sum_congr rfl fun a _ => ?_
    rw [hps a, hpm a, ← EReal.coe_sub, Ideal.exp_coe, ← EReal.coe_mul]
  obtain ⟨M', hM'⟩ : ∃ M' : ℝ, fmax (fun p : A × B × K => ((x p.1 p.2.1 p.2.2 : ℝ) : EReal)) = (M' : EReal) :=
    fmax_coe (fun p : A × B × K => x p.1 p.2.1 p.2.2)
  have hone : (∑ p : A × B × K, Ideal.exp (((x p.1 p.2.1 p.2.2 : ℝ) : EReal) - (M' : EReal)))
      = ((∑ p : A × B × K, Real.exp (x p.1 p.2.1 p.2.2 - M') : ℝ) : EReal) := by
    rw [coe_sum]
    refine Finset.sum_congr rfl fun p _ => ?_
    rw [← EReal.coe_sub, Ideal.exp_coe]
  have hSpos : (∑ a, (∑ b, (∑ k, Real.exp (x a b k - m a b)) * Real.exp (m a b - pm a)) * Real.exp (pm a - M)) ≠ 0 :=
    (Finset.sum_pos (fun a _ => mul_pos (Finset.sum_pos (fun b _ => mul_pos (Finset.sum_pos
      (fun k _ => Real.exp_pos _) Finset.univ_nonempty) (Real.exp_pos _)) Finset.univ_nonempty) (Real.exp_pos _))
      Finset.univ_nonempty).ne'
  have hTpos : (∑ p : A × B × K, Real.exp (x p.1 p.2.1 p.2.2 - M')) ≠ 0 :=
    (Finset.sum_pos (fun p _ => Real.exp_pos _) Finset.univ_nonempty).ne'
  unfold devOut softmaxAt
  rw [hm a b, hM, hrs, hM', zero_add, hone, Ideal.div_coe hSpos, Ideal.div_coe hTpos]
  simp only [← EReal.coe_sub, Ideal.exp_coe, ← EReal.coe_mul]
  exact congrArg _ (two_level_real x m pm M M' a b k)

end TwoLevel

end Cert.Spec

end
-- ==== Proof.Arith.lean ====
import proofs.«901052_g7700000000001053_dist_softmax_colshard_i_m1024_n1024_v7x_i32_bf16_1_alg».proof.Proof.Gen.KernelIdeal.Skeleton
import proofs.«901052_g7700000000001053_dist_softmax_colshard_i_m1024_n1024_v7x_i32_bf16_1_alg».proof.Proof.Spec
import Idealize.ShloMosaic.Lib.ValueIdx
import Idealize.ShloMosaic.Lib.ValueLayout
import Idealize.ShloMosaic.PureOps.Ideal.Laws

noncomputable section

namespace Cert.KernelIdeal.Arith

open Idealize.ShloMosaic Idealize.ShloMosaic.ValueIdx Cert.KernelIdeal Cert.KernelIdeal.Gen Cert.Spec

section Layout
variable {α : Type}

theorem shapeCast_a_a1_apply {a : ℕ} (x : (⟨1, ![a]⟩ : Shape).Idx → α) (h : (⟨1, ![a]⟩ : Shape).ShapeCasts ⟨2, ![a, 1]⟩)
    (i : Fin a) : shapeCast ⟨2, ![a, 1]⟩ x h (ix2 i (0 : Fin 1)) = x (ix1 i) :=
  shapeCast_apply x h _ _ (by
    rw [Shape.rowMajor_val_two, Shape.rowMajor_val_one]
    show i.val = i.val * 1 + 0
    rw [Nat.mul_one, Nat.add_zero])

theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

theorem shapeCast_a_111a_apply {a : ℕ} (x : (⟨1, ![a]⟩ : Shape).Idx → α)
    (h : (⟨1, ![a]⟩ : Shape).ShapeCasts ⟨4, ![1, 1, 1, a]⟩) (i : Fin a) :
    shapeCast ⟨4, ![1, 1, 1, a]⟩ x h (ix4 (0 : Fin 1) (0 : Fin 1) (0 : Fin 1) i) = x (ix1 i) :=
  shapeCast_apply x h _ _ (by
    rw [Shape.rowMajor_val_four, Shape.rowMajor_val_one]
    show i.val = ((0 * 1 + 0) * 1 + 0) * a + i.val
    simp)

theorem shapeCast_111a_a_apply {a : ℕ} (x : (⟨4, ![1, 1, 1, a]⟩ : Shape).Idx → α)
    (h : (⟨4, ![1, 1, 1, a]⟩ : Shape).ShapeCasts ⟨1, ![a]⟩) (i : Fin a) :
    shapeCast ⟨1, ![a]⟩ x h (ix1 i) = x (ix4 (0 : Fin 1) (0 : Fin 1) (0 : Fin 1) i) :=
  shapeCast_apply x h _ _ (by
    rw [Shape.rowMajor_val_four, Shape.rowMajor_val_one]
    show ((0 * 1 + 0) * 1 + 0) * a + i.val = i.val
    simp)

theorem shapeCast_n11a_na_apply {n a : ℕ} (x : (⟨4, ![n, 1, 1, a]⟩ : Shape).Idx → α)
    (h : (⟨4, ![n, 1, 1, a]⟩ : Shape).ShapeCasts ⟨2, ![n, a]⟩) (d : Fin n) (i : Fin a) :
    shapeCast ⟨2, ![n, a]⟩ x h (ix2 d i) = x (ix4 d (0 : Fin 1) (0 : Fin 1) i) :=
  shapeCast_apply x h _ _ (by
    rw [Shape.rowMajor_val_four, Shape.rowMajor_val_two]
    show ((d.val * 1 + 0) * 1 + 0) * a + i.val = d.val * a + i.val
    simp)

end Layout

section Reductions
variable {φ : FTy}

theorem ofBits_bf16_neg_inf : Ideal.ofBits .bf16 0xFF80#16 = ⊥ := by simp [Ideal.ofBits, Ideal.ieee]

theorem ofBits_f32_neg_inf : Ideal.ofBits .f32 0xFF800000#32 = ⊥ := by simp [Ideal.ofBits, Ideal.ieee]

theorem idx2_ext {a b : ℕ} {f g : (⟨2, ![a, b]⟩ : Shape).Idx} (h0 : f 0 = g 0) (h1 : f 1 = g 1) : f = g :=
  funext fun c => match c with | ⟨0, _⟩ => h0 | ⟨1, _⟩ => h1

/-- A maximum over the columns of a matrix, from minus infinity, is at a row the fold of max over that row. -/
theorem max_axis1_apply {a b : ℕ} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (hbot : Ideal.ofBits φ acc = ⊥) (i : Fin a) :
    multiReduction .maximumf [1] ⟨1, ![a]⟩ src acc h hφ hacc (ix1 i) = fmax (fun k : Fin b => src (ix2 i k)) := by
  refine (Ideal.multiReduction_maximumf_single src acc h hφ hacc (ix1 i)).trans ?_
  rw [Ideal.ofBits_def, hbot]
  exact congrArg (Finset.fold max ⊥ · Finset.univ) (funext fun k => congrArg src (idx2_ext rfl rfl))

theorem max_axis0_apply {a b : ℕ} (src : FVec Ideal ⟨2, ![a, b]⟩ φ) (acc : BitVec φ.bits)
    (h : Shape.Reduces ⟨2, ![a, b]⟩ [0] ⟨1, ![b]⟩) (hφ : FKind.Formats φ) (hacc : acc = FKind.maximumf.neutral φ hφ)
    (hbot : Ideal.ofBits φ acc = ⊥) (i : Fin b) :
    multiReduction .maximumf [0] ⟨1, ![b]⟩ src acc h hφ hacc (ix1 i) = fmax (fun d : Fin a => src (ix2 d i)) := by
  refine (Ideal.multiReduction_maximumf_single src acc h hφ hacc (ix1 i)).trans ?_
  rw [Ideal.ofBits_def, hbot]
  exact congrArg (Finset.fold max ⊥ · Finset.univ) (funext fun k => congrArg src (idx2_ext rfl rfl))

theorem sum_axis1_apply {a b : ℕ} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans (Finset.sum_congr rfl fun k _ => congrArg src (idx2_ext rfl rfl))

theorem sum_axis0_apply {a b : ℕ} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (i : Fin b) :
    multiReduction .add [0] ⟨1, ![b]⟩ src acc h hφ hacc (ix1 i) = ∑ d : Fin a, src (ix2 d i) :=
  (Ideal.multiReduction_add_single src acc h hφ hacc (ix1 i)).trans (Finset.sum_congr rfl fun k _ => congrArg src (idx2_ext rfl rfl))

end Reductions

theorem exp_apply {s : Shape} {φ : FTy} (a : FVec Ideal s φ) (i : s.Idx) : exp a i = Ideal.exp (a i) := rfl

theorem pay1_eq (X : Vec Ideal S512x1024 .f32) : k0_pay1 (F := Ideal) X = X := by
  funext j
  show shapeCast S512x1024 X shapeCasts_S512x1024_S512x1024 j = X j
  rw [shapeCast_self]

theorem pay2_at (X : Vec Ideal S512x1024 .f32) (r : Fin 512) :
    k0_pay2 (F := Ideal) X (ix2 r 0) = fmax (fun k : Fin 1024 => X (ix2 r k)) := by
  unfold k0_pay2
  refine (shapeCast_a_a1_apply _ _ r).trans ?_
  refine (max_axis1_apply _ _ _ _ _ ofBits_bf16_neg_inf r).trans ?_
  rw [pay1_eq]

theorem max_row (X : Vec Ideal S512x1024 .f32) (r : Fin 512) :
    k0_pay4 (F := Ideal) X (ix4 0 0 0 r) = fmax (fun k : Fin 1024 => X (ix2 r k)) := by
  unfold k0_pay4
  refine (shapeCast_a_111a_apply _ _ r).trans ?_
  refine (extf_apply (φ := .bf16) (ψ := .f32) _ bitsLt_bf16_f32 _).trans ?_
  refine (shapeCast_a1_a_apply _ _ r).trans ?_
  exact pay2_at X r

theorem p_at (X : Vec Ideal S512x1024 .f32) (r : Fin 512) (k : Fin 1024) :
    k0_pay3 (F := Ideal) X (ix2 r k) = Ideal.exp (X (ix2 r k) - fmax (fun k : Fin 1024 => X (ix2 r k))) := by
  unfold k0_pay3
  refine (exp_apply _ _).trans (congrArg Ideal.exp ?_)
  refine (subf_apply _ _ _).trans ?_
  refine congrArg₂ (· - ·) (congrFun (pay1_eq X) _) ?_
  exact (broadcastTo_a1_ab_apply _ _ r k).trans (pay2_at X r)

theorem sum_row (X : Vec Ideal S512x1024 .f32) (r : Fin 512) :
    k0_pay5 (F := Ideal) X (ix4 0 0 0 r)
      = ∑ k : Fin 1024, Ideal.exp (X (ix2 r k) - fmax (fun k : Fin 1024 => X (ix2 r k))) := by
  unfold k0_pay5
  refine (shapeCast_a_111a_apply _ _ r).trans ?_
  refine (shapeCast_a1_a_apply _ _ r).trans ?_
  refine (shapeCast_a_a1_apply _ _ r).trans ?_
  refine (sum_axis1_apply _ _ _ _ _ r).trans ?_
  exact Finset.sum_congr rfl fun k _ => (extf_apply (φ := .bf16) (ψ := .f32) _ bitsLt_bf16_f32 _).trans (p_at X r k)

/-- The maximum over the blocks of an `[n, 1, 1, a]` array read as a matrix. -/
theorem col_max {n a : ℕ} (M : FVec Ideal ⟨4, ![n, 1, 1, a]⟩ .f32) (hM : (⟨4, ![n, 1, 1, a]⟩ : Shape).ShapeCasts ⟨2, ![n, a]⟩)
    (h : Shape.Reduces ⟨2, ![n, a]⟩ [0] ⟨1, ![a]⟩) (hφ : FKind.Formats .f32) (hacc : 0xFF800000#32 = FKind.maximumf.neutral .f32 hφ) (r : Fin a) :
    multiReduction .maximumf [0] ⟨1, ![a]⟩ (shapeCast ⟨2, ![n, a]⟩ M hM) 0xFF800000#32 h hφ hacc (ix1 r) = fmax (fun d : Fin n => M (ix4 d 0 0 r)) :=
  (max_axis0_apply _ _ _ _ _ ofBits_f32_neg_inf r).trans (congrArg fmax (funext fun d => shapeCast_n11a_na_apply M _ d r))

/-- Partial sums, each rescaled from its own maximum to a common one, added up. -/
theorem rescaled_sum {n a : ℕ} (M S : FVec Ideal ⟨2, ![n, a]⟩ .f32) (mx : FVec Ideal ⟨1, ![a]⟩ .f32)
    (hc : (⟨1, ![a]⟩ : Shape).ShapeCasts ⟨2, ![1, a]⟩) (hb : (⟨2, ![1, a]⟩ : Shape).Broadcasts ⟨2, ![n, a]⟩) (acc : BitVec FTy.f32.bits)
    (h : Shape.Reduces ⟨2, ![n, a]⟩ [0] ⟨1, ![a]⟩) (hφ : FKind.Formats .f32) (hacc : acc = FKind.add.neutral .f32 hφ) (r : Fin a) :
    multiReduction .add [0] ⟨1, ![a]⟩ (mulf S (exp (subf M (broadcastTo ⟨2, ![n, a]⟩ (shapeCast ⟨2, ![1, a]⟩ mx hc) hb)))) acc h hφ hacc (ix1 r)
      = ∑ d : Fin n, S (ix2 d r) * Ideal.exp (M (ix2 d r) - mx (ix1 r)) := by
  refine (sum_axis0_apply _ _ _ _ _ r).trans (Finset.sum_congr rfl fun d _ => ?_)
  refine (mulf_apply _ _ _).trans (congrArg (S (ix2 d r) * ·) ?_)
  refine (exp_apply _ _).trans (congrArg Ideal.exp ?_)
  refine (subf_apply _ _ _).trans (congrArg (M (ix2 d r) - ·) ?_)
  exact (broadcastTo_1b_ab_apply _ _ d r).trans (shapeCast_a_1a_apply _ _ 0 r)

theorem plane_max (PM : Vec Ideal S8x1x1x512 .f32) (r : Fin 512) :
    k0_pay13 (F := Ideal) (k0_pay11 PM) (ix4 0 0 0 r) = fmax (fun d : Fin 8 => PM (ix4 d 0 0 r)) := by
  unfold k0_pay13 k0_pay12 k0_pay11
  exact (shapeCast_a_111a_apply _ _ r).trans (col_max PM _ _ _ _ r)

/-- A plane's stored sums: the eight devices' sums, each rescaled to the plane's maximum. -/
theorem plane_sum (PM PS : Vec Ideal S8x1x1x512 .f32) (r : Fin 512) :
    k0_pay14 (F := Ideal) (k0_pay11 PM) PS (ix4 0 0 0 r)
      = ∑ d : Fin 8, PS (ix4 d 0 0 r) * Ideal.exp (PM (ix4 d 0 0 r) - fmax (fun d : Fin 8 => PM (ix4 d 0 0 r))) := by
  unfold k0_pay14 k0_pay12 k0_pay11
  refine ((shapeCast_a_111a_apply _ _ r).trans (rescaled_sum _ _ _ _ _ _ _ _ _ r)).trans (Finset.sum_congr rfl fun d _ => ?_)
  exact congrArg₂ (· * ·) (shapeCast_n11a_na_apply PS _ d r)
    (congrArg Ideal.exp (congrArg₂ (· - ·) (shapeCast_n11a_na_apply PM _ d r) (col_max PM _ _ _ _ r)))

/-- A half's output: each exponential times exp (own maximum − row maximum) over the row's sum. -/
theorem out_first (p : FVec Ideal S512x1024 .bf16) (ZM ZS : Vec Ideal S4x1x1x512 .f32) (m0 : Vec Ideal S1x1x1x512 .f32)
    (r : Fin 512) (k : Fin 1024) :
    k0_pay22 (F := Ideal) p (k0_pay20 ZM) (k0_pay21 ZS) m0 (ix2 r k)
      = p (ix2 r k) * Ideal.div (Ideal.exp (m0 (ix4 0 0 0 r) - fmax (fun q : Fin 4 => ZM (ix4 q 0 0 r))))
          (∑ q : Fin 4, ZS (ix4 q 0 0 r) * Ideal.exp (ZM (ix4 q 0 0 r) - fmax (fun q : Fin 4 => ZM (ix4 q 0 0 r)))) := by
  unfold k0_pay22 k0_pay20 k0_pay21
  refine (mulf_apply _ _ _).trans (congrArg (p (ix2 r k) * ·) ?_)
  refine (broadcastTo_a1_ab_apply _ _ r k).trans ((shapeCast_a_a1_apply _ _ r).trans ?_)
  refine (truncf_apply (φ := .f32) (ψ := .bf16) _ bitsLt_bf16_f32 _).trans ((divf_apply _ _ _).trans (congrArg₂ Ideal.div ?_ ?_))
  · refine (exp_apply _ _).trans (congrArg Ideal.exp ((subf_apply _ _ _).trans ?_))
    exact congrArg₂ (· - ·) (shapeCast_111a_a_apply m0 _ r) (col_max ZM _ _ _ _ r)
  · refine (rescaled_sum _ _ _ _ _ _ _ _ _ r).trans (Finset.sum_congr rfl fun q _ => ?_)
    exact congrArg₂ (· * ·) (shapeCast_n11a_na_apply ZS _ q r)
      (congrArg Ideal.exp (congrArg₂ (· - ·) (shapeCast_n11a_na_apply ZM _ q r) (col_max ZM _ _ _ _ r)))

end Cert.KernelIdeal.Arith

end
-- ==== Proof.RefSide.lean ====
import proofs.«901052_g7700000000001053_dist_softmax_colshard_i_m1024_n1024_v7x_i32_bf16_1_alg».proof.Defs
import proofs.«901052_g7700000000001053_dist_softmax_colshard_i_m1024_n1024_v7x_i32_bf16_1_alg».proof.Proof.Gen.ReferenceIdeal
import proofs.«901052_g7700000000001053_dist_softmax_colshard_i_m1024_n1024_v7x_i32_bf16_1_alg».proof.Proof.Gen.ReferenceIdeal.Run
import proofs.«901052_g7700000000001053_dist_softmax_colshard_i_m1024_n1024_v7x_i32_bf16_1_alg».proof.Proof.Gen.ReferenceIdeal.Read
import proofs.«901052_g7700000000001053_dist_softmax_colshard_i_m1024_n1024_v7x_i32_bf16_1_alg».proof.Proof.Gen.Pre_finite_inputs_Kernel
import proofs.«901052_g7700000000001053_dist_softmax_colshard_i_m1024_n1024_v7x_i32_bf16_1_alg».proof.Proof.Gen.Pre_finite_inputs_ReferenceIdeal
import proofs.«901052_g7700000000001053_dist_softmax_colshard_i_m1024_n1024_v7x_i32_bf16_1_alg».proof.Proof.Spec
import Idealize.ShloMosaic.Lib.ReduceAll
import Idealize.ShloMosaic.Lib.ValueIdx
import Idealize.ShloMosaic.Lib.Layout
import Idealize.ShloMosaic.PureOps.Ideal.Laws

noncomputable section

namespace Cert.RefSide

open Idealize.ShloMosaic Idealize.SL.Sem Idealize.ShloMosaic.ValueIdx

theorem frame_ri : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

/-- The whole-array softmax: at (row, column) the softmax of that row at that column. -/
def G (X : Cert.ReferenceIdeal.S1024x32768.Idx → EReal) : Cert.ReferenceIdeal.S1024x32768.Idx → EReal :=
  fun i => Cert.Spec.softmaxAt (fun k : Fin 32768 => X (ix2 (i 0) k)) (i 1)

theorem G_apply (X : Cert.ReferenceIdeal.S1024x32768.Idx → EReal) (r : Fin 1024) (q : Fin 32768) :
    G X (ix2 r q) = Cert.Spec.softmaxAt (fun k : Fin 32768 => X (ix2 r k)) q := rfl

section Stages

open Cert.ReferenceIdeal Cert.ReferenceIdeal.Gen Cert.ReferenceIdeal.Read

theorem ofBits_neg_inf : Ideal.ofBits .f32 0xFF800000#32 = (⊥ : EReal) := by
  simp [Ideal.ofBits, Ideal.ieee]

theorem reduces_d1 : S1024x32768.Reduces [1] S1024 := by decide

theorem lift_row (r : Fin 1024) (k : Fin (S1024x32768.size 1)) :
    reduces_d1.lift (ix1 r) k = ix2 r (⟨k.val, k.isLt⟩ : Fin 32768) := by
  funext c; apply Fin.ext
  match c with
  | ⟨0, _⟩ => rfl
  | ⟨1, _⟩ => rfl

theorem rowmax_at (X : Cert.ReferenceIdeal.S1024x32768.Idx → EReal) (r : Fin 1024) :
    val_main_v0 (F := Ideal) X (ix1 r) = Cert.Spec.fmax (fun k : Fin 32768 => X (ix2 r k)) := by
  unfold val_main_v0
  rw [Host.reduce_eq_fold_single (FloatOps.maximumf (F := Ideal) (φ := .f32)) X _ reducesTo_S1024x32768_S1024_d1 reduces_d1 h_S_]
  have hf : (X ∘ reduces_d1.lift (ix1 r)) = fun k : Fin 32768 => X (ix2 r k) :=
    funext fun k => congrArg X (lift_row r k)
  have h0 : val_main_cst (F := Ideal) (Shape.Idx.first h_S_) = (⊥ : EReal) := by
    rw [val_main_cst_apply]; exact ofBits_neg_inf
  rw [h0]
  unfold Cert.Spec.fmax
  exact congrArg (fun f => Finset.fold max (⊥ : EReal) f (Finset.univ : Finset (Fin 32768))) hf

theorem idx_v1_v2 (r : Fin 1024) (k : Fin 32768) : idx_main_v1 (idx_main_v2 (ix2 r k)) = ix1 r := by
  funext a; apply Fin.ext
  match a with
  | ⟨0, _⟩ => rfl

theorem idx_v6_v7 (r : Fin 1024) (k : Fin 32768) : idx_main_v6 (idx_main_v7 (ix2 r k)) = ix1 r := by
  funext a; apply Fin.ext
  match a with
  | ⟨0, _⟩ => rfl

theorem idx_v5 (r : Fin 1024) (k : Fin 32768) : idx_main_v5 (ix1 r) k = ix2 r k := by
  funext a; apply Fin.ext
  match a with
  | ⟨0, _⟩ => rfl
  | ⟨1, _⟩ => rfl

theorem exp_at (X : Cert.ReferenceIdeal.S1024x32768.Idx → EReal) (r : Fin 1024) (k : Fin 32768) :
    val_main_v4 (F := Ideal) X (ix2 r k)
      = Ideal.exp (X (ix2 r k) - Cert.Spec.fmax (fun k' : Fin 32768 => X (ix2 r k'))) := by
  rw [val_main_v4_apply, val_main_v3_apply, val_main_v2_apply, val_main_v1_apply, idx_v1_v2, rowmax_at]
  rfl

theorem rowsum_at (X : Cert.ReferenceIdeal.S1024x32768.Idx → EReal) (r : Fin 1024) :
    val_main_v5 (F := Ideal) X (ix1 r)
      = 0 + ∑ k : Fin 32768, Ideal.exp (X (ix2 r k) - Cert.Spec.fmax (fun k' : Fin 32768 => X (ix2 r k'))) := by
  rw [val_main_v5_apply, val_main_cst_0_apply]
  have h0 : FloatOps.ofBits (F := Ideal) .f32 0x00000000#32 = (0 : EReal) := Ideal.ofBits_zero_f32
  rw [h0]
  refine congrArg (0 + ·) (Finset.sum_congr rfl fun k _ => ?_)
  rw [idx_v5, exp_at]

theorem ref_eq_G (X : Cert.ReferenceIdeal.S1024x32768.Idx → EReal) : val_main_v9 (F := Ideal) X = G X := by
  funext i
  obtain ⟨r, q, rfl⟩ : ∃ (r : Fin 1024) (q : Fin 32768), i = ix2 r q := ⟨i 0, i 1, eq_ix2 i⟩
  rw [G_apply, val_main_v9_apply, val_main_v8_apply, val_main_v7_apply, val_main_v6_apply, idx_v6_v7, rowsum_at, exp_at]
  rfl

end Stages

/-- The reference ends with its result at the whole-array softmax of its argument, the argument unchanged. -/
theorem run_G (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r =>
        r.2.mem (((0 : Dev Cert.ReferenceIdeal.nD).tc : Thread Cert.ReferenceIdeal.nD Cert.ReferenceIdeal.τ).loc Cert.ReferenceIdeal.main_v9)
          = G (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨((h 0).1.trans (Cert.ReferenceIdeal.Read.val_main_v9_eq _)).trans (ref_eq_G _), (h 0).2⟩)
    (Cert.ReferenceIdeal.Value.run (F := Ideal) m' g')

theorem ofBits_pos_inf : Ideal.ofBits .f32 0x7F800000#32 = (⊤ : EReal) := by
  simp [Ideal.ofBits, Ideal.ieee]

theorem real_of_abs_lt_inf (x : EReal)
    (e : Ideal.cmp .olt (max x (-x)) (Ideal.ofBits .f32 0x7F800000#32) = 1#1) : ∃ r : ℝ, x = (r : EReal) := by
  rw [ofBits_pos_inf] at e
  induction x using EReal.rec with
  | bot => exact absurd e (by simp [Ideal.cmp])
  | top => exact absurd e (by simp [Ideal.cmp])
  | coe r => exact ⟨r, rfl⟩

local instance : Subsingleton Cert.Pre_finite_inputs_Kernel.S_.Idx := ⟨fun a b => funext fun d => d.elim0⟩

/-- Under the precondition every entry of a device's block is a real. -/
theorem block_real (m : (ℓ : Loc Cert.KernelIdeal.nD Cert.KernelIdeal.τ Cert.KernelIdeal.sig) → Buf (Elt Ideal) ℓ)
    (h : Cert.Pre_KernelIdeal (hPre_finite_inputs_Kernel := Cert.Pre_finite_inputs_Kernel.Gen.facts) m)
    (c : Dev Cert.KernelIdeal.nD) (i : Cert.Pre_finite_inputs_Kernel.S1024x1024.Idx) :
    ∃ r : ℝ, m ((c.tc : Thread Cert.KernelIdeal.nD Cert.KernelIdeal.τ).loc Cert.KernelIdeal.main_arg0) i = (r : EReal) := by
  have hc := congrFun (h c) ix0
  dsimp only [Cert.Pre_finite_inputs_Kernel.fn] at hc
  have e := Host.reduce_andi_all _ _ _ _ _ hc i
  exact real_of_abs_lt_inf _ e

theorem block_apply (X : Cert.ReferenceIdeal.S1024x32768.Idx → EReal) (c : Dev 32) (r : Fin 1024) (k : Fin 1024) :
    (Layout.block ⟨2, ![1024, 1024]⟩ ⟨2, ![1024, 32768]⟩ 1 32 c X) (ix2 r k)
      = X (ix2 r (⟨1024 * c.val + k.val, by have := c.isLt; have := k.isLt; omega⟩ : Fin 32768)) := by
  refine congrArg X (funext fun a => Fin.ext ?_)
  match a with
  | ⟨0, _⟩ => rfl
  | ⟨1, _⟩ => show c.val * 1024 + k.val = 1024 * c.val + k.val; omega

end Cert.RefSide

end
-- ==== Proof.Bridge.lean ====
import proofs.«901052_g7700000000001053_dist_softmax_colshard_i_m1024_n1024_v7x_i32_bf16_1_alg».proof.Proof.Inv
import proofs.«901052_g7700000000001053_dist_softmax_colshard_i_m1024_n1024_v7x_i32_bf16_1_alg».proof.Proof.Arith
import proofs.«901052_g7700000000001053_dist_softmax_colshard_i_m1024_n1024_v7x_i32_bf16_1_alg».proof.Proof.RefSide

noncomputable section

namespace Cert.Bridge

open Idealize.ShloMosaic Idealize.SL.Sem Cert.KernelIdeal Cert.KernelIdeal.Gen Cert.KernelIdeal.Topo Cert.KernelIdeal.Proto

open Idealize.ShloMosaic.ValueIdx Cert.Spec Cert.KernelIdeal.Arith

/-- The device whose pair reaches device c through column slot x.1 and plane slot x.2. -/
def devOf (c : Dev nD) (x : Fin 4 × Fin 8) : Dev nD := pp (-x.2) (zp (-x.1) c)

def slotOf (c t : Dev nD) : Fin 4 × Fin 8 :=
  (⟨(c.val / 8 + 4 - t.val / 8) % 4, Nat.mod_lt _ (by decide)⟩, ⟨(c.val % 8 + 8 - t.val % 8) % 8, Nat.mod_lt _ (by decide)⟩)

theorem slotOf_devOf (c : Dev nD) (x : Fin 4 × Fin 8) : slotOf c (devOf c x) = x := by
  revert c x; decide +kernel

theorem devOf_slotOf (c t : Dev nD) : devOf c (slotOf c t) = t := by
  revert c t; decide +kernel

theorem devOf_zero (c : Dev nD) : devOf c (0, 0) = c := by
  revert c; decide +kernel

/-- Column `k` of the device at slots `(q, d)` is column `1024 * device + k` of the whole row. -/
def colE (c : Dev nD) : Fin 4 × Fin 8 × Fin 1024 ≃ Fin 32768 :=
  (Equiv.prodAssoc _ _ _).symm.trans ((Equiv.prodCongr ⟨devOf c, slotOf c, slotOf_devOf c, devOf_slotOf c⟩ (Equiv.refl _)).trans finProdFinEquiv)

theorem colE_val (c : Dev nD) (q : Fin 4) (d : Fin 8) (k : Fin 1024) :
    (colE c (q, d, k)).val = 1024 * (devOf c (q, d)).val + k.val := Nat.add_comm _ _

def rowOf (ch : Fin 2) (r : Fin 512) : Fin 1024 := ⟨![0, 512] ch + 1 * r.val, by have := r.isLt; fin_cases ch <;> simp <;> omega⟩

section Slots
variable (m : (ℓ : Loc Cert.KernelIdeal.nD Cert.KernelIdeal.τ Cert.KernelIdeal.sig) → Buf (Elt Ideal) ℓ)

theorem xblk_at (c : Dev nD) (R : Fin 1024) (k : Fin 1024) :
    xblk (F := Ideal) m c (ix2 R k) = m ((c.tc : Thread nD τ).loc main_arg0) (ix2 R k) := by
  unfold xblk
  rw [View.read_apply, cast_eq]
  refine congrArg (m _) (funext fun a => Fin.ext ?_)
  match a with
  | ⟨0, _⟩ | ⟨1, _⟩ => exact (Nat.zero_add _).trans (Nat.one_mul _)

theorem xhalf_at (c : Dev nD) (ch : Fin 2) (r : Fin 512) (k : Fin 1024) :
    xhalf (F := Ideal) m c ch (ix2 r k) = m ((c.tc : Thread nD τ).loc main_arg0) (ix2 (rowOf ch r) k) := by
  match ch with
  | 0 | 1 =>
    show xblk (F := Ideal) m c _ = _
    refine (congrArg (xblk (F := Ideal) m c) (?_ : _ = ix2 (rowOf _ r) k)).trans (xblk_at m c _ k)
    exact funext fun a => match a with | ⟨0, _⟩ => rfl | ⟨1, _⟩ => Fin.ext ((Nat.zero_add _).trans (Nat.one_mul _))

theorem mrow_at (c : Dev nD) (ch : Fin 2) (r : Fin 512) :
    mrow (F := Ideal) m c ch (ix4 0 0 0 r) = fmax (fun k : Fin 1024 => xhalf (F := Ideal) m c ch (ix2 r k)) := by
  match ch with
  | 0 | 1 => exact max_row _ r

theorem srow_at (c : Dev nD) (ch : Fin 2) (r : Fin 512) :
    srow (F := Ideal) m c ch (ix4 0 0 0 r)
      = ∑ k : Fin 1024, Ideal.exp (xhalf (F := Ideal) m c ch (ix2 r k) - fmax (fun k : Fin 1024 => xhalf (F := Ideal) m c ch (ix2 r k))) := by
  match ch with
  | 0 | 1 => exact sum_row _ r

theorem PMvec_at (c : Dev nD) (ch : Fin 2) (d : Fin 8) (r : Fin 512) :
    PMvec (F := Ideal) m c ch (ix4 d 0 0 r) = mrow (F := Ideal) m (pp (-d) c) ch (ix4 0 0 0 r) := rfl
theorem PSvec_at (c : Dev nD) (ch : Fin 2) (d : Fin 8) (r : Fin 512) :
    PSvec (F := Ideal) m c ch (ix4 d 0 0 r) = srow (F := Ideal) m (pp (-d) c) ch (ix4 0 0 0 r) := rfl

theorem mprow_at (c : Dev nD) (ch : Fin 2) (r : Fin 512) :
    mprow (F := Ideal) m c ch (ix4 0 0 0 r) = fmax (fun d : Fin 8 => mrow (F := Ideal) m (pp (-d) c) ch (ix4 0 0 0 r)) := by
  match ch with
  | 0 | 1 => exact plane_max (PMvec (F := Ideal) m c _) r

theorem sprow_at (c : Dev nD) (ch : Fin 2) (r : Fin 512) :
    sprow (F := Ideal) m c ch (ix4 0 0 0 r)
      = ∑ d : Fin 8, srow (F := Ideal) m (pp (-d) c) ch (ix4 0 0 0 r)
          * Ideal.exp (mrow (F := Ideal) m (pp (-d) c) ch (ix4 0 0 0 r)
              - fmax (fun d : Fin 8 => mrow (F := Ideal) m (pp (-d) c) ch (ix4 0 0 0 r))) := by
  match ch with
  | 0 | 1 => exact plane_sum (PMvec (F := Ideal) m c _) (PSvec (F := Ideal) m c _) r

theorem ZMvec_at (c : Dev nD) (ch : Fin 2) (q : Fin 4) (r : Fin 512) :
    ZMvec (F := Ideal) m c ch (ix4 q 0 0 r) = mprow (F := Ideal) m (zp (-q) c) ch (ix4 0 0 0 r) := rfl
theorem ZSvec_at (c : Dev nD) (ch : Fin 2) (q : Fin 4) (r : Fin 512) :
    ZSvec (F := Ideal) m c ch (ix4 q 0 0 r) = sprow (F := Ideal) m (zp (-q) c) ch (ix4 0 0 0 r) := rfl

theorem outHalf_raw (c : Dev nD) (ch : Fin 2) (r : Fin 512) (k : Fin 1024) :
    outHalf (F := Ideal) m c ch (ix2 r k)
      = Ideal.exp (xhalf (F := Ideal) m c ch (ix2 r k) - mrow (F := Ideal) m c ch (ix4 0 0 0 r))
        * Ideal.div (Ideal.exp (mrow (F := Ideal) m c ch (ix4 0 0 0 r)
              - fmax (fun q : Fin 4 => ZMvec (F := Ideal) m c ch (ix4 q 0 0 r))))
            (∑ q : Fin 4, ZSvec (F := Ideal) m c ch (ix4 q 0 0 r)
              * Ideal.exp (ZMvec (F := Ideal) m c ch (ix4 q 0 0 r) - fmax (fun q : Fin 4 => ZMvec (F := Ideal) m c ch (ix4 q 0 0 r)))) := by
  match ch with
  | 0 | 1 =>
    refine (out_first _ (ZMvec (F := Ideal) m c _) (ZSvec (F := Ideal) m c _) (mrow (F := Ideal) m c _) r k).trans (congrArg₂ (· * ·) ?_ rfl)
    exact (p_at _ r k).trans (congrArg Ideal.exp (congrArg₂ (· - ·) rfl (mrow_at m c _ r).symm))

def rowsOf (c : Dev nD) (ch : Fin 2) (r : Fin 512) : Fin 4 → Fin 8 → Fin 1024 → EReal :=
  fun q d k' => xhalf (F := Ideal) m (devOf c (q, d)) ch (ix2 r k')

/-- What a device writes is the two-level formula over (column slot, plane slot, column) at the slots 0 and 0. -/
theorem outHalf_at (c : Dev nD) (ch : Fin 2) (r : Fin 512) (k : Fin 1024) :
    outHalf (F := Ideal) m c ch (ix2 r k) = devOut (rowsOf m c ch r) 0 0 k := by
  have hM : ∀ q d, mrow (F := Ideal) m (devOf c (q, d)) ch (ix4 0 0 0 r) = devMax (rowsOf m c ch r) q d :=
    fun q d => mrow_at m _ ch r
  have hS : ∀ q d, srow (F := Ideal) m (devOf c (q, d)) ch (ix4 0 0 0 r) = devSum (rowsOf m c ch r) q d :=
    fun q d => srow_at m _ ch r
  have hPM : ∀ q, mprow (F := Ideal) m (zp (-q) c) ch (ix4 0 0 0 r) = planeMax (rowsOf m c ch r) q := fun q =>
    (mprow_at m _ ch r).trans (congrArg fmax (funext fun d => hM q d))
  have hPS : ∀ q, sprow (F := Ideal) m (zp (-q) c) ch (ix4 0 0 0 r) = planeSum (rowsOf m c ch r) q := by
    intro q
    refine (sprow_at m _ ch r).trans ?_
    unfold planeSum
    refine Finset.sum_congr rfl fun d _ => ?_
    refine congrArg₂ (· * ·) (hS q d) (congrArg Ideal.exp (congrArg₂ (· - ·) (hM q d) ?_))
    exact congrArg fmax (funext fun d => hM q d)
  have hRM : fmax (fun q : Fin 4 => ZMvec (F := Ideal) m c ch (ix4 q 0 0 r)) = rowMax (rowsOf m c ch r) :=
    congrArg fmax (funext fun q => hPM q)
  have hRS : (∑ q : Fin 4, ZSvec (F := Ideal) m c ch (ix4 q 0 0 r)
        * Ideal.exp (ZMvec (F := Ideal) m c ch (ix4 q 0 0 r) - fmax (fun q : Fin 4 => ZMvec (F := Ideal) m c ch (ix4 q 0 0 r))))
      = rowSum (rowsOf m c ch r) := by
    unfold rowSum
    refine Finset.sum_congr rfl fun q _ => ?_
    exact congrArg₂ (· * ·) (hPS q) (congrArg Ideal.exp (congrArg₂ (· - ·) (hPM q) hRM))
  rw [outHalf_raw, hRS, hRM]
  unfold devOut
  rw [← hM 0 0]
  show _ = Ideal.exp (xhalf (F := Ideal) m (devOf c (0, 0)) ch (ix2 r k) - mrow (F := Ideal) m (devOf c (0, 0)) ch (ix4 0 0 0 r))
      * Ideal.div (Ideal.exp (mrow (F := Ideal) m (devOf c (0, 0)) ch (ix4 0 0 0 r) - rowMax (rowsOf m c ch r))) (rowSum (rowsOf m c ch r))
  rw [devOf_zero]

end Slots

theorem two_level_softmax (c : Dev nD) (v : Fin 32768 → EReal) (x' : Fin 4 → Fin 8 → Fin 1024 → EReal)
    (hreal : ∀ q d k, ∃ r : ℝ, x' q d k = (r : EReal)) (hx : ∀ q d k, x' q d k = v (colE c (q, d, k))) (k : Fin 1024) :
    devOut x' 0 0 k
      = softmaxAt v (⟨1024 * c.val + k.val, by have := c.isLt; have := k.isLt; have : nD = 32 := rfl; omega⟩ : Fin 32768) := by
  choose w hw using hreal
  have hx' : x' = fun q d k => ((w q d k : ℝ) : EReal) := funext fun q => funext fun d => funext fun k => hw q d k
  rw [hx', devOut_eq_softmax w 0 0 k]
  have hv : (fun p : Fin 4 × Fin 8 × Fin 1024 => ((w p.1 p.2.1 p.2.2 : ℝ) : EReal)) = fun p => v (colE c p) :=
    funext fun p => (hw p.1 p.2.1 p.2.2).symm.trans (hx p.1 p.2.1 p.2.2)
  rw [hv, softmaxAt_equiv (colE c) v (0, 0, k)]
  refine congrArg (softmaxAt v) (Fin.ext ?_)
  rw [colE_val, devOf_zero]

/-- From finite blocks of one whole array, a device's result block is its block of the whole array's row softmax. -/
theorem outAt_eq_block
    (m : (ℓ : Loc Cert.KernelIdeal.nD Cert.KernelIdeal.τ Cert.KernelIdeal.sig) → Buf (Elt Ideal) ℓ)
    (X : Buf (Elt Ideal) (((0 : Dev Cert.ReferenceIdeal.nD).tc : Thread Cert.ReferenceIdeal.nD Cert.ReferenceIdeal.τ).loc Cert.ReferenceIdeal.main_arg0))
    (hpre : Cert.Pre_KernelIdeal (hPre_finite_inputs_Kernel := Cert.Pre_finite_inputs_Kernel.Gen.facts) m)
    (hblk : ∀ c : Dev Cert.KernelIdeal.nD,
      m ((c.tc : Thread Cert.KernelIdeal.nD Cert.KernelIdeal.τ).loc Cert.KernelIdeal.main_arg0) = Layout.block ⟨2, ![1024, 1024]⟩ ⟨2, ![1024, 32768]⟩ 1 32 c X)
    (c : Dev Cert.KernelIdeal.nD) :
    (outAt (F := Ideal) m c : Buf (Elt Ideal) ((c.tc : Thread Cert.KernelIdeal.nD Cert.KernelIdeal.τ).loc Cert.KernelIdeal.main_v1))
      = Layout.block ⟨2, ![1024, 1024]⟩ ⟨2, ![1024, 32768]⟩ 1 32 c (Cert.RefSide.G X) := by
  refine funext fun (i : (⟨2, ![1024, 1024]⟩ : Shape).Idx) => ?_
  obtain ⟨R, k, rfl⟩ : ∃ (R : Fin 1024) (k : Fin 1024), i = ix2 R k := ⟨i 0, i 1, eq_ix2 i⟩
  obtain ⟨ch, r, rfl, e⟩ : ∃ (ch : Fin 2) (r : Fin 512), rowOf ch r = R ∧ outAt (F := Ideal) m c (ix2 R k) = outHalf (F := Ideal) m c ch (ix2 r k) := by
    have hR := R.isLt
    by_cases h : R.val < 512
    · exact ⟨0, ⟨R.val, h⟩, Fin.ext (by show 0 + 1 * R.val = R.val; omega), by unfold outAt; exact dif_pos h⟩
    · exact ⟨1, ⟨R.val - 512, by omega⟩, Fin.ext (by show 512 + 1 * (R.val - 512) = R.val; omega), by unfold outAt; exact dif_neg h⟩
  rw [e, outHalf_at, Cert.RefSide.block_apply, Cert.RefSide.G_apply]
  refine two_level_softmax c (fun j : Fin 32768 => (X : Cert.ReferenceIdeal.S1024x32768.Idx → EReal) (ix2 (rowOf ch r) j))
    (rowsOf m c ch r) ?_ ?_ k
  · intro q d k'
    show ∃ r' : ℝ, xhalf (F := Ideal) m (devOf c (q, d)) ch (ix2 r k') = (r' : EReal)
    rw [xhalf_at]
    exact Cert.RefSide.block_real m hpre _ _
  · intro q d k'
    show xhalf (F := Ideal) m (devOf c (q, d)) ch (ix2 r k') = _
    rw [xhalf_at, hblk, Cert.RefSide.block_apply]
    exact congrArg (fun j : Fin 32768 => (X : Cert.ReferenceIdeal.S1024x32768.Idx → EReal) (ix2 (rowOf ch r) j))
      (Fin.ext (colE_val c q d k').symm)

end Cert.Bridge

end
-- ==== Proof.lean ====
import proofs.«901052_g7700000000001053_dist_softmax_colshard_i_m1024_n1024_v7x_i32_bf16_1_alg».proof.Defs
import proofs.«901052_g7700000000001053_dist_softmax_colshard_i_m1024_n1024_v7x_i32_bf16_1_alg».proof.Proof.Gen.Kernel
import proofs.«901052_g7700000000001053_dist_softmax_colshard_i_m1024_n1024_v7x_i32_bf16_1_alg».proof.Proof.Gen.KernelIdeal
import proofs.«901052_g7700000000001053_dist_softmax_colshard_i_m1024_n1024_v7x_i32_bf16_1_alg».proof.Proof.Gen.ReferenceIdeal
import proofs.«901052_g7700000000001053_dist_softmax_colshard_i_m1024_n1024_v7x_i32_bf16_1_alg».proof.Proof.Gen.Pre_finite_inputs_Kernel
import proofs.«901052_g7700000000001053_dist_softmax_colshard_i_m1024_n1024_v7x_i32_bf16_1_alg».proof.Proof.Gen.Pre_finite_inputs_ReferenceIdeal
import proofs.«901052_g7700000000001053_dist_softmax_colshard_i_m1024_n1024_v7x_i32_bf16_1_alg».proof.Proof.Launch
import proofs.«901052_g7700000000001053_dist_softmax_colshard_i_m1024_n1024_v7x_i32_bf16_1_alg».proof.Proof.Bits.Launch
import proofs.«901052_g7700000000001053_dist_softmax_colshard_i_m1024_n1024_v7x_i32_bf16_1_alg».proof.Proof.Bridge
import proofs.«901052_g7700000000001053_dist_softmax_colshard_i_m1024_n1024_v7x_i32_bf16_1_alg».proof.Proof.RefSide
import Idealize.ShloMosaic.Adequacy
import Idealize.ShloMosaic.Init

noncomputable section

namespace Cert.Proof

open Idealize.ShloMosaic Idealize.SL.Sem

/-- Each frame is the program's run with the values dropped. -/
theorem frame_k : Cert.frame_Kernel := fun m g _ =>
  (θ_run (Cert.Kernel.defs (F := Bits)) _ _).mono (fun _ h c => (h c).2) (Cert.Kernel.Proto.run_values (F := Bits) m g)

theorem frame_ki : Cert.frame_KernelIdeal := fun m g _ =>
  (θ_run (Cert.KernelIdeal.defs (F := Ideal)) _ _).mono (fun _ h c => (h c).2) (Cert.KernelIdeal.Proto.run_values (F := Ideal) m g)

/-- Every device's named result block is its block of the row softmax, which is the reference's result. -/
theorem algebraic : Cert.algebraic_KernelIdeal_ReferenceIdeal := by
  intro m g m' g' hpre hblk
  refine ⟨Cert.RefSide.G (m' (((0 : Dev Cert.ReferenceIdeal.nD).tc : Thread Cert.ReferenceIdeal.nD Cert.ReferenceIdeal.τ).loc Cert.ReferenceIdeal.main_arg0)), ?_, Cert.RefSide.run_G m' g'⟩
  exact (θ_run (Cert.KernelIdeal.defs (F := Ideal)) _ _).mono
    (fun _ h c => ⟨(h c).1.trans (Cert.Bridge.outAt_eq_block m _ hpre hblk c), (h c).2⟩)
    (Cert.KernelIdeal.Proto.run_values (F := Ideal) m g)

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, Cert.RefSide.frame_ri, trivial, algebraic⟩

end Cert.Proof

end
